-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v646) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x16 : Shape := ⟨2, ![4096, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4096x4096 .f32) (main_arg1 : FVec F S4096x16 .f32) (main_arg2 : FVec F S4096x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4096x4096 : Shape := ⟨2, ![4096, 4096]⟩
abbrev S4096x16 : Shape := ⟨2, ![4096, 16]⟩
abbrev S4096x32 : Shape := ⟨2, ![4096, 32]⟩
abbrev S4096x256 : Shape := ⟨2, ![4096, 256]⟩
abbrev S256x32 : Shape := ⟨2, ![256, 32]⟩
abbrev S256 : Shape := ⟨1, ![256]⟩
abbrev S1x256 : Shape := ⟨2, ![1, 256]⟩
abbrev S4096x1 : Shape := ⟨2, ![4096, 1]⟩
abbrev S1 : Shape := ⟨1, ![1]⟩
abbrev S1x1 : Shape := ⟨2, ![1, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x16, .f32⟩
  | .hbm, ⟨3, _⟩ => ⟨S4096x32, .f32⟩
  | .hbm, ⟨4, _⟩ => ⟨S4096x16, .f32⟩
  | .local _ .vmem, ⟨0, _⟩ => ⟨S4096x256, .f32⟩
  | .local _ .vmem, ⟨1, _⟩ => ⟨S4096x256, .f32⟩
  | .local _ .vmem, ⟨2, _⟩ => ⟨S256x32, .f32⟩
  | .local _ .vmem, ⟨3, _⟩ => ⟨S256x32, .f32⟩
  | .local _ .vmem, ⟨4, _⟩ => ⟨S4096x16, .f32⟩
  | .local _ .vmem, ⟨5, _⟩ => ⟨S4096x32, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  concatenates_S4096x16_S4096x16_S4096x32_d1 : Shape.Concatenates [S4096x16, S4096x16] S4096x32 1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  broadcasts_S1x256_S4096x256 : S1x256.Broadcasts S4096x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  slices_S4096x32_o0_0_S4096x16 : S4096x32.Slices ![0, 0] S4096x16
  slices_S4096x32_o0_16_S4096x16 : S4096x32.Slices ![0, 16] S4096x16
  slices_S4096x16_o0_0_S4096x1 : S4096x16.Slices ![0, 0] S4096x1
  reduces_S4096x1_S1 : S4096x1.Reduces [0] S1
  shapeCasts_S1_S1x1 : S1.ShapeCasts S1x1
  broadcasts_S1x1_S4096x1 : S1x1.Broadcasts S4096x1
  slices_S4096x16_o0_1_S4096x1 : S4096x16.Slices ![0, 1] S4096x1
  slices_S4096x16_o0_2_S4096x1 : S4096x16.Slices ![0, 2] S4096x1
  slices_S4096x16_o0_3_S4096x1 : S4096x16.Slices ![0, 3] S4096x1
  slices_S4096x16_o0_4_S4096x1 : S4096x16.Slices ![0, 4] S4096x1
  slices_S4096x16_o0_5_S4096x1 : S4096x16.Slices ![0, 5] S4096x1
  slices_S4096x16_o0_6_S4096x1 : S4096x16.Slices ![0, 6] S4096x1
  slices_S4096x16_o0_7_S4096x1 : S4096x16.Slices ![0, 7] S4096x1
  slices_S4096x16_o0_8_S4096x1 : S4096x16.Slices ![0, 8] S4096x1
  slices_S4096x16_o0_9_S4096x1 : S4096x16.Slices ![0, 9] S4096x1
  slices_S4096x16_o0_10_S4096x1 : S4096x16.Slices ![0, 10] S4096x1
  slices_S4096x16_o0_11_S4096x1 : S4096x16.Slices ![0, 11] S4096x1
  slices_S4096x16_o0_12_S4096x1 : S4096x16.Slices ![0, 12] S4096x1
  slices_S4096x16_o0_13_S4096x1 : S4096x16.Slices ![0, 13] S4096x1
  slices_S4096x16_o0_14_S4096x1 : S4096x16.Slices ![0, 14] S4096x1
  inb_S4096x16_S4096x1_0_0 : ∀ a, (![0, 0] : Fin 2 → Nat) a + S4096x1.size a ≤ S4096x16.size a
  h_S4096x1 : 0 < S4096x1.numel
  inb_S4096x16_S4096x1_0_1 : ∀ a, (![0, 1] : Fin 2 → Nat) a + S4096x1.size a ≤ S4096x16.size a
  inb_S4096x16_S4096x1_0_2 : ∀ a, (![0, 2] : Fin 2 → Nat) a + S4096x1.size a ≤ S4096x16.size a
  inb_S4096x16_S4096x1_0_3 : ∀ a, (![0, 3] : Fin 2 → Nat) a + S4096x1.size a ≤ S4096x16.size a
  inb_S4096x16_S4096x1_0_4 : ∀ a, (![0, 4] : Fin 2 → Nat) a + S4096x1.size a ≤ S4096x16.size a
  inb_S4096x16_S4096x1_0_5 : ∀ a, (![0, 5] : Fin 2 → Nat) a + S4096x1.size a ≤ S4096x16.size a
  inb_S4096x16_S4096x1_0_6 : ∀ a, (![0, 6] : Fin 2 → Nat) a + S4096x1.size a ≤ S4096x16.size a
  inb_S4096x16_S4096x1_0_7 : ∀ a, (![0, 7] : Fin 2 → Nat) a + S4096x1.size a ≤ S4096x16.size a
  inb_S4096x16_S4096x1_0_8 : ∀ a, (![0, 8] : Fin 2 → Nat) a + S4096x1.size a ≤ S4096x16.size a
  inb_S4096x16_S4096x1_0_9 : ∀ a, (![0, 9] : Fin 2 → Nat) a + S4096x1.size a ≤ S4096x16.size a
  inb_S4096x16_S4096x1_0_10 : ∀ a, (![0, 10] : Fin 2 → Nat) a + S4096x1.size a ≤ S4096x16.size a
  inb_S4096x16_S4096x1_0_11 : ∀ a, (![0, 11] : Fin 2 → Nat) a + S4096x1.size a ≤ S4096x16.size a
  inb_S4096x16_S4096x1_0_12 : ∀ a, (![0, 12] : Fin 2 → Nat) a + S4096x1.size a ≤ S4096x16.size a
  inb_S4096x16_S4096x1_0_13 : ∀ a, (![0, 13] : Fin 2 → Nat) a + S4096x1.size a ≤ S4096x16.size a
  inb_S4096x16_S4096x1_0_14 : ∀ a, (![0, 14] : Fin 2 → Nat) a + S4096x1.size a ≤ S4096x16.size a
  slices_S4096x16_o0_15_S4096x1 : S4096x16.Slices ![0, 15] S4096x1
  inb_S4096x16_S4096x1_0_15 : ∀ a, (![0, 15] : Fin 2 → Nat) a + S4096x1.size a ≤ S4096x16.size a
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x16 : Shape := ⟨2, ![4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩
abbrev S4096x2 : Shape := ⟨2, ![4096, 2]⟩
abbrev S2 : Shape := ⟨1, ![2]⟩
abbrev S1x2 : Shape := ⟨2, ![1, 2]⟩
abbrev S2x4096 : Shape := ⟨2, ![2, 4096]⟩
abbrev S4096x3 : Shape := ⟨2, ![4096, 3]⟩
abbrev S3 : Shape := ⟨1, ![3]⟩
abbrev S1x3 : Shape := ⟨2, ![1, 3]⟩
abbrev S3x4096 : Shape := ⟨2, ![3, 4096]⟩
abbrev S4096x4 : Shape := ⟨2, ![4096, 4]⟩
abbrev S4 : Shape := ⟨1, ![4]⟩
abbrev S1x4 : Shape := ⟨2, ![1, 4]⟩
abbrev S4x4096 : Shape := ⟨2, ![4, 4096]⟩
abbrev S4096x5 : Shape := ⟨2, ![4096, 5]⟩
abbrev S5 : Shape := ⟨1, ![5]⟩
abbrev S1x5 : Shape := ⟨2, ![1, 5]⟩
abbrev S5x4096 : Shape := ⟨2, ![5, 4096]⟩
abbrev S4096x6 : Shape := ⟨2, ![4096, 6]⟩
abbrev S6 : Shape := ⟨1, ![6]⟩
abbrev S1x6 : Shape := ⟨2, ![1, 6]⟩
abbrev S6x4096 : Shape := ⟨2, ![6, 4096]⟩
abbrev S4096x7 : Shape := ⟨2, ![4096, 7]⟩
abbrev S7 : Shape := ⟨1, ![7]⟩
abbrev S1x7 : Shape := ⟨2, ![1, 7]⟩
abbrev S7x4096 : Shape := ⟨2, ![7, 4096]⟩
abbrev S4096x8 : Shape := ⟨2, ![4096, 8]⟩
abbrev S8 : Shape := ⟨1, ![8]⟩
abbrev S1x8 : Shape := ⟨2, ![1, 8]⟩
abbrev S8x4096 : Shape := ⟨2, ![8, 4096]⟩
abbrev S4096x9 : Shape := ⟨2, ![4096, 9]⟩
abbrev S9 : Shape := ⟨1, ![9]⟩
abbrev S1x9 : Shape := ⟨2, ![1, 9]⟩
abbrev S9x4096 : Shape := ⟨2, ![9, 4096]⟩
abbrev S4096x10 : Shape := ⟨2, ![4096, 10]⟩
abbrev S10 : Shape := ⟨1, ![10]⟩
abbrev S1x10 : Shape := ⟨2, ![1, 10]⟩
abbrev S10x4096 : Shape := ⟨2, ![10, 4096]⟩
abbrev S4096x11 : Shape := ⟨2, ![4096, 11]⟩
abbrev S11 : Shape := ⟨1, ![11]⟩
abbrev S1x11 : Shape := ⟨2, ![1, 11]⟩
abbrev S11x4096 : Shape := ⟨2, ![11, 4096]⟩
abbrev S4096x12 : Shape := ⟨2, ![4096, 12]⟩
abbrev S12 : Shape := ⟨1, ![12]⟩
abbrev S1x12 : Shape := ⟨2, ![1, 12]⟩
abbrev S12x4096 : Shape := ⟨2, ![12, 4096]⟩
abbrev S4096x13 : Shape := ⟨2, ![4096, 13]⟩
abbrev S13 : Shape := ⟨1, ![13]⟩
abbrev S1x13 : Shape := ⟨2, ![1, 13]⟩
abbrev S13x4096 : Shape := ⟨2, ![13, 4096]⟩
abbrev S4096x14 : Shape := ⟨2, ![4096, 14]⟩
abbrev S14 : Shape := ⟨1, ![14]⟩
abbrev S1x14 : Shape := ⟨2, ![1, 14]⟩
abbrev S14x4096 : Shape := ⟨2, ![14, 4096]⟩
abbrev S4096x15 : Shape := ⟨2, ![4096, 15]⟩
abbrev S15 : Shape := ⟨1, ![15]⟩
abbrev S1x15 : Shape := ⟨2, ![1, 15]⟩
abbrev S15x4096 : Shape := ⟨2, ![15, 4096]⟩

abbrev nBuf : Space → Nat
  | .hbm => 1486
  | .vmem => 0
  | .smem => 0
  | _ => 0

abbrev hbmTy0_0 (i : Nat) : BufTy := match i % 128 with
  | 0 => ⟨S4096x4096, .f32⟩
  | 1 => ⟨S4096x16, .f32⟩
  | 2 => ⟨S4096x16, .f32⟩
  | 3 => ⟨S_, .f32⟩
  | 4 => ⟨S4096, .f32⟩
  | 5 => ⟨S_, .f32⟩
  | 6 => ⟨S4096, .f32⟩
  | 7 => ⟨S4096, .f32⟩
  | 8 => ⟨S1x4096, .f32⟩
  | 9 => ⟨S4096x4096, .f32⟩
  | 10 => ⟨S4096x4096, .f32⟩
  | 11 => ⟨S_, .i32⟩
  | 12 => ⟨S_, .f32⟩
  | 13 => ⟨S4096, .f32⟩
  | 14 => ⟨S1x4096, .f32⟩
  | 15 => ⟨S_, .f32⟩
  | 16 => ⟨S1x4096, .f32⟩
  | 17 => ⟨S1x4096, .f32⟩
  | 18 => ⟨S4096x4096, .f32⟩
  | 19 => ⟨S4096x4096, .f32⟩
  | 20 => ⟨S4096x4096, .f32⟩
  | 21 => ⟨S_, .f32⟩
  | 22 => ⟨S_, .f32⟩
  | 23 => ⟨S_, .f32⟩
  | 24 => ⟨S_, .f32⟩
  | 25 => ⟨S4096, .f32⟩
  | 26 => ⟨S4096, .f32⟩
  | 27 => ⟨S4096, .f32⟩
  | 28 => ⟨S_, .f32⟩
  | 29 => ⟨S_, .i1⟩
  | 30 => ⟨S_, .f32⟩
  | 31 => ⟨S_, .f32⟩
  | 32 => ⟨S4096, .f32⟩
  | 33 => ⟨S4096, .f32⟩
  | 34 => ⟨S4096, .f32⟩
  | 35 => ⟨S_, .f32⟩
  | 36 => ⟨S4096, .f32⟩
  | 37 => ⟨S4096, .f32⟩
  | 38 => ⟨S1x4096, .f32⟩
  | 39 => ⟨S4096x4096, .f32⟩
  | 40 => ⟨S4096x4096, .f32⟩
  | 41 => ⟨S4096x1, .f32⟩
  | 42 => ⟨S4096x1, .f32⟩
  | 43 => ⟨S_, .f32⟩
  | 44 => ⟨S1, .f32⟩
  | 45 => ⟨S_, .f32⟩
  | 46 => ⟨S1, .f32⟩
  | 47 => ⟨S1, .f32⟩
  | 48 => ⟨S1x1, .f32⟩
  | 49 => ⟨S4096x1, .f32⟩
  | 50 => ⟨S4096x1, .f32⟩
  | 51 => ⟨S_, .i32⟩
  | 52 => ⟨S_, .f32⟩
  | 53 => ⟨S1, .f32⟩
  | 54 => ⟨S1x1, .f32⟩
  | 55 => ⟨S_, .f32⟩
  | 56 => ⟨S1x1, .f32⟩
  | 57 => ⟨S1x1, .f32⟩
  | 58 => ⟨S4096x1, .f32⟩
  | 59 => ⟨S4096x1, .f32⟩
  | 60 => ⟨S4096x1, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S1, .f32⟩
  | 68 => ⟨S_, .f32⟩
  | 69 => ⟨S_, .i1⟩
  | 70 => ⟨S_, .f32⟩
  | 71 => ⟨S_, .f32⟩
  | 72 => ⟨S1, .f32⟩
  | 73 => ⟨S1, .f32⟩
  | 74 => ⟨S1, .f32⟩
  | 75 => ⟨S_, .f32⟩
  | 76 => ⟨S1, .f32⟩
  | 77 => ⟨S1, .f32⟩
  | 78 => ⟨S1x1, .f32⟩
  | 79 => ⟨S4096x1, .f32⟩
  | 80 => ⟨S4096x1, .f32⟩
  | 81 => ⟨S1x4096, .f32⟩
  | 82 => ⟨S1x4096, .f32⟩
  | 83 => ⟨S_, .f32⟩
  | 84 => ⟨S1x4096, .f32⟩
  | 85 => ⟨S1x4096, .f32⟩
  | 86 => ⟨S4096x4096, .f32⟩
  | 87 => ⟨S4096x4096, .f32⟩
  | 88 => ⟨S4096x1, .f32⟩
  | 89 => ⟨S4096x1, .f32⟩
  | 90 => ⟨S4096x2, .f32⟩
  | 91 => ⟨S_, .f32⟩
  | 92 => ⟨S2, .f32⟩
  | 93 => ⟨S_, .f32⟩
  | 94 => ⟨S2, .f32⟩
  | 95 => ⟨S2, .f32⟩
  | 96 => ⟨S1x2, .f32⟩
  | 97 => ⟨S4096x2, .f32⟩
  | 98 => ⟨S4096x2, .f32⟩
  | 99 => ⟨S_, .i32⟩
  | 100 => ⟨S_, .f32⟩
  | 101 => ⟨S2, .f32⟩
  | 102 => ⟨S1x2, .f32⟩
  | 103 => ⟨S_, .f32⟩
  | 104 => ⟨S1x2, .f32⟩
  | 105 => ⟨S1x2, .f32⟩
  | 106 => ⟨S4096x2, .f32⟩
  | 107 => ⟨S4096x2, .f32⟩
  | 108 => ⟨S4096x2, .f32⟩
  | 109 => ⟨S_, .f32⟩
  | 110 => ⟨S_, .f32⟩
  | 111 => ⟨S_, .f32⟩
  | 112 => ⟨S_, .f32⟩
  | 113 => ⟨S2, .f32⟩
  | 114 => ⟨S2, .f32⟩
  | 115 => ⟨S2, .f32⟩
  | 116 => ⟨S_, .f32⟩
  | 117 => ⟨S_, .i1⟩
  | 118 => ⟨S_, .f32⟩
  | 119 => ⟨S_, .f32⟩
  | 120 => ⟨S2, .f32⟩
  | 121 => ⟨S2, .f32⟩
  | 122 => ⟨S2, .f32⟩
  | 123 => ⟨S_, .f32⟩
  | 124 => ⟨S2, .f32⟩
  | 125 => ⟨S2, .f32⟩
  | 126 => ⟨S1x2, .f32⟩
  | 127 => ⟨S4096x2, .f32⟩
  | _ => ⟨S4096x4096, .f32⟩

abbrev hbmTy0_1 (i : Nat) : BufTy := match i % 128 with
  | 0 => ⟨S4096x2, .f32⟩
  | 1 => ⟨S2x4096, .f32⟩
  | 2 => ⟨S2x4096, .f32⟩
  | 3 => ⟨S_, .f32⟩
  | 4 => ⟨S2x4096, .f32⟩
  | 5 => ⟨S2x4096, .f32⟩
  | 6 => ⟨S4096x4096, .f32⟩
  | 7 => ⟨S4096x4096, .f32⟩
  | 8 => ⟨S4096x1, .f32⟩
  | 9 => ⟨S4096x1, .f32⟩
  | 10 => ⟨S4096x3, .f32⟩
  | 11 => ⟨S_, .f32⟩
  | 12 => ⟨S3, .f32⟩
  | 13 => ⟨S_, .f32⟩
  | 14 => ⟨S3, .f32⟩
  | 15 => ⟨S3, .f32⟩
  | 16 => ⟨S1x3, .f32⟩
  | 17 => ⟨S4096x3, .f32⟩
  | 18 => ⟨S4096x3, .f32⟩
  | 19 => ⟨S_, .i32⟩
  | 20 => ⟨S_, .f32⟩
  | 21 => ⟨S3, .f32⟩
  | 22 => ⟨S1x3, .f32⟩
  | 23 => ⟨S_, .f32⟩
  | 24 => ⟨S1x3, .f32⟩
  | 25 => ⟨S1x3, .f32⟩
  | 26 => ⟨S4096x3, .f32⟩
  | 27 => ⟨S4096x3, .f32⟩
  | 28 => ⟨S4096x3, .f32⟩
  | 29 => ⟨S_, .f32⟩
  | 30 => ⟨S_, .f32⟩
  | 31 => ⟨S_, .f32⟩
  | 32 => ⟨S_, .f32⟩
  | 33 => ⟨S3, .f32⟩
  | 34 => ⟨S3, .f32⟩
  | 35 => ⟨S3, .f32⟩
  | 36 => ⟨S_, .f32⟩
  | 37 => ⟨S_, .i1⟩
  | 38 => ⟨S_, .f32⟩
  | 39 => ⟨S_, .f32⟩
  | 40 => ⟨S3, .f32⟩
  | 41 => ⟨S3, .f32⟩
  | 42 => ⟨S3, .f32⟩
  | 43 => ⟨S_, .f32⟩
  | 44 => ⟨S3, .f32⟩
  | 45 => ⟨S3, .f32⟩
  | 46 => ⟨S1x3, .f32⟩
  | 47 => ⟨S4096x3, .f32⟩
  | 48 => ⟨S4096x3, .f32⟩
  | 49 => ⟨S3x4096, .f32⟩
  | 50 => ⟨S3x4096, .f32⟩
  | 51 => ⟨S_, .f32⟩
  | 52 => ⟨S3x4096, .f32⟩
  | 53 => ⟨S3x4096, .f32⟩
  | 54 => ⟨S4096x4096, .f32⟩
  | 55 => ⟨S4096x4096, .f32⟩
  | 56 => ⟨S4096x1, .f32⟩
  | 57 => ⟨S4096x1, .f32⟩
  | 58 => ⟨S4096x4, .f32⟩
  | 59 => ⟨S_, .f32⟩
  | 60 => ⟨S4, .f32⟩
  | 61 => ⟨S_, .f32⟩
  | 62 => ⟨S4, .f32⟩
  | 63 => ⟨S4, .f32⟩
  | 64 => ⟨S1x4, .f32⟩
  | 65 => ⟨S4096x4, .f32⟩
  | 66 => ⟨S4096x4, .f32⟩
  | 67 => ⟨S_, .i32⟩
  | 68 => ⟨S_, .f32⟩
  | 69 => ⟨S4, .f32⟩
  | 70 => ⟨S1x4, .f32⟩
  | 71 => ⟨S_, .f32⟩
  | 72 => ⟨S1x4, .f32⟩
  | 73 => ⟨S1x4, .f32⟩
  | 74 => ⟨S4096x4, .f32⟩
  | 75 => ⟨S4096x4, .f32⟩
  | 76 => ⟨S4096x4, .f32⟩
  | 77 => ⟨S_, .f32⟩
  | 78 => ⟨S_, .f32⟩
  | 79 => ⟨S_, .f32⟩
  | 80 => ⟨S_, .f32⟩
  | 81 => ⟨S4, .f32⟩
  | 82 => ⟨S4, .f32⟩
  | 83 => ⟨S4, .f32⟩
  | 84 => ⟨S_, .f32⟩
  | 85 => ⟨S_, .i1⟩
  | 86 => ⟨S_, .f32⟩
  | 87 => ⟨S_, .f32⟩
  | 88 => ⟨S4, .f32⟩
  | 89 => ⟨S4, .f32⟩
  | 90 => ⟨S4, .f32⟩
  | 91 => ⟨S_, .f32⟩
  | 92 => ⟨S4, .f32⟩
  | 93 => ⟨S4, .f32⟩
  | 94 => ⟨S1x4, .f32⟩
  | 95 => ⟨S4096x4, .f32⟩
  | 96 => ⟨S4096x4, .f32⟩
  | 97 => ⟨S4x4096, .f32⟩
  | 98 => ⟨S4x4096, .f32⟩
  | 99 => ⟨S_, .f32⟩
  | 100 => ⟨S4x4096, .f32⟩
  | 101 => ⟨S4x4096, .f32⟩
  | 102 => ⟨S4096x4096, .f32⟩
  | 103 => ⟨S4096x4096, .f32⟩
  | 104 => ⟨S4096x1, .f32⟩
  | 105 => ⟨S4096x1, .f32⟩
  | 106 => ⟨S4096x5, .f32⟩
  | 107 => ⟨S_, .f32⟩
  | 108 => ⟨S5, .f32⟩
  | 109 => ⟨S_, .f32⟩
  | 110 => ⟨S5, .f32⟩
  | 111 => ⟨S5, .f32⟩
  | 112 => ⟨S1x5, .f32⟩
  | 113 => ⟨S4096x5, .f32⟩
  | 114 => ⟨S4096x5, .f32⟩
  | 115 => ⟨S_, .i32⟩
  | 116 => ⟨S_, .f32⟩
  | 117 => ⟨S5, .f32⟩
  | 118 => ⟨S1x5, .f32⟩
  | 119 => ⟨S_, .f32⟩
  | 120 => ⟨S1x5, .f32⟩
  | 121 => ⟨S1x5, .f32⟩
  | 122 => ⟨S4096x5, .f32⟩
  | 123 => ⟨S4096x5, .f32⟩
  | 124 => ⟨S4096x5, .f32⟩
  | 125 => ⟨S_, .f32⟩
  | 126 => ⟨S_, .f32⟩
  | 127 => ⟨S_, .f32⟩
  | _ => ⟨S4096x4096, .f32⟩

abbrev hbmTy0_2 (i : Nat) : BufTy := match i % 128 with
  | 0 => ⟨S_, .f32⟩
  | 1 => ⟨S5, .f32⟩
  | 2 => ⟨S5, .f32⟩
  | 3 => ⟨S5, .f32⟩
  | 4 => ⟨S_, .f32⟩
  | 5 => ⟨S_, .i1⟩
  | 6 => ⟨S_, .f32⟩
  | 7 => ⟨S_, .f32⟩
  | 8 => ⟨S5, .f32⟩
  | 9 => ⟨S5, .f32⟩
  | 10 => ⟨S5, .f32⟩
  | 11 => ⟨S_, .f32⟩
  | 12 => ⟨S5, .f32⟩
  | 13 => ⟨S5, .f32⟩
  | 14 => ⟨S1x5, .f32⟩
  | 15 => ⟨S4096x5, .f32⟩
  | 16 => ⟨S4096x5, .f32⟩
  | 17 => ⟨S5x4096, .f32⟩
  | 18 => ⟨S5x4096, .f32⟩
  | 19 => ⟨S_, .f32⟩
  | 20 => ⟨S5x4096, .f32⟩
  | 21 => ⟨S5x4096, .f32⟩
  | 22 => ⟨S4096x4096, .f32⟩
  | 23 => ⟨S4096x4096, .f32⟩
  | 24 => ⟨S4096x1, .f32⟩
  | 25 => ⟨S4096x1, .f32⟩
  | 26 => ⟨S4096x6, .f32⟩
  | 27 => ⟨S_, .f32⟩
  | 28 => ⟨S6, .f32⟩
  | 29 => ⟨S_, .f32⟩
  | 30 => ⟨S6, .f32⟩
  | 31 => ⟨S6, .f32⟩
  | 32 => ⟨S1x6, .f32⟩
  | 33 => ⟨S4096x6, .f32⟩
  | 34 => ⟨S4096x6, .f32⟩
  | 35 => ⟨S_, .i32⟩
  | 36 => ⟨S_, .f32⟩
  | 37 => ⟨S6, .f32⟩
  | 38 => ⟨S1x6, .f32⟩
  | 39 => ⟨S_, .f32⟩
  | 40 => ⟨S1x6, .f32⟩
  | 41 => ⟨S1x6, .f32⟩
  | 42 => ⟨S4096x6, .f32⟩
  | 43 => ⟨S4096x6, .f32⟩
  | 44 => ⟨S4096x6, .f32⟩
  | 45 => ⟨S_, .f32⟩
  | 46 => ⟨S_, .f32⟩
  | 47 => ⟨S_, .f32⟩
  | 48 => ⟨S_, .f32⟩
  | 49 => ⟨S6, .f32⟩
  | 50 => ⟨S6, .f32⟩
  | 51 => ⟨S6, .f32⟩
  | 52 => ⟨S_, .f32⟩
  | 53 => ⟨S_, .i1⟩
  | 54 => ⟨S_, .f32⟩
  | 55 => ⟨S_, .f32⟩
  | 56 => ⟨S6, .f32⟩
  | 57 => ⟨S6, .f32⟩
  | 58 => ⟨S6, .f32⟩
  | 59 => ⟨S_, .f32⟩
  | 60 => ⟨S6, .f32⟩
  | 61 => ⟨S6, .f32⟩
  | 62 => ⟨S1x6, .f32⟩
  | 63 => ⟨S4096x6, .f32⟩
  | 64 => ⟨S4096x6, .f32⟩
  | 65 => ⟨S6x4096, .f32⟩
  | 66 => ⟨S6x4096, .f32⟩
  | 67 => ⟨S_, .f32⟩
  | 68 => ⟨S6x4096, .f32⟩
  | 69 => ⟨S6x4096, .f32⟩
  | 70 => ⟨S4096x4096, .f32⟩
  | 71 => ⟨S4096x4096, .f32⟩
  | 72 => ⟨S4096x1, .f32⟩
  | 73 => ⟨S4096x1, .f32⟩
  | 74 => ⟨S4096x7, .f32⟩
  | 75 => ⟨S_, .f32⟩
  | 76 => ⟨S7, .f32⟩
  | 77 => ⟨S_, .f32⟩
  | 78 => ⟨S7, .f32⟩
  | 79 => ⟨S7, .f32⟩
  | 80 => ⟨S1x7, .f32⟩
  | 81 => ⟨S4096x7, .f32⟩
  | 82 => ⟨S4096x7, .f32⟩
  | 83 => ⟨S_, .i32⟩
  | 84 => ⟨S_, .f32⟩
  | 85 => ⟨S7, .f32⟩
  | 86 => ⟨S1x7, .f32⟩
  | 87 => ⟨S_, .f32⟩
  | 88 => ⟨S1x7, .f32⟩
  | 89 => ⟨S1x7, .f32⟩
  | 90 => ⟨S4096x7, .f32⟩
  | 91 => ⟨S4096x7, .f32⟩
  | 92 => ⟨S4096x7, .f32⟩
  | 93 => ⟨S_, .f32⟩
  | 94 => ⟨S_, .f32⟩
  | 95 => ⟨S_, .f32⟩
  | 96 => ⟨S_, .f32⟩
  | 97 => ⟨S7, .f32⟩
  | 98 => ⟨S7, .f32⟩
  | 99 => ⟨S7, .f32⟩
  | 100 => ⟨S_, .f32⟩
  | 101 => ⟨S_, .i1⟩
  | 102 => ⟨S_, .f32⟩
  | 103 => ⟨S_, .f32⟩
  | 104 => ⟨S7, .f32⟩
  | 105 => ⟨S7, .f32⟩
  | 106 => ⟨S7, .f32⟩
  | 107 => ⟨S_, .f32⟩
  | 108 => ⟨S7, .f32⟩
  | 109 => ⟨S7, .f32⟩
  | 110 => ⟨S1x7, .f32⟩
  | 111 => ⟨S4096x7, .f32⟩
  | 112 => ⟨S4096x7, .f32⟩
  | 113 => ⟨S7x4096, .f32⟩
  | 114 => ⟨S7x4096, .f32⟩
  | 115 => ⟨S_, .f32⟩
  | 116 => ⟨S7x4096, .f32⟩
  | 117 => ⟨S7x4096, .f32⟩
  | 118 => ⟨S4096x4096, .f32⟩
  | 119 => ⟨S4096x4096, .f32⟩
  | 120 => ⟨S4096x1, .f32⟩
  | 121 => ⟨S4096x1, .f32⟩
  | 122 => ⟨S4096x8, .f32⟩
  | 123 => ⟨S_, .f32⟩
  | 124 => ⟨S8, .f32⟩
  | 125 => ⟨S_, .f32⟩
  | 126 => ⟨S8, .f32⟩
  | 127 => ⟨S8, .f32⟩
  | _ => ⟨S4096x4096, .f32⟩

abbrev hbmTy0_3 (i : Nat) : BufTy := match i % 128 with
  | 0 => ⟨S1x8, .f32⟩
  | 1 => ⟨S4096x8, .f32⟩
  | 2 => ⟨S4096x8, .f32⟩
  | 3 => ⟨S_, .i32⟩
  | 4 => ⟨S_, .f32⟩
  | 5 => ⟨S8, .f32⟩
  | 6 => ⟨S1x8, .f32⟩
  | 7 => ⟨S_, .f32⟩
  | 8 => ⟨S1x8, .f32⟩
  | 9 => ⟨S1x8, .f32⟩
  | 10 => ⟨S4096x8, .f32⟩
  | 11 => ⟨S4096x8, .f32⟩
  | 12 => ⟨S4096x8, .f32⟩
  | 13 => ⟨S_, .f32⟩
  | 14 => ⟨S_, .f32⟩
  | 15 => ⟨S_, .f32⟩
  | 16 => ⟨S_, .f32⟩
  | 17 => ⟨S8, .f32⟩
  | 18 => ⟨S8, .f32⟩
  | 19 => ⟨S8, .f32⟩
  | 20 => ⟨S_, .f32⟩
  | 21 => ⟨S_, .i1⟩
  | 22 => ⟨S_, .f32⟩
  | 23 => ⟨S_, .f32⟩
  | 24 => ⟨S8, .f32⟩
  | 25 => ⟨S8, .f32⟩
  | 26 => ⟨S8, .f32⟩
  | 27 => ⟨S_, .f32⟩
  | 28 => ⟨S8, .f32⟩
  | 29 => ⟨S8, .f32⟩
  | 30 => ⟨S1x8, .f32⟩
  | 31 => ⟨S4096x8, .f32⟩
  | 32 => ⟨S4096x8, .f32⟩
  | 33 => ⟨S8x4096, .f32⟩
  | 34 => ⟨S8x4096, .f32⟩
  | 35 => ⟨S_, .f32⟩
  | 36 => ⟨S8x4096, .f32⟩
  | 37 => ⟨S8x4096, .f32⟩
  | 38 => ⟨S4096x4096, .f32⟩
  | 39 => ⟨S4096x4096, .f32⟩
  | 40 => ⟨S4096x1, .f32⟩
  | 41 => ⟨S4096x1, .f32⟩
  | 42 => ⟨S4096x9, .f32⟩
  | 43 => ⟨S_, .f32⟩
  | 44 => ⟨S9, .f32⟩
  | 45 => ⟨S_, .f32⟩
  | 46 => ⟨S9, .f32⟩
  | 47 => ⟨S9, .f32⟩
  | 48 => ⟨S1x9, .f32⟩
  | 49 => ⟨S4096x9, .f32⟩
  | 50 => ⟨S4096x9, .f32⟩
  | 51 => ⟨S_, .i32⟩
  | 52 => ⟨S_, .f32⟩
  | 53 => ⟨S9, .f32⟩
  | 54 => ⟨S1x9, .f32⟩
  | 55 => ⟨S_, .f32⟩
  | 56 => ⟨S1x9, .f32⟩
  | 57 => ⟨S1x9, .f32⟩
  | 58 => ⟨S4096x9, .f32⟩
  | 59 => ⟨S4096x9, .f32⟩
  | 60 => ⟨S4096x9, .f32⟩
  | 61 => ⟨S_, .f32⟩
  | 62 => ⟨S_, .f32⟩
  | 63 => ⟨S_, .f32⟩
  | 64 => ⟨S_, .f32⟩
  | 65 => ⟨S9, .f32⟩
  | 66 => ⟨S9, .f32⟩
  | 67 => ⟨S9, .f32⟩
  | 68 => ⟨S_, .f32⟩
  | 69 => ⟨S_, .i1⟩
  | 70 => ⟨S_, .f32⟩
  | 71 => ⟨S_, .f32⟩
  | 72 => ⟨S9, .f32⟩
  | 73 => ⟨S9, .f32⟩
  | 74 => ⟨S9, .f32⟩
  | 75 => ⟨S_, .f32⟩
  | 76 => ⟨S9, .f32⟩
  | 77 => ⟨S9, .f32⟩
  | 78 => ⟨S1x9, .f32⟩
  | 79 => ⟨S4096x9, .f32⟩
  | 80 => ⟨S4096x9, .f32⟩
  | 81 => ⟨S9x4096, .f32⟩
  | 82 => ⟨S9x4096, .f32⟩
  | 83 => ⟨S_, .f32⟩
  | 84 => ⟨S9x4096, .f32⟩
  | 85 => ⟨S9x4096, .f32⟩
  | 86 => ⟨S4096x4096, .f32⟩
  | 87 => ⟨S4096x4096, .f32⟩
  | 88 => ⟨S4096x1, .f32⟩
  | 89 => ⟨S4096x1, .f32⟩
  | 90 => ⟨S4096x10, .f32⟩
  | 91 => ⟨S_, .f32⟩
  | 92 => ⟨S10, .f32⟩
  | 93 => ⟨S_, .f32⟩
  | 94 => ⟨S10, .f32⟩
  | 95 => ⟨S10, .f32⟩
  | 96 => ⟨S1x10, .f32⟩
  | 97 => ⟨S4096x10, .f32⟩
  | 98 => ⟨S4096x10, .f32⟩
  | 99 => ⟨S_, .i32⟩
  | 100 => ⟨S_, .f32⟩
  | 101 => ⟨S10, .f32⟩
  | 102 => ⟨S1x10, .f32⟩
  | 103 => ⟨S_, .f32⟩
  | 104 => ⟨S1x10, .f32⟩
  | 105 => ⟨S1x10, .f32⟩
  | 106 => ⟨S4096x10, .f32⟩
  | 107 => ⟨S4096x10, .f32⟩
  | 108 => ⟨S4096x10, .f32⟩
  | 109 => ⟨S_, .f32⟩
  | 110 => ⟨S_, .f32⟩
  | 111 => ⟨S_, .f32⟩
  | 112 => ⟨S_, .f32⟩
  | 113 => ⟨S10, .f32⟩
  | 114 => ⟨S10, .f32⟩
  | 115 => ⟨S10, .f32⟩
  | 116 => ⟨S_, .f32⟩
  | 117 => ⟨S_, .i1⟩
  | 118 => ⟨S_, .f32⟩
  | 119 => ⟨S_, .f32⟩
  | 120 => ⟨S10, .f32⟩
  | 121 => ⟨S10, .f32⟩
  | 122 => ⟨S10, .f32⟩
  | 123 => ⟨S_, .f32⟩
  | 124 => ⟨S10, .f32⟩
  | 125 => ⟨S10, .f32⟩
  | 126 => ⟨S1x10, .f32⟩
  | 127 => ⟨S4096x10, .f32⟩
  | _ => ⟨S4096x4096, .f32⟩

abbrev hbmTy0_4 (i : Nat) : BufTy := match i % 128 with
  | 0 => ⟨S4096x10, .f32⟩
  | 1 => ⟨S10x4096, .f32⟩
  | 2 => ⟨S10x4096, .f32⟩
  | 3 => ⟨S_, .f32⟩
  | 4 => ⟨S10x4096, .f32⟩
  | 5 => ⟨S10x4096, .f32⟩
  | 6 => ⟨S4096x4096, .f32⟩
  | 7 => ⟨S4096x4096, .f32⟩
  | 8 => ⟨S4096x1, .f32⟩
  | 9 => ⟨S4096x1, .f32⟩
  | 10 => ⟨S4096x11, .f32⟩
  | 11 => ⟨S_, .f32⟩
  | 12 => ⟨S11, .f32⟩
  | 13 => ⟨S_, .f32⟩
  | 14 => ⟨S11, .f32⟩
  | 15 => ⟨S11, .f32⟩
  | 16 => ⟨S1x11, .f32⟩
  | 17 => ⟨S4096x11, .f32⟩
  | 18 => ⟨S4096x11, .f32⟩
  | 19 => ⟨S_, .i32⟩
  | 20 => ⟨S_, .f32⟩
  | 21 => ⟨S11, .f32⟩
  | 22 => ⟨S1x11, .f32⟩
  | 23 => ⟨S_, .f32⟩
  | 24 => ⟨S1x11, .f32⟩
  | 25 => ⟨S1x11, .f32⟩
  | 26 => ⟨S4096x11, .f32⟩
  | 27 => ⟨S4096x11, .f32⟩
  | 28 => ⟨S4096x11, .f32⟩
  | 29 => ⟨S_, .f32⟩
  | 30 => ⟨S_, .f32⟩
  | 31 => ⟨S_, .f32⟩
  | 32 => ⟨S_, .f32⟩
  | 33 => ⟨S11, .f32⟩
  | 34 => ⟨S11, .f32⟩
  | 35 => ⟨S11, .f32⟩
  | 36 => ⟨S_, .f32⟩
  | 37 => ⟨S_, .i1⟩
  | 38 => ⟨S_, .f32⟩
  | 39 => ⟨S_, .f32⟩
  | 40 => ⟨S11, .f32⟩
  | 41 => ⟨S11, .f32⟩
  | 42 => ⟨S11, .f32⟩
  | 43 => ⟨S_, .f32⟩
  | 44 => ⟨S11, .f32⟩
  | 45 => ⟨S11, .f32⟩
  | 46 => ⟨S1x11, .f32⟩
  | 47 => ⟨S4096x11, .f32⟩
  | 48 => ⟨S4096x11, .f32⟩
  | 49 => ⟨S11x4096, .f32⟩
  | 50 => ⟨S11x4096, .f32⟩
  | 51 => ⟨S_, .f32⟩
  | 52 => ⟨S11x4096, .f32⟩
  | 53 => ⟨S11x4096, .f32⟩
  | 54 => ⟨S4096x4096, .f32⟩
  | 55 => ⟨S4096x4096, .f32⟩
  | 56 => ⟨S4096x1, .f32⟩
  | 57 => ⟨S4096x1, .f32⟩
  | 58 => ⟨S4096x12, .f32⟩
  | 59 => ⟨S_, .f32⟩
  | 60 => ⟨S12, .f32⟩
  | 61 => ⟨S_, .f32⟩
  | 62 => ⟨S12, .f32⟩
  | 63 => ⟨S12, .f32⟩
  | 64 => ⟨S1x12, .f32⟩
  | 65 => ⟨S4096x12, .f32⟩
  | 66 => ⟨S4096x12, .f32⟩
  | 67 => ⟨S_, .i32⟩
  | 68 => ⟨S_, .f32⟩
  | 69 => ⟨S12, .f32⟩
  | 70 => ⟨S1x12, .f32⟩
  | 71 => ⟨S_, .f32⟩
  | 72 => ⟨S1x12, .f32⟩
  | 73 => ⟨S1x12, .f32⟩
  | 74 => ⟨S4096x12, .f32⟩
  | 75 => ⟨S4096x12, .f32⟩
  | 76 => ⟨S4096x12, .f32⟩
  | 77 => ⟨S_, .f32⟩
  | 78 => ⟨S_, .f32⟩
  | 79 => ⟨S_, .f32⟩
  | 80 => ⟨S_, .f32⟩
  | 81 => ⟨S12, .f32⟩
  | 82 => ⟨S12, .f32⟩
  | 83 => ⟨S12, .f32⟩
  | 84 => ⟨S_, .f32⟩
  | 85 => ⟨S_, .i1⟩
  | 86 => ⟨S_, .f32⟩
  | 87 => ⟨S_, .f32⟩
  | 88 => ⟨S12, .f32⟩
  | 89 => ⟨S12, .f32⟩
  | 90 => ⟨S12, .f32⟩
  | 91 => ⟨S_, .f32⟩
  | 92 => ⟨S12, .f32⟩
  | 93 => ⟨S12, .f32⟩
  | 94 => ⟨S1x12, .f32⟩
  | 95 => ⟨S4096x12, .f32⟩
  | 96 => ⟨S4096x12, .f32⟩
  | 97 => ⟨S12x4096, .f32⟩
  | 98 => ⟨S12x4096, .f32⟩
  | 99 => ⟨S_, .f32⟩
  | 100 => ⟨S12x4096, .f32⟩
  | 101 => ⟨S12x4096, .f32⟩
  | 102 => ⟨S4096x4096, .f32⟩
  | 103 => ⟨S4096x4096, .f32⟩
  | 104 => ⟨S4096x1, .f32⟩
  | 105 => ⟨S4096x1, .f32⟩
  | 106 => ⟨S4096x13, .f32⟩
  | 107 => ⟨S_, .f32⟩
  | 108 => ⟨S13, .f32⟩
  | 109 => ⟨S_, .f32⟩
  | 110 => ⟨S13, .f32⟩
  | 111 => ⟨S13, .f32⟩
  | 112 => ⟨S1x13, .f32⟩
  | 113 => ⟨S4096x13, .f32⟩
  | 114 => ⟨S4096x13, .f32⟩
  | 115 => ⟨S_, .i32⟩
  | 116 => ⟨S_, .f32⟩
  | 117 => ⟨S13, .f32⟩
  | 118 => ⟨S1x13, .f32⟩
  | 119 => ⟨S_, .f32⟩
  | 120 => ⟨S1x13, .f32⟩
  | 121 => ⟨S1x13, .f32⟩
  | 122 => ⟨S4096x13, .f32⟩
  | 123 => ⟨S4096x13, .f32⟩
  | 124 => ⟨S4096x13, .f32⟩
  | 125 => ⟨S_, .f32⟩
  | 126 => ⟨S_, .f32⟩
  | 127 => ⟨S_, .f32⟩
  | _ => ⟨S4096x4096, .f32⟩

abbrev hbmTy0_5 (i : Nat) : BufTy := match i % 128 with
  | 0 => ⟨S_, .f32⟩
  | 1 => ⟨S13, .f32⟩
  | 2 => ⟨S13, .f32⟩
  | 3 => ⟨S13, .f32⟩
  | 4 => ⟨S_, .f32⟩
  | 5 => ⟨S_, .i1⟩
  | 6 => ⟨S_, .f32⟩
  | 7 => ⟨S_, .f32⟩
  | 8 => ⟨S13, .f32⟩
  | 9 => ⟨S13, .f32⟩
  | 10 => ⟨S13, .f32⟩
  | 11 => ⟨S_, .f32⟩
  | 12 => ⟨S13, .f32⟩
  | 13 => ⟨S13, .f32⟩
  | 14 => ⟨S1x13, .f32⟩
  | 15 => ⟨S4096x13, .f32⟩
  | 16 => ⟨S4096x13, .f32⟩
  | 17 => ⟨S13x4096, .f32⟩
  | 18 => ⟨S13x4096, .f32⟩
  | 19 => ⟨S_, .f32⟩
  | 20 => ⟨S13x4096, .f32⟩
  | 21 => ⟨S13x4096, .f32⟩
  | 22 => ⟨S4096x4096, .f32⟩
  | 23 => ⟨S4096x4096, .f32⟩
  | 24 => ⟨S4096x1, .f32⟩
  | 25 => ⟨S4096x1, .f32⟩
  | 26 => ⟨S4096x14, .f32⟩
  | 27 => ⟨S_, .f32⟩
  | 28 => ⟨S14, .f32⟩
  | 29 => ⟨S_, .f32⟩
  | 30 => ⟨S14, .f32⟩
  | 31 => ⟨S14, .f32⟩
  | 32 => ⟨S1x14, .f32⟩
  | 33 => ⟨S4096x14, .f32⟩
  | 34 => ⟨S4096x14, .f32⟩
  | 35 => ⟨S_, .i32⟩
  | 36 => ⟨S_, .f32⟩
  | 37 => ⟨S14, .f32⟩
  | 38 => ⟨S1x14, .f32⟩
  | 39 => ⟨S_, .f32⟩
  | 40 => ⟨S1x14, .f32⟩
  | 41 => ⟨S1x14, .f32⟩
  | 42 => ⟨S4096x14, .f32⟩
  | 43 => ⟨S4096x14, .f32⟩
  | 44 => ⟨S4096x14, .f32⟩
  | 45 => ⟨S_, .f32⟩
  | 46 => ⟨S_, .f32⟩
  | 47 => ⟨S_, .f32⟩
  | 48 => ⟨S_, .f32⟩
  | 49 => ⟨S14, .f32⟩
  | 50 => ⟨S14, .f32⟩
  | 51 => ⟨S14, .f32⟩
  | 52 => ⟨S_, .f32⟩
  | 53 => ⟨S_, .i1⟩
  | 54 => ⟨S_, .f32⟩
  | 55 => ⟨S_, .f32⟩
  | 56 => ⟨S14, .f32⟩
  | 57 => ⟨S14, .f32⟩
  | 58 => ⟨S14, .f32⟩
  | 59 => ⟨S_, .f32⟩
  | 60 => ⟨S14, .f32⟩
  | 61 => ⟨S14, .f32⟩
  | 62 => ⟨S1x14, .f32⟩
  | 63 => ⟨S4096x14, .f32⟩
  | 64 => ⟨S4096x14, .f32⟩
  | 65 => ⟨S14x4096, .f32⟩
  | 66 => ⟨S14x4096, .f32⟩
  | 67 => ⟨S_, .f32⟩
  | 68 => ⟨S14x4096, .f32⟩
  | 69 => ⟨S14x4096, .f32⟩
  | 70 => ⟨S4096x4096, .f32⟩
  | 71 => ⟨S4096x4096, .f32⟩
  | 72 => ⟨S4096x1, .f32⟩
  | 73 => ⟨S4096x1, .f32⟩
  | 74 => ⟨S4096x15, .f32⟩
  | 75 => ⟨S_, .f32⟩
  | 76 => ⟨S15, .f32⟩
  | 77 => ⟨S_, .f32⟩
  | 78 => ⟨S15, .f32⟩
  | 79 => ⟨S15, .f32⟩
  | 80 => ⟨S1x15, .f32⟩
  | 81 => ⟨S4096x15, .f32⟩
  | 82 => ⟨S4096x15, .f32⟩
  | 83 => ⟨S_, .i32⟩
  | 84 => ⟨S_, .f32⟩
  | 85 => ⟨S15, .f32⟩
  | 86 => ⟨S1x15, .f32⟩
  | 87 => ⟨S_, .f32⟩
  | 88 => ⟨S1x15, .f32⟩
  | 89 => ⟨S1x15, .f32⟩
  | 90 => ⟨S4096x15, .f32⟩
  | 91 => ⟨S4096x15, .f32⟩
  | 92 => ⟨S4096x15, .f32⟩
  | 93 => ⟨S_, .f32⟩
  | 94 => ⟨S_, .f32⟩
  | 95 => ⟨S_, .f32⟩
  | 96 => ⟨S_, .f32⟩
  | 97 => ⟨S15, .f32⟩
  | 98 => ⟨S15, .f32⟩
  | 99 => ⟨S15, .f32⟩
  | 100 => ⟨S_, .f32⟩
  | 101 => ⟨S_, .i1⟩
  | 102 => ⟨S_, .f32⟩
  | 103 => ⟨S_, .f32⟩
  | 104 => ⟨S15, .f32⟩
  | 105 => ⟨S15, .f32⟩
  | 106 => ⟨S15, .f32⟩
  | 107 => ⟨S_, .f32⟩
  | 108 => ⟨S15, .f32⟩
  | 109 => ⟨S15, .f32⟩
  | 110 => ⟨S1x15, .f32⟩
  | 111 => ⟨S4096x15, .f32⟩
  | 112 => ⟨S4096x15, .f32⟩
  | 113 => ⟨S15x4096, .f32⟩
  | 114 => ⟨S15x4096, .f32⟩
  | 115 => ⟨S_, .f32⟩
  | 116 => ⟨S15x4096, .f32⟩
  | 117 => ⟨S15x4096, .f32⟩
  | 118 => ⟨S4096x4096, .f32⟩
  | 119 => ⟨S4096x4096, .f32⟩
  | 120 => ⟨S4096x1, .f32⟩
  | 121 => ⟨S4096x1, .f32⟩
  | 122 => ⟨S4096x16, .f32⟩
  | 123 => ⟨S4096x1, .f32⟩
  | 124 => ⟨S4096x1, .f32⟩
  | 125 => ⟨S4096x1, .f32⟩
  | 126 => ⟨S_, .f32⟩
  | 127 => ⟨S1, .f32⟩
  | _ => ⟨S4096x4096, .f32⟩

abbrev hbmTy0_6 (i : Nat) : BufTy := match i % 128 with
  | 0 => ⟨S_, .f32⟩
  | 1 => ⟨S1, .f32⟩
  | 2 => ⟨S1, .f32⟩
  | 3 => ⟨S1x1, .f32⟩
  | 4 => ⟨S4096x1, .f32⟩
  | 5 => ⟨S4096x1, .f32⟩
  | 6 => ⟨S_, .i32⟩
  | 7 => ⟨S_, .f32⟩
  | 8 => ⟨S1, .f32⟩
  | 9 => ⟨S1x1, .f32⟩
  | 10 => ⟨S_, .f32⟩
  | 11 => ⟨S1x1, .f32⟩
  | 12 => ⟨S1x1, .f32⟩
  | 13 => ⟨S4096x1, .f32⟩
  | 14 => ⟨S4096x1, .f32⟩
  | 15 => ⟨S4096x1, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S_, .f32⟩
  | 24 => ⟨S_, .i1⟩
  | 25 => ⟨S_, .f32⟩
  | 26 => ⟨S_, .f32⟩
  | 27 => ⟨S1, .f32⟩
  | 28 => ⟨S1, .f32⟩
  | 29 => ⟨S1, .f32⟩
  | 30 => ⟨S_, .f32⟩
  | 31 => ⟨S1, .f32⟩
  | 32 => ⟨S1, .f32⟩
  | 33 => ⟨S1x1, .f32⟩
  | 34 => ⟨S4096x1, .f32⟩
  | 35 => ⟨S4096x1, .f32⟩
  | 36 => ⟨S1x4096, .f32⟩
  | 37 => ⟨S1x4096, .f32⟩
  | 38 => ⟨S_, .f32⟩
  | 39 => ⟨S1x4096, .f32⟩
  | 40 => ⟨S1x4096, .f32⟩
  | 41 => ⟨S4096x4096, .f32⟩
  | 42 => ⟨S4096x4096, .f32⟩
  | 43 => ⟨S4096x1, .f32⟩
  | 44 => ⟨S4096x1, .f32⟩
  | 45 => ⟨S4096x2, .f32⟩
  | 46 => ⟨S_, .f32⟩
  | 47 => ⟨S2, .f32⟩
  | 48 => ⟨S_, .f32⟩
  | 49 => ⟨S2, .f32⟩
  | 50 => ⟨S2, .f32⟩
  | 51 => ⟨S1x2, .f32⟩
  | 52 => ⟨S4096x2, .f32⟩
  | 53 => ⟨S4096x2, .f32⟩
  | 54 => ⟨S_, .i32⟩
  | 55 => ⟨S_, .f32⟩
  | 56 => ⟨S2, .f32⟩
  | 57 => ⟨S1x2, .f32⟩
  | 58 => ⟨S_, .f32⟩
  | 59 => ⟨S1x2, .f32⟩
  | 60 => ⟨S1x2, .f32⟩
  | 61 => ⟨S4096x2, .f32⟩
  | 62 => ⟨S4096x2, .f32⟩
  | 63 => ⟨S4096x2, .f32⟩
  | 64 => ⟨S_, .f32⟩
  | 65 => ⟨S_, .f32⟩
  | 66 => ⟨S_, .f32⟩
  | 67 => ⟨S_, .f32⟩
  | 68 => ⟨S2, .f32⟩
  | 69 => ⟨S2, .f32⟩
  | 70 => ⟨S2, .f32⟩
  | 71 => ⟨S_, .f32⟩
  | 72 => ⟨S_, .i1⟩
  | 73 => ⟨S_, .f32⟩
  | 74 => ⟨S_, .f32⟩
  | 75 => ⟨S2, .f32⟩
  | 76 => ⟨S2, .f32⟩
  | 77 => ⟨S2, .f32⟩
  | 78 => ⟨S_, .f32⟩
  | 79 => ⟨S2, .f32⟩
  | 80 => ⟨S2, .f32⟩
  | 81 => ⟨S1x2, .f32⟩
  | 82 => ⟨S4096x2, .f32⟩
  | 83 => ⟨S4096x2, .f32⟩
  | 84 => ⟨S2x4096, .f32⟩
  | 85 => ⟨S2x4096, .f32⟩
  | 86 => ⟨S_, .f32⟩
  | 87 => ⟨S2x4096, .f32⟩
  | 88 => ⟨S2x4096, .f32⟩
  | 89 => ⟨S4096x4096, .f32⟩
  | 90 => ⟨S4096x4096, .f32⟩
  | 91 => ⟨S4096x1, .f32⟩
  | 92 => ⟨S4096x1, .f32⟩
  | 93 => ⟨S4096x3, .f32⟩
  | 94 => ⟨S_, .f32⟩
  | 95 => ⟨S3, .f32⟩
  | 96 => ⟨S_, .f32⟩
  | 97 => ⟨S3, .f32⟩
  | 98 => ⟨S3, .f32⟩
  | 99 => ⟨S1x3, .f32⟩
  | 100 => ⟨S4096x3, .f32⟩
  | 101 => ⟨S4096x3, .f32⟩
  | 102 => ⟨S_, .i32⟩
  | 103 => ⟨S_, .f32⟩
  | 104 => ⟨S3, .f32⟩
  | 105 => ⟨S1x3, .f32⟩
  | 106 => ⟨S_, .f32⟩
  | 107 => ⟨S1x3, .f32⟩
  | 108 => ⟨S1x3, .f32⟩
  | 109 => ⟨S4096x3, .f32⟩
  | 110 => ⟨S4096x3, .f32⟩
  | 111 => ⟨S4096x3, .f32⟩
  | 112 => ⟨S_, .f32⟩
  | 113 => ⟨S_, .f32⟩
  | 114 => ⟨S_, .f32⟩
  | 115 => ⟨S_, .f32⟩
  | 116 => ⟨S3, .f32⟩
  | 117 => ⟨S3, .f32⟩
  | 118 => ⟨S3, .f32⟩
  | 119 => ⟨S_, .f32⟩
  | 120 => ⟨S_, .i1⟩
  | 121 => ⟨S_, .f32⟩
  | 122 => ⟨S_, .f32⟩
  | 123 => ⟨S3, .f32⟩
  | 124 => ⟨S3, .f32⟩
  | 125 => ⟨S3, .f32⟩
  | 126 => ⟨S_, .f32⟩
  | 127 => ⟨S3, .f32⟩
  | _ => ⟨S4096x4096, .f32⟩

abbrev hbmTy0_7 (i : Nat) : BufTy := match i % 128 with
  | 0 => ⟨S3, .f32⟩
  | 1 => ⟨S1x3, .f32⟩
  | 2 => ⟨S4096x3, .f32⟩
  | 3 => ⟨S4096x3, .f32⟩
  | 4 => ⟨S3x4096, .f32⟩
  | 5 => ⟨S3x4096, .f32⟩
  | 6 => ⟨S_, .f32⟩
  | 7 => ⟨S3x4096, .f32⟩
  | 8 => ⟨S3x4096, .f32⟩
  | 9 => ⟨S4096x4096, .f32⟩
  | 10 => ⟨S4096x4096, .f32⟩
  | 11 => ⟨S4096x1, .f32⟩
  | 12 => ⟨S4096x1, .f32⟩
  | 13 => ⟨S4096x4, .f32⟩
  | 14 => ⟨S_, .f32⟩
  | 15 => ⟨S4, .f32⟩
  | 16 => ⟨S_, .f32⟩
  | 17 => ⟨S4, .f32⟩
  | 18 => ⟨S4, .f32⟩
  | 19 => ⟨S1x4, .f32⟩
  | 20 => ⟨S4096x4, .f32⟩
  | 21 => ⟨S4096x4, .f32⟩
  | 22 => ⟨S_, .i32⟩
  | 23 => ⟨S_, .f32⟩
  | 24 => ⟨S4, .f32⟩
  | 25 => ⟨S1x4, .f32⟩
  | 26 => ⟨S_, .f32⟩
  | 27 => ⟨S1x4, .f32⟩
  | 28 => ⟨S1x4, .f32⟩
  | 29 => ⟨S4096x4, .f32⟩
  | 30 => ⟨S4096x4, .f32⟩
  | 31 => ⟨S4096x4, .f32⟩
  | 32 => ⟨S_, .f32⟩
  | 33 => ⟨S_, .f32⟩
  | 34 => ⟨S_, .f32⟩
  | 35 => ⟨S_, .f32⟩
  | 36 => ⟨S4, .f32⟩
  | 37 => ⟨S4, .f32⟩
  | 38 => ⟨S4, .f32⟩
  | 39 => ⟨S_, .f32⟩
  | 40 => ⟨S_, .i1⟩
  | 41 => ⟨S_, .f32⟩
  | 42 => ⟨S_, .f32⟩
  | 43 => ⟨S4, .f32⟩
  | 44 => ⟨S4, .f32⟩
  | 45 => ⟨S4, .f32⟩
  | 46 => ⟨S_, .f32⟩
  | 47 => ⟨S4, .f32⟩
  | 48 => ⟨S4, .f32⟩
  | 49 => ⟨S1x4, .f32⟩
  | 50 => ⟨S4096x4, .f32⟩
  | 51 => ⟨S4096x4, .f32⟩
  | 52 => ⟨S4x4096, .f32⟩
  | 53 => ⟨S4x4096, .f32⟩
  | 54 => ⟨S_, .f32⟩
  | 55 => ⟨S4x4096, .f32⟩
  | 56 => ⟨S4x4096, .f32⟩
  | 57 => ⟨S4096x4096, .f32⟩
  | 58 => ⟨S4096x4096, .f32⟩
  | 59 => ⟨S4096x1, .f32⟩
  | 60 => ⟨S4096x1, .f32⟩
  | 61 => ⟨S4096x5, .f32⟩
  | 62 => ⟨S_, .f32⟩
  | 63 => ⟨S5, .f32⟩
  | 64 => ⟨S_, .f32⟩
  | 65 => ⟨S5, .f32⟩
  | 66 => ⟨S5, .f32⟩
  | 67 => ⟨S1x5, .f32⟩
  | 68 => ⟨S4096x5, .f32⟩
  | 69 => ⟨S4096x5, .f32⟩
  | 70 => ⟨S_, .i32⟩
  | 71 => ⟨S_, .f32⟩
  | 72 => ⟨S5, .f32⟩
  | 73 => ⟨S1x5, .f32⟩
  | 74 => ⟨S_, .f32⟩
  | 75 => ⟨S1x5, .f32⟩
  | 76 => ⟨S1x5, .f32⟩
  | 77 => ⟨S4096x5, .f32⟩
  | 78 => ⟨S4096x5, .f32⟩
  | 79 => ⟨S4096x5, .f32⟩
  | 80 => ⟨S_, .f32⟩
  | 81 => ⟨S_, .f32⟩
  | 82 => ⟨S_, .f32⟩
  | 83 => ⟨S_, .f32⟩
  | 84 => ⟨S5, .f32⟩
  | 85 => ⟨S5, .f32⟩
  | 86 => ⟨S5, .f32⟩
  | 87 => ⟨S_, .f32⟩
  | 88 => ⟨S_, .i1⟩
  | 89 => ⟨S_, .f32⟩
  | 90 => ⟨S_, .f32⟩
  | 91 => ⟨S5, .f32⟩
  | 92 => ⟨S5, .f32⟩
  | 93 => ⟨S5, .f32⟩
  | 94 => ⟨S_, .f32⟩
  | 95 => ⟨S5, .f32⟩
  | 96 => ⟨S5, .f32⟩
  | 97 => ⟨S1x5, .f32⟩
  | 98 => ⟨S4096x5, .f32⟩
  | 99 => ⟨S4096x5, .f32⟩
  | 100 => ⟨S5x4096, .f32⟩
  | 101 => ⟨S5x4096, .f32⟩
  | 102 => ⟨S_, .f32⟩
  | 103 => ⟨S5x4096, .f32⟩
  | 104 => ⟨S5x4096, .f32⟩
  | 105 => ⟨S4096x4096, .f32⟩
  | 106 => ⟨S4096x4096, .f32⟩
  | 107 => ⟨S4096x1, .f32⟩
  | 108 => ⟨S4096x1, .f32⟩
  | 109 => ⟨S4096x6, .f32⟩
  | 110 => ⟨S_, .f32⟩
  | 111 => ⟨S6, .f32⟩
  | 112 => ⟨S_, .f32⟩
  | 113 => ⟨S6, .f32⟩
  | 114 => ⟨S6, .f32⟩
  | 115 => ⟨S1x6, .f32⟩
  | 116 => ⟨S4096x6, .f32⟩
  | 117 => ⟨S4096x6, .f32⟩
  | 118 => ⟨S_, .i32⟩
  | 119 => ⟨S_, .f32⟩
  | 120 => ⟨S6, .f32⟩
  | 121 => ⟨S1x6, .f32⟩
  | 122 => ⟨S_, .f32⟩
  | 123 => ⟨S1x6, .f32⟩
  | 124 => ⟨S1x6, .f32⟩
  | 125 => ⟨S4096x6, .f32⟩
  | 126 => ⟨S4096x6, .f32⟩
  | 127 => ⟨S4096x6, .f32⟩
  | _ => ⟨S4096x4096, .f32⟩

abbrev hbmTy0_8 (i : Nat) : BufTy := match i % 128 with
  | 0 => ⟨S_, .f32⟩
  | 1 => ⟨S_, .f32⟩
  | 2 => ⟨S_, .f32⟩
  | 3 => ⟨S_, .f32⟩
  | 4 => ⟨S6, .f32⟩
  | 5 => ⟨S6, .f32⟩
  | 6 => ⟨S6, .f32⟩
  | 7 => ⟨S_, .f32⟩
  | 8 => ⟨S_, .i1⟩
  | 9 => ⟨S_, .f32⟩
  | 10 => ⟨S_, .f32⟩
  | 11 => ⟨S6, .f32⟩
  | 12 => ⟨S6, .f32⟩
  | 13 => ⟨S6, .f32⟩
  | 14 => ⟨S_, .f32⟩
  | 15 => ⟨S6, .f32⟩
  | 16 => ⟨S6, .f32⟩
  | 17 => ⟨S1x6, .f32⟩
  | 18 => ⟨S4096x6, .f32⟩
  | 19 => ⟨S4096x6, .f32⟩
  | 20 => ⟨S6x4096, .f32⟩
  | 21 => ⟨S6x4096, .f32⟩
  | 22 => ⟨S_, .f32⟩
  | 23 => ⟨S6x4096, .f32⟩
  | 24 => ⟨S6x4096, .f32⟩
  | 25 => ⟨S4096x4096, .f32⟩
  | 26 => ⟨S4096x4096, .f32⟩
  | 27 => ⟨S4096x1, .f32⟩
  | 28 => ⟨S4096x1, .f32⟩
  | 29 => ⟨S4096x7, .f32⟩
  | 30 => ⟨S_, .f32⟩
  | 31 => ⟨S7, .f32⟩
  | 32 => ⟨S_, .f32⟩
  | 33 => ⟨S7, .f32⟩
  | 34 => ⟨S7, .f32⟩
  | 35 => ⟨S1x7, .f32⟩
  | 36 => ⟨S4096x7, .f32⟩
  | 37 => ⟨S4096x7, .f32⟩
  | 38 => ⟨S_, .i32⟩
  | 39 => ⟨S_, .f32⟩
  | 40 => ⟨S7, .f32⟩
  | 41 => ⟨S1x7, .f32⟩
  | 42 => ⟨S_, .f32⟩
  | 43 => ⟨S1x7, .f32⟩
  | 44 => ⟨S1x7, .f32⟩
  | 45 => ⟨S4096x7, .f32⟩
  | 46 => ⟨S4096x7, .f32⟩
  | 47 => ⟨S4096x7, .f32⟩
  | 48 => ⟨S_, .f32⟩
  | 49 => ⟨S_, .f32⟩
  | 50 => ⟨S_, .f32⟩
  | 51 => ⟨S_, .f32⟩
  | 52 => ⟨S7, .f32⟩
  | 53 => ⟨S7, .f32⟩
  | 54 => ⟨S7, .f32⟩
  | 55 => ⟨S_, .f32⟩
  | 56 => ⟨S_, .i1⟩
  | 57 => ⟨S_, .f32⟩
  | 58 => ⟨S_, .f32⟩
  | 59 => ⟨S7, .f32⟩
  | 60 => ⟨S7, .f32⟩
  | 61 => ⟨S7, .f32⟩
  | 62 => ⟨S_, .f32⟩
  | 63 => ⟨S7, .f32⟩
  | 64 => ⟨S7, .f32⟩
  | 65 => ⟨S1x7, .f32⟩
  | 66 => ⟨S4096x7, .f32⟩
  | 67 => ⟨S4096x7, .f32⟩
  | 68 => ⟨S7x4096, .f32⟩
  | 69 => ⟨S7x4096, .f32⟩
  | 70 => ⟨S_, .f32⟩
  | 71 => ⟨S7x4096, .f32⟩
  | 72 => ⟨S7x4096, .f32⟩
  | 73 => ⟨S4096x4096, .f32⟩
  | 74 => ⟨S4096x4096, .f32⟩
  | 75 => ⟨S4096x1, .f32⟩
  | 76 => ⟨S4096x1, .f32⟩
  | 77 => ⟨S4096x8, .f32⟩
  | 78 => ⟨S_, .f32⟩
  | 79 => ⟨S8, .f32⟩
  | 80 => ⟨S_, .f32⟩
  | 81 => ⟨S8, .f32⟩
  | 82 => ⟨S8, .f32⟩
  | 83 => ⟨S1x8, .f32⟩
  | 84 => ⟨S4096x8, .f32⟩
  | 85 => ⟨S4096x8, .f32⟩
  | 86 => ⟨S_, .i32⟩
  | 87 => ⟨S_, .f32⟩
  | 88 => ⟨S8, .f32⟩
  | 89 => ⟨S1x8, .f32⟩
  | 90 => ⟨S_, .f32⟩
  | 91 => ⟨S1x8, .f32⟩
  | 92 => ⟨S1x8, .f32⟩
  | 93 => ⟨S4096x8, .f32⟩
  | 94 => ⟨S4096x8, .f32⟩
  | 95 => ⟨S4096x8, .f32⟩
  | 96 => ⟨S_, .f32⟩
  | 97 => ⟨S_, .f32⟩
  | 98 => ⟨S_, .f32⟩
  | 99 => ⟨S_, .f32⟩
  | 100 => ⟨S8, .f32⟩
  | 101 => ⟨S8, .f32⟩
  | 102 => ⟨S8, .f32⟩
  | 103 => ⟨S_, .f32⟩
  | 104 => ⟨S_, .i1⟩
  | 105 => ⟨S_, .f32⟩
  | 106 => ⟨S_, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S1x8, .f32⟩
  | 114 => ⟨S4096x8, .f32⟩
  | 115 => ⟨S4096x8, .f32⟩
  | 116 => ⟨S8x4096, .f32⟩
  | 117 => ⟨S8x4096, .f32⟩
  | 118 => ⟨S_, .f32⟩
  | 119 => ⟨S8x4096, .f32⟩
  | 120 => ⟨S8x4096, .f32⟩
  | 121 => ⟨S4096x4096, .f32⟩
  | 122 => ⟨S4096x4096, .f32⟩
  | 123 => ⟨S4096x1, .f32⟩
  | 124 => ⟨S4096x1, .f32⟩
  | 125 => ⟨S4096x9, .f32⟩
  | 126 => ⟨S_, .f32⟩
  | 127 => ⟨S9, .f32⟩
  | _ => ⟨S4096x4096, .f32⟩

abbrev hbmTy0_9 (i : Nat) : BufTy := match i % 128 with
  | 0 => ⟨S_, .f32⟩
  | 1 => ⟨S9, .f32⟩
  | 2 => ⟨S9, .f32⟩
  | 3 => ⟨S1x9, .f32⟩
  | 4 => ⟨S4096x9, .f32⟩
  | 5 => ⟨S4096x9, .f32⟩
  | 6 => ⟨S_, .i32⟩
  | 7 => ⟨S_, .f32⟩
  | 8 => ⟨S9, .f32⟩
  | 9 => ⟨S1x9, .f32⟩
  | 10 => ⟨S_, .f32⟩
  | 11 => ⟨S1x9, .f32⟩
  | 12 => ⟨S1x9, .f32⟩
  | 13 => ⟨S4096x9, .f32⟩
  | 14 => ⟨S4096x9, .f32⟩
  | 15 => ⟨S4096x9, .f32⟩
  | 16 => ⟨S_, .f32⟩
  | 17 => ⟨S_, .f32⟩
  | 18 => ⟨S_, .f32⟩
  | 19 => ⟨S_, .f32⟩
  | 20 => ⟨S9, .f32⟩
  | 21 => ⟨S9, .f32⟩
  | 22 => ⟨S9, .f32⟩
  | 23 => ⟨S_, .f32⟩
  | 24 => ⟨S_, .i1⟩
  | 25 => ⟨S_, .f32⟩
  | 26 => ⟨S_, .f32⟩
  | 27 => ⟨S9, .f32⟩
  | 28 => ⟨S9, .f32⟩
  | 29 => ⟨S9, .f32⟩
  | 30 => ⟨S_, .f32⟩
  | 31 => ⟨S9, .f32⟩
  | 32 => ⟨S9, .f32⟩
  | 33 => ⟨S1x9, .f32⟩
  | 34 => ⟨S4096x9, .f32⟩
  | 35 => ⟨S4096x9, .f32⟩
  | 36 => ⟨S9x4096, .f32⟩
  | 37 => ⟨S9x4096, .f32⟩
  | 38 => ⟨S_, .f32⟩
  | 39 => ⟨S9x4096, .f32⟩
  | 40 => ⟨S9x4096, .f32⟩
  | 41 => ⟨S4096x4096, .f32⟩
  | 42 => ⟨S4096x4096, .f32⟩
  | 43 => ⟨S4096x1, .f32⟩
  | 44 => ⟨S4096x1, .f32⟩
  | 45 => ⟨S4096x10, .f32⟩
  | 46 => ⟨S_, .f32⟩
  | 47 => ⟨S10, .f32⟩
  | 48 => ⟨S_, .f32⟩
  | 49 => ⟨S10, .f32⟩
  | 50 => ⟨S10, .f32⟩
  | 51 => ⟨S1x10, .f32⟩
  | 52 => ⟨S4096x10, .f32⟩
  | 53 => ⟨S4096x10, .f32⟩
  | 54 => ⟨S_, .i32⟩
  | 55 => ⟨S_, .f32⟩
  | 56 => ⟨S10, .f32⟩
  | 57 => ⟨S1x10, .f32⟩
  | 58 => ⟨S_, .f32⟩
  | 59 => ⟨S1x10, .f32⟩
  | 60 => ⟨S1x10, .f32⟩
  | 61 => ⟨S4096x10, .f32⟩
  | 62 => ⟨S4096x10, .f32⟩
  | 63 => ⟨S4096x10, .f32⟩
  | 64 => ⟨S_, .f32⟩
  | 65 => ⟨S_, .f32⟩
  | 66 => ⟨S_, .f32⟩
  | 67 => ⟨S_, .f32⟩
  | 68 => ⟨S10, .f32⟩
  | 69 => ⟨S10, .f32⟩
  | 70 => ⟨S10, .f32⟩
  | 71 => ⟨S_, .f32⟩
  | 72 => ⟨S_, .i1⟩
  | 73 => ⟨S_, .f32⟩
  | 74 => ⟨S_, .f32⟩
  | 75 => ⟨S10, .f32⟩
  | 76 => ⟨S10, .f32⟩
  | 77 => ⟨S10, .f32⟩
  | 78 => ⟨S_, .f32⟩
  | 79 => ⟨S10, .f32⟩
  | 80 => ⟨S10, .f32⟩
  | 81 => ⟨S1x10, .f32⟩
  | 82 => ⟨S4096x10, .f32⟩
  | 83 => ⟨S4096x10, .f32⟩
  | 84 => ⟨S10x4096, .f32⟩
  | 85 => ⟨S10x4096, .f32⟩
  | 86 => ⟨S_, .f32⟩
  | 87 => ⟨S10x4096, .f32⟩
  | 88 => ⟨S10x4096, .f32⟩
  | 89 => ⟨S4096x4096, .f32⟩
  | 90 => ⟨S4096x4096, .f32⟩
  | 91 => ⟨S4096x1, .f32⟩
  | 92 => ⟨S4096x1, .f32⟩
  | 93 => ⟨S4096x11, .f32⟩
  | 94 => ⟨S_, .f32⟩
  | 95 => ⟨S11, .f32⟩
  | 96 => ⟨S_, .f32⟩
  | 97 => ⟨S11, .f32⟩
  | 98 => ⟨S11, .f32⟩
  | 99 => ⟨S1x11, .f32⟩
  | 100 => ⟨S4096x11, .f32⟩
  | 101 => ⟨S4096x11, .f32⟩
  | 102 => ⟨S_, .i32⟩
  | 103 => ⟨S_, .f32⟩
  | 104 => ⟨S11, .f32⟩
  | 105 => ⟨S1x11, .f32⟩
  | 106 => ⟨S_, .f32⟩
  | 107 => ⟨S1x11, .f32⟩
  | 108 => ⟨S1x11, .f32⟩
  | 109 => ⟨S4096x11, .f32⟩
  | 110 => ⟨S4096x11, .f32⟩
  | 111 => ⟨S4096x11, .f32⟩
  | 112 => ⟨S_, .f32⟩
  | 113 => ⟨S_, .f32⟩
  | 114 => ⟨S_, .f32⟩
  | 115 => ⟨S_, .f32⟩
  | 116 => ⟨S11, .f32⟩
  | 117 => ⟨S11, .f32⟩
  | 118 => ⟨S11, .f32⟩
  | 119 => ⟨S_, .f32⟩
  | 120 => ⟨S_, .i1⟩
  | 121 => ⟨S_, .f32⟩
  | 122 => ⟨S_, .f32⟩
  | 123 => ⟨S11, .f32⟩
  | 124 => ⟨S11, .f32⟩
  | 125 => ⟨S11, .f32⟩
  | 126 => ⟨S_, .f32⟩
  | 127 => ⟨S11, .f32⟩
  | _ => ⟨S4096x4096, .f32⟩

abbrev hbmTy0_10 (i : Nat) : BufTy := match i % 128 with
  | 0 => ⟨S11, .f32⟩
  | 1 => ⟨S1x11, .f32⟩
  | 2 => ⟨S4096x11, .f32⟩
  | 3 => ⟨S4096x11, .f32⟩
  | 4 => ⟨S11x4096, .f32⟩
  | 5 => ⟨S11x4096, .f32⟩
  | 6 => ⟨S_, .f32⟩
  | 7 => ⟨S11x4096, .f32⟩
  | 8 => ⟨S11x4096, .f32⟩
  | 9 => ⟨S4096x4096, .f32⟩
  | 10 => ⟨S4096x4096, .f32⟩
  | 11 => ⟨S4096x1, .f32⟩
  | 12 => ⟨S4096x1, .f32⟩
  | 13 => ⟨S4096x12, .f32⟩
  | 14 => ⟨S_, .f32⟩
  | 15 => ⟨S12, .f32⟩
  | 16 => ⟨S_, .f32⟩
  | 17 => ⟨S12, .f32⟩
  | 18 => ⟨S12, .f32⟩
  | 19 => ⟨S1x12, .f32⟩
  | 20 => ⟨S4096x12, .f32⟩
  | 21 => ⟨S4096x12, .f32⟩
  | 22 => ⟨S_, .i32⟩
  | 23 => ⟨S_, .f32⟩
  | 24 => ⟨S12, .f32⟩
  | 25 => ⟨S1x12, .f32⟩
  | 26 => ⟨S_, .f32⟩
  | 27 => ⟨S1x12, .f32⟩
  | 28 => ⟨S1x12, .f32⟩
  | 29 => ⟨S4096x12, .f32⟩
  | 30 => ⟨S4096x12, .f32⟩
  | 31 => ⟨S4096x12, .f32⟩
  | 32 => ⟨S_, .f32⟩
  | 33 => ⟨S_, .f32⟩
  | 34 => ⟨S_, .f32⟩
  | 35 => ⟨S_, .f32⟩
  | 36 => ⟨S12, .f32⟩
  | 37 => ⟨S12, .f32⟩
  | 38 => ⟨S12, .f32⟩
  | 39 => ⟨S_, .f32⟩
  | 40 => ⟨S_, .i1⟩
  | 41 => ⟨S_, .f32⟩
  | 42 => ⟨S_, .f32⟩
  | 43 => ⟨S12, .f32⟩
  | 44 => ⟨S12, .f32⟩
  | 45 => ⟨S12, .f32⟩
  | 46 => ⟨S_, .f32⟩
  | 47 => ⟨S12, .f32⟩
  | 48 => ⟨S12, .f32⟩
  | 49 => ⟨S1x12, .f32⟩
  | 50 => ⟨S4096x12, .f32⟩
  | 51 => ⟨S4096x12, .f32⟩
  | 52 => ⟨S12x4096, .f32⟩
  | 53 => ⟨S12x4096, .f32⟩
  | 54 => ⟨S_, .f32⟩
  | 55 => ⟨S12x4096, .f32⟩
  | 56 => ⟨S12x4096, .f32⟩
  | 57 => ⟨S4096x4096, .f32⟩
  | 58 => ⟨S4096x4096, .f32⟩
  | 59 => ⟨S4096x1, .f32⟩
  | 60 => ⟨S4096x1, .f32⟩
  | 61 => ⟨S4096x13, .f32⟩
  | 62 => ⟨S_, .f32⟩
  | 63 => ⟨S13, .f32⟩
  | 64 => ⟨S_, .f32⟩
  | 65 => ⟨S13, .f32⟩
  | 66 => ⟨S13, .f32⟩
  | 67 => ⟨S1x13, .f32⟩
  | 68 => ⟨S4096x13, .f32⟩
  | 69 => ⟨S4096x13, .f32⟩
  | 70 => ⟨S_, .i32⟩
  | 71 => ⟨S_, .f32⟩
  | 72 => ⟨S13, .f32⟩
  | 73 => ⟨S1x13, .f32⟩
  | 74 => ⟨S_, .f32⟩
  | 75 => ⟨S1x13, .f32⟩
  | 76 => ⟨S1x13, .f32⟩
  | 77 => ⟨S4096x13, .f32⟩
  | 78 => ⟨S4096x13, .f32⟩
  | 79 => ⟨S4096x13, .f32⟩
  | 80 => ⟨S_, .f32⟩
  | 81 => ⟨S_, .f32⟩
  | 82 => ⟨S_, .f32⟩
  | 83 => ⟨S_, .f32⟩
  | 84 => ⟨S13, .f32⟩
  | 85 => ⟨S13, .f32⟩
  | 86 => ⟨S13, .f32⟩
  | 87 => ⟨S_, .f32⟩
  | 88 => ⟨S_, .i1⟩
  | 89 => ⟨S_, .f32⟩
  | 90 => ⟨S_, .f32⟩
  | 91 => ⟨S13, .f32⟩
  | 92 => ⟨S13, .f32⟩
  | 93 => ⟨S13, .f32⟩
  | 94 => ⟨S_, .f32⟩
  | 95 => ⟨S13, .f32⟩
  | 96 => ⟨S13, .f32⟩
  | 97 => ⟨S1x13, .f32⟩
  | 98 => ⟨S4096x13, .f32⟩
  | 99 => ⟨S4096x13, .f32⟩
  | 100 => ⟨S13x4096, .f32⟩
  | 101 => ⟨S13x4096, .f32⟩
  | 102 => ⟨S_, .f32⟩
  | 103 => ⟨S13x4096, .f32⟩
  | 104 => ⟨S13x4096, .f32⟩
  | 105 => ⟨S4096x4096, .f32⟩
  | 106 => ⟨S4096x4096, .f32⟩
  | 107 => ⟨S4096x1, .f32⟩
  | 108 => ⟨S4096x1, .f32⟩
  | 109 => ⟨S4096x14, .f32⟩
  | 110 => ⟨S_, .f32⟩
  | 111 => ⟨S14, .f32⟩
  | 112 => ⟨S_, .f32⟩
  | 113 => ⟨S14, .f32⟩
  | 114 => ⟨S14, .f32⟩
  | 115 => ⟨S1x14, .f32⟩
  | 116 => ⟨S4096x14, .f32⟩
  | 117 => ⟨S4096x14, .f32⟩
  | 118 => ⟨S_, .i32⟩
  | 119 => ⟨S_, .f32⟩
  | 120 => ⟨S14, .f32⟩
  | 121 => ⟨S1x14, .f32⟩
  | 122 => ⟨S_, .f32⟩
  | 123 => ⟨S1x14, .f32⟩
  | 124 => ⟨S1x14, .f32⟩
  | 125 => ⟨S4096x14, .f32⟩
  | 126 => ⟨S4096x14, .f32⟩
  | 127 => ⟨S4096x14, .f32⟩
  | _ => ⟨S4096x4096, .f32⟩

abbrev hbmTy0_11 (i : Nat) : BufTy := match i % 128 with
  | 0 => ⟨S_, .f32⟩
  | 1 => ⟨S_, .f32⟩
  | 2 => ⟨S_, .f32⟩
  | 3 => ⟨S_, .f32⟩
  | 4 => ⟨S14, .f32⟩
  | 5 => ⟨S14, .f32⟩
  | 6 => ⟨S14, .f32⟩
  | 7 => ⟨S_, .f32⟩
  | 8 => ⟨S_, .i1⟩
  | 9 => ⟨S_, .f32⟩
  | 10 => ⟨S_, .f32⟩
  | 11 => ⟨S14, .f32⟩
  | 12 => ⟨S14, .f32⟩
  | 13 => ⟨S14, .f32⟩
  | 14 => ⟨S_, .f32⟩
  | 15 => ⟨S14, .f32⟩
  | 16 => ⟨S14, .f32⟩
  | 17 => ⟨S1x14, .f32⟩
  | 18 => ⟨S4096x14, .f32⟩
  | 19 => ⟨S4096x14, .f32⟩
  | 20 => ⟨S14x4096, .f32⟩
  | 21 => ⟨S14x4096, .f32⟩
  | 22 => ⟨S_, .f32⟩
  | 23 => ⟨S14x4096, .f32⟩
  | 24 => ⟨S14x4096, .f32⟩
  | 25 => ⟨S4096x4096, .f32⟩
  | 26 => ⟨S4096x4096, .f32⟩
  | 27 => ⟨S4096x1, .f32⟩
  | 28 => ⟨S4096x1, .f32⟩
  | 29 => ⟨S4096x15, .f32⟩
  | 30 => ⟨S_, .f32⟩
  | 31 => ⟨S15, .f32⟩
  | 32 => ⟨S_, .f32⟩
  | 33 => ⟨S15, .f32⟩
  | 34 => ⟨S15, .f32⟩
  | 35 => ⟨S1x15, .f32⟩
  | 36 => ⟨S4096x15, .f32⟩
  | 37 => ⟨S4096x15, .f32⟩
  | 38 => ⟨S_, .i32⟩
  | 39 => ⟨S_, .f32⟩
  | 40 => ⟨S15, .f32⟩
  | 41 => ⟨S1x15, .f32⟩
  | 42 => ⟨S_, .f32⟩
  | 43 => ⟨S1x15, .f32⟩
  | 44 => ⟨S1x15, .f32⟩
  | 45 => ⟨S4096x15, .f32⟩
  | 46 => ⟨S4096x15, .f32⟩
  | 47 => ⟨S4096x15, .f32⟩
  | 48 => ⟨S_, .f32⟩
  | 49 => ⟨S_, .f32⟩
  | 50 => ⟨S_, .f32⟩
  | 51 => ⟨S_, .f32⟩
  | 52 => ⟨S15, .f32⟩
  | 53 => ⟨S15, .f32⟩
  | 54 => ⟨S15, .f32⟩
  | 55 => ⟨S_, .f32⟩
  | 56 => ⟨S_, .i1⟩
  | 57 => ⟨S_, .f32⟩
  | 58 => ⟨S_, .f32⟩
  | 59 => ⟨S15, .f32⟩
  | 60 => ⟨S15, .f32⟩
  | 61 => ⟨S15, .f32⟩
  | 62 => ⟨S_, .f32⟩
  | 63 => ⟨S15, .f32⟩
  | 64 => ⟨S15, .f32⟩
  | 65 => ⟨S1x15, .f32⟩
  | 66 => ⟨S4096x15, .f32⟩
  | 67 => ⟨S4096x15, .f32⟩
  | 68 => ⟨S15x4096, .f32⟩
  | 69 => ⟨S15x4096, .f32⟩
  | 70 => ⟨S_, .f32⟩
  | 71 => ⟨S15x4096, .f32⟩
  | 72 => ⟨S15x4096, .f32⟩
  | 73 => ⟨S4096x4096, .f32⟩
  | 74 => ⟨S4096x4096, .f32⟩
  | 75 => ⟨S4096x1, .f32⟩
  | 76 => ⟨S4096x1, .f32⟩
  | 77 => ⟨S4096x16, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_cst_3 : Ref sig .tc := ⟨.hbm, 28, rfl⟩
abbrev main_call0_call0_v12 : Ref sig .tc := ⟨.hbm, 29, rfl⟩
abbrev main_call0_call0_cst_4 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_v0 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_cst_3 : Ref sig .tc := ⟨.hbm, 68, rfl⟩
abbrev main_call1_call0_v12 : Ref sig .tc := ⟨.hbm, 69, rfl⟩
abbrev main_call1_call0_cst_4 : Ref sig .tc := ⟨.hbm, 70, rfl⟩
abbrev main_call1_call0_call0_v0 : Ref sig .tc := ⟨.hbm, 71, rfl⟩
abbrev main_call1_call0_call0_v1 : Ref sig .tc := ⟨.hbm, 72, rfl⟩
abbrev main_call1_v0 : Ref sig .tc := ⟨.hbm, 73, rfl⟩
abbrev main_v20 : Ref sig .tc := ⟨.hbm, 74, rfl⟩
abbrev main_cst_5 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst_6 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_7 : Ref sig .tc := ⟨.hbm, 91, rfl⟩
abbrev main_v35 : Ref sig .tc := ⟨.hbm, 92, rfl⟩
abbrev main_cst_8 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_9 : Ref sig .tc := ⟨.hbm, 99, rfl⟩
abbrev main_call2_call0_cst : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_call0_cst_0 : Ref sig .tc := ⟨.hbm, 103, rfl⟩
abbrev main_call2_call0_v2 : Ref sig .tc := ⟨.hbm, 104, rfl⟩
abbrev main_call2_call0_v3 : Ref sig .tc := ⟨.hbm, 105, rfl⟩
abbrev main_call2_call0_v4 : Ref sig .tc := ⟨.hbm, 106, rfl⟩
abbrev main_call2_call0_v5 : Ref sig .tc := ⟨.hbm, 107, rfl⟩
abbrev main_call2_call0_v6 : Ref sig .tc := ⟨.hbm, 108, rfl⟩
abbrev main_call2_call0_v7 : Ref sig .tc := ⟨.hbm, 109, rfl⟩
abbrev main_call2_call0_cst_1 : Ref sig .tc := ⟨.hbm, 110, rfl⟩
abbrev main_call2_call0_v8 : Ref sig .tc := ⟨.hbm, 111, rfl⟩
abbrev main_call2_call0_cst_2 : Ref sig .tc := ⟨.hbm, 112, rfl⟩
abbrev main_call2_call0_v9 : Ref sig .tc := ⟨.hbm, 113, rfl⟩
abbrev main_call2_call0_v10 : Ref sig .tc := ⟨.hbm, 114, rfl⟩
abbrev main_call2_call0_v11 : Ref sig .tc := ⟨.hbm, 115, rfl⟩
abbrev main_call2_call0_cst_3 : Ref sig .tc := ⟨.hbm, 116, rfl⟩
abbrev main_call2_call0_v12 : Ref sig .tc := ⟨.hbm, 117, rfl⟩
abbrev main_call2_call0_cst_4 : Ref sig .tc := ⟨.hbm, 118, rfl⟩
abbrev main_call2_call0_call0_v0 : Ref sig .tc := ⟨.hbm, 119, rfl⟩
abbrev main_call2_call0_call0_v1 : Ref sig .tc := ⟨.hbm, 120, rfl⟩
abbrev main_call2_v0 : Ref sig .tc := ⟨.hbm, 121, rfl⟩
abbrev main_v41 : Ref sig .tc := ⟨.hbm, 122, rfl⟩
abbrev main_cst_10 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_11 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_12 : Ref sig .tc := ⟨.hbm, 139, rfl⟩
abbrev main_v56 : Ref sig .tc := ⟨.hbm, 140, rfl⟩
abbrev main_cst_13 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_c_14 : Ref sig .tc := ⟨.hbm, 147, rfl⟩
abbrev main_call3_call0_cst : Ref sig .tc := ⟨.hbm, 148, rfl⟩
abbrev main_call3_call0_v0 : Ref sig .tc := ⟨.hbm, 149, rfl⟩
abbrev main_call3_call0_v1 : Ref sig .tc := ⟨.hbm, 150, rfl⟩
abbrev main_call3_call0_cst_0 : Ref sig .tc := ⟨.hbm, 151, rfl⟩
abbrev main_call3_call0_v2 : Ref sig .tc := ⟨.hbm, 152, rfl⟩
abbrev main_call3_call0_v3 : Ref sig .tc := ⟨.hbm, 153, rfl⟩
abbrev main_call3_call0_v4 : Ref sig .tc := ⟨.hbm, 154, rfl⟩
abbrev main_call3_call0_v5 : Ref sig .tc := ⟨.hbm, 155, rfl⟩
abbrev main_call3_call0_v6 : Ref sig .tc := ⟨.hbm, 156, rfl⟩
abbrev main_call3_call0_v7 : Ref sig .tc := ⟨.hbm, 157, rfl⟩
abbrev main_call3_call0_cst_1 : Ref sig .tc := ⟨.hbm, 158, rfl⟩
abbrev main_call3_call0_v8 : Ref sig .tc := ⟨.hbm, 159, rfl⟩
abbrev main_call3_call0_cst_2 : Ref sig .tc := ⟨.hbm, 160, rfl⟩
abbrev main_call3_call0_v9 : Ref sig .tc := ⟨.hbm, 161, rfl⟩
abbrev main_call3_call0_v10 : Ref sig .tc := ⟨.hbm, 162, rfl⟩
abbrev main_call3_call0_v11 : Ref sig .tc := ⟨.hbm, 163, rfl⟩
abbrev main_call3_call0_cst_3 : Ref sig .tc := ⟨.hbm, 164, rfl⟩
abbrev main_call3_call0_v12 : Ref sig .tc := ⟨.hbm, 165, rfl⟩
abbrev main_call3_call0_cst_4 : Ref sig .tc := ⟨.hbm, 166, rfl⟩
abbrev main_call3_call0_call0_v0 : Ref sig .tc := ⟨.hbm, 167, rfl⟩
abbrev main_call3_call0_call0_v1 : Ref sig .tc := ⟨.hbm, 168, rfl⟩
abbrev main_call3_v0 : Ref sig .tc := ⟨.hbm, 169, rfl⟩
abbrev main_v62 : Ref sig .tc := ⟨.hbm, 170, rfl⟩
abbrev main_cst_15 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_cst_16 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_cst_17 : Ref sig .tc := ⟨.hbm, 187, rfl⟩
abbrev main_v77 : Ref sig .tc := ⟨.hbm, 188, rfl⟩
abbrev main_cst_18 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_c_19 : Ref sig .tc := ⟨.hbm, 195, rfl⟩
abbrev main_call4_call0_cst : Ref sig .tc := ⟨.hbm, 196, rfl⟩
abbrev main_call4_call0_v0 : Ref sig .tc := ⟨.hbm, 197, rfl⟩
abbrev main_call4_call0_v1 : Ref sig .tc := ⟨.hbm, 198, rfl⟩
abbrev main_call4_call0_cst_0 : Ref sig .tc := ⟨.hbm, 199, rfl⟩
abbrev main_call4_call0_v2 : Ref sig .tc := ⟨.hbm, 200, rfl⟩
abbrev main_call4_call0_v3 : Ref sig .tc := ⟨.hbm, 201, rfl⟩
abbrev main_call4_call0_v4 : Ref sig .tc := ⟨.hbm, 202, rfl⟩
abbrev main_call4_call0_v5 : Ref sig .tc := ⟨.hbm, 203, rfl⟩
abbrev main_call4_call0_v6 : Ref sig .tc := ⟨.hbm, 204, rfl⟩
abbrev main_call4_call0_v7 : Ref sig .tc := ⟨.hbm, 205, rfl⟩
abbrev main_call4_call0_cst_1 : Ref sig .tc := ⟨.hbm, 206, rfl⟩
abbrev main_call4_call0_v8 : Ref sig .tc := ⟨.hbm, 207, rfl⟩
abbrev main_call4_call0_cst_2 : Ref sig .tc := ⟨.hbm, 208, rfl⟩
abbrev main_call4_call0_v9 : Ref sig .tc := ⟨.hbm, 209, rfl⟩
abbrev main_call4_call0_v10 : Ref sig .tc := ⟨.hbm, 210, rfl⟩
abbrev main_call4_call0_v11 : Ref sig .tc := ⟨.hbm, 211, rfl⟩
abbrev main_call4_call0_cst_3 : Ref sig .tc := ⟨.hbm, 212, rfl⟩
abbrev main_call4_call0_v12 : Ref sig .tc := ⟨.hbm, 213, rfl⟩
abbrev main_call4_call0_cst_4 : Ref sig .tc := ⟨.hbm, 214, rfl⟩
abbrev main_call4_call0_call0_v0 : Ref sig .tc := ⟨.hbm, 215, rfl⟩
abbrev main_call4_call0_call0_v1 : Ref sig .tc := ⟨.hbm, 216, rfl⟩
abbrev main_call4_v0 : Ref sig .tc := ⟨.hbm, 217, rfl⟩
abbrev main_v83 : Ref sig .tc := ⟨.hbm, 218, rfl⟩
abbrev main_cst_20 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_cst_21 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_v94 : Ref sig .tc := ⟨.hbm, 231, rfl⟩
abbrev main_v95 : Ref sig .tc := ⟨.hbm, 232, rfl⟩
abbrev main_v96 : Ref sig .tc := ⟨.hbm, 233, rfl⟩
abbrev main_v97 : Ref sig .tc := ⟨.hbm, 234, rfl⟩
abbrev main_cst_22 : Ref sig .tc := ⟨.hbm, 235, rfl⟩
abbrev main_v98 : Ref sig .tc := ⟨.hbm, 236, rfl⟩
abbrev main_cst_23 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_c_24 : Ref sig .tc := ⟨.hbm, 243, rfl⟩
abbrev main_call5_call0_cst : Ref sig .tc := ⟨.hbm, 244, rfl⟩
abbrev main_call5_call0_v0 : Ref sig .tc := ⟨.hbm, 245, rfl⟩
abbrev main_call5_call0_v1 : Ref sig .tc := ⟨.hbm, 246, rfl⟩
abbrev main_call5_call0_cst_0 : Ref sig .tc := ⟨.hbm, 247, rfl⟩
abbrev main_call5_call0_v2 : Ref sig .tc := ⟨.hbm, 248, rfl⟩
abbrev main_call5_call0_v3 : Ref sig .tc := ⟨.hbm, 249, rfl⟩
abbrev main_call5_call0_v4 : Ref sig .tc := ⟨.hbm, 250, rfl⟩
abbrev main_call5_call0_v5 : Ref sig .tc := ⟨.hbm, 251, rfl⟩
abbrev main_call5_call0_v6 : Ref sig .tc := ⟨.hbm, 252, rfl⟩
abbrev main_call5_call0_v7 : Ref sig .tc := ⟨.hbm, 253, rfl⟩
abbrev main_call5_call0_cst_1 : Ref sig .tc := ⟨.hbm, 254, rfl⟩
abbrev main_call5_call0_v8 : Ref sig .tc := ⟨.hbm, 255, rfl⟩
abbrev main_call5_call0_cst_2 : Ref sig .tc := ⟨.hbm, 256, rfl⟩
abbrev main_call5_call0_v9 : Ref sig .tc := ⟨.hbm, 257, rfl⟩
abbrev main_call5_call0_v10 : Ref sig .tc := ⟨.hbm, 258, rfl⟩
abbrev main_call5_call0_v11 : Ref sig .tc := ⟨.hbm, 259, rfl⟩
abbrev main_call5_call0_cst_3 : Ref sig .tc := ⟨.hbm, 260, rfl⟩
abbrev main_call5_call0_v12 : Ref sig .tc := ⟨.hbm, 261, rfl⟩
abbrev main_call5_call0_cst_4 : Ref sig .tc := ⟨.hbm, 262, rfl⟩
abbrev main_call5_call0_call0_v0 : Ref sig .tc := ⟨.hbm, 263, rfl⟩
abbrev main_call5_call0_call0_v1 : Ref sig .tc := ⟨.hbm, 264, rfl⟩
abbrev main_call5_v0 : Ref sig .tc := ⟨.hbm, 265, rfl⟩
abbrev main_v104 : Ref sig .tc := ⟨.hbm, 266, rfl⟩
abbrev main_cst_25 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_v108 : Ref sig .tc := ⟨.hbm, 271, rfl⟩
abbrev main_v109 : Ref sig .tc := ⟨.hbm, 272, rfl⟩
abbrev main_v110 : Ref sig .tc := ⟨.hbm, 273, rfl⟩
abbrev main_v111 : Ref sig .tc := ⟨.hbm, 274, rfl⟩
abbrev main_cst_26 : Ref sig .tc := ⟨.hbm, 275, rfl⟩
abbrev main_v112 : Ref sig .tc := ⟨.hbm, 276, rfl⟩
abbrev main_v113 : Ref sig .tc := ⟨.hbm, 277, rfl⟩
abbrev main_v114 : Ref sig .tc := ⟨.hbm, 278, rfl⟩
abbrev main_v115 : Ref sig .tc := ⟨.hbm, 279, rfl⟩
abbrev main_v116 : Ref sig .tc := ⟨.hbm, 280, rfl⟩
abbrev main_v117 : Ref sig .tc := ⟨.hbm, 281, rfl⟩
abbrev main_v118 : Ref sig .tc := ⟨.hbm, 282, rfl⟩
abbrev main_cst_27 : Ref sig .tc := ⟨.hbm, 283, rfl⟩
abbrev main_v119 : Ref sig .tc := ⟨.hbm, 284, rfl⟩
abbrev main_cst_28 : Ref sig .tc := ⟨.hbm, 285, rfl⟩
abbrev main_v120 : Ref sig .tc := ⟨.hbm, 286, rfl⟩
abbrev main_v121 : Ref sig .tc := ⟨.hbm, 287, rfl⟩
abbrev main_v122 : Ref sig .tc := ⟨.hbm, 288, rfl⟩
abbrev main_v123 : Ref sig .tc := ⟨.hbm, 289, rfl⟩
abbrev main_v124 : Ref sig .tc := ⟨.hbm, 290, rfl⟩
abbrev main_c_29 : Ref sig .tc := ⟨.hbm, 291, rfl⟩
abbrev main_call6_call0_cst : Ref sig .tc := ⟨.hbm, 292, rfl⟩
abbrev main_call6_call0_v0 : Ref sig .tc := ⟨.hbm, 293, rfl⟩
abbrev main_call6_call0_v1 : Ref sig .tc := ⟨.hbm, 294, rfl⟩
abbrev main_call6_call0_cst_0 : Ref sig .tc := ⟨.hbm, 295, rfl⟩
abbrev main_call6_call0_v2 : Ref sig .tc := ⟨.hbm, 296, rfl⟩
abbrev main_call6_call0_v3 : Ref sig .tc := ⟨.hbm, 297, rfl⟩
abbrev main_call6_call0_v4 : Ref sig .tc := ⟨.hbm, 298, rfl⟩
abbrev main_call6_call0_v5 : Ref sig .tc := ⟨.hbm, 299, rfl⟩
abbrev main_call6_call0_v6 : Ref sig .tc := ⟨.hbm, 300, rfl⟩
abbrev main_call6_call0_v7 : Ref sig .tc := ⟨.hbm, 301, rfl⟩
abbrev main_call6_call0_cst_1 : Ref sig .tc := ⟨.hbm, 302, rfl⟩
abbrev main_call6_call0_v8 : Ref sig .tc := ⟨.hbm, 303, rfl⟩
abbrev main_call6_call0_cst_2 : Ref sig .tc := ⟨.hbm, 304, rfl⟩
abbrev main_call6_call0_v9 : Ref sig .tc := ⟨.hbm, 305, rfl⟩
abbrev main_call6_call0_v10 : Ref sig .tc := ⟨.hbm, 306, rfl⟩
abbrev main_call6_call0_v11 : Ref sig .tc := ⟨.hbm, 307, rfl⟩
abbrev main_call6_call0_cst_3 : Ref sig .tc := ⟨.hbm, 308, rfl⟩
abbrev main_call6_call0_v12 : Ref sig .tc := ⟨.hbm, 309, rfl⟩
abbrev main_call6_call0_cst_4 : Ref sig .tc := ⟨.hbm, 310, rfl⟩
abbrev main_call6_call0_call0_v0 : Ref sig .tc := ⟨.hbm, 311, rfl⟩
abbrev main_call6_call0_call0_v1 : Ref sig .tc := ⟨.hbm, 312, rfl⟩
abbrev main_call6_v0 : Ref sig .tc := ⟨.hbm, 313, rfl⟩
abbrev main_v125 : Ref sig .tc := ⟨.hbm, 314, rfl⟩
abbrev main_cst_30 : Ref sig .tc := ⟨.hbm, 315, rfl⟩
abbrev main_v126 : Ref sig .tc := ⟨.hbm, 316, rfl⟩
abbrev main_v127 : Ref sig .tc := ⟨.hbm, 317, rfl⟩
abbrev main_v128 : Ref sig .tc := ⟨.hbm, 318, rfl⟩
abbrev main_v129 : Ref sig .tc := ⟨.hbm, 319, rfl⟩
abbrev main_v130 : Ref sig .tc := ⟨.hbm, 320, rfl⟩
abbrev main_v131 : Ref sig .tc := ⟨.hbm, 321, rfl⟩
abbrev main_v132 : Ref sig .tc := ⟨.hbm, 322, rfl⟩
abbrev main_cst_31 : Ref sig .tc := ⟨.hbm, 323, rfl⟩
abbrev main_v133 : Ref sig .tc := ⟨.hbm, 324, rfl⟩
abbrev main_v134 : Ref sig .tc := ⟨.hbm, 325, rfl⟩
abbrev main_v135 : Ref sig .tc := ⟨.hbm, 326, rfl⟩
abbrev main_v136 : Ref sig .tc := ⟨.hbm, 327, rfl⟩
abbrev main_v137 : Ref sig .tc := ⟨.hbm, 328, rfl⟩
abbrev main_v138 : Ref sig .tc := ⟨.hbm, 329, rfl⟩
abbrev main_v139 : Ref sig .tc := ⟨.hbm, 330, rfl⟩
abbrev main_cst_32 : Ref sig .tc := ⟨.hbm, 331, rfl⟩
abbrev main_v140 : Ref sig .tc := ⟨.hbm, 332, rfl⟩
abbrev main_cst_33 : Ref sig .tc := ⟨.hbm, 333, rfl⟩
abbrev main_v141 : Ref sig .tc := ⟨.hbm, 334, rfl⟩
abbrev main_v142 : Ref sig .tc := ⟨.hbm, 335, rfl⟩
abbrev main_v143 : Ref sig .tc := ⟨.hbm, 336, rfl⟩
abbrev main_v144 : Ref sig .tc := ⟨.hbm, 337, rfl⟩
abbrev main_v145 : Ref sig .tc := ⟨.hbm, 338, rfl⟩
abbrev main_c_34 : Ref sig .tc := ⟨.hbm, 339, rfl⟩
abbrev main_call7_call0_cst : Ref sig .tc := ⟨.hbm, 340, rfl⟩
abbrev main_call7_call0_v0 : Ref sig .tc := ⟨.hbm, 341, rfl⟩
abbrev main_call7_call0_v1 : Ref sig .tc := ⟨.hbm, 342, rfl⟩
abbrev main_call7_call0_cst_0 : Ref sig .tc := ⟨.hbm, 343, rfl⟩
abbrev main_call7_call0_v2 : Ref sig .tc := ⟨.hbm, 344, rfl⟩
abbrev main_call7_call0_v3 : Ref sig .tc := ⟨.hbm, 345, rfl⟩
abbrev main_call7_call0_v4 : Ref sig .tc := ⟨.hbm, 346, rfl⟩
abbrev main_call7_call0_v5 : Ref sig .tc := ⟨.hbm, 347, rfl⟩
abbrev main_call7_call0_v6 : Ref sig .tc := ⟨.hbm, 348, rfl⟩
abbrev main_call7_call0_v7 : Ref sig .tc := ⟨.hbm, 349, rfl⟩
abbrev main_call7_call0_cst_1 : Ref sig .tc := ⟨.hbm, 350, rfl⟩
abbrev main_call7_call0_v8 : Ref sig .tc := ⟨.hbm, 351, rfl⟩
abbrev main_call7_call0_cst_2 : Ref sig .tc := ⟨.hbm, 352, rfl⟩
abbrev main_call7_call0_v9 : Ref sig .tc := ⟨.hbm, 353, rfl⟩
abbrev main_call7_call0_v10 : Ref sig .tc := ⟨.hbm, 354, rfl⟩
abbrev main_call7_call0_v11 : Ref sig .tc := ⟨.hbm, 355, rfl⟩
abbrev main_call7_call0_cst_3 : Ref sig .tc := ⟨.hbm, 356, rfl⟩
abbrev main_call7_call0_v12 : Ref sig .tc := ⟨.hbm, 357, rfl⟩
abbrev main_call7_call0_cst_4 : Ref sig .tc := ⟨.hbm, 358, rfl⟩
abbrev main_call7_call0_call0_v0 : Ref sig .tc := ⟨.hbm, 359, rfl⟩
abbrev main_call7_call0_call0_v1 : Ref sig .tc := ⟨.hbm, 360, rfl⟩
abbrev main_call7_v0 : Ref sig .tc := ⟨.hbm, 361, rfl⟩
abbrev main_v146 : Ref sig .tc := ⟨.hbm, 362, rfl⟩
abbrev main_cst_35 : Ref sig .tc := ⟨.hbm, 363, rfl⟩
abbrev main_v147 : Ref sig .tc := ⟨.hbm, 364, rfl⟩
abbrev main_v148 : Ref sig .tc := ⟨.hbm, 365, rfl⟩
abbrev main_v149 : Ref sig .tc := ⟨.hbm, 366, rfl⟩
abbrev main_v150 : Ref sig .tc := ⟨.hbm, 367, rfl⟩
abbrev main_v151 : Ref sig .tc := ⟨.hbm, 368, rfl⟩
abbrev main_v152 : Ref sig .tc := ⟨.hbm, 369, rfl⟩
abbrev main_v153 : Ref sig .tc := ⟨.hbm, 370, rfl⟩
abbrev main_cst_36 : Ref sig .tc := ⟨.hbm, 371, rfl⟩
abbrev main_v154 : Ref sig .tc := ⟨.hbm, 372, rfl⟩
abbrev main_v155 : Ref sig .tc := ⟨.hbm, 373, rfl⟩
abbrev main_v156 : Ref sig .tc := ⟨.hbm, 374, rfl⟩
abbrev main_v157 : Ref sig .tc := ⟨.hbm, 375, rfl⟩
abbrev main_v158 : Ref sig .tc := ⟨.hbm, 376, rfl⟩
abbrev main_v159 : Ref sig .tc := ⟨.hbm, 377, rfl⟩
abbrev main_v160 : Ref sig .tc := ⟨.hbm, 378, rfl⟩
abbrev main_cst_37 : Ref sig .tc := ⟨.hbm, 379, rfl⟩
abbrev main_v161 : Ref sig .tc := ⟨.hbm, 380, rfl⟩
abbrev main_cst_38 : Ref sig .tc := ⟨.hbm, 381, rfl⟩
abbrev main_v162 : Ref sig .tc := ⟨.hbm, 382, rfl⟩
abbrev main_v163 : Ref sig .tc := ⟨.hbm, 383, rfl⟩
abbrev main_v164 : Ref sig .tc := ⟨.hbm, 384, rfl⟩
abbrev main_v165 : Ref sig .tc := ⟨.hbm, 385, rfl⟩
abbrev main_v166 : Ref sig .tc := ⟨.hbm, 386, rfl⟩
abbrev main_c_39 : Ref sig .tc := ⟨.hbm, 387, rfl⟩
abbrev main_call8_call0_cst : Ref sig .tc := ⟨.hbm, 388, rfl⟩
abbrev main_call8_call0_v0 : Ref sig .tc := ⟨.hbm, 389, rfl⟩
abbrev main_call8_call0_v1 : Ref sig .tc := ⟨.hbm, 390, rfl⟩
abbrev main_call8_call0_cst_0 : Ref sig .tc := ⟨.hbm, 391, rfl⟩
abbrev main_call8_call0_v2 : Ref sig .tc := ⟨.hbm, 392, rfl⟩
abbrev main_call8_call0_v3 : Ref sig .tc := ⟨.hbm, 393, rfl⟩
abbrev main_call8_call0_v4 : Ref sig .tc := ⟨.hbm, 394, rfl⟩
abbrev main_call8_call0_v5 : Ref sig .tc := ⟨.hbm, 395, rfl⟩
abbrev main_call8_call0_v6 : Ref sig .tc := ⟨.hbm, 396, rfl⟩
abbrev main_call8_call0_v7 : Ref sig .tc := ⟨.hbm, 397, rfl⟩
abbrev main_call8_call0_cst_1 : Ref sig .tc := ⟨.hbm, 398, rfl⟩
abbrev main_call8_call0_v8 : Ref sig .tc := ⟨.hbm, 399, rfl⟩
abbrev main_call8_call0_cst_2 : Ref sig .tc := ⟨.hbm, 400, rfl⟩
abbrev main_call8_call0_v9 : Ref sig .tc := ⟨.hbm, 401, rfl⟩
abbrev main_call8_call0_v10 : Ref sig .tc := ⟨.hbm, 402, rfl⟩
abbrev main_call8_call0_v11 : Ref sig .tc := ⟨.hbm, 403, rfl⟩
abbrev main_call8_call0_cst_3 : Ref sig .tc := ⟨.hbm, 404, rfl⟩
abbrev main_call8_call0_v12 : Ref sig .tc := ⟨.hbm, 405, rfl⟩
abbrev main_call8_call0_cst_4 : Ref sig .tc := ⟨.hbm, 406, rfl⟩
abbrev main_call8_call0_call0_v0 : Ref sig .tc := ⟨.hbm, 407, rfl⟩
abbrev main_call8_call0_call0_v1 : Ref sig .tc := ⟨.hbm, 408, rfl⟩
abbrev main_call8_v0 : Ref sig .tc := ⟨.hbm, 409, rfl⟩
abbrev main_v167 : Ref sig .tc := ⟨.hbm, 410, rfl⟩
abbrev main_cst_40 : Ref sig .tc := ⟨.hbm, 411, rfl⟩
abbrev main_v168 : Ref sig .tc := ⟨.hbm, 412, rfl⟩
abbrev main_v169 : Ref sig .tc := ⟨.hbm, 413, rfl⟩
abbrev main_v170 : Ref sig .tc := ⟨.hbm, 414, rfl⟩
abbrev main_v171 : Ref sig .tc := ⟨.hbm, 415, rfl⟩
abbrev main_v172 : Ref sig .tc := ⟨.hbm, 416, rfl⟩
abbrev main_v173 : Ref sig .tc := ⟨.hbm, 417, rfl⟩
abbrev main_v174 : Ref sig .tc := ⟨.hbm, 418, rfl⟩
abbrev main_cst_41 : Ref sig .tc := ⟨.hbm, 419, rfl⟩
abbrev main_v175 : Ref sig .tc := ⟨.hbm, 420, rfl⟩
abbrev main_v176 : Ref sig .tc := ⟨.hbm, 421, rfl⟩
abbrev main_v177 : Ref sig .tc := ⟨.hbm, 422, rfl⟩
abbrev main_v178 : Ref sig .tc := ⟨.hbm, 423, rfl⟩
abbrev main_v179 : Ref sig .tc := ⟨.hbm, 424, rfl⟩
abbrev main_v180 : Ref sig .tc := ⟨.hbm, 425, rfl⟩
abbrev main_v181 : Ref sig .tc := ⟨.hbm, 426, rfl⟩
abbrev main_cst_42 : Ref sig .tc := ⟨.hbm, 427, rfl⟩
abbrev main_v182 : Ref sig .tc := ⟨.hbm, 428, rfl⟩
abbrev main_cst_43 : Ref sig .tc := ⟨.hbm, 429, rfl⟩
abbrev main_v183 : Ref sig .tc := ⟨.hbm, 430, rfl⟩
abbrev main_v184 : Ref sig .tc := ⟨.hbm, 431, rfl⟩
abbrev main_v185 : Ref sig .tc := ⟨.hbm, 432, rfl⟩
abbrev main_v186 : Ref sig .tc := ⟨.hbm, 433, rfl⟩
abbrev main_v187 : Ref sig .tc := ⟨.hbm, 434, rfl⟩
abbrev main_c_44 : Ref sig .tc := ⟨.hbm, 435, rfl⟩
abbrev main_call9_call0_cst : Ref sig .tc := ⟨.hbm, 436, rfl⟩
abbrev main_call9_call0_v0 : Ref sig .tc := ⟨.hbm, 437, rfl⟩
abbrev main_call9_call0_v1 : Ref sig .tc := ⟨.hbm, 438, rfl⟩
abbrev main_call9_call0_cst_0 : Ref sig .tc := ⟨.hbm, 439, rfl⟩
abbrev main_call9_call0_v2 : Ref sig .tc := ⟨.hbm, 440, rfl⟩
abbrev main_call9_call0_v3 : Ref sig .tc := ⟨.hbm, 441, rfl⟩
abbrev main_call9_call0_v4 : Ref sig .tc := ⟨.hbm, 442, rfl⟩
abbrev main_call9_call0_v5 : Ref sig .tc := ⟨.hbm, 443, rfl⟩
abbrev main_call9_call0_v6 : Ref sig .tc := ⟨.hbm, 444, rfl⟩
abbrev main_call9_call0_v7 : Ref sig .tc := ⟨.hbm, 445, rfl⟩
abbrev main_call9_call0_cst_1 : Ref sig .tc := ⟨.hbm, 446, rfl⟩
abbrev main_call9_call0_v8 : Ref sig .tc := ⟨.hbm, 447, rfl⟩
abbrev main_call9_call0_cst_2 : Ref sig .tc := ⟨.hbm, 448, rfl⟩
abbrev main_call9_call0_v9 : Ref sig .tc := ⟨.hbm, 449, rfl⟩
abbrev main_call9_call0_v10 : Ref sig .tc := ⟨.hbm, 450, rfl⟩
abbrev main_call9_call0_v11 : Ref sig .tc := ⟨.hbm, 451, rfl⟩
abbrev main_call9_call0_cst_3 : Ref sig .tc := ⟨.hbm, 452, rfl⟩
abbrev main_call9_call0_v12 : Ref sig .tc := ⟨.hbm, 453, rfl⟩
abbrev main_call9_call0_cst_4 : Ref sig .tc := ⟨.hbm, 454, rfl⟩
abbrev main_call9_call0_call0_v0 : Ref sig .tc := ⟨.hbm, 455, rfl⟩
abbrev main_call9_call0_call0_v1 : Ref sig .tc := ⟨.hbm, 456, rfl⟩
abbrev main_call9_v0 : Ref sig .tc := ⟨.hbm, 457, rfl⟩
abbrev main_v188 : Ref sig .tc := ⟨.hbm, 458, rfl⟩
abbrev main_cst_45 : Ref sig .tc := ⟨.hbm, 459, rfl⟩
abbrev main_v189 : Ref sig .tc := ⟨.hbm, 460, rfl⟩
abbrev main_v190 : Ref sig .tc := ⟨.hbm, 461, rfl⟩
abbrev main_v191 : Ref sig .tc := ⟨.hbm, 462, rfl⟩
abbrev main_v192 : Ref sig .tc := ⟨.hbm, 463, rfl⟩
abbrev main_v193 : Ref sig .tc := ⟨.hbm, 464, rfl⟩
abbrev main_v194 : Ref sig .tc := ⟨.hbm, 465, rfl⟩
abbrev main_v195 : Ref sig .tc := ⟨.hbm, 466, rfl⟩
abbrev main_cst_46 : Ref sig .tc := ⟨.hbm, 467, rfl⟩
abbrev main_v196 : Ref sig .tc := ⟨.hbm, 468, rfl⟩
abbrev main_v197 : Ref sig .tc := ⟨.hbm, 469, rfl⟩
abbrev main_v198 : Ref sig .tc := ⟨.hbm, 470, rfl⟩
abbrev main_v199 : Ref sig .tc := ⟨.hbm, 471, rfl⟩
abbrev main_v200 : Ref sig .tc := ⟨.hbm, 472, rfl⟩
abbrev main_v201 : Ref sig .tc := ⟨.hbm, 473, rfl⟩
abbrev main_v202 : Ref sig .tc := ⟨.hbm, 474, rfl⟩
abbrev main_cst_47 : Ref sig .tc := ⟨.hbm, 475, rfl⟩
abbrev main_v203 : Ref sig .tc := ⟨.hbm, 476, rfl⟩
abbrev main_cst_48 : Ref sig .tc := ⟨.hbm, 477, rfl⟩
abbrev main_v204 : Ref sig .tc := ⟨.hbm, 478, rfl⟩
abbrev main_v205 : Ref sig .tc := ⟨.hbm, 479, rfl⟩
abbrev main_v206 : Ref sig .tc := ⟨.hbm, 480, rfl⟩
abbrev main_v207 : Ref sig .tc := ⟨.hbm, 481, rfl⟩
abbrev main_v208 : Ref sig .tc := ⟨.hbm, 482, rfl⟩
abbrev main_c_49 : Ref sig .tc := ⟨.hbm, 483, rfl⟩
abbrev main_call10_call0_cst : Ref sig .tc := ⟨.hbm, 484, rfl⟩
abbrev main_call10_call0_v0 : Ref sig .tc := ⟨.hbm, 485, rfl⟩
abbrev main_call10_call0_v1 : Ref sig .tc := ⟨.hbm, 486, rfl⟩
abbrev main_call10_call0_cst_0 : Ref sig .tc := ⟨.hbm, 487, rfl⟩
abbrev main_call10_call0_v2 : Ref sig .tc := ⟨.hbm, 488, rfl⟩
abbrev main_call10_call0_v3 : Ref sig .tc := ⟨.hbm, 489, rfl⟩
abbrev main_call10_call0_v4 : Ref sig .tc := ⟨.hbm, 490, rfl⟩
abbrev main_call10_call0_v5 : Ref sig .tc := ⟨.hbm, 491, rfl⟩
abbrev main_call10_call0_v6 : Ref sig .tc := ⟨.hbm, 492, rfl⟩
abbrev main_call10_call0_v7 : Ref sig .tc := ⟨.hbm, 493, rfl⟩
abbrev main_call10_call0_cst_1 : Ref sig .tc := ⟨.hbm, 494, rfl⟩
abbrev main_call10_call0_v8 : Ref sig .tc := ⟨.hbm, 495, rfl⟩
abbrev main_call10_call0_cst_2 : Ref sig .tc := ⟨.hbm, 496, rfl⟩
abbrev main_call10_call0_v9 : Ref sig .tc := ⟨.hbm, 497, rfl⟩
abbrev main_call10_call0_v10 : Ref sig .tc := ⟨.hbm, 498, rfl⟩
abbrev main_call10_call0_v11 : Ref sig .tc := ⟨.hbm, 499, rfl⟩
abbrev main_call10_call0_cst_3 : Ref sig .tc := ⟨.hbm, 500, rfl⟩
abbrev main_call10_call0_v12 : Ref sig .tc := ⟨.hbm, 501, rfl⟩
abbrev main_call10_call0_cst_4 : Ref sig .tc := ⟨.hbm, 502, rfl⟩
abbrev main_call10_call0_call0_v0 : Ref sig .tc := ⟨.hbm, 503, rfl⟩
abbrev main_call10_call0_call0_v1 : Ref sig .tc := ⟨.hbm, 504, rfl⟩
abbrev main_call10_v0 : Ref sig .tc := ⟨.hbm, 505, rfl⟩
abbrev main_v209 : Ref sig .tc := ⟨.hbm, 506, rfl⟩
abbrev main_cst_50 : Ref sig .tc := ⟨.hbm, 507, rfl⟩
abbrev main_v210 : Ref sig .tc := ⟨.hbm, 508, rfl⟩
abbrev main_v211 : Ref sig .tc := ⟨.hbm, 509, rfl⟩
abbrev main_v212 : Ref sig .tc := ⟨.hbm, 510, rfl⟩
abbrev main_v213 : Ref sig .tc := ⟨.hbm, 511, rfl⟩
abbrev main_v214 : Ref sig .tc := ⟨.hbm, 512, rfl⟩
abbrev main_v215 : Ref sig .tc := ⟨.hbm, 513, rfl⟩
abbrev main_v216 : Ref sig .tc := ⟨.hbm, 514, rfl⟩
abbrev main_cst_51 : Ref sig .tc := ⟨.hbm, 515, rfl⟩
abbrev main_v217 : Ref sig .tc := ⟨.hbm, 516, rfl⟩
abbrev main_v218 : Ref sig .tc := ⟨.hbm, 517, rfl⟩
abbrev main_v219 : Ref sig .tc := ⟨.hbm, 518, rfl⟩
abbrev main_v220 : Ref sig .tc := ⟨.hbm, 519, rfl⟩
abbrev main_v221 : Ref sig .tc := ⟨.hbm, 520, rfl⟩
abbrev main_v222 : Ref sig .tc := ⟨.hbm, 521, rfl⟩
abbrev main_v223 : Ref sig .tc := ⟨.hbm, 522, rfl⟩
abbrev main_cst_52 : Ref sig .tc := ⟨.hbm, 523, rfl⟩
abbrev main_v224 : Ref sig .tc := ⟨.hbm, 524, rfl⟩
abbrev main_cst_53 : Ref sig .tc := ⟨.hbm, 525, rfl⟩
abbrev main_v225 : Ref sig .tc := ⟨.hbm, 526, rfl⟩
abbrev main_v226 : Ref sig .tc := ⟨.hbm, 527, rfl⟩
abbrev main_v227 : Ref sig .tc := ⟨.hbm, 528, rfl⟩
abbrev main_v228 : Ref sig .tc := ⟨.hbm, 529, rfl⟩
abbrev main_v229 : Ref sig .tc := ⟨.hbm, 530, rfl⟩
abbrev main_c_54 : Ref sig .tc := ⟨.hbm, 531, rfl⟩
abbrev main_call11_call0_cst : Ref sig .tc := ⟨.hbm, 532, rfl⟩
abbrev main_call11_call0_v0 : Ref sig .tc := ⟨.hbm, 533, rfl⟩
abbrev main_call11_call0_v1 : Ref sig .tc := ⟨.hbm, 534, rfl⟩
abbrev main_call11_call0_cst_0 : Ref sig .tc := ⟨.hbm, 535, rfl⟩
abbrev main_call11_call0_v2 : Ref sig .tc := ⟨.hbm, 536, rfl⟩
abbrev main_call11_call0_v3 : Ref sig .tc := ⟨.hbm, 537, rfl⟩
abbrev main_call11_call0_v4 : Ref sig .tc := ⟨.hbm, 538, rfl⟩
abbrev main_call11_call0_v5 : Ref sig .tc := ⟨.hbm, 539, rfl⟩
abbrev main_call11_call0_v6 : Ref sig .tc := ⟨.hbm, 540, rfl⟩
abbrev main_call11_call0_v7 : Ref sig .tc := ⟨.hbm, 541, rfl⟩
abbrev main_call11_call0_cst_1 : Ref sig .tc := ⟨.hbm, 542, rfl⟩
abbrev main_call11_call0_v8 : Ref sig .tc := ⟨.hbm, 543, rfl⟩
abbrev main_call11_call0_cst_2 : Ref sig .tc := ⟨.hbm, 544, rfl⟩
abbrev main_call11_call0_v9 : Ref sig .tc := ⟨.hbm, 545, rfl⟩
abbrev main_call11_call0_v10 : Ref sig .tc := ⟨.hbm, 546, rfl⟩
abbrev main_call11_call0_v11 : Ref sig .tc := ⟨.hbm, 547, rfl⟩
abbrev main_call11_call0_cst_3 : Ref sig .tc := ⟨.hbm, 548, rfl⟩
abbrev main_call11_call0_v12 : Ref sig .tc := ⟨.hbm, 549, rfl⟩
abbrev main_call11_call0_cst_4 : Ref sig .tc := ⟨.hbm, 550, rfl⟩
abbrev main_call11_call0_call0_v0 : Ref sig .tc := ⟨.hbm, 551, rfl⟩
abbrev main_call11_call0_call0_v1 : Ref sig .tc := ⟨.hbm, 552, rfl⟩
abbrev main_call11_v0 : Ref sig .tc := ⟨.hbm, 553, rfl⟩
abbrev main_v230 : Ref sig .tc := ⟨.hbm, 554, rfl⟩
abbrev main_cst_55 : Ref sig .tc := ⟨.hbm, 555, rfl⟩
abbrev main_v231 : Ref sig .tc := ⟨.hbm, 556, rfl⟩
abbrev main_v232 : Ref sig .tc := ⟨.hbm, 557, rfl⟩
abbrev main_v233 : Ref sig .tc := ⟨.hbm, 558, rfl⟩
abbrev main_v234 : Ref sig .tc := ⟨.hbm, 559, rfl⟩
abbrev main_v235 : Ref sig .tc := ⟨.hbm, 560, rfl⟩
abbrev main_v236 : Ref sig .tc := ⟨.hbm, 561, rfl⟩
abbrev main_v237 : Ref sig .tc := ⟨.hbm, 562, rfl⟩
abbrev main_cst_56 : Ref sig .tc := ⟨.hbm, 563, rfl⟩
abbrev main_v238 : Ref sig .tc := ⟨.hbm, 564, rfl⟩
abbrev main_v239 : Ref sig .tc := ⟨.hbm, 565, rfl⟩
abbrev main_v240 : Ref sig .tc := ⟨.hbm, 566, rfl⟩
abbrev main_v241 : Ref sig .tc := ⟨.hbm, 567, rfl⟩
abbrev main_v242 : Ref sig .tc := ⟨.hbm, 568, rfl⟩
abbrev main_v243 : Ref sig .tc := ⟨.hbm, 569, rfl⟩
abbrev main_v244 : Ref sig .tc := ⟨.hbm, 570, rfl⟩
abbrev main_cst_57 : Ref sig .tc := ⟨.hbm, 571, rfl⟩
abbrev main_v245 : Ref sig .tc := ⟨.hbm, 572, rfl⟩
abbrev main_cst_58 : Ref sig .tc := ⟨.hbm, 573, rfl⟩
abbrev main_v246 : Ref sig .tc := ⟨.hbm, 574, rfl⟩
abbrev main_v247 : Ref sig .tc := ⟨.hbm, 575, rfl⟩
abbrev main_v248 : Ref sig .tc := ⟨.hbm, 576, rfl⟩
abbrev main_v249 : Ref sig .tc := ⟨.hbm, 577, rfl⟩
abbrev main_v250 : Ref sig .tc := ⟨.hbm, 578, rfl⟩
abbrev main_c_59 : Ref sig .tc := ⟨.hbm, 579, rfl⟩
abbrev main_call12_call0_cst : Ref sig .tc := ⟨.hbm, 580, rfl⟩
abbrev main_call12_call0_v0 : Ref sig .tc := ⟨.hbm, 581, rfl⟩
abbrev main_call12_call0_v1 : Ref sig .tc := ⟨.hbm, 582, rfl⟩
abbrev main_call12_call0_cst_0 : Ref sig .tc := ⟨.hbm, 583, rfl⟩
abbrev main_call12_call0_v2 : Ref sig .tc := ⟨.hbm, 584, rfl⟩
abbrev main_call12_call0_v3 : Ref sig .tc := ⟨.hbm, 585, rfl⟩
abbrev main_call12_call0_v4 : Ref sig .tc := ⟨.hbm, 586, rfl⟩
abbrev main_call12_call0_v5 : Ref sig .tc := ⟨.hbm, 587, rfl⟩
abbrev main_call12_call0_v6 : Ref sig .tc := ⟨.hbm, 588, rfl⟩
abbrev main_call12_call0_v7 : Ref sig .tc := ⟨.hbm, 589, rfl⟩
abbrev main_call12_call0_cst_1 : Ref sig .tc := ⟨.hbm, 590, rfl⟩
abbrev main_call12_call0_v8 : Ref sig .tc := ⟨.hbm, 591, rfl⟩
abbrev main_call12_call0_cst_2 : Ref sig .tc := ⟨.hbm, 592, rfl⟩
abbrev main_call12_call0_v9 : Ref sig .tc := ⟨.hbm, 593, rfl⟩
abbrev main_call12_call0_v10 : Ref sig .tc := ⟨.hbm, 594, rfl⟩
abbrev main_call12_call0_v11 : Ref sig .tc := ⟨.hbm, 595, rfl⟩
abbrev main_call12_call0_cst_3 : Ref sig .tc := ⟨.hbm, 596, rfl⟩
abbrev main_call12_call0_v12 : Ref sig .tc := ⟨.hbm, 597, rfl⟩
abbrev main_call12_call0_cst_4 : Ref sig .tc := ⟨.hbm, 598, rfl⟩
abbrev main_call12_call0_call0_v0 : Ref sig .tc := ⟨.hbm, 599, rfl⟩
abbrev main_call12_call0_call0_v1 : Ref sig .tc := ⟨.hbm, 600, rfl⟩
abbrev main_call12_v0 : Ref sig .tc := ⟨.hbm, 601, rfl⟩
abbrev main_v251 : Ref sig .tc := ⟨.hbm, 602, rfl⟩
abbrev main_cst_60 : Ref sig .tc := ⟨.hbm, 603, rfl⟩
abbrev main_v252 : Ref sig .tc := ⟨.hbm, 604, rfl⟩
abbrev main_v253 : Ref sig .tc := ⟨.hbm, 605, rfl⟩
abbrev main_v254 : Ref sig .tc := ⟨.hbm, 606, rfl⟩
abbrev main_v255 : Ref sig .tc := ⟨.hbm, 607, rfl⟩
abbrev main_v256 : Ref sig .tc := ⟨.hbm, 608, rfl⟩
abbrev main_v257 : Ref sig .tc := ⟨.hbm, 609, rfl⟩
abbrev main_v258 : Ref sig .tc := ⟨.hbm, 610, rfl⟩
abbrev main_cst_61 : Ref sig .tc := ⟨.hbm, 611, rfl⟩
abbrev main_v259 : Ref sig .tc := ⟨.hbm, 612, rfl⟩
abbrev main_v260 : Ref sig .tc := ⟨.hbm, 613, rfl⟩
abbrev main_v261 : Ref sig .tc := ⟨.hbm, 614, rfl⟩
abbrev main_v262 : Ref sig .tc := ⟨.hbm, 615, rfl⟩
abbrev main_v263 : Ref sig .tc := ⟨.hbm, 616, rfl⟩
abbrev main_v264 : Ref sig .tc := ⟨.hbm, 617, rfl⟩
abbrev main_v265 : Ref sig .tc := ⟨.hbm, 618, rfl⟩
abbrev main_cst_62 : Ref sig .tc := ⟨.hbm, 619, rfl⟩
abbrev main_v266 : Ref sig .tc := ⟨.hbm, 620, rfl⟩
abbrev main_cst_63 : Ref sig .tc := ⟨.hbm, 621, rfl⟩
abbrev main_v267 : Ref sig .tc := ⟨.hbm, 622, rfl⟩
abbrev main_v268 : Ref sig .tc := ⟨.hbm, 623, rfl⟩
abbrev main_v269 : Ref sig .tc := ⟨.hbm, 624, rfl⟩
abbrev main_v270 : Ref sig .tc := ⟨.hbm, 625, rfl⟩
abbrev main_v271 : Ref sig .tc := ⟨.hbm, 626, rfl⟩
abbrev main_c_64 : Ref sig .tc := ⟨.hbm, 627, rfl⟩
abbrev main_call13_call0_cst : Ref sig .tc := ⟨.hbm, 628, rfl⟩
abbrev main_call13_call0_v0 : Ref sig .tc := ⟨.hbm, 629, rfl⟩
abbrev main_call13_call0_v1 : Ref sig .tc := ⟨.hbm, 630, rfl⟩
abbrev main_call13_call0_cst_0 : Ref sig .tc := ⟨.hbm, 631, rfl⟩
abbrev main_call13_call0_v2 : Ref sig .tc := ⟨.hbm, 632, rfl⟩
abbrev main_call13_call0_v3 : Ref sig .tc := ⟨.hbm, 633, rfl⟩
abbrev main_call13_call0_v4 : Ref sig .tc := ⟨.hbm, 634, rfl⟩
abbrev main_call13_call0_v5 : Ref sig .tc := ⟨.hbm, 635, rfl⟩
abbrev main_call13_call0_v6 : Ref sig .tc := ⟨.hbm, 636, rfl⟩
abbrev main_call13_call0_v7 : Ref sig .tc := ⟨.hbm, 637, rfl⟩
abbrev main_call13_call0_cst_1 : Ref sig .tc := ⟨.hbm, 638, rfl⟩
abbrev main_call13_call0_v8 : Ref sig .tc := ⟨.hbm, 639, rfl⟩
abbrev main_call13_call0_cst_2 : Ref sig .tc := ⟨.hbm, 640, rfl⟩
abbrev main_call13_call0_v9 : Ref sig .tc := ⟨.hbm, 641, rfl⟩
abbrev main_call13_call0_v10 : Ref sig .tc := ⟨.hbm, 642, rfl⟩
abbrev main_call13_call0_v11 : Ref sig .tc := ⟨.hbm, 643, rfl⟩
abbrev main_call13_call0_cst_3 : Ref sig .tc := ⟨.hbm, 644, rfl⟩
abbrev main_call13_call0_v12 : Ref sig .tc := ⟨.hbm, 645, rfl⟩
abbrev main_call13_call0_cst_4 : Ref sig .tc := ⟨.hbm, 646, rfl⟩
abbrev main_call13_call0_call0_v0 : Ref sig .tc := ⟨.hbm, 647, rfl⟩
abbrev main_call13_call0_call0_v1 : Ref sig .tc := ⟨.hbm, 648, rfl⟩
abbrev main_call13_v0 : Ref sig .tc := ⟨.hbm, 649, rfl⟩
abbrev main_v272 : Ref sig .tc := ⟨.hbm, 650, rfl⟩
abbrev main_cst_65 : Ref sig .tc := ⟨.hbm, 651, rfl⟩
abbrev main_v273 : Ref sig .tc := ⟨.hbm, 652, rfl⟩
abbrev main_v274 : Ref sig .tc := ⟨.hbm, 653, rfl⟩
abbrev main_v275 : Ref sig .tc := ⟨.hbm, 654, rfl⟩
abbrev main_v276 : Ref sig .tc := ⟨.hbm, 655, rfl⟩
abbrev main_v277 : Ref sig .tc := ⟨.hbm, 656, rfl⟩
abbrev main_v278 : Ref sig .tc := ⟨.hbm, 657, rfl⟩
abbrev main_v279 : Ref sig .tc := ⟨.hbm, 658, rfl⟩
abbrev main_cst_66 : Ref sig .tc := ⟨.hbm, 659, rfl⟩
abbrev main_v280 : Ref sig .tc := ⟨.hbm, 660, rfl⟩
abbrev main_v281 : Ref sig .tc := ⟨.hbm, 661, rfl⟩
abbrev main_v282 : Ref sig .tc := ⟨.hbm, 662, rfl⟩
abbrev main_v283 : Ref sig .tc := ⟨.hbm, 663, rfl⟩
abbrev main_v284 : Ref sig .tc := ⟨.hbm, 664, rfl⟩
abbrev main_v285 : Ref sig .tc := ⟨.hbm, 665, rfl⟩
abbrev main_v286 : Ref sig .tc := ⟨.hbm, 666, rfl⟩
abbrev main_cst_67 : Ref sig .tc := ⟨.hbm, 667, rfl⟩
abbrev main_v287 : Ref sig .tc := ⟨.hbm, 668, rfl⟩
abbrev main_cst_68 : Ref sig .tc := ⟨.hbm, 669, rfl⟩
abbrev main_v288 : Ref sig .tc := ⟨.hbm, 670, rfl⟩
abbrev main_v289 : Ref sig .tc := ⟨.hbm, 671, rfl⟩
abbrev main_v290 : Ref sig .tc := ⟨.hbm, 672, rfl⟩
abbrev main_v291 : Ref sig .tc := ⟨.hbm, 673, rfl⟩
abbrev main_v292 : Ref sig .tc := ⟨.hbm, 674, rfl⟩
abbrev main_c_69 : Ref sig .tc := ⟨.hbm, 675, rfl⟩
abbrev main_call14_call0_cst : Ref sig .tc := ⟨.hbm, 676, rfl⟩
abbrev main_call14_call0_v0 : Ref sig .tc := ⟨.hbm, 677, rfl⟩
abbrev main_call14_call0_v1 : Ref sig .tc := ⟨.hbm, 678, rfl⟩
abbrev main_call14_call0_cst_0 : Ref sig .tc := ⟨.hbm, 679, rfl⟩
abbrev main_call14_call0_v2 : Ref sig .tc := ⟨.hbm, 680, rfl⟩
abbrev main_call14_call0_v3 : Ref sig .tc := ⟨.hbm, 681, rfl⟩
abbrev main_call14_call0_v4 : Ref sig .tc := ⟨.hbm, 682, rfl⟩
abbrev main_call14_call0_v5 : Ref sig .tc := ⟨.hbm, 683, rfl⟩
abbrev main_call14_call0_v6 : Ref sig .tc := ⟨.hbm, 684, rfl⟩
abbrev main_call14_call0_v7 : Ref sig .tc := ⟨.hbm, 685, rfl⟩
abbrev main_call14_call0_cst_1 : Ref sig .tc := ⟨.hbm, 686, rfl⟩
abbrev main_call14_call0_v8 : Ref sig .tc := ⟨.hbm, 687, rfl⟩
abbrev main_call14_call0_cst_2 : Ref sig .tc := ⟨.hbm, 688, rfl⟩
abbrev main_call14_call0_v9 : Ref sig .tc := ⟨.hbm, 689, rfl⟩
abbrev main_call14_call0_v10 : Ref sig .tc := ⟨.hbm, 690, rfl⟩
abbrev main_call14_call0_v11 : Ref sig .tc := ⟨.hbm, 691, rfl⟩
abbrev main_call14_call0_cst_3 : Ref sig .tc := ⟨.hbm, 692, rfl⟩
abbrev main_call14_call0_v12 : Ref sig .tc := ⟨.hbm, 693, rfl⟩
abbrev main_call14_call0_cst_4 : Ref sig .tc := ⟨.hbm, 694, rfl⟩
abbrev main_call14_call0_call0_v0 : Ref sig .tc := ⟨.hbm, 695, rfl⟩
abbrev main_call14_call0_call0_v1 : Ref sig .tc := ⟨.hbm, 696, rfl⟩
abbrev main_call14_v0 : Ref sig .tc := ⟨.hbm, 697, rfl⟩
abbrev main_v293 : Ref sig .tc := ⟨.hbm, 698, rfl⟩
abbrev main_cst_70 : Ref sig .tc := ⟨.hbm, 699, rfl⟩
abbrev main_v294 : Ref sig .tc := ⟨.hbm, 700, rfl⟩
abbrev main_v295 : Ref sig .tc := ⟨.hbm, 701, rfl⟩
abbrev main_v296 : Ref sig .tc := ⟨.hbm, 702, rfl⟩
abbrev main_v297 : Ref sig .tc := ⟨.hbm, 703, rfl⟩
abbrev main_v298 : Ref sig .tc := ⟨.hbm, 704, rfl⟩
abbrev main_v299 : Ref sig .tc := ⟨.hbm, 705, rfl⟩
abbrev main_v300 : Ref sig .tc := ⟨.hbm, 706, rfl⟩
abbrev main_cst_71 : Ref sig .tc := ⟨.hbm, 707, rfl⟩
abbrev main_v301 : Ref sig .tc := ⟨.hbm, 708, rfl⟩
abbrev main_v302 : Ref sig .tc := ⟨.hbm, 709, rfl⟩
abbrev main_v303 : Ref sig .tc := ⟨.hbm, 710, rfl⟩
abbrev main_v304 : Ref sig .tc := ⟨.hbm, 711, rfl⟩
abbrev main_v305 : Ref sig .tc := ⟨.hbm, 712, rfl⟩
abbrev main_v306 : Ref sig .tc := ⟨.hbm, 713, rfl⟩
abbrev main_v307 : Ref sig .tc := ⟨.hbm, 714, rfl⟩
abbrev main_cst_72 : Ref sig .tc := ⟨.hbm, 715, rfl⟩
abbrev main_v308 : Ref sig .tc := ⟨.hbm, 716, rfl⟩
abbrev main_cst_73 : Ref sig .tc := ⟨.hbm, 717, rfl⟩
abbrev main_v309 : Ref sig .tc := ⟨.hbm, 718, rfl⟩
abbrev main_v310 : Ref sig .tc := ⟨.hbm, 719, rfl⟩
abbrev main_v311 : Ref sig .tc := ⟨.hbm, 720, rfl⟩
abbrev main_v312 : Ref sig .tc := ⟨.hbm, 721, rfl⟩
abbrev main_v313 : Ref sig .tc := ⟨.hbm, 722, rfl⟩
abbrev main_c_74 : Ref sig .tc := ⟨.hbm, 723, rfl⟩
abbrev main_call15_call0_cst : Ref sig .tc := ⟨.hbm, 724, rfl⟩
abbrev main_call15_call0_v0 : Ref sig .tc := ⟨.hbm, 725, rfl⟩
abbrev main_call15_call0_v1 : Ref sig .tc := ⟨.hbm, 726, rfl⟩
abbrev main_call15_call0_cst_0 : Ref sig .tc := ⟨.hbm, 727, rfl⟩
abbrev main_call15_call0_v2 : Ref sig .tc := ⟨.hbm, 728, rfl⟩
abbrev main_call15_call0_v3 : Ref sig .tc := ⟨.hbm, 729, rfl⟩
abbrev main_call15_call0_v4 : Ref sig .tc := ⟨.hbm, 730, rfl⟩
abbrev main_call15_call0_v5 : Ref sig .tc := ⟨.hbm, 731, rfl⟩
abbrev main_call15_call0_v6 : Ref sig .tc := ⟨.hbm, 732, rfl⟩
abbrev main_call15_call0_v7 : Ref sig .tc := ⟨.hbm, 733, rfl⟩
abbrev main_call15_call0_cst_1 : Ref sig .tc := ⟨.hbm, 734, rfl⟩
abbrev main_call15_call0_v8 : Ref sig .tc := ⟨.hbm, 735, rfl⟩
abbrev main_call15_call0_cst_2 : Ref sig .tc := ⟨.hbm, 736, rfl⟩
abbrev main_call15_call0_v9 : Ref sig .tc := ⟨.hbm, 737, rfl⟩
abbrev main_call15_call0_v10 : Ref sig .tc := ⟨.hbm, 738, rfl⟩
abbrev main_call15_call0_v11 : Ref sig .tc := ⟨.hbm, 739, rfl⟩
abbrev main_call15_call0_cst_3 : Ref sig .tc := ⟨.hbm, 740, rfl⟩
abbrev main_call15_call0_v12 : Ref sig .tc := ⟨.hbm, 741, rfl⟩
abbrev main_call15_call0_cst_4 : Ref sig .tc := ⟨.hbm, 742, rfl⟩
abbrev main_call15_call0_call0_v0 : Ref sig .tc := ⟨.hbm, 743, rfl⟩
abbrev main_call15_call0_call0_v1 : Ref sig .tc := ⟨.hbm, 744, rfl⟩
abbrev main_call15_v0 : Ref sig .tc := ⟨.hbm, 745, rfl⟩
abbrev main_v314 : Ref sig .tc := ⟨.hbm, 746, rfl⟩
abbrev main_cst_75 : Ref sig .tc := ⟨.hbm, 747, rfl⟩
abbrev main_v315 : Ref sig .tc := ⟨.hbm, 748, rfl⟩
abbrev main_v316 : Ref sig .tc := ⟨.hbm, 749, rfl⟩
abbrev main_v317 : Ref sig .tc := ⟨.hbm, 750, rfl⟩
abbrev main_v318 : Ref sig .tc := ⟨.hbm, 751, rfl⟩
abbrev main_v319 : Ref sig .tc := ⟨.hbm, 752, rfl⟩
abbrev main_v320 : Ref sig .tc := ⟨.hbm, 753, rfl⟩
abbrev main_v321 : Ref sig .tc := ⟨.hbm, 754, rfl⟩
abbrev main_cst_76 : Ref sig .tc := ⟨.hbm, 755, rfl⟩
abbrev main_v322 : Ref sig .tc := ⟨.hbm, 756, rfl⟩
abbrev main_v323 : Ref sig .tc := ⟨.hbm, 757, rfl⟩
abbrev main_v324 : Ref sig .tc := ⟨.hbm, 758, rfl⟩
abbrev main_v325 : Ref sig .tc := ⟨.hbm, 759, rfl⟩
abbrev main_v326 : Ref sig .tc := ⟨.hbm, 760, rfl⟩
abbrev main_v327 : Ref sig .tc := ⟨.hbm, 761, rfl⟩
abbrev main_v328 : Ref sig .tc := ⟨.hbm, 762, rfl⟩
abbrev main_v329 : Ref sig .tc := ⟨.hbm, 763, rfl⟩
abbrev main_v330 : Ref sig .tc := ⟨.hbm, 764, rfl⟩
abbrev main_v331 : Ref sig .tc := ⟨.hbm, 765, rfl⟩
abbrev main_cst_77 : Ref sig .tc := ⟨.hbm, 766, rfl⟩
abbrev main_v332 : Ref sig .tc := ⟨.hbm, 767, rfl⟩
abbrev main_cst_78 : Ref sig .tc := ⟨.hbm, 768, rfl⟩
abbrev main_v333 : Ref sig .tc := ⟨.hbm, 769, rfl⟩
abbrev main_v334 : Ref sig .tc := ⟨.hbm, 770, rfl⟩
abbrev main_v335 : Ref sig .tc := ⟨.hbm, 771, rfl⟩
abbrev main_v336 : Ref sig .tc := ⟨.hbm, 772, rfl⟩
abbrev main_v337 : Ref sig .tc := ⟨.hbm, 773, rfl⟩
abbrev main_c_79 : Ref sig .tc := ⟨.hbm, 774, rfl⟩
abbrev main_call16_call0_cst : Ref sig .tc := ⟨.hbm, 775, rfl⟩
abbrev main_call16_call0_v0 : Ref sig .tc := ⟨.hbm, 776, rfl⟩
abbrev main_call16_call0_v1 : Ref sig .tc := ⟨.hbm, 777, rfl⟩
abbrev main_call16_call0_cst_0 : Ref sig .tc := ⟨.hbm, 778, rfl⟩
abbrev main_call16_call0_v2 : Ref sig .tc := ⟨.hbm, 779, rfl⟩
abbrev main_call16_call0_v3 : Ref sig .tc := ⟨.hbm, 780, rfl⟩
abbrev main_call16_call0_v4 : Ref sig .tc := ⟨.hbm, 781, rfl⟩
abbrev main_call16_call0_v5 : Ref sig .tc := ⟨.hbm, 782, rfl⟩
abbrev main_call16_call0_v6 : Ref sig .tc := ⟨.hbm, 783, rfl⟩
abbrev main_call16_call0_v7 : Ref sig .tc := ⟨.hbm, 784, rfl⟩
abbrev main_call16_call0_cst_1 : Ref sig .tc := ⟨.hbm, 785, rfl⟩
abbrev main_call16_call0_v8 : Ref sig .tc := ⟨.hbm, 786, rfl⟩
abbrev main_call16_call0_cst_2 : Ref sig .tc := ⟨.hbm, 787, rfl⟩
abbrev main_call16_call0_v9 : Ref sig .tc := ⟨.hbm, 788, rfl⟩
abbrev main_call16_call0_v10 : Ref sig .tc := ⟨.hbm, 789, rfl⟩
abbrev main_call16_call0_v11 : Ref sig .tc := ⟨.hbm, 790, rfl⟩
abbrev main_call16_call0_cst_3 : Ref sig .tc := ⟨.hbm, 791, rfl⟩
abbrev main_call16_call0_v12 : Ref sig .tc := ⟨.hbm, 792, rfl⟩
abbrev main_call16_call0_cst_4 : Ref sig .tc := ⟨.hbm, 793, rfl⟩
abbrev main_call16_call0_call0_v0 : Ref sig .tc := ⟨.hbm, 794, rfl⟩
abbrev main_call16_call0_call0_v1 : Ref sig .tc := ⟨.hbm, 795, rfl⟩
abbrev main_call16_v0 : Ref sig .tc := ⟨.hbm, 796, rfl⟩
abbrev main_v338 : Ref sig .tc := ⟨.hbm, 797, rfl⟩
abbrev main_cst_80 : Ref sig .tc := ⟨.hbm, 798, rfl⟩
abbrev main_v339 : Ref sig .tc := ⟨.hbm, 799, rfl⟩
abbrev main_v340 : Ref sig .tc := ⟨.hbm, 800, rfl⟩
abbrev main_v341 : Ref sig .tc := ⟨.hbm, 801, rfl⟩
abbrev main_v342 : Ref sig .tc := ⟨.hbm, 802, rfl⟩
abbrev main_v343 : Ref sig .tc := ⟨.hbm, 803, rfl⟩
abbrev main_v344 : Ref sig .tc := ⟨.hbm, 804, rfl⟩
abbrev main_v345 : Ref sig .tc := ⟨.hbm, 805, rfl⟩
abbrev main_cst_81 : Ref sig .tc := ⟨.hbm, 806, rfl⟩
abbrev main_v346 : Ref sig .tc := ⟨.hbm, 807, rfl⟩
abbrev main_v347 : Ref sig .tc := ⟨.hbm, 808, rfl⟩
abbrev main_v348 : Ref sig .tc := ⟨.hbm, 809, rfl⟩
abbrev main_v349 : Ref sig .tc := ⟨.hbm, 810, rfl⟩
abbrev main_v350 : Ref sig .tc := ⟨.hbm, 811, rfl⟩
abbrev main_v351 : Ref sig .tc := ⟨.hbm, 812, rfl⟩
abbrev main_v352 : Ref sig .tc := ⟨.hbm, 813, rfl⟩
abbrev main_cst_82 : Ref sig .tc := ⟨.hbm, 814, rfl⟩
abbrev main_v353 : Ref sig .tc := ⟨.hbm, 815, rfl⟩
abbrev main_cst_83 : Ref sig .tc := ⟨.hbm, 816, rfl⟩
abbrev main_v354 : Ref sig .tc := ⟨.hbm, 817, rfl⟩
abbrev main_v355 : Ref sig .tc := ⟨.hbm, 818, rfl⟩
abbrev main_v356 : Ref sig .tc := ⟨.hbm, 819, rfl⟩
abbrev main_v357 : Ref sig .tc := ⟨.hbm, 820, rfl⟩
abbrev main_v358 : Ref sig .tc := ⟨.hbm, 821, rfl⟩
abbrev main_c_84 : Ref sig .tc := ⟨.hbm, 822, rfl⟩
abbrev main_call17_call0_cst : Ref sig .tc := ⟨.hbm, 823, rfl⟩
abbrev main_call17_call0_v0 : Ref sig .tc := ⟨.hbm, 824, rfl⟩
abbrev main_call17_call0_v1 : Ref sig .tc := ⟨.hbm, 825, rfl⟩
abbrev main_call17_call0_cst_0 : Ref sig .tc := ⟨.hbm, 826, rfl⟩
abbrev main_call17_call0_v2 : Ref sig .tc := ⟨.hbm, 827, rfl⟩
abbrev main_call17_call0_v3 : Ref sig .tc := ⟨.hbm, 828, rfl⟩
abbrev main_call17_call0_v4 : Ref sig .tc := ⟨.hbm, 829, rfl⟩
abbrev main_call17_call0_v5 : Ref sig .tc := ⟨.hbm, 830, rfl⟩
abbrev main_call17_call0_v6 : Ref sig .tc := ⟨.hbm, 831, rfl⟩
abbrev main_call17_call0_v7 : Ref sig .tc := ⟨.hbm, 832, rfl⟩
abbrev main_call17_call0_cst_1 : Ref sig .tc := ⟨.hbm, 833, rfl⟩
abbrev main_call17_call0_v8 : Ref sig .tc := ⟨.hbm, 834, rfl⟩
abbrev main_call17_call0_cst_2 : Ref sig .tc := ⟨.hbm, 835, rfl⟩
abbrev main_call17_call0_v9 : Ref sig .tc := ⟨.hbm, 836, rfl⟩
abbrev main_call17_call0_v10 : Ref sig .tc := ⟨.hbm, 837, rfl⟩
abbrev main_call17_call0_v11 : Ref sig .tc := ⟨.hbm, 838, rfl⟩
abbrev main_call17_call0_cst_3 : Ref sig .tc := ⟨.hbm, 839, rfl⟩
abbrev main_call17_call0_v12 : Ref sig .tc := ⟨.hbm, 840, rfl⟩
abbrev main_call17_call0_cst_4 : Ref sig .tc := ⟨.hbm, 841, rfl⟩
abbrev main_call17_call0_call0_v0 : Ref sig .tc := ⟨.hbm, 842, rfl⟩
abbrev main_call17_call0_call0_v1 : Ref sig .tc := ⟨.hbm, 843, rfl⟩
abbrev main_call17_v0 : Ref sig .tc := ⟨.hbm, 844, rfl⟩
abbrev main_v359 : Ref sig .tc := ⟨.hbm, 845, rfl⟩
abbrev main_cst_85 : Ref sig .tc := ⟨.hbm, 846, rfl⟩
abbrev main_v360 : Ref sig .tc := ⟨.hbm, 847, rfl⟩
abbrev main_v361 : Ref sig .tc := ⟨.hbm, 848, rfl⟩
abbrev main_v362 : Ref sig .tc := ⟨.hbm, 849, rfl⟩
abbrev main_v363 : Ref sig .tc := ⟨.hbm, 850, rfl⟩
abbrev main_v364 : Ref sig .tc := ⟨.hbm, 851, rfl⟩
abbrev main_v365 : Ref sig .tc := ⟨.hbm, 852, rfl⟩
abbrev main_v366 : Ref sig .tc := ⟨.hbm, 853, rfl⟩
abbrev main_cst_86 : Ref sig .tc := ⟨.hbm, 854, rfl⟩
abbrev main_v367 : Ref sig .tc := ⟨.hbm, 855, rfl⟩
abbrev main_v368 : Ref sig .tc := ⟨.hbm, 856, rfl⟩
abbrev main_v369 : Ref sig .tc := ⟨.hbm, 857, rfl⟩
abbrev main_v370 : Ref sig .tc := ⟨.hbm, 858, rfl⟩
abbrev main_v371 : Ref sig .tc := ⟨.hbm, 859, rfl⟩
abbrev main_v372 : Ref sig .tc := ⟨.hbm, 860, rfl⟩
abbrev main_v373 : Ref sig .tc := ⟨.hbm, 861, rfl⟩
abbrev main_cst_87 : Ref sig .tc := ⟨.hbm, 862, rfl⟩
abbrev main_v374 : Ref sig .tc := ⟨.hbm, 863, rfl⟩
abbrev main_cst_88 : Ref sig .tc := ⟨.hbm, 864, rfl⟩
abbrev main_v375 : Ref sig .tc := ⟨.hbm, 865, rfl⟩
abbrev main_v376 : Ref sig .tc := ⟨.hbm, 866, rfl⟩
abbrev main_v377 : Ref sig .tc := ⟨.hbm, 867, rfl⟩
abbrev main_v378 : Ref sig .tc := ⟨.hbm, 868, rfl⟩
abbrev main_v379 : Ref sig .tc := ⟨.hbm, 869, rfl⟩
abbrev main_c_89 : Ref sig .tc := ⟨.hbm, 870, rfl⟩
abbrev main_call18_call0_cst : Ref sig .tc := ⟨.hbm, 871, rfl⟩
abbrev main_call18_call0_v0 : Ref sig .tc := ⟨.hbm, 872, rfl⟩
abbrev main_call18_call0_v1 : Ref sig .tc := ⟨.hbm, 873, rfl⟩
abbrev main_call18_call0_cst_0 : Ref sig .tc := ⟨.hbm, 874, rfl⟩
abbrev main_call18_call0_v2 : Ref sig .tc := ⟨.hbm, 875, rfl⟩
abbrev main_call18_call0_v3 : Ref sig .tc := ⟨.hbm, 876, rfl⟩
abbrev main_call18_call0_v4 : Ref sig .tc := ⟨.hbm, 877, rfl⟩
abbrev main_call18_call0_v5 : Ref sig .tc := ⟨.hbm, 878, rfl⟩
abbrev main_call18_call0_v6 : Ref sig .tc := ⟨.hbm, 879, rfl⟩
abbrev main_call18_call0_v7 : Ref sig .tc := ⟨.hbm, 880, rfl⟩
abbrev main_call18_call0_cst_1 : Ref sig .tc := ⟨.hbm, 881, rfl⟩
abbrev main_call18_call0_v8 : Ref sig .tc := ⟨.hbm, 882, rfl⟩
abbrev main_call18_call0_cst_2 : Ref sig .tc := ⟨.hbm, 883, rfl⟩
abbrev main_call18_call0_v9 : Ref sig .tc := ⟨.hbm, 884, rfl⟩
abbrev main_call18_call0_v10 : Ref sig .tc := ⟨.hbm, 885, rfl⟩
abbrev main_call18_call0_v11 : Ref sig .tc := ⟨.hbm, 886, rfl⟩
abbrev main_call18_call0_cst_3 : Ref sig .tc := ⟨.hbm, 887, rfl⟩
abbrev main_call18_call0_v12 : Ref sig .tc := ⟨.hbm, 888, rfl⟩
abbrev main_call18_call0_cst_4 : Ref sig .tc := ⟨.hbm, 889, rfl⟩
abbrev main_call18_call0_call0_v0 : Ref sig .tc := ⟨.hbm, 890, rfl⟩
abbrev main_call18_call0_call0_v1 : Ref sig .tc := ⟨.hbm, 891, rfl⟩
abbrev main_call18_v0 : Ref sig .tc := ⟨.hbm, 892, rfl⟩
abbrev main_v380 : Ref sig .tc := ⟨.hbm, 893, rfl⟩
abbrev main_cst_90 : Ref sig .tc := ⟨.hbm, 894, rfl⟩
abbrev main_v381 : Ref sig .tc := ⟨.hbm, 895, rfl⟩
abbrev main_v382 : Ref sig .tc := ⟨.hbm, 896, rfl⟩
abbrev main_v383 : Ref sig .tc := ⟨.hbm, 897, rfl⟩
abbrev main_v384 : Ref sig .tc := ⟨.hbm, 898, rfl⟩
abbrev main_v385 : Ref sig .tc := ⟨.hbm, 899, rfl⟩
abbrev main_v386 : Ref sig .tc := ⟨.hbm, 900, rfl⟩
abbrev main_v387 : Ref sig .tc := ⟨.hbm, 901, rfl⟩
abbrev main_cst_91 : Ref sig .tc := ⟨.hbm, 902, rfl⟩
abbrev main_v388 : Ref sig .tc := ⟨.hbm, 903, rfl⟩
abbrev main_v389 : Ref sig .tc := ⟨.hbm, 904, rfl⟩
abbrev main_v390 : Ref sig .tc := ⟨.hbm, 905, rfl⟩
abbrev main_v391 : Ref sig .tc := ⟨.hbm, 906, rfl⟩
abbrev main_v392 : Ref sig .tc := ⟨.hbm, 907, rfl⟩
abbrev main_v393 : Ref sig .tc := ⟨.hbm, 908, rfl⟩
abbrev main_v394 : Ref sig .tc := ⟨.hbm, 909, rfl⟩
abbrev main_cst_92 : Ref sig .tc := ⟨.hbm, 910, rfl⟩
abbrev main_v395 : Ref sig .tc := ⟨.hbm, 911, rfl⟩
abbrev main_cst_93 : Ref sig .tc := ⟨.hbm, 912, rfl⟩
abbrev main_v396 : Ref sig .tc := ⟨.hbm, 913, rfl⟩
abbrev main_v397 : Ref sig .tc := ⟨.hbm, 914, rfl⟩
abbrev main_v398 : Ref sig .tc := ⟨.hbm, 915, rfl⟩
abbrev main_v399 : Ref sig .tc := ⟨.hbm, 916, rfl⟩
abbrev main_v400 : Ref sig .tc := ⟨.hbm, 917, rfl⟩
abbrev main_c_94 : Ref sig .tc := ⟨.hbm, 918, rfl⟩
abbrev main_call19_call0_cst : Ref sig .tc := ⟨.hbm, 919, rfl⟩
abbrev main_call19_call0_v0 : Ref sig .tc := ⟨.hbm, 920, rfl⟩
abbrev main_call19_call0_v1 : Ref sig .tc := ⟨.hbm, 921, rfl⟩
abbrev main_call19_call0_cst_0 : Ref sig .tc := ⟨.hbm, 922, rfl⟩
abbrev main_call19_call0_v2 : Ref sig .tc := ⟨.hbm, 923, rfl⟩
abbrev main_call19_call0_v3 : Ref sig .tc := ⟨.hbm, 924, rfl⟩
abbrev main_call19_call0_v4 : Ref sig .tc := ⟨.hbm, 925, rfl⟩
abbrev main_call19_call0_v5 : Ref sig .tc := ⟨.hbm, 926, rfl⟩
abbrev main_call19_call0_v6 : Ref sig .tc := ⟨.hbm, 927, rfl⟩
abbrev main_call19_call0_v7 : Ref sig .tc := ⟨.hbm, 928, rfl⟩
abbrev main_call19_call0_cst_1 : Ref sig .tc := ⟨.hbm, 929, rfl⟩
abbrev main_call19_call0_v8 : Ref sig .tc := ⟨.hbm, 930, rfl⟩
abbrev main_call19_call0_cst_2 : Ref sig .tc := ⟨.hbm, 931, rfl⟩
abbrev main_call19_call0_v9 : Ref sig .tc := ⟨.hbm, 932, rfl⟩
abbrev main_call19_call0_v10 : Ref sig .tc := ⟨.hbm, 933, rfl⟩
abbrev main_call19_call0_v11 : Ref sig .tc := ⟨.hbm, 934, rfl⟩
abbrev main_call19_call0_cst_3 : Ref sig .tc := ⟨.hbm, 935, rfl⟩
abbrev main_call19_call0_v12 : Ref sig .tc := ⟨.hbm, 936, rfl⟩
abbrev main_call19_call0_cst_4 : Ref sig .tc := ⟨.hbm, 937, rfl⟩
abbrev main_call19_call0_call0_v0 : Ref sig .tc := ⟨.hbm, 938, rfl⟩
abbrev main_call19_call0_call0_v1 : Ref sig .tc := ⟨.hbm, 939, rfl⟩
abbrev main_call19_v0 : Ref sig .tc := ⟨.hbm, 940, rfl⟩
abbrev main_v401 : Ref sig .tc := ⟨.hbm, 941, rfl⟩
abbrev main_cst_95 : Ref sig .tc := ⟨.hbm, 942, rfl⟩
abbrev main_v402 : Ref sig .tc := ⟨.hbm, 943, rfl⟩
abbrev main_v403 : Ref sig .tc := ⟨.hbm, 944, rfl⟩
abbrev main_v404 : Ref sig .tc := ⟨.hbm, 945, rfl⟩
abbrev main_v405 : Ref sig .tc := ⟨.hbm, 946, rfl⟩
abbrev main_v406 : Ref sig .tc := ⟨.hbm, 947, rfl⟩
abbrev main_v407 : Ref sig .tc := ⟨.hbm, 948, rfl⟩
abbrev main_v408 : Ref sig .tc := ⟨.hbm, 949, rfl⟩
abbrev main_cst_96 : Ref sig .tc := ⟨.hbm, 950, rfl⟩
abbrev main_v409 : Ref sig .tc := ⟨.hbm, 951, rfl⟩
abbrev main_v410 : Ref sig .tc := ⟨.hbm, 952, rfl⟩
abbrev main_v411 : Ref sig .tc := ⟨.hbm, 953, rfl⟩
abbrev main_v412 : Ref sig .tc := ⟨.hbm, 954, rfl⟩
abbrev main_v413 : Ref sig .tc := ⟨.hbm, 955, rfl⟩
abbrev main_v414 : Ref sig .tc := ⟨.hbm, 956, rfl⟩
abbrev main_v415 : Ref sig .tc := ⟨.hbm, 957, rfl⟩
abbrev main_cst_97 : Ref sig .tc := ⟨.hbm, 958, rfl⟩
abbrev main_v416 : Ref sig .tc := ⟨.hbm, 959, rfl⟩
abbrev main_cst_98 : Ref sig .tc := ⟨.hbm, 960, rfl⟩
abbrev main_v417 : Ref sig .tc := ⟨.hbm, 961, rfl⟩
abbrev main_v418 : Ref sig .tc := ⟨.hbm, 962, rfl⟩
abbrev main_v419 : Ref sig .tc := ⟨.hbm, 963, rfl⟩
abbrev main_v420 : Ref sig .tc := ⟨.hbm, 964, rfl⟩
abbrev main_v421 : Ref sig .tc := ⟨.hbm, 965, rfl⟩
abbrev main_c_99 : Ref sig .tc := ⟨.hbm, 966, rfl⟩
abbrev main_call20_call0_cst : Ref sig .tc := ⟨.hbm, 967, rfl⟩
abbrev main_call20_call0_v0 : Ref sig .tc := ⟨.hbm, 968, rfl⟩
abbrev main_call20_call0_v1 : Ref sig .tc := ⟨.hbm, 969, rfl⟩
abbrev main_call20_call0_cst_0 : Ref sig .tc := ⟨.hbm, 970, rfl⟩
abbrev main_call20_call0_v2 : Ref sig .tc := ⟨.hbm, 971, rfl⟩
abbrev main_call20_call0_v3 : Ref sig .tc := ⟨.hbm, 972, rfl⟩
abbrev main_call20_call0_v4 : Ref sig .tc := ⟨.hbm, 973, rfl⟩
abbrev main_call20_call0_v5 : Ref sig .tc := ⟨.hbm, 974, rfl⟩
abbrev main_call20_call0_v6 : Ref sig .tc := ⟨.hbm, 975, rfl⟩
abbrev main_call20_call0_v7 : Ref sig .tc := ⟨.hbm, 976, rfl⟩
abbrev main_call20_call0_cst_1 : Ref sig .tc := ⟨.hbm, 977, rfl⟩
abbrev main_call20_call0_v8 : Ref sig .tc := ⟨.hbm, 978, rfl⟩
abbrev main_call20_call0_cst_2 : Ref sig .tc := ⟨.hbm, 979, rfl⟩
abbrev main_call20_call0_v9 : Ref sig .tc := ⟨.hbm, 980, rfl⟩
abbrev main_call20_call0_v10 : Ref sig .tc := ⟨.hbm, 981, rfl⟩
abbrev main_call20_call0_v11 : Ref sig .tc := ⟨.hbm, 982, rfl⟩
abbrev main_call20_call0_cst_3 : Ref sig .tc := ⟨.hbm, 983, rfl⟩
abbrev main_call20_call0_v12 : Ref sig .tc := ⟨.hbm, 984, rfl⟩
abbrev main_call20_call0_cst_4 : Ref sig .tc := ⟨.hbm, 985, rfl⟩
abbrev main_call20_call0_call0_v0 : Ref sig .tc := ⟨.hbm, 986, rfl⟩
abbrev main_call20_call0_call0_v1 : Ref sig .tc := ⟨.hbm, 987, rfl⟩
abbrev main_call20_v0 : Ref sig .tc := ⟨.hbm, 988, rfl⟩
abbrev main_v422 : Ref sig .tc := ⟨.hbm, 989, rfl⟩
abbrev main_cst_100 : Ref sig .tc := ⟨.hbm, 990, rfl⟩
abbrev main_v423 : Ref sig .tc := ⟨.hbm, 991, rfl⟩
abbrev main_v424 : Ref sig .tc := ⟨.hbm, 992, rfl⟩
abbrev main_v425 : Ref sig .tc := ⟨.hbm, 993, rfl⟩
abbrev main_v426 : Ref sig .tc := ⟨.hbm, 994, rfl⟩
abbrev main_v427 : Ref sig .tc := ⟨.hbm, 995, rfl⟩
abbrev main_v428 : Ref sig .tc := ⟨.hbm, 996, rfl⟩
abbrev main_v429 : Ref sig .tc := ⟨.hbm, 997, rfl⟩
abbrev main_cst_101 : Ref sig .tc := ⟨.hbm, 998, rfl⟩
abbrev main_v430 : Ref sig .tc := ⟨.hbm, 999, rfl⟩
abbrev main_v431 : Ref sig .tc := ⟨.hbm, 1000, rfl⟩
abbrev main_v432 : Ref sig .tc := ⟨.hbm, 1001, rfl⟩
abbrev main_v433 : Ref sig .tc := ⟨.hbm, 1002, rfl⟩
abbrev main_v434 : Ref sig .tc := ⟨.hbm, 1003, rfl⟩
abbrev main_v435 : Ref sig .tc := ⟨.hbm, 1004, rfl⟩
abbrev main_v436 : Ref sig .tc := ⟨.hbm, 1005, rfl⟩
abbrev main_cst_102 : Ref sig .tc := ⟨.hbm, 1006, rfl⟩
abbrev main_v437 : Ref sig .tc := ⟨.hbm, 1007, rfl⟩
abbrev main_cst_103 : Ref sig .tc := ⟨.hbm, 1008, rfl⟩
abbrev main_v438 : Ref sig .tc := ⟨.hbm, 1009, rfl⟩
abbrev main_v439 : Ref sig .tc := ⟨.hbm, 1010, rfl⟩
abbrev main_v440 : Ref sig .tc := ⟨.hbm, 1011, rfl⟩
abbrev main_v441 : Ref sig .tc := ⟨.hbm, 1012, rfl⟩
abbrev main_v442 : Ref sig .tc := ⟨.hbm, 1013, rfl⟩
abbrev main_c_104 : Ref sig .tc := ⟨.hbm, 1014, rfl⟩
abbrev main_call21_call0_cst : Ref sig .tc := ⟨.hbm, 1015, rfl⟩
abbrev main_call21_call0_v0 : Ref sig .tc := ⟨.hbm, 1016, rfl⟩
abbrev main_call21_call0_v1 : Ref sig .tc := ⟨.hbm, 1017, rfl⟩
abbrev main_call21_call0_cst_0 : Ref sig .tc := ⟨.hbm, 1018, rfl⟩
abbrev main_call21_call0_v2 : Ref sig .tc := ⟨.hbm, 1019, rfl⟩
abbrev main_call21_call0_v3 : Ref sig .tc := ⟨.hbm, 1020, rfl⟩
abbrev main_call21_call0_v4 : Ref sig .tc := ⟨.hbm, 1021, rfl⟩
abbrev main_call21_call0_v5 : Ref sig .tc := ⟨.hbm, 1022, rfl⟩
abbrev main_call21_call0_v6 : Ref sig .tc := ⟨.hbm, 1023, rfl⟩
abbrev main_call21_call0_v7 : Ref sig .tc := ⟨.hbm, 1024, rfl⟩
abbrev main_call21_call0_cst_1 : Ref sig .tc := ⟨.hbm, 1025, rfl⟩
abbrev main_call21_call0_v8 : Ref sig .tc := ⟨.hbm, 1026, rfl⟩
abbrev main_call21_call0_cst_2 : Ref sig .tc := ⟨.hbm, 1027, rfl⟩
abbrev main_call21_call0_v9 : Ref sig .tc := ⟨.hbm, 1028, rfl⟩
abbrev main_call21_call0_v10 : Ref sig .tc := ⟨.hbm, 1029, rfl⟩
abbrev main_call21_call0_v11 : Ref sig .tc := ⟨.hbm, 1030, rfl⟩
abbrev main_call21_call0_cst_3 : Ref sig .tc := ⟨.hbm, 1031, rfl⟩
abbrev main_call21_call0_v12 : Ref sig .tc := ⟨.hbm, 1032, rfl⟩
abbrev main_call21_call0_cst_4 : Ref sig .tc := ⟨.hbm, 1033, rfl⟩
abbrev main_call21_call0_call0_v0 : Ref sig .tc := ⟨.hbm, 1034, rfl⟩
abbrev main_call21_call0_call0_v1 : Ref sig .tc := ⟨.hbm, 1035, rfl⟩
abbrev main_call21_v0 : Ref sig .tc := ⟨.hbm, 1036, rfl⟩
abbrev main_v443 : Ref sig .tc := ⟨.hbm, 1037, rfl⟩
abbrev main_cst_105 : Ref sig .tc := ⟨.hbm, 1038, rfl⟩
abbrev main_v444 : Ref sig .tc := ⟨.hbm, 1039, rfl⟩
abbrev main_v445 : Ref sig .tc := ⟨.hbm, 1040, rfl⟩
abbrev main_v446 : Ref sig .tc := ⟨.hbm, 1041, rfl⟩
abbrev main_v447 : Ref sig .tc := ⟨.hbm, 1042, rfl⟩
abbrev main_v448 : Ref sig .tc := ⟨.hbm, 1043, rfl⟩
abbrev main_v449 : Ref sig .tc := ⟨.hbm, 1044, rfl⟩
abbrev main_v450 : Ref sig .tc := ⟨.hbm, 1045, rfl⟩
abbrev main_cst_106 : Ref sig .tc := ⟨.hbm, 1046, rfl⟩
abbrev main_v451 : Ref sig .tc := ⟨.hbm, 1047, rfl⟩
abbrev main_v452 : Ref sig .tc := ⟨.hbm, 1048, rfl⟩
abbrev main_v453 : Ref sig .tc := ⟨.hbm, 1049, rfl⟩
abbrev main_v454 : Ref sig .tc := ⟨.hbm, 1050, rfl⟩
abbrev main_v455 : Ref sig .tc := ⟨.hbm, 1051, rfl⟩
abbrev main_v456 : Ref sig .tc := ⟨.hbm, 1052, rfl⟩
abbrev main_v457 : Ref sig .tc := ⟨.hbm, 1053, rfl⟩
abbrev main_cst_107 : Ref sig .tc := ⟨.hbm, 1054, rfl⟩
abbrev main_v458 : Ref sig .tc := ⟨.hbm, 1055, rfl⟩
abbrev main_cst_108 : Ref sig .tc := ⟨.hbm, 1056, rfl⟩
abbrev main_v459 : Ref sig .tc := ⟨.hbm, 1057, rfl⟩
abbrev main_v460 : Ref sig .tc := ⟨.hbm, 1058, rfl⟩
abbrev main_v461 : Ref sig .tc := ⟨.hbm, 1059, rfl⟩
abbrev main_v462 : Ref sig .tc := ⟨.hbm, 1060, rfl⟩
abbrev main_v463 : Ref sig .tc := ⟨.hbm, 1061, rfl⟩
abbrev main_c_109 : Ref sig .tc := ⟨.hbm, 1062, rfl⟩
abbrev main_call22_call0_cst : Ref sig .tc := ⟨.hbm, 1063, rfl⟩
abbrev main_call22_call0_v0 : Ref sig .tc := ⟨.hbm, 1064, rfl⟩
abbrev main_call22_call0_v1 : Ref sig .tc := ⟨.hbm, 1065, rfl⟩
abbrev main_call22_call0_cst_0 : Ref sig .tc := ⟨.hbm, 1066, rfl⟩
abbrev main_call22_call0_v2 : Ref sig .tc := ⟨.hbm, 1067, rfl⟩
abbrev main_call22_call0_v3 : Ref sig .tc := ⟨.hbm, 1068, rfl⟩
abbrev main_call22_call0_v4 : Ref sig .tc := ⟨.hbm, 1069, rfl⟩
abbrev main_call22_call0_v5 : Ref sig .tc := ⟨.hbm, 1070, rfl⟩
abbrev main_call22_call0_v6 : Ref sig .tc := ⟨.hbm, 1071, rfl⟩
abbrev main_call22_call0_v7 : Ref sig .tc := ⟨.hbm, 1072, rfl⟩
abbrev main_call22_call0_cst_1 : Ref sig .tc := ⟨.hbm, 1073, rfl⟩
abbrev main_call22_call0_v8 : Ref sig .tc := ⟨.hbm, 1074, rfl⟩
abbrev main_call22_call0_cst_2 : Ref sig .tc := ⟨.hbm, 1075, rfl⟩
abbrev main_call22_call0_v9 : Ref sig .tc := ⟨.hbm, 1076, rfl⟩
abbrev main_call22_call0_v10 : Ref sig .tc := ⟨.hbm, 1077, rfl⟩
abbrev main_call22_call0_v11 : Ref sig .tc := ⟨.hbm, 1078, rfl⟩
abbrev main_call22_call0_cst_3 : Ref sig .tc := ⟨.hbm, 1079, rfl⟩
abbrev main_call22_call0_v12 : Ref sig .tc := ⟨.hbm, 1080, rfl⟩
abbrev main_call22_call0_cst_4 : Ref sig .tc := ⟨.hbm, 1081, rfl⟩
abbrev main_call22_call0_call0_v0 : Ref sig .tc := ⟨.hbm, 1082, rfl⟩
abbrev main_call22_call0_call0_v1 : Ref sig .tc := ⟨.hbm, 1083, rfl⟩
abbrev main_call22_v0 : Ref sig .tc := ⟨.hbm, 1084, rfl⟩
abbrev main_v464 : Ref sig .tc := ⟨.hbm, 1085, rfl⟩
abbrev main_cst_110 : Ref sig .tc := ⟨.hbm, 1086, rfl⟩
abbrev main_v465 : Ref sig .tc := ⟨.hbm, 1087, rfl⟩
abbrev main_v466 : Ref sig .tc := ⟨.hbm, 1088, rfl⟩
abbrev main_v467 : Ref sig .tc := ⟨.hbm, 1089, rfl⟩
abbrev main_v468 : Ref sig .tc := ⟨.hbm, 1090, rfl⟩
abbrev main_v469 : Ref sig .tc := ⟨.hbm, 1091, rfl⟩
abbrev main_v470 : Ref sig .tc := ⟨.hbm, 1092, rfl⟩
abbrev main_v471 : Ref sig .tc := ⟨.hbm, 1093, rfl⟩
abbrev main_cst_111 : Ref sig .tc := ⟨.hbm, 1094, rfl⟩
abbrev main_v472 : Ref sig .tc := ⟨.hbm, 1095, rfl⟩
abbrev main_v473 : Ref sig .tc := ⟨.hbm, 1096, rfl⟩
abbrev main_v474 : Ref sig .tc := ⟨.hbm, 1097, rfl⟩
abbrev main_v475 : Ref sig .tc := ⟨.hbm, 1098, rfl⟩
abbrev main_v476 : Ref sig .tc := ⟨.hbm, 1099, rfl⟩
abbrev main_v477 : Ref sig .tc := ⟨.hbm, 1100, rfl⟩
abbrev main_v478 : Ref sig .tc := ⟨.hbm, 1101, rfl⟩
abbrev main_cst_112 : Ref sig .tc := ⟨.hbm, 1102, rfl⟩
abbrev main_v479 : Ref sig .tc := ⟨.hbm, 1103, rfl⟩
abbrev main_cst_113 : Ref sig .tc := ⟨.hbm, 1104, rfl⟩
abbrev main_v480 : Ref sig .tc := ⟨.hbm, 1105, rfl⟩
abbrev main_v481 : Ref sig .tc := ⟨.hbm, 1106, rfl⟩
abbrev main_v482 : Ref sig .tc := ⟨.hbm, 1107, rfl⟩
abbrev main_v483 : Ref sig .tc := ⟨.hbm, 1108, rfl⟩
abbrev main_v484 : Ref sig .tc := ⟨.hbm, 1109, rfl⟩
abbrev main_c_114 : Ref sig .tc := ⟨.hbm, 1110, rfl⟩
abbrev main_call23_call0_cst : Ref sig .tc := ⟨.hbm, 1111, rfl⟩
abbrev main_call23_call0_v0 : Ref sig .tc := ⟨.hbm, 1112, rfl⟩
abbrev main_call23_call0_v1 : Ref sig .tc := ⟨.hbm, 1113, rfl⟩
abbrev main_call23_call0_cst_0 : Ref sig .tc := ⟨.hbm, 1114, rfl⟩
abbrev main_call23_call0_v2 : Ref sig .tc := ⟨.hbm, 1115, rfl⟩
abbrev main_call23_call0_v3 : Ref sig .tc := ⟨.hbm, 1116, rfl⟩
abbrev main_call23_call0_v4 : Ref sig .tc := ⟨.hbm, 1117, rfl⟩
abbrev main_call23_call0_v5 : Ref sig .tc := ⟨.hbm, 1118, rfl⟩
abbrev main_call23_call0_v6 : Ref sig .tc := ⟨.hbm, 1119, rfl⟩
abbrev main_call23_call0_v7 : Ref sig .tc := ⟨.hbm, 1120, rfl⟩
abbrev main_call23_call0_cst_1 : Ref sig .tc := ⟨.hbm, 1121, rfl⟩
abbrev main_call23_call0_v8 : Ref sig .tc := ⟨.hbm, 1122, rfl⟩
abbrev main_call23_call0_cst_2 : Ref sig .tc := ⟨.hbm, 1123, rfl⟩
abbrev main_call23_call0_v9 : Ref sig .tc := ⟨.hbm, 1124, rfl⟩
abbrev main_call23_call0_v10 : Ref sig .tc := ⟨.hbm, 1125, rfl⟩
abbrev main_call23_call0_v11 : Ref sig .tc := ⟨.hbm, 1126, rfl⟩
abbrev main_call23_call0_cst_3 : Ref sig .tc := ⟨.hbm, 1127, rfl⟩
abbrev main_call23_call0_v12 : Ref sig .tc := ⟨.hbm, 1128, rfl⟩
abbrev main_call23_call0_cst_4 : Ref sig .tc := ⟨.hbm, 1129, rfl⟩
abbrev main_call23_call0_call0_v0 : Ref sig .tc := ⟨.hbm, 1130, rfl⟩
abbrev main_call23_call0_call0_v1 : Ref sig .tc := ⟨.hbm, 1131, rfl⟩
abbrev main_call23_v0 : Ref sig .tc := ⟨.hbm, 1132, rfl⟩
abbrev main_v485 : Ref sig .tc := ⟨.hbm, 1133, rfl⟩
abbrev main_cst_115 : Ref sig .tc := ⟨.hbm, 1134, rfl⟩
abbrev main_v486 : Ref sig .tc := ⟨.hbm, 1135, rfl⟩
abbrev main_v487 : Ref sig .tc := ⟨.hbm, 1136, rfl⟩
abbrev main_v488 : Ref sig .tc := ⟨.hbm, 1137, rfl⟩
abbrev main_v489 : Ref sig .tc := ⟨.hbm, 1138, rfl⟩
abbrev main_v490 : Ref sig .tc := ⟨.hbm, 1139, rfl⟩
abbrev main_v491 : Ref sig .tc := ⟨.hbm, 1140, rfl⟩
abbrev main_v492 : Ref sig .tc := ⟨.hbm, 1141, rfl⟩
abbrev main_cst_116 : Ref sig .tc := ⟨.hbm, 1142, rfl⟩
abbrev main_v493 : Ref sig .tc := ⟨.hbm, 1143, rfl⟩
abbrev main_v494 : Ref sig .tc := ⟨.hbm, 1144, rfl⟩
abbrev main_v495 : Ref sig .tc := ⟨.hbm, 1145, rfl⟩
abbrev main_v496 : Ref sig .tc := ⟨.hbm, 1146, rfl⟩
abbrev main_v497 : Ref sig .tc := ⟨.hbm, 1147, rfl⟩
abbrev main_v498 : Ref sig .tc := ⟨.hbm, 1148, rfl⟩
abbrev main_v499 : Ref sig .tc := ⟨.hbm, 1149, rfl⟩
abbrev main_cst_117 : Ref sig .tc := ⟨.hbm, 1150, rfl⟩
abbrev main_v500 : Ref sig .tc := ⟨.hbm, 1151, rfl⟩
abbrev main_cst_118 : Ref sig .tc := ⟨.hbm, 1152, rfl⟩
abbrev main_v501 : Ref sig .tc := ⟨.hbm, 1153, rfl⟩
abbrev main_v502 : Ref sig .tc := ⟨.hbm, 1154, rfl⟩
abbrev main_v503 : Ref sig .tc := ⟨.hbm, 1155, rfl⟩
abbrev main_v504 : Ref sig .tc := ⟨.hbm, 1156, rfl⟩
abbrev main_v505 : Ref sig .tc := ⟨.hbm, 1157, rfl⟩
abbrev main_c_119 : Ref sig .tc := ⟨.hbm, 1158, rfl⟩
abbrev main_call24_call0_cst : Ref sig .tc := ⟨.hbm, 1159, rfl⟩
abbrev main_call24_call0_v0 : Ref sig .tc := ⟨.hbm, 1160, rfl⟩
abbrev main_call24_call0_v1 : Ref sig .tc := ⟨.hbm, 1161, rfl⟩
abbrev main_call24_call0_cst_0 : Ref sig .tc := ⟨.hbm, 1162, rfl⟩
abbrev main_call24_call0_v2 : Ref sig .tc := ⟨.hbm, 1163, rfl⟩
abbrev main_call24_call0_v3 : Ref sig .tc := ⟨.hbm, 1164, rfl⟩
abbrev main_call24_call0_v4 : Ref sig .tc := ⟨.hbm, 1165, rfl⟩
abbrev main_call24_call0_v5 : Ref sig .tc := ⟨.hbm, 1166, rfl⟩
abbrev main_call24_call0_v6 : Ref sig .tc := ⟨.hbm, 1167, rfl⟩
abbrev main_call24_call0_v7 : Ref sig .tc := ⟨.hbm, 1168, rfl⟩
abbrev main_call24_call0_cst_1 : Ref sig .tc := ⟨.hbm, 1169, rfl⟩
abbrev main_call24_call0_v8 : Ref sig .tc := ⟨.hbm, 1170, rfl⟩
abbrev main_call24_call0_cst_2 : Ref sig .tc := ⟨.hbm, 1171, rfl⟩
abbrev main_call24_call0_v9 : Ref sig .tc := ⟨.hbm, 1172, rfl⟩
abbrev main_call24_call0_v10 : Ref sig .tc := ⟨.hbm, 1173, rfl⟩
abbrev main_call24_call0_v11 : Ref sig .tc := ⟨.hbm, 1174, rfl⟩
abbrev main_call24_call0_cst_3 : Ref sig .tc := ⟨.hbm, 1175, rfl⟩
abbrev main_call24_call0_v12 : Ref sig .tc := ⟨.hbm, 1176, rfl⟩
abbrev main_call24_call0_cst_4 : Ref sig .tc := ⟨.hbm, 1177, rfl⟩
abbrev main_call24_call0_call0_v0 : Ref sig .tc := ⟨.hbm, 1178, rfl⟩
abbrev main_call24_call0_call0_v1 : Ref sig .tc := ⟨.hbm, 1179, rfl⟩
abbrev main_call24_v0 : Ref sig .tc := ⟨.hbm, 1180, rfl⟩
abbrev main_v506 : Ref sig .tc := ⟨.hbm, 1181, rfl⟩
abbrev main_cst_120 : Ref sig .tc := ⟨.hbm, 1182, rfl⟩
abbrev main_v507 : Ref sig .tc := ⟨.hbm, 1183, rfl⟩
abbrev main_v508 : Ref sig .tc := ⟨.hbm, 1184, rfl⟩
abbrev main_v509 : Ref sig .tc := ⟨.hbm, 1185, rfl⟩
abbrev main_v510 : Ref sig .tc := ⟨.hbm, 1186, rfl⟩
abbrev main_v511 : Ref sig .tc := ⟨.hbm, 1187, rfl⟩
abbrev main_v512 : Ref sig .tc := ⟨.hbm, 1188, rfl⟩
abbrev main_v513 : Ref sig .tc := ⟨.hbm, 1189, rfl⟩
abbrev main_cst_121 : Ref sig .tc := ⟨.hbm, 1190, rfl⟩
abbrev main_v514 : Ref sig .tc := ⟨.hbm, 1191, rfl⟩
abbrev main_v515 : Ref sig .tc := ⟨.hbm, 1192, rfl⟩
abbrev main_v516 : Ref sig .tc := ⟨.hbm, 1193, rfl⟩
abbrev main_v517 : Ref sig .tc := ⟨.hbm, 1194, rfl⟩
abbrev main_v518 : Ref sig .tc := ⟨.hbm, 1195, rfl⟩
abbrev main_v519 : Ref sig .tc := ⟨.hbm, 1196, rfl⟩
abbrev main_v520 : Ref sig .tc := ⟨.hbm, 1197, rfl⟩
abbrev main_cst_122 : Ref sig .tc := ⟨.hbm, 1198, rfl⟩
abbrev main_v521 : Ref sig .tc := ⟨.hbm, 1199, rfl⟩
abbrev main_cst_123 : Ref sig .tc := ⟨.hbm, 1200, rfl⟩
abbrev main_v522 : Ref sig .tc := ⟨.hbm, 1201, rfl⟩
abbrev main_v523 : Ref sig .tc := ⟨.hbm, 1202, rfl⟩
abbrev main_v524 : Ref sig .tc := ⟨.hbm, 1203, rfl⟩
abbrev main_v525 : Ref sig .tc := ⟨.hbm, 1204, rfl⟩
abbrev main_v526 : Ref sig .tc := ⟨.hbm, 1205, rfl⟩
abbrev main_c_124 : Ref sig .tc := ⟨.hbm, 1206, rfl⟩
abbrev main_call25_call0_cst : Ref sig .tc := ⟨.hbm, 1207, rfl⟩
abbrev main_call25_call0_v0 : Ref sig .tc := ⟨.hbm, 1208, rfl⟩
abbrev main_call25_call0_v1 : Ref sig .tc := ⟨.hbm, 1209, rfl⟩
abbrev main_call25_call0_cst_0 : Ref sig .tc := ⟨.hbm, 1210, rfl⟩
abbrev main_call25_call0_v2 : Ref sig .tc := ⟨.hbm, 1211, rfl⟩
abbrev main_call25_call0_v3 : Ref sig .tc := ⟨.hbm, 1212, rfl⟩
abbrev main_call25_call0_v4 : Ref sig .tc := ⟨.hbm, 1213, rfl⟩
abbrev main_call25_call0_v5 : Ref sig .tc := ⟨.hbm, 1214, rfl⟩
abbrev main_call25_call0_v6 : Ref sig .tc := ⟨.hbm, 1215, rfl⟩
abbrev main_call25_call0_v7 : Ref sig .tc := ⟨.hbm, 1216, rfl⟩
abbrev main_call25_call0_cst_1 : Ref sig .tc := ⟨.hbm, 1217, rfl⟩
abbrev main_call25_call0_v8 : Ref sig .tc := ⟨.hbm, 1218, rfl⟩
abbrev main_call25_call0_cst_2 : Ref sig .tc := ⟨.hbm, 1219, rfl⟩
abbrev main_call25_call0_v9 : Ref sig .tc := ⟨.hbm, 1220, rfl⟩
abbrev main_call25_call0_v10 : Ref sig .tc := ⟨.hbm, 1221, rfl⟩
abbrev main_call25_call0_v11 : Ref sig .tc := ⟨.hbm, 1222, rfl⟩
abbrev main_call25_call0_cst_3 : Ref sig .tc := ⟨.hbm, 1223, rfl⟩
abbrev main_call25_call0_v12 : Ref sig .tc := ⟨.hbm, 1224, rfl⟩
abbrev main_call25_call0_cst_4 : Ref sig .tc := ⟨.hbm, 1225, rfl⟩
abbrev main_call25_call0_call0_v0 : Ref sig .tc := ⟨.hbm, 1226, rfl⟩
abbrev main_call25_call0_call0_v1 : Ref sig .tc := ⟨.hbm, 1227, rfl⟩
abbrev main_call25_v0 : Ref sig .tc := ⟨.hbm, 1228, rfl⟩
abbrev main_v527 : Ref sig .tc := ⟨.hbm, 1229, rfl⟩
abbrev main_cst_125 : Ref sig .tc := ⟨.hbm, 1230, rfl⟩
abbrev main_v528 : Ref sig .tc := ⟨.hbm, 1231, rfl⟩
abbrev main_v529 : Ref sig .tc := ⟨.hbm, 1232, rfl⟩
abbrev main_v530 : Ref sig .tc := ⟨.hbm, 1233, rfl⟩
abbrev main_v531 : Ref sig .tc := ⟨.hbm, 1234, rfl⟩
abbrev main_v532 : Ref sig .tc := ⟨.hbm, 1235, rfl⟩
abbrev main_v533 : Ref sig .tc := ⟨.hbm, 1236, rfl⟩
abbrev main_v534 : Ref sig .tc := ⟨.hbm, 1237, rfl⟩
abbrev main_cst_126 : Ref sig .tc := ⟨.hbm, 1238, rfl⟩
abbrev main_v535 : Ref sig .tc := ⟨.hbm, 1239, rfl⟩
abbrev main_v536 : Ref sig .tc := ⟨.hbm, 1240, rfl⟩
abbrev main_v537 : Ref sig .tc := ⟨.hbm, 1241, rfl⟩
abbrev main_v538 : Ref sig .tc := ⟨.hbm, 1242, rfl⟩
abbrev main_v539 : Ref sig .tc := ⟨.hbm, 1243, rfl⟩
abbrev main_v540 : Ref sig .tc := ⟨.hbm, 1244, rfl⟩
abbrev main_v541 : Ref sig .tc := ⟨.hbm, 1245, rfl⟩
abbrev main_cst_127 : Ref sig .tc := ⟨.hbm, 1246, rfl⟩
abbrev main_v542 : Ref sig .tc := ⟨.hbm, 1247, rfl⟩
abbrev main_cst_128 : Ref sig .tc := ⟨.hbm, 1248, rfl⟩
abbrev main_v543 : Ref sig .tc := ⟨.hbm, 1249, rfl⟩
abbrev main_v544 : Ref sig .tc := ⟨.hbm, 1250, rfl⟩
abbrev main_v545 : Ref sig .tc := ⟨.hbm, 1251, rfl⟩
abbrev main_v546 : Ref sig .tc := ⟨.hbm, 1252, rfl⟩
abbrev main_v547 : Ref sig .tc := ⟨.hbm, 1253, rfl⟩
abbrev main_c_129 : Ref sig .tc := ⟨.hbm, 1254, rfl⟩
abbrev main_call26_call0_cst : Ref sig .tc := ⟨.hbm, 1255, rfl⟩
abbrev main_call26_call0_v0 : Ref sig .tc := ⟨.hbm, 1256, rfl⟩
abbrev main_call26_call0_v1 : Ref sig .tc := ⟨.hbm, 1257, rfl⟩
abbrev main_call26_call0_cst_0 : Ref sig .tc := ⟨.hbm, 1258, rfl⟩
abbrev main_call26_call0_v2 : Ref sig .tc := ⟨.hbm, 1259, rfl⟩
abbrev main_call26_call0_v3 : Ref sig .tc := ⟨.hbm, 1260, rfl⟩
abbrev main_call26_call0_v4 : Ref sig .tc := ⟨.hbm, 1261, rfl⟩
abbrev main_call26_call0_v5 : Ref sig .tc := ⟨.hbm, 1262, rfl⟩
abbrev main_call26_call0_v6 : Ref sig .tc := ⟨.hbm, 1263, rfl⟩
abbrev main_call26_call0_v7 : Ref sig .tc := ⟨.hbm, 1264, rfl⟩
abbrev main_call26_call0_cst_1 : Ref sig .tc := ⟨.hbm, 1265, rfl⟩
abbrev main_call26_call0_v8 : Ref sig .tc := ⟨.hbm, 1266, rfl⟩
abbrev main_call26_call0_cst_2 : Ref sig .tc := ⟨.hbm, 1267, rfl⟩
abbrev main_call26_call0_v9 : Ref sig .tc := ⟨.hbm, 1268, rfl⟩
abbrev main_call26_call0_v10 : Ref sig .tc := ⟨.hbm, 1269, rfl⟩
abbrev main_call26_call0_v11 : Ref sig .tc := ⟨.hbm, 1270, rfl⟩
abbrev main_call26_call0_cst_3 : Ref sig .tc := ⟨.hbm, 1271, rfl⟩
abbrev main_call26_call0_v12 : Ref sig .tc := ⟨.hbm, 1272, rfl⟩
abbrev main_call26_call0_cst_4 : Ref sig .tc := ⟨.hbm, 1273, rfl⟩
abbrev main_call26_call0_call0_v0 : Ref sig .tc := ⟨.hbm, 1274, rfl⟩
abbrev main_call26_call0_call0_v1 : Ref sig .tc := ⟨.hbm, 1275, rfl⟩
abbrev main_call26_v0 : Ref sig .tc := ⟨.hbm, 1276, rfl⟩
abbrev main_v548 : Ref sig .tc := ⟨.hbm, 1277, rfl⟩
abbrev main_cst_130 : Ref sig .tc := ⟨.hbm, 1278, rfl⟩
abbrev main_v549 : Ref sig .tc := ⟨.hbm, 1279, rfl⟩
abbrev main_v550 : Ref sig .tc := ⟨.hbm, 1280, rfl⟩
abbrev main_v551 : Ref sig .tc := ⟨.hbm, 1281, rfl⟩
abbrev main_v552 : Ref sig .tc := ⟨.hbm, 1282, rfl⟩
abbrev main_v553 : Ref sig .tc := ⟨.hbm, 1283, rfl⟩
abbrev main_v554 : Ref sig .tc := ⟨.hbm, 1284, rfl⟩
abbrev main_v555 : Ref sig .tc := ⟨.hbm, 1285, rfl⟩
abbrev main_cst_131 : Ref sig .tc := ⟨.hbm, 1286, rfl⟩
abbrev main_v556 : Ref sig .tc := ⟨.hbm, 1287, rfl⟩
abbrev main_v557 : Ref sig .tc := ⟨.hbm, 1288, rfl⟩
abbrev main_v558 : Ref sig .tc := ⟨.hbm, 1289, rfl⟩
abbrev main_v559 : Ref sig .tc := ⟨.hbm, 1290, rfl⟩
abbrev main_v560 : Ref sig .tc := ⟨.hbm, 1291, rfl⟩
abbrev main_v561 : Ref sig .tc := ⟨.hbm, 1292, rfl⟩
abbrev main_v562 : Ref sig .tc := ⟨.hbm, 1293, rfl⟩
abbrev main_cst_132 : Ref sig .tc := ⟨.hbm, 1294, rfl⟩
abbrev main_v563 : Ref sig .tc := ⟨.hbm, 1295, rfl⟩
abbrev main_cst_133 : Ref sig .tc := ⟨.hbm, 1296, rfl⟩
abbrev main_v564 : Ref sig .tc := ⟨.hbm, 1297, rfl⟩
abbrev main_v565 : Ref sig .tc := ⟨.hbm, 1298, rfl⟩
abbrev main_v566 : Ref sig .tc := ⟨.hbm, 1299, rfl⟩
abbrev main_v567 : Ref sig .tc := ⟨.hbm, 1300, rfl⟩
abbrev main_v568 : Ref sig .tc := ⟨.hbm, 1301, rfl⟩
abbrev main_c_134 : Ref sig .tc := ⟨.hbm, 1302, rfl⟩
abbrev main_call27_call0_cst : Ref sig .tc := ⟨.hbm, 1303, rfl⟩
abbrev main_call27_call0_v0 : Ref sig .tc := ⟨.hbm, 1304, rfl⟩
abbrev main_call27_call0_v1 : Ref sig .tc := ⟨.hbm, 1305, rfl⟩
abbrev main_call27_call0_cst_0 : Ref sig .tc := ⟨.hbm, 1306, rfl⟩
abbrev main_call27_call0_v2 : Ref sig .tc := ⟨.hbm, 1307, rfl⟩
abbrev main_call27_call0_v3 : Ref sig .tc := ⟨.hbm, 1308, rfl⟩
abbrev main_call27_call0_v4 : Ref sig .tc := ⟨.hbm, 1309, rfl⟩
abbrev main_call27_call0_v5 : Ref sig .tc := ⟨.hbm, 1310, rfl⟩
abbrev main_call27_call0_v6 : Ref sig .tc := ⟨.hbm, 1311, rfl⟩
abbrev main_call27_call0_v7 : Ref sig .tc := ⟨.hbm, 1312, rfl⟩
abbrev main_call27_call0_cst_1 : Ref sig .tc := ⟨.hbm, 1313, rfl⟩
abbrev main_call27_call0_v8 : Ref sig .tc := ⟨.hbm, 1314, rfl⟩
abbrev main_call27_call0_cst_2 : Ref sig .tc := ⟨.hbm, 1315, rfl⟩
abbrev main_call27_call0_v9 : Ref sig .tc := ⟨.hbm, 1316, rfl⟩
abbrev main_call27_call0_v10 : Ref sig .tc := ⟨.hbm, 1317, rfl⟩
abbrev main_call27_call0_v11 : Ref sig .tc := ⟨.hbm, 1318, rfl⟩
abbrev main_call27_call0_cst_3 : Ref sig .tc := ⟨.hbm, 1319, rfl⟩
abbrev main_call27_call0_v12 : Ref sig .tc := ⟨.hbm, 1320, rfl⟩
abbrev main_call27_call0_cst_4 : Ref sig .tc := ⟨.hbm, 1321, rfl⟩
abbrev main_call27_call0_call0_v0 : Ref sig .tc := ⟨.hbm, 1322, rfl⟩
abbrev main_call27_call0_call0_v1 : Ref sig .tc := ⟨.hbm, 1323, rfl⟩
abbrev main_call27_v0 : Ref sig .tc := ⟨.hbm, 1324, rfl⟩
abbrev main_v569 : Ref sig .tc := ⟨.hbm, 1325, rfl⟩
abbrev main_cst_135 : Ref sig .tc := ⟨.hbm, 1326, rfl⟩
abbrev main_v570 : Ref sig .tc := ⟨.hbm, 1327, rfl⟩
abbrev main_v571 : Ref sig .tc := ⟨.hbm, 1328, rfl⟩
abbrev main_v572 : Ref sig .tc := ⟨.hbm, 1329, rfl⟩
abbrev main_v573 : Ref sig .tc := ⟨.hbm, 1330, rfl⟩
abbrev main_v574 : Ref sig .tc := ⟨.hbm, 1331, rfl⟩
abbrev main_v575 : Ref sig .tc := ⟨.hbm, 1332, rfl⟩
abbrev main_v576 : Ref sig .tc := ⟨.hbm, 1333, rfl⟩
abbrev main_cst_136 : Ref sig .tc := ⟨.hbm, 1334, rfl⟩
abbrev main_v577 : Ref sig .tc := ⟨.hbm, 1335, rfl⟩
abbrev main_v578 : Ref sig .tc := ⟨.hbm, 1336, rfl⟩
abbrev main_v579 : Ref sig .tc := ⟨.hbm, 1337, rfl⟩
abbrev main_v580 : Ref sig .tc := ⟨.hbm, 1338, rfl⟩
abbrev main_v581 : Ref sig .tc := ⟨.hbm, 1339, rfl⟩
abbrev main_v582 : Ref sig .tc := ⟨.hbm, 1340, rfl⟩
abbrev main_v583 : Ref sig .tc := ⟨.hbm, 1341, rfl⟩
abbrev main_cst_137 : Ref sig .tc := ⟨.hbm, 1342, rfl⟩
abbrev main_v584 : Ref sig .tc := ⟨.hbm, 1343, rfl⟩
abbrev main_cst_138 : Ref sig .tc := ⟨.hbm, 1344, rfl⟩
abbrev main_v585 : Ref sig .tc := ⟨.hbm, 1345, rfl⟩
abbrev main_v586 : Ref sig .tc := ⟨.hbm, 1346, rfl⟩
abbrev main_v587 : Ref sig .tc := ⟨.hbm, 1347, rfl⟩
abbrev main_v588 : Ref sig .tc := ⟨.hbm, 1348, rfl⟩
abbrev main_v589 : Ref sig .tc := ⟨.hbm, 1349, rfl⟩
abbrev main_c_139 : Ref sig .tc := ⟨.hbm, 1350, rfl⟩
abbrev main_call28_call0_cst : Ref sig .tc := ⟨.hbm, 1351, rfl⟩
abbrev main_call28_call0_v0 : Ref sig .tc := ⟨.hbm, 1352, rfl⟩
abbrev main_call28_call0_v1 : Ref sig .tc := ⟨.hbm, 1353, rfl⟩
abbrev main_call28_call0_cst_0 : Ref sig .tc := ⟨.hbm, 1354, rfl⟩
abbrev main_call28_call0_v2 : Ref sig .tc := ⟨.hbm, 1355, rfl⟩
abbrev main_call28_call0_v3 : Ref sig .tc := ⟨.hbm, 1356, rfl⟩
abbrev main_call28_call0_v4 : Ref sig .tc := ⟨.hbm, 1357, rfl⟩
abbrev main_call28_call0_v5 : Ref sig .tc := ⟨.hbm, 1358, rfl⟩
abbrev main_call28_call0_v6 : Ref sig .tc := ⟨.hbm, 1359, rfl⟩
abbrev main_call28_call0_v7 : Ref sig .tc := ⟨.hbm, 1360, rfl⟩
abbrev main_call28_call0_cst_1 : Ref sig .tc := ⟨.hbm, 1361, rfl⟩
abbrev main_call28_call0_v8 : Ref sig .tc := ⟨.hbm, 1362, rfl⟩
abbrev main_call28_call0_cst_2 : Ref sig .tc := ⟨.hbm, 1363, rfl⟩
abbrev main_call28_call0_v9 : Ref sig .tc := ⟨.hbm, 1364, rfl⟩
abbrev main_call28_call0_v10 : Ref sig .tc := ⟨.hbm, 1365, rfl⟩
abbrev main_call28_call0_v11 : Ref sig .tc := ⟨.hbm, 1366, rfl⟩
abbrev main_call28_call0_cst_3 : Ref sig .tc := ⟨.hbm, 1367, rfl⟩
abbrev main_call28_call0_v12 : Ref sig .tc := ⟨.hbm, 1368, rfl⟩
abbrev main_call28_call0_cst_4 : Ref sig .tc := ⟨.hbm, 1369, rfl⟩
abbrev main_call28_call0_call0_v0 : Ref sig .tc := ⟨.hbm, 1370, rfl⟩
abbrev main_call28_call0_call0_v1 : Ref sig .tc := ⟨.hbm, 1371, rfl⟩
abbrev main_call28_v0 : Ref sig .tc := ⟨.hbm, 1372, rfl⟩
abbrev main_v590 : Ref sig .tc := ⟨.hbm, 1373, rfl⟩
abbrev main_cst_140 : Ref sig .tc := ⟨.hbm, 1374, rfl⟩
abbrev main_v591 : Ref sig .tc := ⟨.hbm, 1375, rfl⟩
abbrev main_v592 : Ref sig .tc := ⟨.hbm, 1376, rfl⟩
abbrev main_v593 : Ref sig .tc := ⟨.hbm, 1377, rfl⟩
abbrev main_v594 : Ref sig .tc := ⟨.hbm, 1378, rfl⟩
abbrev main_v595 : Ref sig .tc := ⟨.hbm, 1379, rfl⟩
abbrev main_v596 : Ref sig .tc := ⟨.hbm, 1380, rfl⟩
abbrev main_v597 : Ref sig .tc := ⟨.hbm, 1381, rfl⟩
abbrev main_cst_141 : Ref sig .tc := ⟨.hbm, 1382, rfl⟩
abbrev main_v598 : Ref sig .tc := ⟨.hbm, 1383, rfl⟩
abbrev main_v599 : Ref sig .tc := ⟨.hbm, 1384, rfl⟩
abbrev main_v600 : Ref sig .tc := ⟨.hbm, 1385, rfl⟩
abbrev main_v601 : Ref sig .tc := ⟨.hbm, 1386, rfl⟩
abbrev main_v602 : Ref sig .tc := ⟨.hbm, 1387, rfl⟩
abbrev main_v603 : Ref sig .tc := ⟨.hbm, 1388, rfl⟩
abbrev main_v604 : Ref sig .tc := ⟨.hbm, 1389, rfl⟩
abbrev main_cst_142 : Ref sig .tc := ⟨.hbm, 1390, rfl⟩
abbrev main_v605 : Ref sig .tc := ⟨.hbm, 1391, rfl⟩
abbrev main_cst_143 : Ref sig .tc := ⟨.hbm, 1392, rfl⟩
abbrev main_v606 : Ref sig .tc := ⟨.hbm, 1393, rfl⟩
abbrev main_v607 : Ref sig .tc := ⟨.hbm, 1394, rfl⟩
abbrev main_v608 : Ref sig .tc := ⟨.hbm, 1395, rfl⟩
abbrev main_v609 : Ref sig .tc := ⟨.hbm, 1396, rfl⟩
abbrev main_v610 : Ref sig .tc := ⟨.hbm, 1397, rfl⟩
abbrev main_c_144 : Ref sig .tc := ⟨.hbm, 1398, rfl⟩
abbrev main_call29_call0_cst : Ref sig .tc := ⟨.hbm, 1399, rfl⟩
abbrev main_call29_call0_v0 : Ref sig .tc := ⟨.hbm, 1400, rfl⟩
abbrev main_call29_call0_v1 : Ref sig .tc := ⟨.hbm, 1401, rfl⟩
abbrev main_call29_call0_cst_0 : Ref sig .tc := ⟨.hbm, 1402, rfl⟩
abbrev main_call29_call0_v2 : Ref sig .tc := ⟨.hbm, 1403, rfl⟩
abbrev main_call29_call0_v3 : Ref sig .tc := ⟨.hbm, 1404, rfl⟩
abbrev main_call29_call0_v4 : Ref sig .tc := ⟨.hbm, 1405, rfl⟩
abbrev main_call29_call0_v5 : Ref sig .tc := ⟨.hbm, 1406, rfl⟩
abbrev main_call29_call0_v6 : Ref sig .tc := ⟨.hbm, 1407, rfl⟩
abbrev main_call29_call0_v7 : Ref sig .tc := ⟨.hbm, 1408, rfl⟩
abbrev main_call29_call0_cst_1 : Ref sig .tc := ⟨.hbm, 1409, rfl⟩
abbrev main_call29_call0_v8 : Ref sig .tc := ⟨.hbm, 1410, rfl⟩
abbrev main_call29_call0_cst_2 : Ref sig .tc := ⟨.hbm, 1411, rfl⟩
abbrev main_call29_call0_v9 : Ref sig .tc := ⟨.hbm, 1412, rfl⟩
abbrev main_call29_call0_v10 : Ref sig .tc := ⟨.hbm, 1413, rfl⟩
abbrev main_call29_call0_v11 : Ref sig .tc := ⟨.hbm, 1414, rfl⟩
abbrev main_call29_call0_cst_3 : Ref sig .tc := ⟨.hbm, 1415, rfl⟩
abbrev main_call29_call0_v12 : Ref sig .tc := ⟨.hbm, 1416, rfl⟩
abbrev main_call29_call0_cst_4 : Ref sig .tc := ⟨.hbm, 1417, rfl⟩
abbrev main_call29_call0_call0_v0 : Ref sig .tc := ⟨.hbm, 1418, rfl⟩
abbrev main_call29_call0_call0_v1 : Ref sig .tc := ⟨.hbm, 1419, rfl⟩
abbrev main_call29_v0 : Ref sig .tc := ⟨.hbm, 1420, rfl⟩
abbrev main_v611 : Ref sig .tc := ⟨.hbm, 1421, rfl⟩
abbrev main_cst_145 : Ref sig .tc := ⟨.hbm, 1422, rfl⟩
abbrev main_v612 : Ref sig .tc := ⟨.hbm, 1423, rfl⟩
abbrev main_v613 : Ref sig .tc := ⟨.hbm, 1424, rfl⟩
abbrev main_v614 : Ref sig .tc := ⟨.hbm, 1425, rfl⟩
abbrev main_v615 : Ref sig .tc := ⟨.hbm, 1426, rfl⟩
abbrev main_v616 : Ref sig .tc := ⟨.hbm, 1427, rfl⟩
abbrev main_v617 : Ref sig .tc := ⟨.hbm, 1428, rfl⟩
abbrev main_v618 : Ref sig .tc := ⟨.hbm, 1429, rfl⟩
abbrev main_cst_146 : Ref sig .tc := ⟨.hbm, 1430, rfl⟩
abbrev main_v619 : Ref sig .tc := ⟨.hbm, 1431, rfl⟩
abbrev main_v620 : Ref sig .tc := ⟨.hbm, 1432, rfl⟩
abbrev main_v621 : Ref sig .tc := ⟨.hbm, 1433, rfl⟩
abbrev main_v622 : Ref sig .tc := ⟨.hbm, 1434, rfl⟩
abbrev main_v623 : Ref sig .tc := ⟨.hbm, 1435, rfl⟩
abbrev main_v624 : Ref sig .tc := ⟨.hbm, 1436, rfl⟩
abbrev main_v625 : Ref sig .tc := ⟨.hbm, 1437, rfl⟩
abbrev main_cst_147 : Ref sig .tc := ⟨.hbm, 1438, rfl⟩
abbrev main_v626 : Ref sig .tc := ⟨.hbm, 1439, rfl⟩
abbrev main_cst_148 : Ref sig .tc := ⟨.hbm, 1440, rfl⟩
abbrev main_v627 : Ref sig .tc := ⟨.hbm, 1441, rfl⟩
abbrev main_v628 : Ref sig .tc := ⟨.hbm, 1442, rfl⟩
abbrev main_v629 : Ref sig .tc := ⟨.hbm, 1443, rfl⟩
abbrev main_v630 : Ref sig .tc := ⟨.hbm, 1444, rfl⟩
abbrev main_v631 : Ref sig .tc := ⟨.hbm, 1445, rfl⟩
abbrev main_c_149 : Ref sig .tc := ⟨.hbm, 1446, rfl⟩
abbrev main_call30_call0_cst : Ref sig .tc := ⟨.hbm, 1447, rfl⟩
abbrev main_call30_call0_v0 : Ref sig .tc := ⟨.hbm, 1448, rfl⟩
abbrev main_call30_call0_v1 : Ref sig .tc := ⟨.hbm, 1449, rfl⟩
abbrev main_call30_call0_cst_0 : Ref sig .tc := ⟨.hbm, 1450, rfl⟩
abbrev main_call30_call0_v2 : Ref sig .tc := ⟨.hbm, 1451, rfl⟩
abbrev main_call30_call0_v3 : Ref sig .tc := ⟨.hbm, 1452, rfl⟩
abbrev main_call30_call0_v4 : Ref sig .tc := ⟨.hbm, 1453, rfl⟩
abbrev main_call30_call0_v5 : Ref sig .tc := ⟨.hbm, 1454, rfl⟩
abbrev main_call30_call0_v6 : Ref sig .tc := ⟨.hbm, 1455, rfl⟩
abbrev main_call30_call0_v7 : Ref sig .tc := ⟨.hbm, 1456, rfl⟩
abbrev main_call30_call0_cst_1 : Ref sig .tc := ⟨.hbm, 1457, rfl⟩
abbrev main_call30_call0_v8 : Ref sig .tc := ⟨.hbm, 1458, rfl⟩
abbrev main_call30_call0_cst_2 : Ref sig .tc := ⟨.hbm, 1459, rfl⟩
abbrev main_call30_call0_v9 : Ref sig .tc := ⟨.hbm, 1460, rfl⟩
abbrev main_call30_call0_v10 : Ref sig .tc := ⟨.hbm, 1461, rfl⟩
abbrev main_call30_call0_v11 : Ref sig .tc := ⟨.hbm, 1462, rfl⟩
abbrev main_call30_call0_cst_3 : Ref sig .tc := ⟨.hbm, 1463, rfl⟩
abbrev main_call30_call0_v12 : Ref sig .tc := ⟨.hbm, 1464, rfl⟩
abbrev main_call30_call0_cst_4 : Ref sig .tc := ⟨.hbm, 1465, rfl⟩
abbrev main_call30_call0_call0_v0 : Ref sig .tc := ⟨.hbm, 1466, rfl⟩
abbrev main_call30_call0_call0_v1 : Ref sig .tc := ⟨.hbm, 1467, rfl⟩
abbrev main_call30_v0 : Ref sig .tc := ⟨.hbm, 1468, rfl⟩
abbrev main_v632 : Ref sig .tc := ⟨.hbm, 1469, rfl⟩
abbrev main_cst_150 : Ref sig .tc := ⟨.hbm, 1470, rfl⟩
abbrev main_v633 : Ref sig .tc := ⟨.hbm, 1471, rfl⟩
abbrev main_v634 : Ref sig .tc := ⟨.hbm, 1472, rfl⟩
abbrev main_v635 : Ref sig .tc := ⟨.hbm, 1473, rfl⟩
abbrev main_v636 : Ref sig .tc := ⟨.hbm, 1474, rfl⟩
abbrev main_v637 : Ref sig .tc := ⟨.hbm, 1475, rfl⟩
abbrev main_v638 : Ref sig .tc := ⟨.hbm, 1476, rfl⟩
abbrev main_v639 : Ref sig .tc := ⟨.hbm, 1477, rfl⟩
abbrev main_cst_151 : Ref sig .tc := ⟨.hbm, 1478, rfl⟩
abbrev main_v640 : Ref sig .tc := ⟨.hbm, 1479, rfl⟩
abbrev main_v641 : Ref sig .tc := ⟨.hbm, 1480, rfl⟩
abbrev main_v642 : Ref sig .tc := ⟨.hbm, 1481, rfl⟩
abbrev main_v643 : Ref sig .tc := ⟨.hbm, 1482, rfl⟩
abbrev main_v644 : Ref sig .tc := ⟨.hbm, 1483, rfl⟩
abbrev main_v645 : Ref sig .tc := ⟨.hbm, 1484, rfl⟩
abbrev main_v646 : Ref sig .tc := ⟨.hbm, 1485, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S1x4096 : S_.BroadcastsInDim S1x4096 (![] : Fin 0 → Fin S1x4096.rank)
  slices_S4096x16_S4096x1_0_0 : S4096x16.Slices ![0, 0] S4096x1
  reducesTo_S4096x1_S1_d0 : S4096x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S1x1 : S_.BroadcastsInDim S1x1 (![] : Fin 0 → Fin S1x1.rank)
  transposes_S4096x1_S1x4096_1_0 : S4096x1.Transposes [1, 0] S1x4096
  slices_S4096x16_S4096x1_0_1 : S4096x16.Slices ![0, 1] S4096x1
  concatenates_S4096x1_S4096x1_S4096x2_d1 : Shape.Concatenates [S4096x1, S4096x1] S4096x2 1
  reducesTo_S4096x2_S2_d0 : S4096x2.ReducesTo [0] S2
  bcast_S_S2 : S_.BroadcastsInDim S2 (![] : Fin 0 → Fin S2.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S1x2 : S_.BroadcastsInDim S1x2 (![] : Fin 0 → Fin S1x2.rank)
  transposes_S4096x2_S2x4096_1_0 : S4096x2.Transposes [1, 0] S2x4096
  bcast_S_S2x4096 : S_.BroadcastsInDim S2x4096 (![] : Fin 0 → Fin S2x4096.rank)
  slices_S4096x16_S4096x1_0_2 : S4096x16.Slices ![0, 2] S4096x1
  concatenates_S4096x1_S4096x1_S4096x1_S4096x3_d1 : Shape.Concatenates [S4096x1, S4096x1, S4096x1] S4096x3 1
  reducesTo_S4096x3_S3_d0 : S4096x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S1x3 : S_.BroadcastsInDim S1x3 (![] : Fin 0 → Fin S1x3.rank)
  transposes_S4096x3_S3x4096_1_0 : S4096x3.Transposes [1, 0] S3x4096
  bcast_S_S3x4096 : S_.BroadcastsInDim S3x4096 (![] : Fin 0 → Fin S3x4096.rank)
  slices_S4096x16_S4096x1_0_3 : S4096x16.Slices ![0, 3] S4096x1
  concatenates_S4096x1_S4096x1_S4096x1_S4096x1_S4096x4_d1 : Shape.Concatenates [S4096x1, S4096x1, S4096x1, S4096x1] S4096x4 1
  reducesTo_S4096x4_S4_d0 : S4096x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S1x4 : S_.BroadcastsInDim S1x4 (![] : Fin 0 → Fin S1x4.rank)
  transposes_S4096x4_S4x4096_1_0 : S4096x4.Transposes [1, 0] S4x4096
  bcast_S_S4x4096 : S_.BroadcastsInDim S4x4096 (![] : Fin 0 → Fin S4x4096.rank)
  slices_S4096x16_S4096x1_0_4 : S4096x16.Slices ![0, 4] S4096x1
  concatenates_S4096x1_S4096x1_S4096x1_S4096x1_S4096x1_S4096x5_d1 : Shape.Concatenates [S4096x1, S4096x1, S4096x1, S4096x1, S4096x1] S4096x5 1
  reducesTo_S4096x5_S5_d0 : S4096x5.ReducesTo [0] S5
  bcast_S_S5 : S_.BroadcastsInDim S5 (![] : Fin 0 → Fin S5.rank)
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  bcast_S_S1x5 : S_.BroadcastsInDim S1x5 (![] : Fin 0 → Fin S1x5.rank)
  transposes_S4096x5_S5x4096_1_0 : S4096x5.Transposes [1, 0] S5x4096
  bcast_S_S5x4096 : S_.BroadcastsInDim S5x4096 (![] : Fin 0 → Fin S5x4096.rank)
  slices_S4096x16_S4096x1_0_5 : S4096x16.Slices ![0, 5] S4096x1
  concatenates_S4096x1_S4096x1_S4096x1_S4096x1_S4096x1_S4096x1_S4096x6_d1 : Shape.Concatenates [S4096x1, S4096x1, S4096x1, S4096x1, S4096x1, S4096x1] S4096x6 1
  reducesTo_S4096x6_S6_d0 : S4096x6.ReducesTo [0] S6
  bcast_S_S6 : S_.BroadcastsInDim S6 (![] : Fin 0 → Fin S6.rank)
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  bcast_S_S1x6 : S_.BroadcastsInDim S1x6 (![] : Fin 0 → Fin S1x6.rank)
  transposes_S4096x6_S6x4096_1_0 : S4096x6.Transposes [1, 0] S6x4096
  bcast_S_S6x4096 : S_.BroadcastsInDim S6x4096 (![] : Fin 0 → Fin S6x4096.rank)
  slices_S4096x16_S4096x1_0_6 : S4096x16.Slices ![0, 6] S4096x1
  concatenates_S4096x1_S4096x1_S4096x1_S4096x1_S4096x1_S4096x1_S4096x1_S4096x7_d1 : Shape.Concatenates [S4096x1, S4096x1, S4096x1, S4096x1, S4096x1, S4096x1, S4096x1] S4096x7 1
  reducesTo_S4096x7_S7_d0 : S4096x7.ReducesTo [0] S7
  bcast_S_S7 : S_.BroadcastsInDim S7 (![] : Fin 0 → Fin S7.rank)
  bcast_S7_S1x7_1 : S7.BroadcastsInDim S1x7 (![1] : Fin 1 → Fin S1x7.rank)
  bcast_S1x7_S4096x7_0_1 : S1x7.BroadcastsInDim S4096x7 (![0, 1] : Fin 2 → Fin S4096x7.rank)
  bcast_S_S1x7 : S_.BroadcastsInDim S1x7 (![] : Fin 0 → Fin S1x7.rank)
  transposes_S4096x7_S7x4096_1_0 : S4096x7.Transposes [1, 0] S7x4096
  bcast_S_S7x4096 : S_.BroadcastsInDim S7x4096 (![] : Fin 0 → Fin S7x4096.rank)
  slices_S4096x16_S4096x1_0_7 : S4096x16.Slices ![0, 7] S4096x1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  reducesTo_S4096x8_S8_d0 : S4096x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S1x8 : S_.BroadcastsInDim S1x8 (![] : Fin 0 → Fin S1x8.rank)
  transposes_S4096x8_S8x4096_1_0 : S4096x8.Transposes [1, 0] S8x4096
  bcast_S_S8x4096 : S_.BroadcastsInDim S8x4096 (![] : Fin 0 → Fin S8x4096.rank)
  slices_S4096x16_S4096x1_0_8 : S4096x16.Slices ![0, 8] S4096x1
  concatenates_S4096x1_S4096x1_S4096x1_S4096x1_S4096x1_S4096x1_S4096x1_S4096x1_S4096x1_S4096x9_d1 : Shape.Concatenates [S4096x1, S4096x1, S4096x1, S4096x1, S4096x1, S4096x1, S4096x1, S4096x1, S4096x1] S4096x9 1
  reducesTo_S4096x9_S9_d0 : S4096x9.ReducesTo [0] S9
  bcast_S_S9 : S_.BroadcastsInDim S9 (![] : Fin 0 → Fin S9.rank)
  bcast_S9_S1x9_1 : S9.BroadcastsInDim S1x9 (![1] : Fin 1 → Fin S1x9.rank)
  bcast_S1x9_S4096x9_0_1 : S1x9.BroadcastsInDim S4096x9 (![0, 1] : Fin 2 → Fin S4096x9.rank)
  bcast_S_S1x9 : S_.BroadcastsInDim S1x9 (![] : Fin 0 → Fin S1x9.rank)
  transposes_S4096x9_S9x4096_1_0 : S4096x9.Transposes [1, 0] S9x4096
  bcast_S_S9x4096 : S_.BroadcastsInDim S9x4096 (![] : Fin 0 → Fin S9x4096.rank)
  slices_S4096x16_S4096x1_0_9 : S4096x16.Slices ![0, 9] S4096x1
  concatenates_S4096x1_S4096x1_S4096x1_S4096x1_S4096x1_S4096x1_S4096x1_S4096x1_S4096x1_S4096x1_S4096x10_d1 : Shape.Concatenates [S4096x1, S4096x1, S4096x1, S4096x1, S4096x1, S4096x1, S4096x1, S4096x1, S4096x1, S4096x1] S4096x10 1
  reducesTo_S4096x10_S10_d0 : S4096x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S1x10 : S_.BroadcastsInDim S1x10 (![] : Fin 0 → Fin S1x10.rank)
  transposes_S4096x10_S10x4096_1_0 : S4096x10.Transposes [1, 0] S10x4096
  bcast_S_S10x4096 : S_.BroadcastsInDim S10x4096 (![] : Fin 0 → Fin S10x4096.rank)
  slices_S4096x16_S4096x1_0_10 : S4096x16.Slices ![0, 10] S4096x1
  concatenates_S4096x1_S4096x1_S4096x1_S4096x1_S4096x1_S4096x1_S4096x1_S4096x1_S4096x1_S4096x1_S4096x1_S4096x11_d1 : Shape.Concatenates [S4096x1, S4096x1, S4096x1, S4096x1, S4096x1, S4096x1, S4096x1, S4096x1, S4096x1, S4096x1, S4096x1] S4096x11 1
  reducesTo_S4096x11_S11_d0 : S4096x11.ReducesTo [0] S11
  bcast_S_S11 : S_.BroadcastsInDim S11 (![] : Fin 0 → Fin S11.rank)
  bcast_S11_S1x11_1 : S11.BroadcastsInDim S1x11 (![1] : Fin 1 → Fin S1x11.rank)
  bcast_S1x11_S4096x11_0_1 : S1x11.BroadcastsInDim S4096x11 (![0, 1] : Fin 2 → Fin S4096x11.rank)
  bcast_S_S1x11 : S_.BroadcastsInDim S1x11 (![] : Fin 0 → Fin S1x11.rank)
  transposes_S4096x11_S11x4096_1_0 : S4096x11.Transposes [1, 0] S11x4096
  bcast_S_S11x4096 : S_.BroadcastsInDim S11x4096 (![] : Fin 0 → Fin S11x4096.rank)
  slices_S4096x16_S4096x1_0_11 : S4096x16.Slices ![0, 11] S4096x1
  concatenates_S4096x1_S4096x1_S4096x1_S4096x1_S4096x1_S4096x1_S4096x1_S4096x1_S4096x1_S4096x1_S4096x1_S4096x1_S4096x12_d1 : Shape.Concatenates [S4096x1, S4096x1, S4096x1, S4096x1, S4096x1, S4096x1, S4096x1, S4096x1, S4096x1, S4096x1, S4096x1, S4096x1] S4096x12 1
  reducesTo_S4096x12_S12_d0 : S4096x12.ReducesTo [0] S12
  bcast_S_S12 : S_.BroadcastsInDim S12 (![] : Fin 0 → Fin S12.rank)
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  bcast_S_S1x12 : S_.BroadcastsInDim S1x12 (![] : Fin 0 → Fin S1x12.rank)
  transposes_S4096x12_S12x4096_1_0 : S4096x12.Transposes [1, 0] S12x4096
  bcast_S_S12x4096 : S_.BroadcastsInDim S12x4096 (![] : Fin 0 → Fin S12x4096.rank)
  slices_S4096x16_S4096x1_0_12 : S4096x16.Slices ![0, 12] S4096x1
  concatenates_S4096x1_S4096x1_S4096x1_S4096x1_S4096x1_S4096x1_S4096x1_S4096x1_S4096x1_S4096x1_S4096x1_S4096x1_S4096x1_S4096x13_d1 : Shape.Concatenates [S4096x1, S4096x1, S4096x1, S4096x1, S4096x1, S4096x1, S4096x1, S4096x1, S4096x1, S4096x1, S4096x1, S4096x1, S4096x1] S4096x13 1
  reducesTo_S4096x13_S13_d0 : S4096x13.ReducesTo [0] S13
  bcast_S_S13 : S_.BroadcastsInDim S13 (![] : Fin 0 → Fin S13.rank)
  bcast_S13_S1x13_1 : S13.BroadcastsInDim S1x13 (![1] : Fin 1 → Fin S1x13.rank)
  bcast_S1x13_S4096x13_0_1 : S1x13.BroadcastsInDim S4096x13 (![0, 1] : Fin 2 → Fin S4096x13.rank)
  bcast_S_S1x13 : S_.BroadcastsInDim S1x13 (![] : Fin 0 → Fin S1x13.rank)
  transposes_S4096x13_S13x4096_1_0 : S4096x13.Transposes [1, 0] S13x4096
  bcast_S_S13x4096 : S_.BroadcastsInDim S13x4096 (![] : Fin 0 → Fin S13x4096.rank)
  slices_S4096x16_S4096x1_0_13 : S4096x16.Slices ![0, 13] S4096x1
  concatenates_S4096x1_S4096x1_S4096x1_S4096x1_S4096x1_S4096x1_S4096x1_S4096x1_S4096x1_S4096x1_S4096x1_S4096x1_S4096x1_S4096x1_S4096x14_d1 : Shape.Concatenates [S4096x1, S4096x1, S4096x1, S4096x1, S4096x1, S4096x1, S4096x1, S4096x1, S4096x1, S4096x1, S4096x1, S4096x1, S4096x1, S4096x1] S4096x14 1
  reducesTo_S4096x14_S14_d0 : S4096x14.ReducesTo [0] S14
  bcast_S_S14 : S_.BroadcastsInDim S14 (![] : Fin 0 → Fin S14.rank)
  bcast_S14_S1x14_1 : S14.BroadcastsInDim S1x14 (![1] : Fin 1 → Fin S1x14.rank)
  bcast_S1x14_S4096x14_0_1 : S1x14.BroadcastsInDim S4096x14 (![0, 1] : Fin 2 → Fin S4096x14.rank)
  bcast_S_S1x14 : S_.BroadcastsInDim S1x14 (![] : Fin 0 → Fin S1x14.rank)
  transposes_S4096x14_S14x4096_1_0 : S4096x14.Transposes [1, 0] S14x4096
  bcast_S_S14x4096 : S_.BroadcastsInDim S14x4096 (![] : Fin 0 → Fin S14x4096.rank)
  slices_S4096x16_S4096x1_0_14 : S4096x16.Slices ![0, 14] S4096x1
  concatenates_S4096x1_S4096x1_S4096x1_S4096x1_S4096x1_S4096x1_S4096x1_S4096x1_S4096x1_S4096x1_S4096x1_S4096x1_S4096x1_S4096x1_S4096x1_S4096x15_d1 : Shape.Concatenates [S4096x1, S4096x1, S4096x1, S4096x1, S4096x1, S4096x1, S4096x1, S4096x1, S4096x1, S4096x1, S4096x1, S4096x1, S4096x1, S4096x1, S4096x1] S4096x15 1
  reducesTo_S4096x15_S15_d0 : S4096x15.ReducesTo [0] S15
  bcast_S_S15 : S_.BroadcastsInDim S15 (![] : Fin 0 → Fin S15.rank)
  bcast_S15_S1x15_1 : S15.BroadcastsInDim S1x15 (![1] : Fin 1 → Fin S1x15.rank)
  bcast_S1x15_S4096x15_0_1 : S1x15.BroadcastsInDim S4096x15 (![0, 1] : Fin 2 → Fin S4096x15.rank)
  bcast_S_S1x15 : S_.BroadcastsInDim S1x15 (![] : Fin 0 → Fin S1x15.rank)
  transposes_S4096x15_S15x4096_1_0 : S4096x15.Transposes [1, 0] S15x4096
  bcast_S_S15x4096 : S_.BroadcastsInDim S15x4096 (![] : Fin 0 → Fin S15x4096.rank)
  slices_S4096x16_S4096x1_0_15 : S4096x16.Slices ![0, 15] S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  slices_S4096x16_S4096x2_0_0 : S4096x16.Slices ![0, 0] S4096x2
  slices_S4096x16_S4096x3_0_0 : S4096x16.Slices ![0, 0] S4096x3
  slices_S4096x16_S4096x4_0_0 : S4096x16.Slices ![0, 0] S4096x4
  slices_S4096x16_S4096x5_0_0 : S4096x16.Slices ![0, 0] S4096x5
  slices_S4096x16_S4096x6_0_0 : S4096x16.Slices ![0, 0] S4096x6
  slices_S4096x16_S4096x7_0_0 : S4096x16.Slices ![0, 0] S4096x7
  slices_S4096x16_S4096x8_0_0 : S4096x16.Slices ![0, 0] S4096x8
  slices_S4096x16_S4096x9_0_0 : S4096x16.Slices ![0, 0] S4096x9
  slices_S4096x16_S4096x10_0_0 : S4096x16.Slices ![0, 0] S4096x10
  slices_S4096x16_S4096x11_0_0 : S4096x16.Slices ![0, 0] S4096x11
  slices_S4096x16_S4096x12_0_0 : S4096x16.Slices ![0, 0] S4096x12
  slices_S4096x16_S4096x13_0_0 : S4096x16.Slices ![0, 0] S4096x13
  slices_S4096x16_S4096x14_0_0 : S4096x16.Slices ![0, 0] S4096x14
  slices_S4096x16_S4096x15_0_0 : S4096x16.Slices ![0, 0] S4096x15
  dot_S4096x4096_S4096x1_S4096x1_1_0_0_1_n_n_wf : DotDims.WF S4096x4096 S4096x1 S4096x1 [1] [0] [0] [1] [] []
  dot_S1x4096_S4096x4096_S1x4096_1_0_0_1_n_n_wf : DotDims.WF S1x4096 S4096x4096 S1x4096 [1] [0] [0] [1] [] []
  dot_S4096x1_S1x4096_S4096x4096_1_0_0_1_n_n_wf : DotDims.WF S4096x1 S1x4096 S4096x4096 [1] [0] [0] [1] [] []
  dot_S2x4096_S4096x4096_S2x4096_1_0_0_1_n_n_wf : DotDims.WF S2x4096 S4096x4096 S2x4096 [1] [0] [0] [1] [] []
  dot_S4096x2_S2x4096_S4096x4096_1_0_0_1_n_n_wf : DotDims.WF S4096x2 S2x4096 S4096x4096 [1] [0] [0] [1] [] []
  dot_S3x4096_S4096x4096_S3x4096_1_0_0_1_n_n_wf : DotDims.WF S3x4096 S4096x4096 S3x4096 [1] [0] [0] [1] [] []
  dot_S4096x3_S3x4096_S4096x4096_1_0_0_1_n_n_wf : DotDims.WF S4096x3 S3x4096 S4096x4096 [1] [0] [0] [1] [] []
  dot_S4x4096_S4096x4096_S4x4096_1_0_0_1_n_n_wf : DotDims.WF S4x4096 S4096x4096 S4x4096 [1] [0] [0] [1] [] []
  dot_S4096x4_S4x4096_S4096x4096_1_0_0_1_n_n_wf : DotDims.WF S4096x4 S4x4096 S4096x4096 [1] [0] [0] [1] [] []
  dot_S5x4096_S4096x4096_S5x4096_1_0_0_1_n_n_wf : DotDims.WF S5x4096 S4096x4096 S5x4096 [1] [0] [0] [1] [] []
  dot_S4096x5_S5x4096_S4096x4096_1_0_0_1_n_n_wf : DotDims.WF S4096x5 S5x4096 S4096x4096 [1] [0] [0] [1] [] []
  dot_S6x4096_S4096x4096_S6x4096_1_0_0_1_n_n_wf : DotDims.WF S6x4096 S4096x4096 S6x4096 [1] [0] [0] [1] [] []
  dot_S4096x6_S6x4096_S4096x4096_1_0_0_1_n_n_wf : DotDims.WF S4096x6 S6x4096 S4096x4096 [1] [0] [0] [1] [] []
  dot_S7x4096_S4096x4096_S7x4096_1_0_0_1_n_n_wf : DotDims.WF S7x4096 S4096x4096 S7x4096 [1] [0] [0] [1] [] []
  dot_S4096x7_S7x4096_S4096x4096_1_0_0_1_n_n_wf : DotDims.WF S4096x7 S7x4096 S4096x4096 [1] [0] [0] [1] [] []
  dot_S8x4096_S4096x4096_S8x4096_1_0_0_1_n_n_wf : DotDims.WF S8x4096 S4096x4096 S8x4096 [1] [0] [0] [1] [] []
  dot_S4096x8_S8x4096_S4096x4096_1_0_0_1_n_n_wf : DotDims.WF S4096x8 S8x4096 S4096x4096 [1] [0] [0] [1] [] []
  dot_S9x4096_S4096x4096_S9x4096_1_0_0_1_n_n_wf : DotDims.WF S9x4096 S4096x4096 S9x4096 [1] [0] [0] [1] [] []
  dot_S4096x9_S9x4096_S4096x4096_1_0_0_1_n_n_wf : DotDims.WF S4096x9 S9x4096 S4096x4096 [1] [0] [0] [1] [] []
  dot_S10x4096_S4096x4096_S10x4096_1_0_0_1_n_n_wf : DotDims.WF S10x4096 S4096x4096 S10x4096 [1] [0] [0] [1] [] []
  dot_S4096x10_S10x4096_S4096x4096_1_0_0_1_n_n_wf : DotDims.WF S4096x10 S10x4096 S4096x4096 [1] [0] [0] [1] [] []
  dot_S11x4096_S4096x4096_S11x4096_1_0_0_1_n_n_wf : DotDims.WF S11x4096 S4096x4096 S11x4096 [1] [0] [0] [1] [] []
  dot_S4096x11_S11x4096_S4096x4096_1_0_0_1_n_n_wf : DotDims.WF S4096x11 S11x4096 S4096x4096 [1] [0] [0] [1] [] []
  dot_S12x4096_S4096x4096_S12x4096_1_0_0_1_n_n_wf : DotDims.WF S12x4096 S4096x4096 S12x4096 [1] [0] [0] [1] [] []
  dot_S4096x12_S12x4096_S4096x4096_1_0_0_1_n_n_wf : DotDims.WF S4096x12 S12x4096 S4096x4096 [1] [0] [0] [1] [] []
  dot_S13x4096_S4096x4096_S13x4096_1_0_0_1_n_n_wf : DotDims.WF S13x4096 S4096x4096 S13x4096 [1] [0] [0] [1] [] []
  dot_S4096x13_S13x4096_S4096x4096_1_0_0_1_n_n_wf : DotDims.WF S4096x13 S13x4096 S4096x4096 [1] [0] [0] [1] [] []
  dot_S14x4096_S4096x4096_S14x4096_1_0_0_1_n_n_wf : DotDims.WF S14x4096 S4096x4096 S14x4096 [1] [0] [0] [1] [] []
  dot_S4096x14_S14x4096_S4096x4096_1_0_0_1_n_n_wf : DotDims.WF S4096x14 S14x4096 S4096x4096 [1] [0] [0] [1] [] []
  dot_S15x4096_S4096x4096_S15x4096_1_0_0_1_n_n_wf : DotDims.WF S15x4096 S4096x4096 S15x4096 [1] [0] [0] [1] [] []
  dot_S4096x15_S15x4096_S4096x4096_1_0_0_1_n_n_wf : DotDims.WF S4096x15 S15x4096 S4096x4096 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S2x4096_S4096x4096_S2x4096_1_0_0_1_n_n : DotDims S2x4096 S4096x4096 S2x4096 where
  lhsContracting := [1]
  rhsContracting := [0]
  lhsNonContracting := [0]
  rhsNonContracting := [1]
  lhsBatch := []
  rhsBatch := []
  wf := dot_S2x4096_S4096x4096_S2x4096_1_0_0_1_n_n_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf
def dot_S3x4096_S4096x4096_S3x4096_1_0_0_1_n_n : DotDims S3x4096 S4096x4096 S3x4096 where
  lhsContracting := [1]
  rhsContracting := [0]
  lhsNonContracting := [0]
  rhsNonContracting := [1]
  lhsBatch := []
  rhsBatch := []
  wf := dot_S3x4096_S4096x4096_S3x4096_1_0_0_1_n_n_wf
def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf
def dot_S4x4096_S4096x4096_S4x4096_1_0_0_1_n_n : DotDims S4x4096 S4096x4096 S4x4096 where
  lhsContracting := [1]
  rhsContracting := [0]
  lhsNonContracting := [0]
  rhsNonContracting := [1]
  lhsBatch := []
  rhsBatch := []
  wf := dot_S4x4096_S4096x4096_S4x4096_1_0_0_1_n_n_wf
def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S5x4096_S4096x4096_S5x4096_1_0_0_1_n_n : DotDims S5x4096 S4096x4096 S5x4096 where
  lhsContracting := [1]
  rhsContracting := [0]
  lhsNonContracting := [0]
  rhsNonContracting := [1]
  lhsBatch := []
  rhsBatch := []
  wf := dot_S5x4096_S4096x4096_S5x4096_1_0_0_1_n_n_wf
def dot_S4096x5_S5x4096_S4096x4096_1_0_0_1_n_n : DotDims S4096x5 S5x4096 S4096x4096 where
  lhsContracting := [1]
  rhsContracting := [0]
  lhsNonContracting := [0]
  rhsNonContracting := [1]
  lhsBatch := []
  rhsBatch := []
  wf := dot_S4096x5_S5x4096_S4096x4096_1_0_0_1_n_n_wf
def dot_S6x4096_S4096x4096_S6x4096_1_0_0_1_n_n : DotDims S6x4096 S4096x4096 S6x4096 where
  lhsContracting := [1]
  rhsContracting := [0]
  lhsNonContracting := [0]
  rhsNonContracting := [1]
  lhsBatch := []
  rhsBatch := []
  wf := dot_S6x4096_S4096x4096_S6x4096_1_0_0_1_n_n_wf
def dot_S4096x6_S6x4096_S4096x4096_1_0_0_1_n_n : DotDims S4096x6 S6x4096 S4096x4096 where
  lhsContracting := [1]
  rhsContracting := [0]
  lhsNonContracting := [0]
  rhsNonContracting := [1]
  lhsBatch := []
  rhsBatch := []
  wf := dot_S4096x6_S6x4096_S4096x4096_1_0_0_1_n_n_wf
def dot_S7x4096_S4096x4096_S7x4096_1_0_0_1_n_n : DotDims S7x4096 S4096x4096 S7x4096 where
  lhsContracting := [1]
  rhsContracting := [0]
  lhsNonContracting := [0]
  rhsNonContracting := [1]
  lhsBatch := []
  rhsBatch := []
  wf := dot_S7x4096_S4096x4096_S7x4096_1_0_0_1_n_n_wf
def dot_S4096x7_S7x4096_S4096x4096_1_0_0_1_n_n : DotDims S4096x7 S7x4096 S4096x4096 where
  lhsContracting := [1]
  rhsContracting := [0]
  lhsNonContracting := [0]
  rhsNonContracting := [1]
  lhsBatch := []
  rhsBatch := []
  wf := dot_S4096x7_S7x4096_S4096x4096_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S9x4096_S4096x4096_S9x4096_1_0_0_1_n_n : DotDims S9x4096 S4096x4096 S9x4096 where
  lhsContracting := [1]
  rhsContracting := [0]
  lhsNonContracting := [0]
  rhsNonContracting := [1]
  lhsBatch := []
  rhsBatch := []
  wf := dot_S9x4096_S4096x4096_S9x4096_1_0_0_1_n_n_wf
def dot_S4096x9_S9x4096_S4096x4096_1_0_0_1_n_n : DotDims S4096x9 S9x4096 S4096x4096 where
  lhsContracting := [1]
  rhsContracting := [0]
  lhsNonContracting := [0]
  rhsNonContracting := [1]
  lhsBatch := []
  rhsBatch := []
  wf := dot_S4096x9_S9x4096_S4096x4096_1_0_0_1_n_n_wf
def dot_S10x4096_S4096x4096_S10x4096_1_0_0_1_n_n : DotDims S10x4096 S4096x4096 S10x4096 where
  lhsContracting := [1]
  rhsContracting := [0]
  lhsNonContracting := [0]
  rhsNonContracting := [1]
  lhsBatch := []
  rhsBatch := []
  wf := dot_S10x4096_S4096x4096_S10x4096_1_0_0_1_n_n_wf
def dot_S4096x10_S10x4096_S4096x4096_1_0_0_1_n_n : DotDims S4096x10 S10x4096 S4096x4096 where
  lhsContracting := [1]
  rhsContracting := [0]
  lhsNonContracting := [0]
  rhsNonContracting := [1]
  lhsBatch := []
  rhsBatch := []
  wf := dot_S4096x10_S10x4096_S4096x4096_1_0_0_1_n_n_wf
def dot_S11x4096_S4096x4096_S11x4096_1_0_0_1_n_n : DotDims S11x4096 S4096x4096 S11x4096 where
  lhsContracting := [1]
  rhsContracting := [0]
  lhsNonContracting := [0]
  rhsNonContracting := [1]
  lhsBatch := []
  rhsBatch := []
  wf := dot_S11x4096_S4096x4096_S11x4096_1_0_0_1_n_n_wf
def dot_S4096x11_S11x4096_S4096x4096_1_0_0_1_n_n : DotDims S4096x11 S11x4096 S4096x4096 where
  lhsContracting := [1]
  rhsContracting := [0]
  lhsNonContracting := [0]
  rhsNonContracting := [1]
  lhsBatch := []
  rhsBatch := []
  wf := dot_S4096x11_S11x4096_S4096x4096_1_0_0_1_n_n_wf
def dot_S12x4096_S4096x4096_S12x4096_1_0_0_1_n_n : DotDims S12x4096 S4096x4096 S12x4096 where
  lhsContracting := [1]
  rhsContracting := [0]
  lhsNonContracting := [0]
  rhsNonContracting := [1]
  lhsBatch := []
  rhsBatch := []
  wf := dot_S12x4096_S4096x4096_S12x4096_1_0_0_1_n_n_wf
def dot_S4096x12_S12x4096_S4096x4096_1_0_0_1_n_n : DotDims S4096x12 S12x4096 S4096x4096 where
  lhsContracting := [1]
  rhsContracting := [0]
  lhsNonContracting := [0]
  rhsNonContracting := [1]
  lhsBatch := []
  rhsBatch := []
  wf := dot_S4096x12_S12x4096_S4096x4096_1_0_0_1_n_n_wf
def dot_S13x4096_S4096x4096_S13x4096_1_0_0_1_n_n : DotDims S13x4096 S4096x4096 S13x4096 where
  lhsContracting := [1]
  rhsContracting := [0]
  lhsNonContracting := [0]
  rhsNonContracting := [1]
  lhsBatch := []
  rhsBatch := []
  wf := dot_S13x4096_S4096x4096_S13x4096_1_0_0_1_n_n_wf
def dot_S4096x13_S13x4096_S4096x4096_1_0_0_1_n_n : DotDims S4096x13 S13x4096 S4096x4096 where
  lhsContracting := [1]
  rhsContracting := [0]
  lhsNonContracting := [0]
  rhsNonContracting := [1]
  lhsBatch := []
  rhsBatch := []
  wf := dot_S4096x13_S13x4096_S4096x4096_1_0_0_1_n_n_wf
def dot_S14x4096_S4096x4096_S14x4096_1_0_0_1_n_n : DotDims S14x4096 S4096x4096 S14x4096 where
  lhsContracting := [1]
  rhsContracting := [0]
  lhsNonContracting := [0]
  rhsNonContracting := [1]
  lhsBatch := []
  rhsBatch := []
  wf := dot_S14x4096_S4096x4096_S14x4096_1_0_0_1_n_n_wf
def dot_S4096x14_S14x4096_S4096x4096_1_0_0_1_n_n : DotDims S4096x14 S14x4096 S4096x4096 where
  lhsContracting := [1]
  rhsContracting := [0]
  lhsNonContracting := [0]
  rhsNonContracting := [1]
  lhsBatch := []
  rhsBatch := []
  wf := dot_S4096x14_S14x4096_S4096x4096_1_0_0_1_n_n_wf
def dot_S15x4096_S4096x4096_S15x4096_1_0_0_1_n_n : DotDims S15x4096 S4096x4096 S15x4096 where
  lhsContracting := [1]
  rhsContracting := [0]
  lhsNonContracting := [0]
  rhsNonContracting := [1]
  lhsBatch := []
  rhsBatch := []
  wf := dot_S15x4096_S4096x4096_S15x4096_1_0_0_1_n_n_wf
def dot_S4096x15_S15x4096_S4096x4096_1_0_0_1_n_n : DotDims S4096x15 S15x4096 S4096x4096 where
  lhsContracting := [1]
  rhsContracting := [0]
  lhsNonContracting := [0]
  rhsNonContracting := [1]
  lhsBatch := []
  rhsBatch := []
  wf := dot_S4096x15_S15x4096_S4096x4096_1_0_0_1_n_n_wf

class Facts : Prop extends Facts₀ where

variable [Facts]
-- ==== Proof.Spec.lean ====
import Idealize.ShloMosaic.PureOps.Ideal

noncomputable section

open scoped BigOperators

namespace Cert.PLS

open Idealize.ShloMosaic

abbrev Col : Type := Fin 4096 → EReal

def c4096 : EReal := Ideal.ofBits .f32 0x45800000#32

def ceps : EReal := Ideal.ofBits .f32 0x358637BD#32

def meanS (v : Col) : EReal := Ideal.div (∑ b, v b) c4096

def cenS (v : Col) : Col := fun b => v b - meanS v

def seS (c : Col) : EReal := Ideal.sqrt (meanS fun b => c b * c b) + ceps

def znS (v : Col) : Col := fun b => Ideal.div (cenS v b) (seS (cenS v))

def gamS (c u : Col) : EReal := Ideal.div (∑ b, c b * u b) c4096

def termS (c u : Col) : Col := fun b => c b * gamS c u

def accS : List Col → Col → Col
  | [], _ => fun _ => 0
  | c :: L, u => fun b => accS L u b + termS c u b

def cvK (P : ℕ → Col) : ℕ → List Col
  | 0 => []
  | n + 1 => znS (fun b => P n b - accS (cvK P n) (P n) b) :: cvK P n

def outK (P Q : ℕ → Col) (n : ℕ) : Col := fun b => Q n b - accS (cvK P n) (Q n) b

def projS (X : Fin 4096 → Fin 4096 → EReal) (wc : Fin 4096 → EReal) : Col := fun b => ∑ d, X b d * wc d

def betaS (X : Fin 4096 → Fin 4096 → EReal) (c : Col) (d : Fin 4096) : EReal := Ideal.div (∑ b, c b * X b d) c4096

def linS (X : Fin 4096 → Fin 4096 → EReal) (L : List Col) (b d : Fin 4096) : EReal :=
  X b d - (L.map fun c => c b * betaS X c d).sum

def deflS (X : Fin 4096 → Fin 4096 → EReal) (L : List Col) (wc : Fin 4096 → EReal) : Col :=
  fun b => ∑ d, linS X L b d * wc d

def cvR (X : Fin 4096 → Fin 4096 → EReal) (ws : ℕ → Fin 4096 → EReal) : ℕ → List Col
  | 0 => []
  | n + 1 => znS (deflS X (cvR X ws n) (ws n)) :: cvR X ws n

def outR (X : Fin 4096 → Fin 4096 → EReal) (ws w : ℕ → Fin 4096 → EReal) (n : ℕ) : Col :=
  deflS X (cvR X ws n) (w n)

def XS (x : Fin 4096 → Fin 4096 → EReal) : Fin 4096 → Fin 4096 → EReal := fun b d => znS (fun b' => x b' d) b

def colOf (a : Fin 4096 → Fin 16 → EReal) (i : ℕ) : Fin 4096 → EReal :=
  fun d => if h : i < 16 then a d ⟨i, h⟩ else 0

def GK (x : Fin 4096 → Fin 4096 → EReal) (w ws : Fin 4096 → Fin 16 → EReal) (b : Fin 4096) (i : Fin 16) : EReal :=
  outK (fun n => projS (XS x) (colOf ws n)) (fun n => projS (XS x) (colOf w n)) i.val b

def GR (x : Fin 4096 → Fin 4096 → EReal) (w ws : Fin 4096 → Fin 16 → EReal) (b : Fin 4096) (i : Fin 16) : EReal :=
  outR (XS x) (colOf ws) (colOf w) i.val b

end Cert.PLS

end
-- ==== Proof.KArgs.lean ====
import proofs.«156821_j17033840296170_1_alg».proof.Proof.Gen.KernelIdeal.Frame
import proofs.«156821_j17033840296170_1_alg».proof.Proof.Spec
import Idealize.ShloMosaic.Lib.ValueIdx

noncomputable section

namespace Cert.KernelIdeal.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

def xOf : Fin 4096 → Fin 4096 → EReal := fun b d => m ((c : Thread nD τ).loc main_arg0) (ix2 b d)

def wOf : Fin 4096 → Fin 16 → EReal := fun d i => m ((c : Thread nD τ).loc main_arg1) (ix2 d i)

def wsOf : Fin 4096 → Fin 16 → EReal := fun d i => m ((c : Thread nD τ).loc main_arg2) (ix2 d i)

end Cert.KernelIdeal.KV

end
-- ==== Proof.Voc.lean ====
import proofs.«156821_j17033840296170_1_alg».proof.Proof.Gen.KernelIdeal

noncomputable section

namespace Cert.KernelIdeal.Voc

open Idealize.ShloMosaic Cert.KernelIdeal Cert.KernelIdeal.Gen

variable {F : FTy → Type} [FloatOps F]

def colV (v : FVec F S4096x16 .f32) (j : ℕ) (h : S4096x16.Slices ![0, j] S4096x1) : FVec F S4096x1 .f32 :=
  extractStridedSlice S4096x1 ![0, j] v h

def rsum1 (u : FVec F S4096x1 .f32) : FVec F S1 .f32 :=
  multiReduction .add [0] S1 u 0x00000000#32 reduces_S4096x1_S1 (.inl rfl) rfl

def rsum (u : FVec F S4096x1 .f32) : FVec F S1x1 .f32 := shapeCast S1x1 (rsum1 u) shapeCasts_S1_S1x1

def d4096 (s : FVec F S1x1 .f32) : FVec F S1x1 .f32 := divf s (broadcast S1x1 (FloatOps.ofBits .f32 0x45800000#32))

def bc (s : FVec F S1x1 .f32) : FVec F S4096x1 .f32 := broadcastTo S4096x1 s broadcasts_S1x1_S4096x1

def gam (c u : FVec F S4096x1 .f32) : FVec F S1x1 .f32 := d4096 (rsum (mulf c u))

def term (c u : FVec F S4096x1 .f32) : FVec F S4096x1 .f32 := mulf c (bc (gam c u))

def zero41 : FVec F S4096x1 .f32 := broadcast S4096x1 (FloatOps.ofBits .f32 0x00000000#32)

def acc : List (FVec F S4096x1 .f32) → FVec F S4096x1 .f32 → FVec F S4096x1 .f32
  | [], _ => zero41
  | c :: L, u => addf (acc L u) (term c u)

def cen (u : FVec F S4096x1 .f32) : FVec F S4096x1 .f32 := subf u (bc (d4096 (rsum u)))

def se (c : FVec F S4096x1 .f32) : FVec F S1x1 .f32 :=
  addf (sqrt (d4096 (rsum (mulf c c)))) (broadcast S1x1 (FloatOps.ofBits .f32 0x358637BD#32))

def znc (c : FVec F S4096x1 .f32) (s : FVec F S1x1 .f32) : FVec F S4096x1 .f32 := divf c (bc s)

def zn (u : FVec F S4096x1 .f32) : FVec F S4096x1 .f32 := znc (cen u) (se (cen u))

end Cert.KernelIdeal.Voc

end
-- ==== Proof.KNames.lean ====
import proofs.«156821_j17033840296170_1_alg».proof.Proof.Gen.KernelIdeal.Frame
import proofs.«156821_j17033840296170_1_alg».proof.Proof.Voc

noncomputable section

namespace Cert.KernelIdeal.KW

open Idealize.ShloMosaic Cert.KernelIdeal Cert.KernelIdeal.Gen

variable {F : FTy → Type} [FloatOps F]

-- The arguments the body's last case is a function of.
structure RunArgs (F : FTy → Type) where
  c : Dev nD
  arg1 : Memref sig .tc .vmem S4096x256 .f32
  harg1 : arg1.IsWhole
  arg2 : Memref sig .tc .vmem S256x32 .f32
  harg2 : arg2.IsWhole
  arg4 : Memref sig .tc .vmem S4096x32 .f32
  harg4 : arg4.IsWhole
  x0 : Vec F S4096x256 .f32
  x1 : Vec F S256x32 .f32
  xs0 : Vec F S4096x32 .f32

variable (A : RunArgs F)

abbrev Pm : FVec F S4096x16 .f32 := kernelRun0_C.sl.r A.c A.arg1 A.harg1 A.arg2 A.harg2 A.arg4 A.harg4 A.x0 A.x1 A.xs0

abbrev Qm : FVec F S4096x16 .f32 := kernelRun0_C.sl.r_1 A.c A.arg1 A.harg1 A.arg2 A.harg2 A.arg4 A.harg4 A.x0 A.x1 A.xs0

def cvr (j : ℕ) : FVec F S4096x1 .f32 :=
  match j with
  | 0 => kernelRun0_C.sl.r_2 A.c A.arg1 A.harg1 A.arg2 A.harg2 A.arg4 A.harg4 A.x0 A.x1 A.xs0
  | 1 => kernelRun0_C.sl.r_5 A.c A.arg1 A.harg1 A.arg2 A.harg2 A.arg4 A.harg4 A.x0 A.x1 A.xs0
  | 2 => kernelRun0_C.sl.r_6 A.c A.arg1 A.harg1 A.arg2 A.harg2 A.arg4 A.harg4 A.x0 A.x1 A.xs0
  | 3 => kernelRun0_C.sl.r_9 A.c A.arg1 A.harg1 A.arg2 A.harg2 A.arg4 A.harg4 A.x0 A.x1 A.xs0
  | 4 => kernelRun0_C.sl.r_13 A.c A.arg1 A.harg1 A.arg2 A.harg2 A.arg4 A.harg4 A.x0 A.x1 A.xs0
  | 5 => kernelRun0_C.sl.r_18 A.c A.arg1 A.harg1 A.arg2 A.harg2 A.arg4 A.harg4 A.x0 A.x1 A.xs0
  | 6 => kernelRun0_C.sl.r_22 A.c A.arg1 A.harg1 A.arg2 A.harg2 A.arg4 A.harg4 A.x0 A.x1 A.xs0
  | 7 => kernelRun0_C.sl.r_27 A.c A.arg1 A.harg1 A.arg2 A.harg2 A.arg4 A.harg4 A.x0 A.x1 A.xs0
  | 8 => kernelRun0_C.sl.r_31 A.c A.arg1 A.harg1 A.arg2 A.harg2 A.arg4 A.harg4 A.x0 A.x1 A.xs0
  | 9 => kernelRun0_C.sl.r_35 A.c A.arg1 A.harg1 A.arg2 A.harg2 A.arg4 A.harg4 A.x0 A.x1 A.xs0
  | 10 => kernelRun0_C.sl.r_41 A.c A.arg1 A.harg1 A.arg2 A.harg2 A.arg4 A.harg4 A.x0 A.x1 A.xs0
  | 11 => kernelRun0_C.sl.r_47 A.c A.arg1 A.harg1 A.arg2 A.harg2 A.arg4 A.harg4 A.x0 A.x1 A.xs0
  | 12 => kernelRun0_C.sl.r_53 A.c A.arg1 A.harg1 A.arg2 A.harg2 A.arg4 A.harg4 A.x0 A.x1 A.xs0
  | 13 => kernelRun0_C.sl.r_59 A.c A.arg1 A.harg1 A.arg2 A.harg2 A.arg4 A.harg4 A.x0 A.x1 A.xs0
  | 14 => kernelRun0_C.sl.r_65 A.c A.arg1 A.harg1 A.arg2 A.harg2 A.arg4 A.harg4 A.x0 A.x1 A.xs0
  | _ => Voc.zero41

def pieceV (i : ℕ) : FVec F S4096x1 .f32 :=
  match i with
  | 0 => k0_pay70 (kernelRun0_C.sl.r_1 A.c A.arg1 A.harg1 A.arg2 A.harg2 A.arg4 A.harg4 A.x0 A.x1 A.xs0)
  | 1 => k0_pay74 (kernelRun0_C.sl.r_2 A.c A.arg1 A.harg1 A.arg2 A.harg2 A.arg4 A.harg4 A.x0 A.x1 A.xs0) (kernelRun0_C.sl.r_66 A.c A.arg1 A.harg1 A.arg2 A.harg2 A.arg4 A.harg4 A.x0 A.x1 A.xs0) k0_pay72 (kernelRun0_C.sl.r_67 A.c A.arg1 A.harg1 A.arg2 A.harg2 A.arg4 A.harg4 A.x0 A.x1 A.xs0) kernelRun0_C.sl.cst_55
  | 2 => k0_pay75 (kernelRun0_C.sl.r_1 A.c A.arg1 A.harg1 A.arg2 A.harg2 A.arg4 A.harg4 A.x0 A.x1 A.xs0) (kernelRun0_C.sl.r_2 A.c A.arg1 A.harg1 A.arg2 A.harg2 A.arg4 A.harg4 A.x0 A.x1 A.xs0) (kernelRun0_C.sl.r_5 A.c A.arg1 A.harg1 A.arg2 A.harg2 A.arg4 A.harg4 A.x0 A.x1 A.xs0)
  | 3 => k0_pay79 (kernelRun0_C.sl.r_6 A.c A.arg1 A.harg1 A.arg2 A.harg2 A.arg4 A.harg4 A.x0 A.x1 A.xs0) (kernelRun0_C.sl.r_68 A.c A.arg1 A.harg1 A.arg2 A.harg2 A.arg4 A.harg4 A.x0 A.x1 A.xs0) (kernelRun0_C.sl.r_69 A.c A.arg1 A.harg1 A.arg2 A.harg2 A.arg4 A.harg4 A.x0 A.x1 A.xs0) (kernelRun0_C.sl.r_70 A.c A.arg1 A.harg1 A.arg2 A.harg2 A.arg4 A.harg4 A.x0 A.x1 A.xs0)
  | 4 => kernelRun0_C.sl.r_71 A.c A.arg1 A.harg1 A.arg2 A.harg2 A.arg4 A.harg4 A.x0 A.x1 A.xs0
  | 5 => kernelRun0_C.sl.r_72 A.c A.arg1 A.harg1 A.arg2 A.harg2 A.arg4 A.harg4 A.x0 A.x1 A.xs0
  | 6 => k0_pay85 (kernelRun0_C.sl.r_18 A.c A.arg1 A.harg1 A.arg2 A.harg2 A.arg4 A.harg4 A.x0 A.x1 A.xs0) (kernelRun0_C.sl.r_73 A.c A.arg1 A.harg1 A.arg2 A.harg2 A.arg4 A.harg4 A.x0 A.x1 A.xs0) (kernelRun0_C.sl.r_74 A.c A.arg1 A.harg1 A.arg2 A.harg2 A.arg4 A.harg4 A.x0 A.x1 A.xs0) (kernelRun0_C.sl.r_75 A.c A.arg1 A.harg1 A.arg2 A.harg2 A.arg4 A.harg4 A.x0 A.x1 A.xs0) kernelRun0_C.sl.cst_55
  | 7 => k0_pay89 (kernelRun0_C.sl.r_13 A.c A.arg1 A.harg1 A.arg2 A.harg2 A.arg4 A.harg4 A.x0 A.x1 A.xs0) (kernelRun0_C.sl.r_18 A.c A.arg1 A.harg1 A.arg2 A.harg2 A.arg4 A.harg4 A.x0 A.x1 A.xs0) (kernelRun0_C.sl.r_22 A.c A.arg1 A.harg1 A.arg2 A.harg2 A.arg4 A.harg4 A.x0 A.x1 A.xs0) (kernelRun0_C.sl.r_76 A.c A.arg1 A.harg1 A.arg2 A.harg2 A.arg4 A.harg4 A.x0 A.x1 A.xs0) (kernelRun0_C.sl.r_77 A.c A.arg1 A.harg1 A.arg2 A.harg2 A.arg4 A.harg4 A.x0 A.x1 A.xs0) (kernelRun0_C.sl.r_78 A.c A.arg1 A.harg1 A.arg2 A.harg2 A.arg4 A.harg4 A.x0 A.x1 A.xs0)
  | 8 => k0_pay93 (kernelRun0_C.sl.r_9 A.c A.arg1 A.harg1 A.arg2 A.harg2 A.arg4 A.harg4 A.x0 A.x1 A.xs0) (kernelRun0_C.sl.r_13 A.c A.arg1 A.harg1 A.arg2 A.harg2 A.arg4 A.harg4 A.x0 A.x1 A.xs0) (kernelRun0_C.sl.r_18 A.c A.arg1 A.harg1 A.arg2 A.harg2 A.arg4 A.harg4 A.x0 A.x1 A.xs0) (kernelRun0_C.sl.r_22 A.c A.arg1 A.harg1 A.arg2 A.harg2 A.arg4 A.harg4 A.x0 A.x1 A.xs0) (kernelRun0_C.sl.r_27 A.c A.arg1 A.harg1 A.arg2 A.harg2 A.arg4 A.harg4 A.x0 A.x1 A.xs0) (kernelRun0_C.sl.r_79 A.c A.arg1 A.harg1 A.arg2 A.harg2 A.arg4 A.harg4 A.x0 A.x1 A.xs0) (kernelRun0_C.sl.r_80 A.c A.arg1 A.harg1 A.arg2 A.harg2 A.arg4 A.harg4 A.x0 A.x1 A.xs0) (kernelRun0_C.sl.r_81 A.c A.arg1 A.harg1 A.arg2 A.harg2 A.arg4 A.harg4 A.x0 A.x1 A.xs0)
  | 9 => k0_pay99 (kernelRun0_C.sl.r_22 A.c A.arg1 A.harg1 A.arg2 A.harg2 A.arg4 A.harg4 A.x0 A.x1 A.xs0) (kernelRun0_C.sl.r_27 A.c A.arg1 A.harg1 A.arg2 A.harg2 A.arg4 A.harg4 A.x0 A.x1 A.xs0) (kernelRun0_C.sl.r_31 A.c A.arg1 A.harg1 A.arg2 A.harg2 A.arg4 A.harg4 A.x0 A.x1 A.xs0) (kernelRun0_C.sl.r_82 A.c A.arg1 A.harg1 A.arg2 A.harg2 A.arg4 A.harg4 A.x0 A.x1 A.xs0) (kernelRun0_C.sl.r_84 A.c A.arg1 A.harg1 A.arg2 A.harg2 A.arg4 A.harg4 A.x0 A.x1 A.xs0) (kernelRun0_C.sl.r_85 A.c A.arg1 A.harg1 A.arg2 A.harg2 A.arg4 A.harg4 A.x0 A.x1 A.xs0)
  | 10 => k0_pay105 (kernelRun0_C.sl.r_31 A.c A.arg1 A.harg1 A.arg2 A.harg2 A.arg4 A.harg4 A.x0 A.x1 A.xs0) (kernelRun0_C.sl.r_35 A.c A.arg1 A.harg1 A.arg2 A.harg2 A.arg4 A.harg4 A.x0 A.x1 A.xs0) (kernelRun0_C.sl.r_86 A.c A.arg1 A.harg1 A.arg2 A.harg2 A.arg4 A.harg4 A.x0 A.x1 A.xs0) (kernelRun0_C.sl.r_89 A.c A.arg1 A.harg1 A.arg2 A.harg2 A.arg4 A.harg4 A.x0 A.x1 A.xs0) (kernelRun0_C.sl.r_90 A.c A.arg1 A.harg1 A.arg2 A.harg2 A.arg4 A.harg4 A.x0 A.x1 A.xs0)
  | 11 => k0_pay111 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_91 A.c A.arg1 A.harg1 A.arg2 A.harg2 A.arg4 A.harg4 A.x0 A.x1 A.xs0) (kernelRun0_C.sl.r_94 A.c A.arg1 A.harg1 A.arg2 A.harg2 A.arg4 A.harg4 A.x0 A.x1 A.xs0) (kernelRun0_C.sl.r_95 A.c A.arg1 A.harg1 A.arg2 A.harg2 A.arg4 A.harg4 A.x0 A.x1 A.xs0) kernelRun0_C.sl.cst_55
  | 12 => k0_pay117 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_47 A.c A.arg1 A.harg1 A.arg2 A.harg2 A.arg4 A.harg4 A.x0 A.x1 A.xs0) (kernelRun0_C.sl.r_96 A.c A.arg1 A.harg1 A.arg2 A.harg2 A.arg4 A.harg4 A.x0 A.x1 A.xs0) (kernelRun0_C.sl.r_99 A.c A.arg1 A.harg1 A.arg2 A.harg2 A.arg4 A.harg4 A.x0 A.x1 A.xs0) (kernelRun0_C.sl.r_100 A.c A.arg1 A.harg1 A.arg2 A.harg2 A.arg4 A.harg4 A.x0 A.x1 A.xs0)
  | 13 => k0_pay123 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_47 A.c A.arg1 A.harg1 A.arg2 A.harg2 A.arg4 A.harg4 A.x0 A.x1 A.xs0) (kernelRun0_C.sl.r_53 A.c A.arg1 A.harg1 A.arg2 A.harg2 A.arg4 A.harg4 A.x0 A.x1 A.xs0) (kernelRun0_C.sl.r_101 A.c A.arg1 A.harg1 A.arg2 A.harg2 A.arg4 A.harg4 A.x0 A.x1 A.xs0) (kernelRun0_C.sl.r_104 A.c A.arg1 A.harg1 A.arg2 A.harg2 A.arg4 A.harg4 A.x0 A.x1 A.xs0) (kernelRun0_C.sl.r_105 A.c A.arg1 A.harg1 A.arg2 A.harg2 A.arg4 A.harg4 A.x0 A.x1 A.xs0)
  | 14 => k0_pay131 (kernelRun0_C.sl.r_59 A.c A.arg1 A.harg1 A.arg2 A.harg2 A.arg4 A.harg4 A.x0 A.x1 A.xs0) (kernelRun0_C.sl.r_106 A.c A.arg1 A.harg1 A.arg2 A.harg2 A.arg4 A.harg4 A.x0 A.x1 A.xs0) (kernelRun0_C.sl.r_111 A.c A.arg1 A.harg1 A.arg2 A.harg2 A.arg4 A.harg4 A.x0 A.x1 A.xs0) (kernelRun0_C.sl.r_112 A.c A.arg1 A.harg1 A.arg2 A.harg2 A.arg4 A.harg4 A.x0 A.x1 A.xs0)
  | 15 => k0_pay3 (kernelRun0_C.sl.r_47 A.c A.arg1 A.harg1 A.arg2 A.harg2 A.arg4 A.harg4 A.x0 A.x1 A.xs0) (kernelRun0_C.sl.r_53 A.c A.arg1 A.harg1 A.arg2 A.harg2 A.arg4 A.harg4 A.x0 A.x1 A.xs0) (kernelRun0_C.sl.r_59 A.c A.arg1 A.harg1 A.arg2 A.harg2 A.arg4 A.harg4 A.x0 A.x1 A.xs0) (kernelRun0_C.sl.r_65 A.c A.arg1 A.harg1 A.arg2 A.harg2 A.arg4 A.harg4 A.x0 A.x1 A.xs0) (kernelRun0_C.sl.r_113 A.c A.arg1 A.harg1 A.arg2 A.harg2 A.arg4 A.harg4 A.x0 A.x1 A.xs0) (kernelRun0_C.sl.r_118 A.c A.arg1 A.harg1 A.arg2 A.harg2 A.arg4 A.harg4 A.x0 A.x1 A.xs0) (kernelRun0_C.sl.r_119 A.c A.arg1 A.harg1 A.arg2 A.harg2 A.arg4 A.harg4 A.x0 A.x1 A.xs0)
  | _ => Voc.zero41

end Cert.KernelIdeal.KW

end
-- ==== Proof.KWalk1.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem conv_eq_0 : cvr A 0 = Voc.zn (Voc.colV (Pm A) 0 slices_S4096x16_o0_0_S4096x1) := rfl

theorem aux_r3 : kernelRun0_C.sl.r_3 A.c A.arg1 A.harg1 A.arg2 A.harg2 A.arg4 A.harg4 A.x0 A.x1 A.xs0 = Voc.cen (subf (Voc.colV (Pm A) 1 slices_S4096x16_o0_1_S4096x1) (Voc.acc [cvr A 0] (Voc.colV (Pm A) 1 slices_S4096x16_o0_1_S4096x1))) := rfl

theorem aux_r4 : kernelRun0_C.sl.r_4 A.c A.arg1 A.harg1 A.arg2 A.harg2 A.arg4 A.harg4 A.x0 A.x1 A.xs0 = Voc.se (kernelRun0_C.sl.r_3 A.c A.arg1 A.harg1 A.arg2 A.harg2 A.arg4 A.harg4 A.x0 A.x1 A.xs0) := rfl

theorem conv_eq_1 : cvr A 1 = Voc.zn (subf (Voc.colV (Pm A) 1 slices_S4096x16_o0_1_S4096x1) (Voc.acc [cvr A 0] (Voc.colV (Pm A) 1 slices_S4096x16_o0_1_S4096x1))) := by
  show kernelRun0_C.sl.r_5 A.c A.arg1 A.harg1 A.arg2 A.harg2 A.arg4 A.harg4 A.x0 A.x1 A.xs0 = _
  unfold kernelRun0_C.sl.r_5 k0_pay9
  rw [aux_r4, aux_r3]
  rfl

theorem conv_eq_2 : cvr A 2 = Voc.zn (subf (Voc.colV (Pm A) 2 slices_S4096x16_o0_2_S4096x1) (Voc.acc [cvr A 1, cvr A 0] (Voc.colV (Pm A) 2 slices_S4096x16_o0_2_S4096x1))) := by
  show kernelRun0_C.sl.r_6 A.c A.arg1 A.harg1 A.arg2 A.harg2 A.arg4 A.harg4 A.x0 A.x1 A.xs0 = _
  rfl

theorem aux_r7 : kernelRun0_C.sl.r_7 A.c A.arg1 A.harg1 A.arg2 A.harg2 A.arg4 A.harg4 A.x0 A.x1 A.xs0 = (Voc.colV (Pm A) 3 slices_S4096x16_o0_3_S4096x1) := rfl

theorem aux_r8 : kernelRun0_C.sl.r_8 A.c A.arg1 A.harg1 A.arg2 A.harg2 A.arg4 A.harg4 A.x0 A.x1 A.xs0 = Voc.acc [cvr A 0] (Voc.colV (Pm A) 3 slices_S4096x16_o0_3_S4096x1) := rfl

theorem conv_eq_3 : cvr A 3 = Voc.zn (subf (Voc.colV (Pm A) 3 slices_S4096x16_o0_3_S4096x1) (Voc.acc [cvr A 2, cvr A 1, cvr A 0] (Voc.colV (Pm A) 3 slices_S4096x16_o0_3_S4096x1))) := by
  show kernelRun0_C.sl.r_9 A.c A.arg1 A.harg1 A.arg2 A.harg2 A.arg4 A.harg4 A.x0 A.x1 A.xs0 = _
  unfold kernelRun0_C.sl.r_9 k0_pay13
  rw [aux_r7, aux_r8]
  rfl

theorem aux_r10 : kernelRun0_C.sl.r_10 A.c A.arg1 A.harg1 A.arg2 A.harg2 A.arg4 A.harg4 A.x0 A.x1 A.xs0 = (Voc.colV (Pm A) 4 slices_S4096x16_o0_4_S4096x1) := rfl

theorem aux_r11 : kernelRun0_C.sl.r_11 A.c A.arg1 A.harg1 A.arg2 A.harg2 A.arg4 A.harg4 A.x0 A.x1 A.xs0 = Voc.acc [cvr A 0] (Voc.colV (Pm A) 4 slices_S4096x16_o0_4_S4096x1) := rfl

theorem aux_r12 : kernelRun0_C.sl.r_12 A.c A.arg1 A.harg1 A.arg2 A.harg2 A.arg4 A.harg4 A.x0 A.x1 A.xs0 = Voc.rsum (mulf (cvr A 1) (Voc.colV (Pm A) 4 slices_S4096x16_o0_4_S4096x1)) := rfl

theorem conv_eq_4 : cvr A 4 = Voc.zn (subf (Voc.colV (Pm A) 4 slices_S4096x16_o0_4_S4096x1) (Voc.acc [cvr A 3, cvr A 2, cvr A 1, cvr A 0] (Voc.colV (Pm A) 4 slices_S4096x16_o0_4_S4096x1))) := by
  show kernelRun0_C.sl.r_13 A.c A.arg1 A.harg1 A.arg2 A.harg2 A.arg4 A.harg4 A.x0 A.x1 A.xs0 = _
  unfold kernelRun0_C.sl.r_13 k0_pay17
  rw [aux_r10, aux_r11, aux_r12]
  rfl

theorem aux_r14 : kernelRun0_C.sl.r_14 A.c A.arg1 A.harg1 A.arg2 A.harg2 A.arg4 A.harg4 A.x0 A.x1 A.xs0 = (Voc.colV (Pm A) 5 slices_S4096x16_o0_5_S4096x1) := rfl

theorem aux_r15 : kernelRun0_C.sl.r_15 A.c A.arg1 A.harg1 A.arg2 A.harg2 A.arg4 A.harg4 A.x0 A.x1 A.xs0 = Voc.acc [cvr A 0] (Voc.colV (Pm A) 5 slices_S4096x16_o0_5_S4096x1) := rfl

theorem aux_r16 : kernelRun0_C.sl.r_16 A.c A.arg1 A.harg1 A.arg2 A.harg2 A.arg4 A.harg4 A.x0 A.x1 A.xs0 = Voc.cen (subf (Voc.colV (Pm A) 5 slices_S4096x16_o0_5_S4096x1) (Voc.acc [cvr A 4, cvr A 3, cvr A 2, cvr A 1, cvr A 0] (Voc.colV (Pm A) 5 slices_S4096x16_o0_5_S4096x1))) := by
  unfold kernelRun0_C.sl.r_16 k0_pay20
  rw [aux_r14, aux_r15]
  rfl

theorem aux_r17 : kernelRun0_C.sl.r_17 A.c A.arg1 A.harg1 A.arg2 A.harg2 A.arg4 A.harg4 A.x0 A.x1 A.xs0 = Voc.se (kernelRun0_C.sl.r_16 A.c A.arg1 A.harg1 A.arg2 A.harg2 A.arg4 A.harg4 A.x0 A.x1 A.xs0) := rfl

theorem conv_eq_5 : cvr A 5 = Voc.zn (subf (Voc.colV (Pm A) 5 slices_S4096x16_o0_5_S4096x1) (Voc.acc [cvr A 4, cvr A 3, cvr A 2, cvr A 1, cvr A 0] (Voc.colV (Pm A) 5 slices_S4096x16_o0_5_S4096x1))) := by
  show kernelRun0_C.sl.r_18 A.c A.arg1 A.harg1 A.arg2 A.harg2 A.arg4 A.harg4 A.x0 A.x1 A.xs0 = _
  unfold kernelRun0_C.sl.r_18 k0_pay22
  rw [aux_r17, aux_r16]
  rfl

theorem aux_r19 : kernelRun0_C.sl.r_19 A.c A.arg1 A.harg1 A.arg2 A.harg2 A.arg4 A.harg4 A.x0 A.x1 A.xs0 = (Voc.colV (Pm A) 6 slices_S4096x16_o0_6_S4096x1) := rfl

theorem aux_r20 : kernelRun0_C.sl.r_20 A.c A.arg1 A.harg1 A.arg2 A.harg2 A.arg4 A.harg4 A.x0 A.x1 A.xs0 = Voc.acc [cvr A 4, cvr A 3, cvr A 2, cvr A 1, cvr A 0] (Voc.colV (Pm A) 6 slices_S4096x16_o0_6_S4096x1) := rfl

theorem aux_r21 : kernelRun0_C.sl.r_21 A.c A.arg1 A.harg1 A.arg2 A.harg2 A.arg4 A.harg4 A.x0 A.x1 A.xs0 = Voc.rsum (mulf (cvr A 5) (Voc.colV (Pm A) 6 slices_S4096x16_o0_6_S4096x1)) := rfl

theorem conv_eq_6 : cvr A 6 = Voc.zn (subf (Voc.colV (Pm A) 6 slices_S4096x16_o0_6_S4096x1) (Voc.acc [cvr A 5, cvr A 4, cvr A 3, cvr A 2, cvr A 1, cvr A 0] (Voc.colV (Pm A) 6 slices_S4096x16_o0_6_S4096x1))) := by
  show kernelRun0_C.sl.r_22 A.c A.arg1 A.harg1 A.arg2 A.harg2 A.arg4 A.harg4 A.x0 A.x1 A.xs0 = _
  unfold kernelRun0_C.sl.r_22 k0_pay26
  rw [aux_r19, aux_r20, aux_r21]
  rfl

end Cert.KernelIdeal.KW

end
-- ==== Proof.KWalk2.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem aux_r23 : kernelRun0_C.sl.r_23 A.c A.arg1 A.harg1 A.arg2 A.harg2 A.arg4 A.harg4 A.x0 A.x1 A.xs0 = Voc.colV (Pm A) 7 slices_S4096x16_o0_7_S4096x1 := rfl

theorem aux_r24 : kernelRun0_C.sl.r_24 A.c A.arg1 A.harg1 A.arg2 A.harg2 A.arg4 A.harg4 A.x0 A.x1 A.xs0 = Voc.acc [cvr A 2, cvr A 1, cvr A 0] (Voc.colV (Pm A) 7 slices_S4096x16_o0_7_S4096x1) := rfl

theorem aux_r25 : kernelRun0_C.sl.r_25 A.c A.arg1 A.harg1 A.arg2 A.harg2 A.arg4 A.harg4 A.x0 A.x1 A.xs0 = Voc.cen (subf (Voc.colV (Pm A) 7 slices_S4096x16_o0_7_S4096x1) (Voc.acc [cvr A 6, cvr A 5, cvr A 4, cvr A 3, cvr A 2, cvr A 1, cvr A 0] (Voc.colV (Pm A) 7 slices_S4096x16_o0_7_S4096x1))) := by
  unfold kernelRun0_C.sl.r_25 k0_pay29
  rw [aux_r24, aux_r23]
  rfl

theorem aux_r26 : kernelRun0_C.sl.r_26 A.c A.arg1 A.harg1 A.arg2 A.harg2 A.arg4 A.harg4 A.x0 A.x1 A.xs0 = Voc.se (kernelRun0_C.sl.r_25 A.c A.arg1 A.harg1 A.arg2 A.harg2 A.arg4 A.harg4 A.x0 A.x1 A.xs0) := rfl

theorem conv_eq_7 : cvr A 7 = Voc.zn (subf (Voc.colV (Pm A) 7 slices_S4096x16_o0_7_S4096x1) (Voc.acc [cvr A 6, cvr A 5, cvr A 4, cvr A 3, cvr A 2, cvr A 1, cvr A 0] (Voc.colV (Pm A) 7 slices_S4096x16_o0_7_S4096x1))) := by
  show kernelRun0_C.sl.r_27 A.c A.arg1 A.harg1 A.arg2 A.harg2 A.arg4 A.harg4 A.x0 A.x1 A.xs0 = _
  unfold kernelRun0_C.sl.r_27 k0_pay31
  rw [aux_r26, aux_r25]
  rfl

theorem aux_r28 : kernelRun0_C.sl.r_28 A.c A.arg1 A.harg1 A.arg2 A.harg2 A.arg4 A.harg4 A.x0 A.x1 A.xs0 = Voc.colV (Pm A) 8 slices_S4096x16_o0_8_S4096x1 := rfl

theorem aux_r29 : kernelRun0_C.sl.r_29 A.c A.arg1 A.harg1 A.arg2 A.harg2 A.arg4 A.harg4 A.x0 A.x1 A.xs0 = Voc.acc [cvr A 4, cvr A 3, cvr A 2, cvr A 1, cvr A 0] (Voc.colV (Pm A) 8 slices_S4096x16_o0_8_S4096x1) := rfl

theorem aux_r30 : kernelRun0_C.sl.r_30 A.c A.arg1 A.harg1 A.arg2 A.harg2 A.arg4 A.harg4 A.x0 A.x1 A.xs0 = Voc.rsum (mulf (cvr A 5) (Voc.colV (Pm A) 8 slices_S4096x16_o0_8_S4096x1)) := rfl

theorem conv_eq_8 : cvr A 8 = Voc.zn (subf (Voc.colV (Pm A) 8 slices_S4096x16_o0_8_S4096x1) (Voc.acc [cvr A 7, cvr A 6, cvr A 5, cvr A 4, cvr A 3, cvr A 2, cvr A 1, cvr A 0] (Voc.colV (Pm A) 8 slices_S4096x16_o0_8_S4096x1))) := by
  show kernelRun0_C.sl.r_31 A.c A.arg1 A.harg1 A.arg2 A.harg2 A.arg4 A.harg4 A.x0 A.x1 A.xs0 = _
  unfold kernelRun0_C.sl.r_31 k0_pay35
  rw [aux_r30, aux_r29, aux_r28]
  rfl

theorem aux_r32 : kernelRun0_C.sl.r_32 A.c A.arg1 A.harg1 A.arg2 A.harg2 A.arg4 A.harg4 A.x0 A.x1 A.xs0 = Voc.colV (Pm A) 9 slices_S4096x16_o0_9_S4096x1 := rfl

theorem aux_r33 : kernelRun0_C.sl.r_33 A.c A.arg1 A.harg1 A.arg2 A.harg2 A.arg4 A.harg4 A.x0 A.x1 A.xs0 = Voc.acc [cvr A 0] (Voc.colV (Pm A) 9 slices_S4096x16_o0_9_S4096x1) := rfl

theorem aux_r34 : kernelRun0_C.sl.r_34 A.c A.arg1 A.harg1 A.arg2 A.harg2 A.arg4 A.harg4 A.x0 A.x1 A.xs0 = Voc.acc [cvr A 6, cvr A 5, cvr A 4, cvr A 3, cvr A 2, cvr A 1, cvr A 0] (Voc.colV (Pm A) 9 slices_S4096x16_o0_9_S4096x1) := by
  unfold kernelRun0_C.sl.r_34 k0_pay38
  rw [aux_r33, aux_r32]
  rfl

theorem conv_eq_9 : cvr A 9 = Voc.zn (subf (Voc.colV (Pm A) 9 slices_S4096x16_o0_9_S4096x1) (Voc.acc [cvr A 8, cvr A 7, cvr A 6, cvr A 5, cvr A 4, cvr A 3, cvr A 2, cvr A 1, cvr A 0] (Voc.colV (Pm A) 9 slices_S4096x16_o0_9_S4096x1))) := by
  show kernelRun0_C.sl.r_35 A.c A.arg1 A.harg1 A.arg2 A.harg2 A.arg4 A.harg4 A.x0 A.x1 A.xs0 = _
  unfold kernelRun0_C.sl.r_35 k0_pay39
  rw [aux_r34, aux_r32]
  rfl

theorem aux_r36 : kernelRun0_C.sl.r_36 A.c A.arg1 A.harg1 A.arg2 A.harg2 A.arg4 A.harg4 A.x0 A.x1 A.xs0 = Voc.colV (Pm A) 10 slices_S4096x16_o0_10_S4096x1 := rfl

theorem aux_r37 : kernelRun0_C.sl.r_37 A.c A.arg1 A.harg1 A.arg2 A.harg2 A.arg4 A.harg4 A.x0 A.x1 A.xs0 = Voc.acc [cvr A 0] (Voc.colV (Pm A) 10 slices_S4096x16_o0_10_S4096x1) := rfl

theorem aux_r38 : kernelRun0_C.sl.r_38 A.c A.arg1 A.harg1 A.arg2 A.harg2 A.arg4 A.harg4 A.x0 A.x1 A.xs0 = Voc.rsum (mulf (cvr A 1) (Voc.colV (Pm A) 10 slices_S4096x16_o0_10_S4096x1)) := rfl

theorem aux_r39 : kernelRun0_C.sl.r_39 A.c A.arg1 A.harg1 A.arg2 A.harg2 A.arg4 A.harg4 A.x0 A.x1 A.xs0 = Voc.acc [cvr A 6, cvr A 5, cvr A 4, cvr A 3, cvr A 2, cvr A 1, cvr A 0] (Voc.colV (Pm A) 10 slices_S4096x16_o0_10_S4096x1) := by
  unfold kernelRun0_C.sl.r_39 k0_pay43
  rw [aux_r38, aux_r37, aux_r36]
  rfl

theorem aux_r40 : kernelRun0_C.sl.r_40 A.c A.arg1 A.harg1 A.arg2 A.harg2 A.arg4 A.harg4 A.x0 A.x1 A.xs0 = Voc.rsum (mulf (cvr A 7) (Voc.colV (Pm A) 10 slices_S4096x16_o0_10_S4096x1)) := by
  unfold kernelRun0_C.sl.r_40 k0_pay44
  rw [aux_r36]
  rfl

theorem conv_eq_10 : cvr A 10 = Voc.zn (subf (Voc.colV (Pm A) 10 slices_S4096x16_o0_10_S4096x1) (Voc.acc [cvr A 9, cvr A 8, cvr A 7, cvr A 6, cvr A 5, cvr A 4, cvr A 3, cvr A 2, cvr A 1, cvr A 0] (Voc.colV (Pm A) 10 slices_S4096x16_o0_10_S4096x1))) := by
  show kernelRun0_C.sl.r_41 A.c A.arg1 A.harg1 A.arg2 A.harg2 A.arg4 A.harg4 A.x0 A.x1 A.xs0 = _
  unfold kernelRun0_C.sl.r_41 k0_pay45
  rw [aux_r40, aux_r39, aux_r36]
  rfl

end Cert.KernelIdeal.KW

end
-- ==== Proof.KWalk3.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem aux_r42 : kernelRun0_C.sl.r_42 A.c A.arg1 A.harg1 A.arg2 A.harg2 A.arg4 A.harg4 A.x0 A.x1 A.xs0 = Voc.colV (Pm A) 11 slices_S4096x16_o0_11_S4096x1 := rfl

theorem aux_r43 : kernelRun0_C.sl.r_43 A.c A.arg1 A.harg1 A.arg2 A.harg2 A.arg4 A.harg4 A.x0 A.x1 A.xs0 = Voc.acc [cvr A 0] (Voc.colV (Pm A) 11 slices_S4096x16_o0_11_S4096x1) := rfl

theorem aux_r44 : kernelRun0_C.sl.r_44 A.c A.arg1 A.harg1 A.arg2 A.harg2 A.arg4 A.harg4 A.x0 A.x1 A.xs0 = Voc.acc [cvr A 6, cvr A 5, cvr A 4, cvr A 3, cvr A 2, cvr A 1, cvr A 0] (Voc.colV (Pm A) 11 slices_S4096x16_o0_11_S4096x1) := by
  unfold kernelRun0_C.sl.r_44 k0_pay48
  rw [aux_r43, aux_r42]
  rfl

theorem aux_r45 : kernelRun0_C.sl.r_45 A.c A.arg1 A.harg1 A.arg2 A.harg2 A.arg4 A.harg4 A.x0 A.x1 A.xs0 = Voc.cen (subf (Voc.colV (Pm A) 11 slices_S4096x16_o0_11_S4096x1) (Voc.acc [cvr A 10, cvr A 9, cvr A 8, cvr A 7, cvr A 6, cvr A 5, cvr A 4, cvr A 3, cvr A 2, cvr A 1, cvr A 0] (Voc.colV (Pm A) 11 slices_S4096x16_o0_11_S4096x1))) := by
  unfold kernelRun0_C.sl.r_45 k0_pay49
  rw [aux_r44, aux_r42]
  rfl

theorem aux_r46 : kernelRun0_C.sl.r_46 A.c A.arg1 A.harg1 A.arg2 A.harg2 A.arg4 A.harg4 A.x0 A.x1 A.xs0 = Voc.se (kernelRun0_C.sl.r_45 A.c A.arg1 A.harg1 A.arg2 A.harg2 A.arg4 A.harg4 A.x0 A.x1 A.xs0) := rfl

theorem conv_eq_11 : cvr A 11 = Voc.zn (subf (Voc.colV (Pm A) 11 slices_S4096x16_o0_11_S4096x1) (Voc.acc [cvr A 10, cvr A 9, cvr A 8, cvr A 7, cvr A 6, cvr A 5, cvr A 4, cvr A 3, cvr A 2, cvr A 1, cvr A 0] (Voc.colV (Pm A) 11 slices_S4096x16_o0_11_S4096x1))) := by
  show kernelRun0_C.sl.r_47 A.c A.arg1 A.harg1 A.arg2 A.harg2 A.arg4 A.harg4 A.x0 A.x1 A.xs0 = _
  unfold kernelRun0_C.sl.r_47 k0_pay51
  rw [aux_r46, aux_r45]
  rfl

theorem aux_r48 : kernelRun0_C.sl.r_48 A.c A.arg1 A.harg1 A.arg2 A.harg2 A.arg4 A.harg4 A.x0 A.x1 A.xs0 = Voc.colV (Pm A) 12 slices_S4096x16_o0_12_S4096x1 := rfl

theorem aux_r49 : kernelRun0_C.sl.r_49 A.c A.arg1 A.harg1 A.arg2 A.harg2 A.arg4 A.harg4 A.x0 A.x1 A.xs0 = Voc.acc [cvr A 4, cvr A 3, cvr A 2, cvr A 1, cvr A 0] (Voc.colV (Pm A) 12 slices_S4096x16_o0_12_S4096x1) := rfl

theorem aux_r50 : kernelRun0_C.sl.r_50 A.c A.arg1 A.harg1 A.arg2 A.harg2 A.arg4 A.harg4 A.x0 A.x1 A.xs0 = Voc.rsum (mulf (cvr A 5) (Voc.colV (Pm A) 12 slices_S4096x16_o0_12_S4096x1)) := rfl

theorem aux_r51 : kernelRun0_C.sl.r_51 A.c A.arg1 A.harg1 A.arg2 A.harg2 A.arg4 A.harg4 A.x0 A.x1 A.xs0 = Voc.acc [cvr A 10, cvr A 9, cvr A 8, cvr A 7, cvr A 6, cvr A 5, cvr A 4, cvr A 3, cvr A 2, cvr A 1, cvr A 0] (Voc.colV (Pm A) 12 slices_S4096x16_o0_12_S4096x1) := by
  unfold kernelRun0_C.sl.r_51 k0_pay55
  rw [aux_r50, aux_r49, aux_r48]
  rfl

theorem aux_r52 : kernelRun0_C.sl.r_52 A.c A.arg1 A.harg1 A.arg2 A.harg2 A.arg4 A.harg4 A.x0 A.x1 A.xs0 = Voc.rsum (mulf (cvr A 11) (Voc.colV (Pm A) 12 slices_S4096x16_o0_12_S4096x1)) := by
  unfold kernelRun0_C.sl.r_52 k0_pay56
  rw [aux_r48]
  rfl

theorem conv_eq_12 : cvr A 12 = Voc.zn (subf (Voc.colV (Pm A) 12 slices_S4096x16_o0_12_S4096x1) (Voc.acc [cvr A 11, cvr A 10, cvr A 9, cvr A 8, cvr A 7, cvr A 6, cvr A 5, cvr A 4, cvr A 3, cvr A 2, cvr A 1, cvr A 0] (Voc.colV (Pm A) 12 slices_S4096x16_o0_12_S4096x1))) := by
  show kernelRun0_C.sl.r_53 A.c A.arg1 A.harg1 A.arg2 A.harg2 A.arg4 A.harg4 A.x0 A.x1 A.xs0 = _
  unfold kernelRun0_C.sl.r_53 k0_pay57
  rw [aux_r52, aux_r51, aux_r48]
  rfl

theorem aux_r54 : kernelRun0_C.sl.r_54 A.c A.arg1 A.harg1 A.arg2 A.harg2 A.arg4 A.harg4 A.x0 A.x1 A.xs0 = Voc.colV (Pm A) 13 slices_S4096x16_o0_13_S4096x1 := rfl

theorem aux_r55 : kernelRun0_C.sl.r_55 A.c A.arg1 A.harg1 A.arg2 A.harg2 A.arg4 A.harg4 A.x0 A.x1 A.xs0 = Voc.acc [cvr A 2, cvr A 1, cvr A 0] (Voc.colV (Pm A) 13 slices_S4096x16_o0_13_S4096x1) := rfl

theorem aux_r56 : kernelRun0_C.sl.r_56 A.c A.arg1 A.harg1 A.arg2 A.harg2 A.arg4 A.harg4 A.x0 A.x1 A.xs0 = Voc.acc [cvr A 8, cvr A 7, cvr A 6, cvr A 5, cvr A 4, cvr A 3, cvr A 2, cvr A 1, cvr A 0] (Voc.colV (Pm A) 13 slices_S4096x16_o0_13_S4096x1) := by
  unfold kernelRun0_C.sl.r_56 k0_pay60
  rw [aux_r55, aux_r54]
  rfl

theorem aux_r57 : kernelRun0_C.sl.r_57 A.c A.arg1 A.harg1 A.arg2 A.harg2 A.arg4 A.harg4 A.x0 A.x1 A.xs0 = Voc.cen (subf (Voc.colV (Pm A) 13 slices_S4096x16_o0_13_S4096x1) (Voc.acc [cvr A 12, cvr A 11, cvr A 10, cvr A 9, cvr A 8, cvr A 7, cvr A 6, cvr A 5, cvr A 4, cvr A 3, cvr A 2, cvr A 1, cvr A 0] (Voc.colV (Pm A) 13 slices_S4096x16_o0_13_S4096x1))) := by
  unfold kernelRun0_C.sl.r_57 k0_pay61
  rw [aux_r56, aux_r54]
  rfl

theorem aux_r58 : kernelRun0_C.sl.r_58 A.c A.arg1 A.harg1 A.arg2 A.harg2 A.arg4 A.harg4 A.x0 A.x1 A.xs0 = Voc.se (kernelRun0_C.sl.r_57 A.c A.arg1 A.harg1 A.arg2 A.harg2 A.arg4 A.harg4 A.x0 A.x1 A.xs0) := rfl

theorem conv_eq_13 : cvr A 13 = Voc.zn (subf (Voc.colV (Pm A) 13 slices_S4096x16_o0_13_S4096x1) (Voc.acc [cvr A 12, cvr A 11, cvr A 10, cvr A 9, cvr A 8, cvr A 7, cvr A 6, cvr A 5, cvr A 4, cvr A 3, cvr A 2, cvr A 1, cvr A 0] (Voc.colV (Pm A) 13 slices_S4096x16_o0_13_S4096x1))) := by
  show kernelRun0_C.sl.r_59 A.c A.arg1 A.harg1 A.arg2 A.harg2 A.arg4 A.harg4 A.x0 A.x1 A.xs0 = _
  unfold kernelRun0_C.sl.r_59 k0_pay63
  rw [aux_r58, aux_r57]
  rfl

theorem aux_r60 : kernelRun0_C.sl.r_60 A.c A.arg1 A.harg1 A.arg2 A.harg2 A.arg4 A.harg4 A.x0 A.x1 A.xs0 = Voc.colV (Pm A) 14 slices_S4096x16_o0_14_S4096x1 := rfl

theorem aux_r61 : kernelRun0_C.sl.r_61 A.c A.arg1 A.harg1 A.arg2 A.harg2 A.arg4 A.harg4 A.x0 A.x1 A.xs0 = Voc.acc [cvr A 4, cvr A 3, cvr A 2, cvr A 1, cvr A 0] (Voc.colV (Pm A) 14 slices_S4096x16_o0_14_S4096x1) := rfl

theorem aux_r62 : kernelRun0_C.sl.r_62 A.c A.arg1 A.harg1 A.arg2 A.harg2 A.arg4 A.harg4 A.x0 A.x1 A.xs0 = Voc.rsum (mulf (cvr A 5) (Voc.colV (Pm A) 14 slices_S4096x16_o0_14_S4096x1)) := rfl

theorem aux_r63 : kernelRun0_C.sl.r_63 A.c A.arg1 A.harg1 A.arg2 A.harg2 A.arg4 A.harg4 A.x0 A.x1 A.xs0 = Voc.acc [cvr A 10, cvr A 9, cvr A 8, cvr A 7, cvr A 6, cvr A 5, cvr A 4, cvr A 3, cvr A 2, cvr A 1, cvr A 0] (Voc.colV (Pm A) 14 slices_S4096x16_o0_14_S4096x1) := by
  unfold kernelRun0_C.sl.r_63 k0_pay67
  rw [aux_r62, aux_r61, aux_r60]
  rfl

theorem aux_r64 : kernelRun0_C.sl.r_64 A.c A.arg1 A.harg1 A.arg2 A.harg2 A.arg4 A.harg4 A.x0 A.x1 A.xs0 = Voc.rsum (mulf (cvr A 11) (Voc.colV (Pm A) 14 slices_S4096x16_o0_14_S4096x1)) := by
  unfold kernelRun0_C.sl.r_64 k0_pay68
  rw [aux_r60]
  rfl

theorem conv_eq_14 : cvr A 14 = Voc.zn (subf (Voc.colV (Pm A) 14 slices_S4096x16_o0_14_S4096x1) (Voc.acc [cvr A 13, cvr A 12, cvr A 11, cvr A 10, cvr A 9, cvr A 8, cvr A 7, cvr A 6, cvr A 5, cvr A 4, cvr A 3, cvr A 2, cvr A 1, cvr A 0] (Voc.colV (Pm A) 14 slices_S4096x16_o0_14_S4096x1))) := by
  show kernelRun0_C.sl.r_65 A.c A.arg1 A.harg1 A.arg2 A.harg2 A.arg4 A.harg4 A.x0 A.x1 A.xs0 = _
  unfold kernelRun0_C.sl.r_65 k0_pay69
  rw [aux_r64, aux_r63, aux_r60]
  rfl

end Cert.KernelIdeal.KW

end
-- ==== Proof.KWalk4.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem piece_eq_0 : pieceV A 0 = (Voc.colV (Qm A) 0 slices_S4096x16_o0_0_S4096x1) := by

  rfl

theorem piece_eq_1 : pieceV A 1 = subf (Voc.colV (Qm A) 1 slices_S4096x16_o0_1_S4096x1) (Voc.acc [cvr A 0] (Voc.colV (Qm A) 1 slices_S4096x16_o0_1_S4096x1)) := by

  rfl

theorem piece_eq_2 : pieceV A 2 = subf (Voc.colV (Qm A) 2 slices_S4096x16_o0_2_S4096x1) (Voc.acc [cvr A 1, cvr A 0] (Voc.colV (Qm A) 2 slices_S4096x16_o0_2_S4096x1)) := by

  rfl

theorem piece_eq_3 : pieceV A 3 = subf (Voc.colV (Qm A) 3 slices_S4096x16_o0_3_S4096x1) (Voc.acc [cvr A 2, cvr A 1, cvr A 0] (Voc.colV (Qm A) 3 slices_S4096x16_o0_3_S4096x1)) := by

  rfl

theorem piece_eq_4 : pieceV A 4 = subf (Voc.colV (Qm A) 4 slices_S4096x16_o0_4_S4096x1) (Voc.acc [cvr A 3, cvr A 2, cvr A 1, cvr A 0] (Voc.colV (Qm A) 4 slices_S4096x16_o0_4_S4096x1)) := by

  rfl

theorem piece_eq_5 : pieceV A 5 = subf (Voc.colV (Qm A) 5 slices_S4096x16_o0_5_S4096x1) (Voc.acc [cvr A 4, cvr A 3, cvr A 2, cvr A 1, cvr A 0] (Voc.colV (Qm A) 5 slices_S4096x16_o0_5_S4096x1)) := by

  rfl

theorem piece_eq_6 : pieceV A 6 = subf (Voc.colV (Qm A) 6 slices_S4096x16_o0_6_S4096x1) (Voc.acc [cvr A 5, cvr A 4, cvr A 3, cvr A 2, cvr A 1, cvr A 0] (Voc.colV (Qm A) 6 slices_S4096x16_o0_6_S4096x1)) := by

  rfl

theorem piece_eq_7 : pieceV A 7 = subf (Voc.colV (Qm A) 7 slices_S4096x16_o0_7_S4096x1) (Voc.acc [cvr A 6, cvr A 5, cvr A 4, cvr A 3, cvr A 2, cvr A 1, cvr A 0] (Voc.colV (Qm A) 7 slices_S4096x16_o0_7_S4096x1)) := by

  rfl

theorem piece_eq_8 : pieceV A 8 = subf (Voc.colV (Qm A) 8 slices_S4096x16_o0_8_S4096x1) (Voc.acc [cvr A 7, cvr A 6, cvr A 5, cvr A 4, cvr A 3, cvr A 2, cvr A 1, cvr A 0] (Voc.colV (Qm A) 8 slices_S4096x16_o0_8_S4096x1)) := by

  rfl

theorem piece_eq_9 : pieceV A 9 = subf (Voc.colV (Qm A) 9 slices_S4096x16_o0_9_S4096x1) (Voc.acc [cvr A 8, cvr A 7, cvr A 6, cvr A 5, cvr A 4, cvr A 3, cvr A 2, cvr A 1, cvr A 0] (Voc.colV (Qm A) 9 slices_S4096x16_o0_9_S4096x1)) := by

  rfl

end Cert.KernelIdeal.KW

end
-- ==== Proof.KWalk5.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem aux_r86 : kernelRun0_C.sl.r_86 A.c A.arg1 A.harg1 A.arg2 A.harg2 A.arg4 A.harg4 A.x0 A.x1 A.xs0 = (Voc.colV (Qm A) 10 slices_S4096x16_o0_10_S4096x1) := rfl

theorem aux_r87 : kernelRun0_C.sl.r_87 A.c A.arg1 A.harg1 A.arg2 A.harg2 A.arg4 A.harg4 A.x0 A.x1 A.xs0 = Voc.acc [cvr A 1, cvr A 0] (Voc.colV (Qm A) 10 slices_S4096x16_o0_10_S4096x1) := rfl

theorem aux_r88 : kernelRun0_C.sl.r_88 A.c A.arg1 A.harg1 A.arg2 A.harg2 A.arg4 A.harg4 A.x0 A.x1 A.xs0 = Voc.rsum1 (mulf (cvr A 2) (Voc.colV (Qm A) 10 slices_S4096x16_o0_10_S4096x1)) := rfl

theorem aux_r89 : kernelRun0_C.sl.r_89 A.c A.arg1 A.harg1 A.arg2 A.harg2 A.arg4 A.harg4 A.x0 A.x1 A.xs0 = Voc.acc [cvr A 7, cvr A 6, cvr A 5, cvr A 4, cvr A 3, cvr A 2, cvr A 1, cvr A 0] (Voc.colV (Qm A) 10 slices_S4096x16_o0_10_S4096x1) := by
  unfold kernelRun0_C.sl.r_89 k0_pay103
  rw [aux_r86, aux_r87, aux_r88]
  rfl

theorem aux_r90 : kernelRun0_C.sl.r_90 A.c A.arg1 A.harg1 A.arg2 A.harg2 A.arg4 A.harg4 A.x0 A.x1 A.xs0 = Voc.rsum1 (mulf (cvr A 8) (Voc.colV (Qm A) 10 slices_S4096x16_o0_10_S4096x1)) := by
  unfold kernelRun0_C.sl.r_90 k0_pay104
  rw [aux_r86]
  rfl

theorem piece_eq_10 : pieceV A 10 = subf (Voc.colV (Qm A) 10 slices_S4096x16_o0_10_S4096x1) (Voc.acc [cvr A 9, cvr A 8, cvr A 7, cvr A 6, cvr A 5, cvr A 4, cvr A 3, cvr A 2, cvr A 1, cvr A 0] (Voc.colV (Qm A) 10 slices_S4096x16_o0_10_S4096x1)) := by
  show k0_pay105 (kernelRun0_C.sl.r_31 A.c A.arg1 A.harg1 A.arg2 A.harg2 A.arg4 A.harg4 A.x0 A.x1 A.xs0) (kernelRun0_C.sl.r_35 A.c A.arg1 A.harg1 A.arg2 A.harg2 A.arg4 A.harg4 A.x0 A.x1 A.xs0) (kernelRun0_C.sl.r_86 A.c A.arg1 A.harg1 A.arg2 A.harg2 A.arg4 A.harg4 A.x0 A.x1 A.xs0) (kernelRun0_C.sl.r_89 A.c A.arg1 A.harg1 A.arg2 A.harg2 A.arg4 A.harg4 A.x0 A.x1 A.xs0) (kernelRun0_C.sl.r_90 A.c A.arg1 A.harg1 A.arg2 A.harg2 A.arg4 A.harg4 A.x0 A.x1 A.xs0) = _
  unfold k0_pay105
  rw [aux_r89, aux_r90, aux_r86]
  rfl

theorem aux_r91 : kernelRun0_C.sl.r_91 A.c A.arg1 A.harg1 A.arg2 A.harg2 A.arg4 A.harg4 A.x0 A.x1 A.xs0 = (Voc.colV (Qm A) 11 slices_S4096x16_o0_11_S4096x1) := rfl

theorem aux_r92 : kernelRun0_C.sl.r_92 A.c A.arg1 A.harg1 A.arg2 A.harg2 A.arg4 A.harg4 A.x0 A.x1 A.xs0 = Voc.acc [cvr A 2, cvr A 1, cvr A 0] (Voc.colV (Qm A) 11 slices_S4096x16_o0_11_S4096x1) := rfl

theorem aux_r93 : kernelRun0_C.sl.r_93 A.c A.arg1 A.harg1 A.arg2 A.harg2 A.arg4 A.harg4 A.x0 A.x1 A.xs0 = Voc.rsum (mulf (cvr A 3) (Voc.colV (Qm A) 11 slices_S4096x16_o0_11_S4096x1)) := rfl

theorem aux_r94 : kernelRun0_C.sl.r_94 A.c A.arg1 A.harg1 A.arg2 A.harg2 A.arg4 A.harg4 A.x0 A.x1 A.xs0 = Voc.acc [cvr A 8, cvr A 7, cvr A 6, cvr A 5, cvr A 4, cvr A 3, cvr A 2, cvr A 1, cvr A 0] (Voc.colV (Qm A) 11 slices_S4096x16_o0_11_S4096x1) := by
  unfold kernelRun0_C.sl.r_94 k0_pay109
  rw [aux_r91, aux_r92, aux_r93]
  rfl

theorem aux_r95 : kernelRun0_C.sl.r_95 A.c A.arg1 A.harg1 A.arg2 A.harg2 A.arg4 A.harg4 A.x0 A.x1 A.xs0 = Voc.rsum (mulf (cvr A 9) (Voc.colV (Qm A) 11 slices_S4096x16_o0_11_S4096x1)) := by
  unfold kernelRun0_C.sl.r_95 k0_pay110
  rw [aux_r91]
  rfl

theorem piece_eq_11 : pieceV A 11 = subf (Voc.colV (Qm A) 11 slices_S4096x16_o0_11_S4096x1) (Voc.acc [cvr A 10, cvr A 9, cvr A 8, cvr A 7, cvr A 6, cvr A 5, cvr A 4, cvr A 3, cvr A 2, cvr A 1, cvr A 0] (Voc.colV (Qm A) 11 slices_S4096x16_o0_11_S4096x1)) := by
  show k0_pay111 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_91 A.c A.arg1 A.harg1 A.arg2 A.harg2 A.arg4 A.harg4 A.x0 A.x1 A.xs0) (kernelRun0_C.sl.r_94 A.c A.arg1 A.harg1 A.arg2 A.harg2 A.arg4 A.harg4 A.x0 A.x1 A.xs0) (kernelRun0_C.sl.r_95 A.c A.arg1 A.harg1 A.arg2 A.harg2 A.arg4 A.harg4 A.x0 A.x1 A.xs0) kernelRun0_C.sl.cst_55 = _
  unfold k0_pay111
  rw [aux_r94, aux_r95, aux_r91]
  rfl

theorem aux_r96 : kernelRun0_C.sl.r_96 A.c A.arg1 A.harg1 A.arg2 A.harg2 A.arg4 A.harg4 A.x0 A.x1 A.xs0 = (Voc.colV (Qm A) 12 slices_S4096x16_o0_12_S4096x1) := rfl

theorem aux_r97 : kernelRun0_C.sl.r_97 A.c A.arg1 A.harg1 A.arg2 A.harg2 A.arg4 A.harg4 A.x0 A.x1 A.xs0 = Voc.acc [cvr A 2, cvr A 1, cvr A 0] (Voc.colV (Qm A) 12 slices_S4096x16_o0_12_S4096x1) := rfl

theorem aux_r98 : kernelRun0_C.sl.r_98 A.c A.arg1 A.harg1 A.arg2 A.harg2 A.arg4 A.harg4 A.x0 A.x1 A.xs0 = Voc.gam (cvr A 3) (Voc.colV (Qm A) 12 slices_S4096x16_o0_12_S4096x1) := rfl

theorem aux_r99 : kernelRun0_C.sl.r_99 A.c A.arg1 A.harg1 A.arg2 A.harg2 A.arg4 A.harg4 A.x0 A.x1 A.xs0 = Voc.acc [cvr A 8, cvr A 7, cvr A 6, cvr A 5, cvr A 4, cvr A 3, cvr A 2, cvr A 1, cvr A 0] (Voc.colV (Qm A) 12 slices_S4096x16_o0_12_S4096x1) := by
  unfold kernelRun0_C.sl.r_99 k0_pay115
  rw [aux_r96, aux_r97, aux_r98]
  rfl

theorem aux_r100 : kernelRun0_C.sl.r_100 A.c A.arg1 A.harg1 A.arg2 A.harg2 A.arg4 A.harg4 A.x0 A.x1 A.xs0 = Voc.gam (cvr A 9) (Voc.colV (Qm A) 12 slices_S4096x16_o0_12_S4096x1) := by
  unfold kernelRun0_C.sl.r_100 k0_pay116
  rw [aux_r96]
  rfl

theorem piece_eq_12 : pieceV A 12 = subf (Voc.colV (Qm A) 12 slices_S4096x16_o0_12_S4096x1) (Voc.acc [cvr A 11, cvr A 10, cvr A 9, cvr A 8, cvr A 7, cvr A 6, cvr A 5, cvr A 4, cvr A 3, cvr A 2, cvr A 1, cvr A 0] (Voc.colV (Qm A) 12 slices_S4096x16_o0_12_S4096x1)) := by
  show k0_pay117 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_47 A.c A.arg1 A.harg1 A.arg2 A.harg2 A.arg4 A.harg4 A.x0 A.x1 A.xs0) (kernelRun0_C.sl.r_96 A.c A.arg1 A.harg1 A.arg2 A.harg2 A.arg4 A.harg4 A.x0 A.x1 A.xs0) (kernelRun0_C.sl.r_99 A.c A.arg1 A.harg1 A.arg2 A.harg2 A.arg4 A.harg4 A.x0 A.x1 A.xs0) (kernelRun0_C.sl.r_100 A.c A.arg1 A.harg1 A.arg2 A.harg2 A.arg4 A.harg4 A.x0 A.x1 A.xs0) = _
  unfold k0_pay117
  rw [aux_r99, aux_r100, aux_r96]
  rfl

theorem aux_r101 : kernelRun0_C.sl.r_101 A.c A.arg1 A.harg1 A.arg2 A.harg2 A.arg4 A.harg4 A.x0 A.x1 A.xs0 = (Voc.colV (Qm A) 13 slices_S4096x16_o0_13_S4096x1) := rfl

theorem aux_r102 : kernelRun0_C.sl.r_102 A.c A.arg1 A.harg1 A.arg2 A.harg2 A.arg4 A.harg4 A.x0 A.x1 A.xs0 = Voc.acc [cvr A 1, cvr A 0] (Voc.colV (Qm A) 13 slices_S4096x16_o0_13_S4096x1) := rfl

theorem aux_r103 : kernelRun0_C.sl.r_103 A.c A.arg1 A.harg1 A.arg2 A.harg2 A.arg4 A.harg4 A.x0 A.x1 A.xs0 = Voc.term (cvr A 2) (Voc.colV (Qm A) 13 slices_S4096x16_o0_13_S4096x1) := rfl

theorem aux_r104 : kernelRun0_C.sl.r_104 A.c A.arg1 A.harg1 A.arg2 A.harg2 A.arg4 A.harg4 A.x0 A.x1 A.xs0 = Voc.acc [cvr A 7, cvr A 6, cvr A 5, cvr A 4, cvr A 3, cvr A 2, cvr A 1, cvr A 0] (Voc.colV (Qm A) 13 slices_S4096x16_o0_13_S4096x1) := by
  unfold kernelRun0_C.sl.r_104 k0_pay121
  rw [aux_r101, aux_r102, aux_r103]
  rfl

theorem aux_r105 : kernelRun0_C.sl.r_105 A.c A.arg1 A.harg1 A.arg2 A.harg2 A.arg4 A.harg4 A.x0 A.x1 A.xs0 = Voc.term (cvr A 8) (Voc.colV (Qm A) 13 slices_S4096x16_o0_13_S4096x1) := by
  unfold kernelRun0_C.sl.r_105 k0_pay122
  rw [aux_r101]
  rfl

theorem piece_eq_13 : pieceV A 13 = subf (Voc.colV (Qm A) 13 slices_S4096x16_o0_13_S4096x1) (Voc.acc [cvr A 12, cvr A 11, cvr A 10, cvr A 9, cvr A 8, cvr A 7, cvr A 6, cvr A 5, cvr A 4, cvr A 3, cvr A 2, cvr A 1, cvr A 0] (Voc.colV (Qm A) 13 slices_S4096x16_o0_13_S4096x1)) := by
  show k0_pay123 (kernelRun0_C.sl.r_35 A.c A.arg1 A.harg1 A.arg2 A.harg2 A.arg4 A.harg4 A.x0 A.x1 A.xs0) (kernelRun0_C.sl.r_41 A.c A.arg1 A.harg1 A.arg2 A.harg2 A.arg4 A.harg4 A.x0 A.x1 A.xs0) (kernelRun0_C.sl.r_47 A.c A.arg1 A.harg1 A.arg2 A.harg2 A.arg4 A.harg4 A.x0 A.x1 A.xs0) (kernelRun0_C.sl.r_53 A.c A.arg1 A.harg1 A.arg2 A.harg2 A.arg4 A.harg4 A.x0 A.x1 A.xs0) (kernelRun0_C.sl.r_101 A.c A.arg1 A.harg1 A.arg2 A.harg2 A.arg4 A.harg4 A.x0 A.x1 A.xs0) (kernelRun0_C.sl.r_104 A.c A.arg1 A.harg1 A.arg2 A.harg2 A.arg4 A.harg4 A.x0 A.x1 A.xs0) (kernelRun0_C.sl.r_105 A.c A.arg1 A.harg1 A.arg2 A.harg2 A.arg4 A.harg4 A.x0 A.x1 A.xs0) = _
  unfold k0_pay123
  rw [aux_r104, aux_r105, aux_r101]
  rfl

end Cert.KernelIdeal.KW

end
-- ==== Proof.KWalk6.lean ====
import proofs.«156821_j17033840296170_1_alg».proof.Proof.KNames

noncomputable section

namespace Cert.KernelIdeal.KW

open Idealize.ShloMosaic Cert.KernelIdeal Cert.KernelIdeal.Gen

variable {F : FTy → Type} [FloatOps F]
variable (A : RunArgs F)

theorem aux_r106 : kernelRun0_C.sl.r_106 A.c A.arg1 A.harg1 A.arg2 A.harg2 A.arg4 A.harg4 A.x0 A.x1 A.xs0 = (Voc.colV (Qm A) 14 slices_S4096x16_o0_14_S4096x1) := rfl

theorem aux_r107 : kernelRun0_C.sl.r_107 A.c A.arg1 A.harg1 A.arg2 A.harg2 A.arg4 A.harg4 A.x0 A.x1 A.xs0 = (Voc.acc [cvr A 0] (Voc.colV (Qm A) 14 slices_S4096x16_o0_14_S4096x1)) := rfl

theorem aux_r108 : kernelRun0_C.sl.r_108 A.c A.arg1 A.harg1 A.arg2 A.harg2 A.arg4 A.harg4 A.x0 A.x1 A.xs0 = mulf (cvr A 1) (Voc.colV (Qm A) 14 slices_S4096x16_o0_14_S4096x1) := rfl

theorem aux_r109 : kernelRun0_C.sl.r_109 A.c A.arg1 A.harg1 A.arg2 A.harg2 A.arg4 A.harg4 A.x0 A.x1 A.xs0 = (Voc.acc [cvr A 6, cvr A 5, cvr A 4, cvr A 3, cvr A 2, cvr A 1, cvr A 0] (Voc.colV (Qm A) 14 slices_S4096x16_o0_14_S4096x1)) := by
  unfold kernelRun0_C.sl.r_109 k0_pay127
  rw [aux_r106 A, aux_r107 A, aux_r108 A]
  rfl

theorem aux_r110 : kernelRun0_C.sl.r_110 A.c A.arg1 A.harg1 A.arg2 A.harg2 A.arg4 A.harg4 A.x0 A.x1 A.xs0 = mulf (cvr A 7) (Voc.colV (Qm A) 14 slices_S4096x16_o0_14_S4096x1) := by
  unfold kernelRun0_C.sl.r_110 k0_pay128
  rw [aux_r106 A]
  rfl

theorem aux_r111 : kernelRun0_C.sl.r_111 A.c A.arg1 A.harg1 A.arg2 A.harg2 A.arg4 A.harg4 A.x0 A.x1 A.xs0 = (Voc.acc [cvr A 12, cvr A 11, cvr A 10, cvr A 9, cvr A 8, cvr A 7, cvr A 6, cvr A 5, cvr A 4, cvr A 3, cvr A 2, cvr A 1, cvr A 0] (Voc.colV (Qm A) 14 slices_S4096x16_o0_14_S4096x1)) := by
  unfold kernelRun0_C.sl.r_111 k0_pay129
  rw [aux_r106 A, aux_r109 A, aux_r110 A]
  rfl

theorem aux_r112 : kernelRun0_C.sl.r_112 A.c A.arg1 A.harg1 A.arg2 A.harg2 A.arg4 A.harg4 A.x0 A.x1 A.xs0 = mulf (cvr A 13) (Voc.colV (Qm A) 14 slices_S4096x16_o0_14_S4096x1) := by
  unfold kernelRun0_C.sl.r_112 k0_pay130
  rw [aux_r106 A]
  rfl

theorem aux_r113 : kernelRun0_C.sl.r_113 A.c A.arg1 A.harg1 A.arg2 A.harg2 A.arg4 A.harg4 A.x0 A.x1 A.xs0 = (Voc.colV (Qm A) 15 slices_S4096x16_o0_15_S4096x1) := rfl

theorem aux_r114 : kernelRun0_C.sl.r_114 A.c A.arg1 A.harg1 A.arg2 A.harg2 A.arg4 A.harg4 A.x0 A.x1 A.xs0 = (Voc.acc [cvr A 3, cvr A 2, cvr A 1, cvr A 0] (Voc.colV (Qm A) 15 slices_S4096x16_o0_15_S4096x1)) := rfl

theorem aux_r115 : kernelRun0_C.sl.r_115 A.c A.arg1 A.harg1 A.arg2 A.harg2 A.arg4 A.harg4 A.x0 A.x1 A.xs0 = Voc.rsum1 (mulf (cvr A 4) (Voc.colV (Qm A) 15 slices_S4096x16_o0_15_S4096x1)) := rfl

theorem aux_r116 : kernelRun0_C.sl.r_116 A.c A.arg1 A.harg1 A.arg2 A.harg2 A.arg4 A.harg4 A.x0 A.x1 A.xs0 = (Voc.acc [cvr A 9, cvr A 8, cvr A 7, cvr A 6, cvr A 5, cvr A 4, cvr A 3, cvr A 2, cvr A 1, cvr A 0] (Voc.colV (Qm A) 15 slices_S4096x16_o0_15_S4096x1)) := by
  unfold kernelRun0_C.sl.r_116 k0_pay135
  rw [aux_r113 A, aux_r114 A, aux_r115 A]
  rfl

theorem aux_r117 : kernelRun0_C.sl.r_117 A.c A.arg1 A.harg1 A.arg2 A.harg2 A.arg4 A.harg4 A.x0 A.x1 A.xs0 = Voc.rsum1 (mulf (cvr A 10) (Voc.colV (Qm A) 15 slices_S4096x16_o0_15_S4096x1)) := by
  unfold kernelRun0_C.sl.r_117 k0_pay136
  rw [aux_r113 A]
  rfl

theorem aux_r118 : kernelRun0_C.sl.r_118 A.c A.arg1 A.harg1 A.arg2 A.harg2 A.arg4 A.harg4 A.x0 A.x1 A.xs0 = (Voc.acc [cvr A 10, cvr A 9, cvr A 8, cvr A 7, cvr A 6, cvr A 5, cvr A 4, cvr A 3, cvr A 2, cvr A 1, cvr A 0] (Voc.colV (Qm A) 15 slices_S4096x16_o0_15_S4096x1)) := by
  unfold kernelRun0_C.sl.r_118 k0_pay137
  rw [aux_r116 A, aux_r117 A]
  rfl

theorem aux_r119 : kernelRun0_C.sl.r_119 A.c A.arg1 A.harg1 A.arg2 A.harg2 A.arg4 A.harg4 A.x0 A.x1 A.xs0 = Voc.bc (Voc.gam (cvr A 11) (Voc.colV (Qm A) 15 slices_S4096x16_o0_15_S4096x1)) := by
  unfold kernelRun0_C.sl.r_119 k0_pay138
  rw [aux_r113 A]
  rfl

theorem piece_eq_14 : pieceV A 14 = subf (Voc.colV (Qm A) 14 slices_S4096x16_o0_14_S4096x1) (Voc.acc [cvr A 13, cvr A 12, cvr A 11, cvr A 10, cvr A 9, cvr A 8, cvr A 7, cvr A 6, cvr A 5, cvr A 4, cvr A 3, cvr A 2, cvr A 1, cvr A 0] (Voc.colV (Qm A) 14 slices_S4096x16_o0_14_S4096x1)) := by
  show k0_pay131 (kernelRun0_C.sl.r_59 A.c A.arg1 A.harg1 A.arg2 A.harg2 A.arg4 A.harg4 A.x0 A.x1 A.xs0) (kernelRun0_C.sl.r_106 A.c A.arg1 A.harg1 A.arg2 A.harg2 A.arg4 A.harg4 A.x0 A.x1 A.xs0) (kernelRun0_C.sl.r_111 A.c A.arg1 A.harg1 A.arg2 A.harg2 A.arg4 A.harg4 A.x0 A.x1 A.xs0) (kernelRun0_C.sl.r_112 A.c A.arg1 A.harg1 A.arg2 A.harg2 A.arg4 A.harg4 A.x0 A.x1 A.xs0) = _
  rw [aux_r106 A, aux_r111 A, aux_r112 A]
  rfl

theorem piece_eq_15 : pieceV A 15 = subf (Voc.colV (Qm A) 15 slices_S4096x16_o0_15_S4096x1) (Voc.acc [cvr A 14, cvr A 13, cvr A 12, cvr A 11, cvr A 10, cvr A 9, cvr A 8, cvr A 7, cvr A 6, cvr A 5, cvr A 4, cvr A 3, cvr A 2, cvr A 1, cvr A 0] (Voc.colV (Qm A) 15 slices_S4096x16_o0_15_S4096x1)) := by
  show k0_pay3 (kernelRun0_C.sl.r_47 A.c A.arg1 A.harg1 A.arg2 A.harg2 A.arg4 A.harg4 A.x0 A.x1 A.xs0) (kernelRun0_C.sl.r_53 A.c A.arg1 A.harg1 A.arg2 A.harg2 A.arg4 A.harg4 A.x0 A.x1 A.xs0) (kernelRun0_C.sl.r_59 A.c A.arg1 A.harg1 A.arg2 A.harg2 A.arg4 A.harg4 A.x0 A.x1 A.xs0) (kernelRun0_C.sl.r_65 A.c A.arg1 A.harg1 A.arg2 A.harg2 A.arg4 A.harg4 A.x0 A.x1 A.xs0) (kernelRun0_C.sl.r_113 A.c A.arg1 A.harg1 A.arg2 A.harg2 A.arg4 A.harg4 A.x0 A.x1 A.xs0) (kernelRun0_C.sl.r_118 A.c A.arg1 A.harg1 A.arg2 A.harg2 A.arg4 A.harg4 A.x0 A.x1 A.xs0) (kernelRun0_C.sl.r_119 A.c A.arg1 A.harg1 A.arg2 A.harg2 A.arg4 A.harg4 A.x0 A.x1 A.xs0) = _
  rw [aux_r113 A, aux_r118 A, aux_r119 A]
  rfl

end Cert.KernelIdeal.KW

end
-- ==== Proof.KSem.lean ====
import proofs.«156821_j17033840296170_1_alg».proof.Proof.Spec
import proofs.«156821_j17033840296170_1_alg».proof.Proof.KWalk1
import proofs.«156821_j17033840296170_1_alg».proof.Proof.KWalk2
import proofs.«156821_j17033840296170_1_alg».proof.Proof.KWalk3
import proofs.«156821_j17033840296170_1_alg».proof.Proof.KWalk4
import proofs.«156821_j17033840296170_1_alg».proof.Proof.KWalk5
import proofs.«156821_j17033840296170_1_alg».proof.Proof.KWalk6
import Idealize.ShloMosaic.Lib.ValueIdx
import Idealize.ShloMosaic.Lib.Pipeline.Value
import Idealize.ShloMosaic.PureOps.Ideal.Laws

noncomputable section

open scoped BigOperators

namespace Cert.KernelIdeal.KW

open Idealize.ShloMosaic Idealize.ShloMosaic.ValueIdx Cert.KernelIdeal Cert.KernelIdeal.Gen Cert.PLS

def colsOfMat (M : FVec Ideal S4096x16 .f32) (j : ℕ) : Cert.PLS.Col :=
  fun b => if h : j < 16 then M (ix2 b (⟨j, h⟩ : Fin 16)) else 0

def colFn (u : FVec Ideal S4096x1 .f32) : Cert.PLS.Col := fun b => u (ix2 b (0 : Fin 1))

theorem rsum_apply (u : FVec Ideal S4096x1 .f32) :
    Voc.rsum u (ix2 (0 : Fin 1) (0 : Fin 1)) = ∑ b : Fin 4096, u (ix2 b (0 : Fin 1)) := by
  unfold Voc.rsum Voc.rsum1
  refine (shapeCast_apply _ shapeCasts_S1_S1x1 (ix2 (0 : Fin 1) (0 : Fin 1)) (ix1 (0 : Fin 1)) (by
    rw [Shape.rowMajor_val_two, Shape.rowMajor_val_one]; rfl)).trans ?_
  refine (Ideal.multiReduction_add_single u 0x00000000#32 reduces_S4096x1_S1 (.inl rfl) rfl (ix1 (0 : Fin 1))).trans ?_
  refine Finset.sum_congr rfl fun k _ => congrArg u (funext fun ax => Fin.ext ?_)
  match ax with
  | ⟨0, _⟩ => rfl
  | ⟨1, _⟩ => rfl

theorem d4096_apply (s : FVec Ideal S1x1 .f32) :
    Voc.d4096 s (ix2 (0 : Fin 1) (0 : Fin 1)) = Ideal.div (s (ix2 (0 : Fin 1) (0 : Fin 1))) c4096 := rfl

theorem bc_apply (s : FVec Ideal S1x1 .f32) (b : Fin 4096) :
    Voc.bc s (ix2 b (0 : Fin 1)) = s (ix2 (0 : Fin 1) (0 : Fin 1)) := by
  unfold Voc.bc
  refine broadcastTo_apply s broadcasts_S1x1_S4096x1 (ix2 b (0 : Fin 1)) (ix2 (0 : Fin 1) (0 : Fin 1)) fun ax => ?_
  match ax with
  | ⟨0, _⟩ => rfl
  | ⟨1, _⟩ => rfl

theorem gam_apply (f u : FVec Ideal S4096x1 .f32) :
    Voc.gam f u (ix2 (0 : Fin 1) (0 : Fin 1)) = gamS (colFn f) (colFn u) := by
  unfold Voc.gam
  rw [d4096_apply, rsum_apply]
  rfl

theorem term_apply (f u : FVec Ideal S4096x1 .f32) (b : Fin 4096) :
    Voc.term f u (ix2 b (0 : Fin 1)) = termS (colFn f) (colFn u) b := by
  unfold Voc.term
  rw [mulf_apply, bc_apply, gam_apply]
  rfl

theorem acc_apply (L : List (FVec Ideal S4096x1 .f32)) (u : FVec Ideal S4096x1 .f32) (b : Fin 4096) :
    Voc.acc L u (ix2 b (0 : Fin 1)) = accS (L.map colFn) (colFn u) b := by
  induction L with
  | nil => exact Ideal.ofBits_zero_f32
  | cons f L ih =>
    show addf (Voc.acc L u) (Voc.term f u) (ix2 b (0 : Fin 1)) = accS (L.map colFn) (colFn u) b + termS (colFn f) (colFn u) b
    rw [addf_apply, ih, term_apply]

theorem cen_apply (u : FVec Ideal S4096x1 .f32) (b : Fin 4096) :
    Voc.cen u (ix2 b (0 : Fin 1)) = cenS (colFn u) b := by
  unfold Voc.cen
  rw [subf_apply, bc_apply, d4096_apply, rsum_apply]
  rfl

theorem colFn_cen (u : FVec Ideal S4096x1 .f32) : colFn (Voc.cen u) = cenS (colFn u) :=
  funext fun b => cen_apply u b

theorem se_apply (f : FVec Ideal S4096x1 .f32) :
    Voc.se f (ix2 (0 : Fin 1) (0 : Fin 1)) = seS (colFn f) := by
  unfold Voc.se
  rw [addf_apply]
  show Ideal.sqrt (Voc.d4096 (Voc.rsum (mulf f f)) (ix2 (0 : Fin 1) (0 : Fin 1))) + ceps = _
  rw [d4096_apply, rsum_apply]
  rfl

theorem zn_apply (u : FVec Ideal S4096x1 .f32) (b : Fin 4096) :
    Voc.zn u (ix2 b (0 : Fin 1)) = znS (colFn u) b := by
  unfold Voc.zn Voc.znc
  rw [divf_apply, bc_apply, se_apply, cen_apply, colFn_cen]
  rfl

theorem colFn_zn (u : FVec Ideal S4096x1 .f32) : colFn (Voc.zn u) = znS (colFn u) :=
  funext fun b => zn_apply u b

theorem colV_apply (M : FVec Ideal S4096x16 .f32) (j : ℕ) (hj : j < 16) (h : S4096x16.Slices ![0, j] S4096x1) (b : Fin 4096) :
    Voc.colV M j h (ix2 b (0 : Fin 1)) = M (ix2 b (⟨j, hj⟩ : Fin 16)) := by
  unfold Voc.colV
  refine extractStridedSlice_apply ![0, j] M h (ix2 b (0 : Fin 1)) (ix2 b (⟨j, hj⟩ : Fin 16)) fun ax => ?_
  match ax with
  | ⟨0, _⟩ => exact (Nat.zero_add _).symm
  | ⟨1, _⟩ => rfl

theorem colFn_colV (M : FVec Ideal S4096x16 .f32) (j : ℕ) (hj : j < 16) (h : S4096x16.Slices ![0, j] S4096x1) :
    colFn (Voc.colV M j h) = colsOfMat M j := by
  funext b
  show Voc.colV M j h (ix2 b (0 : Fin 1)) = colsOfMat M j b
  rw [colV_apply M j hj h b]
  unfold colsOfMat
  rw [dif_pos hj]

theorem cvK_step (P : FVec Ideal S4096x16 .f32) (j : ℕ) (hj : j < 16) (h : S4096x16.Slices ![0, j] S4096x1)
    (L : List (FVec Ideal S4096x1 .f32)) (x : FVec Ideal S4096x1 .f32)
    (hx : x = Voc.zn (subf (Voc.colV P j h) (Voc.acc L (Voc.colV P j h))))
    (hL : L.map colFn = cvK (colsOfMat P) j) :
    (x :: L).map colFn = cvK (colsOfMat P) (j + 1) := by
  subst hx
  show colFn _ :: L.map colFn
      = znS (fun b => colsOfMat P j b - accS (cvK (colsOfMat P) j) (colsOfMat P j) b) :: cvK (colsOfMat P) j
  rw [hL, colFn_zn]
  congr 2
  funext b
  show subf (Voc.colV P j h) (Voc.acc L (Voc.colV P j h)) (ix2 b (0 : Fin 1)) = _
  rw [subf_apply, acc_apply, hL, colFn_colV P j hj h,
    show Voc.colV P j h (ix2 b (0 : Fin 1)) = colsOfMat P j b from congrFun (colFn_colV P j hj h) b]

theorem outK_step (P Q : FVec Ideal S4096x16 .f32) (i : ℕ) (hi : i < 16) (h : S4096x16.Slices ![0, i] S4096x1)
    (L : List (FVec Ideal S4096x1 .f32)) (hL : L.map colFn = cvK (colsOfMat P) i) (b : Fin 4096) :
    subf (Voc.colV Q i h) (Voc.acc L (Voc.colV Q i h)) (ix2 b (0 : Fin 1)) = outK (colsOfMat P) (colsOfMat Q) i b := by
  rw [subf_apply, acc_apply, hL, colFn_colV Q i hi h,
    show Voc.colV Q i h (ix2 b (0 : Fin 1)) = colsOfMat Q i b from congrFun (colFn_colV Q i hi h) b]
  rfl

variable (A : RunArgs Ideal)

theorem cvK_1 : [cvr (F := Ideal) A 0].map colFn = cvK (colsOfMat (Pm (F := Ideal) A)) 1 := by
  show [colFn (cvr (F := Ideal) A 0)] = [znS (fun b => colsOfMat (Pm (F := Ideal) A) 0 b - (0 : EReal))]
  rw [conv_eq_0, colFn_zn, colFn_colV _ 0 (by norm_num) slices_S4096x16_o0_0_S4096x1]
  congr 2
  funext b
  exact (sub_zero _).symm

theorem cvK_2 : [cvr (F := Ideal) A 1, cvr (F := Ideal) A 0].map colFn = cvK (colsOfMat (Pm (F := Ideal) A)) 2 :=
  cvK_step (Pm (F := Ideal) A) 1 (by norm_num) slices_S4096x16_o0_1_S4096x1 _ _ (conv_eq_1 A) (cvK_1 A)

theorem cvK_3 : [cvr (F := Ideal) A 2, cvr (F := Ideal) A 1, cvr (F := Ideal) A 0].map colFn = cvK (colsOfMat (Pm (F := Ideal) A)) 3 :=
  cvK_step (Pm (F := Ideal) A) 2 (by norm_num) slices_S4096x16_o0_2_S4096x1 _ _ (conv_eq_2 A) (cvK_2 A)

theorem cvK_4 : [cvr (F := Ideal) A 3, cvr (F := Ideal) A 2, cvr (F := Ideal) A 1, cvr (F := Ideal) A 0].map colFn = cvK (colsOfMat (Pm (F := Ideal) A)) 4 :=
  cvK_step (Pm (F := Ideal) A) 3 (by norm_num) slices_S4096x16_o0_3_S4096x1 _ _ (conv_eq_3 A) (cvK_3 A)

theorem cvK_5 : [cvr (F := Ideal) A 4, cvr (F := Ideal) A 3, cvr (F := Ideal) A 2, cvr (F := Ideal) A 1, cvr (F := Ideal) A 0].map colFn = cvK (colsOfMat (Pm (F := Ideal) A)) 5 :=
  cvK_step (Pm (F := Ideal) A) 4 (by norm_num) slices_S4096x16_o0_4_S4096x1 _ _ (conv_eq_4 A) (cvK_4 A)

theorem cvK_6 : [cvr (F := Ideal) A 5, cvr (F := Ideal) A 4, cvr (F := Ideal) A 3, cvr (F := Ideal) A 2, cvr (F := Ideal) A 1, cvr (F := Ideal) A 0].map colFn = cvK (colsOfMat (Pm (F := Ideal) A)) 6 :=
  cvK_step (Pm (F := Ideal) A) 5 (by norm_num) slices_S4096x16_o0_5_S4096x1 _ _ (conv_eq_5 A) (cvK_5 A)

theorem cvK_7 : [cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 7 :=
  cvK_step (Pm (F := Ideal) A) 6 (by norm_num) slices_S4096x16_o0_6_S4096x1 _ _ (conv_eq_6 A) (cvK_6 A)

theorem cvK_8 : [cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 8 :=
  cvK_step (Pm (F := Ideal) A) 7 (by norm_num) slices_S4096x16_o0_7_S4096x1 _ _ (conv_eq_7 A) (cvK_7 A)

theorem cvK_9 : [cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 9 :=
  cvK_step (Pm (F := Ideal) A) 8 (by norm_num) slices_S4096x16_o0_8_S4096x1 _ _ (conv_eq_8 A) (cvK_8 A)

theorem cvK_10 : [cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 10 :=
  cvK_step (Pm (F := Ideal) A) 9 (by norm_num) slices_S4096x16_o0_9_S4096x1 _ _ (conv_eq_9 A) (cvK_9 A)

theorem cvK_11 : [cvr (F := Ideal) A 10, cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 11 :=
  cvK_step (Pm (F := Ideal) A) 10 (by norm_num) slices_S4096x16_o0_10_S4096x1 _ _ (conv_eq_10 A) (cvK_10 A)

theorem cvK_12 : [cvr (F := Ideal) A 11, cvr (F := Ideal) A 10, cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 12 :=
  cvK_step (Pm (F := Ideal) A) 11 (by norm_num) slices_S4096x16_o0_11_S4096x1 _ _ (conv_eq_11 A) (cvK_11 A)

theorem cvK_13 : [cvr (F := Ideal) A 12, cvr (F := Ideal) A 11, cvr (F := Ideal) A 10, cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 13 :=
  cvK_step (Pm (F := Ideal) A) 12 (by norm_num) slices_S4096x16_o0_12_S4096x1 _ _ (conv_eq_12 A) (cvK_12 A)

theorem cvK_14 : [cvr (F := Ideal) A 13, cvr (F := Ideal) A 12, cvr (F := Ideal) A 11, cvr (F := Ideal) A 10, cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 14 :=
  cvK_step (Pm (F := Ideal) A) 13 (by norm_num) slices_S4096x16_o0_13_S4096x1 _ _ (conv_eq_13 A) (cvK_13 A)

theorem cvK_15 : [cvr (F := Ideal) A 14, cvr (F := Ideal) A 13, cvr (F := Ideal) A 12, cvr (F := Ideal) A 11, cvr (F := Ideal) A 10, cvr (F := Ideal) A 9, cvr (F := Ideal) A 8, cvr (F := Ideal) A 7, cvr (F := Ideal) A 6, cvr (F := Ideal) A 5, cvr (F := Ideal) A 4, cvr (F := Ideal) A 3, cvr (F := Ideal) A 2, cvr (F := Ideal) A 1, cvr (F := Ideal) A 0].map colFn = cvK (colsOfMat (Pm (F := Ideal) A)) 15 :=
  cvK_step (Pm (F := Ideal) A) 14 (by norm_num) slices_S4096x16_o0_14_S4096x1 _ _ (conv_eq_14 A) (cvK_14 A)

theorem pieceV_apply (i : ℕ) (hi : i < 16) (b : Fin 4096) :
    pieceV (F := Ideal) A i (ix2 b (0 : Fin 1))
      = outK (colsOfMat (Pm (F := Ideal) A)) (colsOfMat (Qm (F := Ideal) A)) i b := by
  match i, hi with
  | 0, _ =>
    rw [piece_eq_0, colV_apply _ 0 (by norm_num) slices_S4096x16_o0_0_S4096x1 b]
    show _ = colsOfMat (Qm (F := Ideal) A) 0 b - (0 : EReal)
    rw [sub_zero]
    unfold colsOfMat
    rw [dif_pos (by norm_num)]
  | 1, _ =>
    rw [piece_eq_1]
    exact outK_step (Pm (F := Ideal) A) (Qm (F := Ideal) A) 1 (by norm_num) slices_S4096x16_o0_1_S4096x1 _ (cvK_1 A) b
  | 2, _ =>
    rw [piece_eq_2]
    exact outK_step (Pm (F := Ideal) A) (Qm (F := Ideal) A) 2 (by norm_num) slices_S4096x16_o0_2_S4096x1 _ (cvK_2 A) b
  | 3, _ =>
    rw [piece_eq_3]
    exact outK_step (Pm (F := Ideal) A) (Qm (F := Ideal) A) 3 (by norm_num) slices_S4096x16_o0_3_S4096x1 _ (cvK_3 A) b
  | 4, _ =>
    rw [piece_eq_4]
    exact outK_step (Pm (F := Ideal) A) (Qm (F := Ideal) A) 4 (by norm_num) slices_S4096x16_o0_4_S4096x1 _ (cvK_4 A) b
  | 5, _ =>
    rw [piece_eq_5]
    exact outK_step (Pm (F := Ideal) A) (Qm (F := Ideal) A) 5 (by norm_num) slices_S4096x16_o0_5_S4096x1 _ (cvK_5 A) b
  | 6, _ =>
    rw [piece_eq_6]
    exact outK_step (Pm (F := Ideal) A) (Qm (F := Ideal) A) 6 (by norm_num) slices_S4096x16_o0_6_S4096x1 _ (cvK_6 A) b
  | 7, _ =>
    rw [piece_eq_7]
    exact outK_step (Pm (F := Ideal) A) (Qm (F := Ideal) A) 7 (by norm_num) slices_S4096x16_o0_7_S4096x1 _ (cvK_7 A) b
  | 8, _ =>
    rw [piece_eq_8]
    exact outK_step (Pm (F := Ideal) A) (Qm (F := Ideal) A) 8 (by norm_num) slices_S4096x16_o0_8_S4096x1 _ (cvK_8 A) b
  | 9, _ =>
    rw [piece_eq_9]
    exact outK_step (Pm (F := Ideal) A) (Qm (F := Ideal) A) 9 (by norm_num) slices_S4096x16_o0_9_S4096x1 _ (cvK_9 A) b
  | 10, _ =>
    rw [piece_eq_10]
    exact outK_step (Pm (F := Ideal) A) (Qm (F := Ideal) A) 10 (by norm_num) slices_S4096x16_o0_10_S4096x1 _ (cvK_10 A) b
  | 11, _ =>
    rw [piece_eq_11]
    exact outK_step (Pm (F := Ideal) A) (Qm (F := Ideal) A) 11 (by norm_num) slices_S4096x16_o0_11_S4096x1 _ (cvK_11 A) b
  | 12, _ =>
    rw [piece_eq_12]
    exact outK_step (Pm (F := Ideal) A) (Qm (F := Ideal) A) 12 (by norm_num) slices_S4096x16_o0_12_S4096x1 _ (cvK_12 A) b
  | 13, _ =>
    rw [piece_eq_13]
    exact outK_step (Pm (F := Ideal) A) (Qm (F := Ideal) A) 13 (by norm_num) slices_S4096x16_o0_13_S4096x1 _ (cvK_13 A) b
  | 14, _ =>
    rw [piece_eq_14]
    exact outK_step (Pm (F := Ideal) A) (Qm (F := Ideal) A) 14 (by norm_num) slices_S4096x16_o0_14_S4096x1 _ (cvK_14 A) b
  | 15, _ =>
    rw [piece_eq_15]
    exact outK_step (Pm (F := Ideal) A) (Qm (F := Ideal) A) 15 (by norm_num) slices_S4096x16_o0_15_S4096x1 _ (cvK_15 A) b
  | n + 16, h => exact absurd h (by omega)

end Cert.KernelIdeal.KW

end
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KAccPoint.lean ====
import proofs.«156821_j17033840296170_1_alg».proof.Proof.Gen.KernelIdeal.Frame
import proofs.«156821_j17033840296170_1_alg».proof.Proof.Spec
import proofs.«156821_j17033840296170_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KV

open Idealize.ShloMosaic Idealize.ShloMosaic.ValueIdx Cert.KernelIdeal Cert.KernelIdeal.Gen Cert.PLS

theorem aux_colsum_apply (v : FVec Ideal S4096x256 .f32) (u : Fin 1) (k : Fin 256) :
    shapeCast S1x256 (multiReduction (F := Ideal) .add [0] S256 v 0x00000000#32 reduces_S4096x256_S256 (.inl rfl) rfl) shapeCasts_S256_S1x256 (ix2 u k)
      = ∑ b : Fin 4096, v (ix2 b k) := by
  refine (shapeCast_a_1a_apply _ _ u k).trans ?_
  refine (Ideal.multiReduction_add_single v 0x00000000#32 reduces_S4096x256_S256 (.inl rfl) rfl (ix1 k)).trans ?_
  refine Finset.sum_congr rfl fun b _ => congrArg v ?_
  funext a
  match a with
  | ⟨0, _⟩ => rfl
  | ⟨1, _⟩ => rfl

def aux_cmean (v : FVec Ideal S4096x256 .f32) : FVec Ideal S1x256 .f32 :=
  divf (shapeCast S1x256 (multiReduction .add [0] S256 v 0x00000000#32 reduces_S4096x256_S256 (.inl rfl) rfl) shapeCasts_S256_S1x256)
    (broadcast S1x256 (Scalar.ofBits .f32 0x45800000#32))

theorem aux_cmean_apply (v : FVec Ideal S4096x256 .f32) (u : Fin 1) (k : Fin 256) :
    aux_cmean v (ix2 u k) = meanS (fun b => v (ix2 b k)) := by
  show Ideal.div (shapeCast S1x256 (multiReduction (F := Ideal) .add [0] S256 v 0x00000000#32 reduces_S4096x256_S256 (.inl rfl) rfl) shapeCasts_S256_S1x256 (ix2 u k)) _ = Ideal.div (∑ b, v (ix2 b k)) c4096
  rw [aux_colsum_apply]
  rfl

def aux_ccen (v : FVec Ideal S4096x256 .f32) : FVec Ideal S4096x256 .f32 :=
  subf v (broadcastTo S4096x256 (aux_cmean v) broadcasts_S1x256_S4096x256)

theorem aux_ccen_apply (v : FVec Ideal S4096x256 .f32) (b : Fin 4096) (k : Fin 256) :
    aux_ccen v (ix2 b k) = cenS (fun b' => v (ix2 b' k)) b := by
  show v (ix2 b k) - broadcastTo S4096x256 (aux_cmean v) broadcasts_S1x256_S4096x256 (ix2 b k) = v (ix2 b k) - meanS (fun b' => v (ix2 b' k))
  rw [broadcastTo_1b_ab_apply, aux_cmean_apply]

def aux_cse (c : FVec Ideal S4096x256 .f32) : FVec Ideal S1x256 .f32 :=
  addf (sqrt (aux_cmean (mulf c c))) (broadcast S1x256 (Scalar.ofBits .f32 0x358637BD#32))

theorem aux_cse_apply (c : FVec Ideal S4096x256 .f32) (u : Fin 1) (k : Fin 256) :
    aux_cse c (ix2 u k) = seS (fun b => c (ix2 b k)) := by
  show Ideal.sqrt (aux_cmean (mulf c c) (ix2 u k)) + _ = Ideal.sqrt (meanS fun b => c (ix2 b k) * c (ix2 b k)) + ceps
  rw [aux_cmean_apply]
  rfl

def aux_nblk (v : FVec Ideal S4096x256 .f32) : FVec Ideal S4096x256 .f32 :=
  divf (aux_ccen v) (broadcastTo S4096x256 (aux_cse (aux_ccen v)) broadcasts_S1x256_S4096x256)

theorem aux_nblk_apply (v : FVec Ideal S4096x256 .f32) (b : Fin 4096) (k : Fin 256) :
    aux_nblk v (ix2 b k) = znS (fun b' => v (ix2 b' k)) b := by
  show Ideal.div (aux_ccen v (ix2 b k)) (broadcastTo S4096x256 (aux_cse (aux_ccen v)) broadcasts_S1x256_S4096x256 (ix2 b k))
    = Ideal.div (cenS (fun b' => v (ix2 b' k)) b) (seS (cenS (fun b' => v (ix2 b' k))))
  rw [broadcastTo_1b_ab_apply, aux_cse_apply, aux_ccen_apply]
  congr 2
  funext b'
  exact aux_ccen_apply v b' k

theorem aux_pay2_eq (x0 : Vec Ideal S4096x256 .f32) (x1 : Vec Ideal S256x32 .f32) (a : Vec Ideal S4096x32 .f32) :
    k0_pay2 (F := Ideal) x0 x1 a
      = shapeCast S4096x32 (addf a (matmul dot_S4096x256_S256x32_S4096x32_1_0_0_1_n_n none
          (truncf .bf16 (aux_nblk x0) bitsLt_bf16_f32)
          (truncf .bf16 (shapeCast S256x32 x1 shapeCasts_S256x32_S256x32) bitsLt_bf16_f32)
          (constant S4096x32 .f32 0x00000000#32))) shapeCasts_S4096x32_S4096x32 := rfl

theorem pay2_apply (x0 : Vec Ideal S4096x256 .f32) (x1 : Vec Ideal S256x32 .f32) (a : Vec Ideal S4096x32 .f32)
    (b : Fin 4096) (col : Fin 32) :
    k0_pay2 (F := Ideal) x0 x1 a (ix2 b col)
      = a (ix2 b col) + ∑ k : Fin 256, znS (fun b' => x0 (ix2 b' k)) b * x1 (ix2 k col) := by
  rw [aux_pay2_eq, shapeCast_self]
  show a (ix2 b col) + _ = _
  congr 1
  refine (Cert.LibDot.matmul_zero_at dot_S4096x256_S256x32_S4096x32_1_0_0_1_n_n rfl rfl rfl rfl rfl rfl none _ _ b col).trans ?_
  refine Finset.sum_congr rfl fun k _ => ?_
  show aux_nblk x0 (ix2 b k) * shapeCast S256x32 x1 shapeCasts_S256x32_S256x32 (ix2 k col) = _
  rw [aux_nblk_apply, shapeCast_self]

variable (c : Dev nD) (i : grid0.Coords) (arg1 : Memref sig .tc .vmem S4096x256 .f32) (harg1 : arg1.IsWhole) (arg2 : Memref sig .tc .vmem S256x32 .f32) (harg2 : arg2.IsWhole) (arg3 : Memref sig .tc .vmem S4096x16 .f32) (harg3 : arg3.IsWhole) (arg4 : Memref sig .tc .vmem S4096x32 .f32) (harg4 : arg4.IsWhole)
  (x0 : Vec Ideal S4096x256 .f32) (x1 : Vec Ideal S256x32 .f32) (xs0 : Vec Ideal S4096x32 .f32)

theorem aux_hz : (![0, 0] : Fin 2 → Nat) = fun _ => 0 := funext fun a => by fin_cases a <;> rfl

theorem aux_sout_A_eq (hc0 : cond0_0 i) (hc1 : ¬cond0_1 i) :
    sout0_A_0 (F := Ideal) c i arg1 harg1 arg2 harg2 arg3 harg3 arg4 harg4 hc0 hc1 x0 x1 = k0_pay2 x0 x1 (k0_pay1 (F := Ideal)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S4096x32) aux_hz, View.readCov_unit_zero (S := S4096x32) _ aux_hz]
  simp only [View.readAt_eq_ld, harg1.read_unread, harg2.read_unread, View.ld_unit_zero (S := S4096x256) aux_hz, View.ld_unit_zero (S := S256x32) aux_hz]

theorem aux_sout_B_eq (hc0 : ¬cond0_0 i) (hc1 : ¬cond0_1 i) :
    sout0_B_0 (F := Ideal) c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero (S := S4096x32) aux_hz]
  simp only [View.readAt_eq_ld, harg1.read_unread, harg2.read_unread, harg4.read_unread, View.ld_unit_zero (S := S4096x256) aux_hz, View.ld_unit_zero (S := S256x32) aux_hz, View.ld_unit_zero (S := S4096x32) aux_hz]

theorem aux_v33_eq :
    kernelRun0_C.sl.v33 (F := Ideal) c arg1 harg1 arg2 harg2 arg4 harg4 x0 x1 xs0 = k0_pay2 x0 x1 xs0 := by
  unfold kernelRun0_C.sl.v33 kernelRun0_C.sl.HS0_1
  rw [View.readCov_unit_zero (S := S4096x32) _ aux_hz]
  simp only [View.readAt_eq_ld, harg1.read_unread, harg2.read_unread, harg4.read_unread, View.ld_unit_zero (S := S4096x256) aux_hz, View.ld_unit_zero (S := S256x32) aux_hz, View.ld_unit_zero (S := S4096x32) aux_hz]

theorem sout_A_apply (hc0 : cond0_0 i) (hc1 : ¬cond0_1 i) (b : Fin 4096) (col : Fin 32) :
    sout0_A_0 (F := Ideal) c i arg1 harg1 arg2 harg2 arg3 harg3 arg4 harg4 hc0 hc1 x0 x1 (ix2 b col)
      = ∑ k : Fin 256, znS (fun b' => x0 (ix2 b' k)) b * x1 (ix2 k col) := by
  refine (congrFun (aux_sout_A_eq c i arg1 harg1 arg2 harg2 arg3 harg3 arg4 harg4 x0 x1 hc0 hc1) (ix2 b col)).trans ?_
  refine (pay2_apply x0 x1 _ b col).trans ?_
  show Ideal.ofBits .f32 0x00000000#32 + _ = _
  rw [Ideal.ofBits_zero_f32, zero_add]

theorem sout_B_apply (hc0 : ¬cond0_0 i) (hc1 : ¬cond0_1 i) (b : Fin 4096) (col : Fin 32) :
    sout0_B_0 (F := Ideal) c i arg1 harg1 arg2 harg2 arg3 harg3 arg4 harg4 hc0 hc1 x0 x1 xs0 (ix2 b col)
      = xs0 (ix2 b col) + ∑ k : Fin 256, znS (fun b' => x0 (ix2 b' k)) b * x1 (ix2 k col) := by
  refine (congrFun (aux_sout_B_eq c i arg1 harg1 arg2 harg2 arg3 harg3 arg4 harg4 x0 x1 xs0 hc0 hc1) (ix2 b col)).trans ?_
  exact pay2_apply x0 x1 xs0 b col

theorem Pm_point (b : Fin 4096) (j : Fin 16) :
    Cert.KernelIdeal.Gen.kernelRun0_C.sl.r (F := Ideal) c arg1 harg1 arg2 harg2 arg4 harg4 x0 x1 xs0 (ix2 b j)
      = xs0 (ix2 b (⟨j.val, by omega⟩ : Fin 32)) + ∑ k : Fin 256, znS (fun b' => x0 (ix2 b' k)) b * x1 (ix2 k (⟨j.val, by omega⟩ : Fin 32)) := by
  unfold kernelRun0_C.sl.r k0_pay4
  refine (slice2_axis1_apply 0 _ slices_S4096x32_o0_0_S4096x16 b j (⟨j.val, by omega⟩ : Fin 32) (Nat.zero_add _).symm).trans ?_
  rw [aux_v33_eq]
  exact pay2_apply x0 x1 xs0 b _
theorem Qm_point (b : Fin 4096) (j : Fin 16) :
    Cert.KernelIdeal.Gen.kernelRun0_C.sl.r_1 (F := Ideal) c arg1 harg1 arg2 harg2 arg4 harg4 x0 x1 xs0 (ix2 b j)
      = xs0 (ix2 b (⟨16 + j.val, by omega⟩ : Fin 32)) + ∑ k : Fin 256, znS (fun b' => x0 (ix2 b' k)) b * x1 (ix2 k (⟨16 + j.val, by omega⟩ : Fin 32)) := by
  unfold kernelRun0_C.sl.r_1 k0_pay5
  refine (slice2_axis1_apply 16 _ slices_S4096x32_o0_16_S4096x16 b j (⟨16 + j.val, by omega⟩ : Fin 32) rfl).trans ?_
  rw [aux_v33_eq]
  exact pay2_apply x0 x1 xs0 b _

end Cert.KernelIdeal.KV

end
-- ==== Proof.KAcc.lean ====
import proofs.«156821_j17033840296170_1_alg».proof.Proof.KArgs
import proofs.«156821_j17033840296170_1_alg».proof.Proof.KNames
import proofs.«156821_j17033840296170_1_alg».proof.Proof.KAccPoint
import Idealize.ShloMosaic.PureOps.Ideal.Laws
import Idealize.ShloMosaic.Lib.Pipeline.Value
import Idealize.ShloMosaic.Lib.StableHlo.Run
import Idealize.ShloMosaic.Lib.Tactic

noncomputable section

open scoped BigOperators

namespace Cert.KernelIdeal.KV

open Idealize.ShloMosaic Idealize.ShloMosaic.ValueIdx Idealize.ShloMosaic.TcCoe Idealize.SL.Sem Cert.KernelIdeal Cert.KernelIdeal.Gen Cert.KernelIdeal.KW Cert.PLS

variable (m : (ℓ : Loc nD τ sig) → Buf (Elt Ideal) ℓ) (c : Dev nD)

abbrev aux_xblk (t : Fin cfg0.N) : Vec Ideal S4096x256 .f32 := iblk m c 0 t

abbrev aux_wblk (t : Fin cfg0.N) : Vec Ideal S256x32 .f32 := iblk m c 1 t

abbrev aux_warr : Vec Ideal S4096x32 .f32 := V m c main_v0

theorem aux_blk_index : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

theorem aux_xblk_apply (t : Fin cfg0.N) (b : Fin 4096) (k : Fin 256) (d : Fin 4096) (hd : d.val = 256 * t.val + k.val) :
    aux_xblk m c t (ix2 b k) = xOf m c b d := by
  obtain ⟨e0, e1, -, -⟩ := aux_blk_index t
  unfold aux_xblk iblk
  rw [View.read_apply]
  show V m c main_arg0 _ = m ((c : Thread nD τ).loc main_arg0) (ix2 b d)
  rw [V_main_arg0]
  congr 1
  funext a
  apply Fin.ext
  match a with
  | ⟨0, _⟩ => show win0_0.index t (0 : Fin 2) * 4096 + 1 * b.val = b.val; rw [e0]; omega
  | ⟨1, _⟩ => show win0_0.index t (1 : Fin 2) * 256 + 1 * k.val = d.val; rw [e1, hd]; omega

theorem aux_wblk_apply (t : Fin cfg0.N) (k : Fin 256) (col : Fin 32) (d : Fin 4096) (hd : d.val = 256 * t.val + k.val) :
    aux_wblk m c t (ix2 k col) = aux_warr m c (ix2 d col) := by
  obtain ⟨-, -, e2, e3⟩ := aux_blk_index t
  unfold aux_wblk iblk aux_warr
  rw [View.read_apply]
  show V m c main_v0 _ = V m c main_v0 (ix2 d col)
  congr 1
  funext a
  apply Fin.ext
  match a with
  | ⟨0, _⟩ => show win0_1.index t (0 : Fin 2) * 256 + 1 * k.val = d.val; rw [e2, hd]; omega
  | ⟨1, _⟩ => show win0_1.index t (1 : Fin 2) * 32 + 1 * col.val = col.val; rw [e3]; omega

theorem aux_warr_apply (d : Fin 4096) (col : Fin 32) :
    aux_warr m c (ix2 d col) = if h : col.val < 16 then wsOf m c d ⟨col.val, h⟩ else wOf m c d ⟨col.val - 16, by omega⟩ := by
  have e : (V m c main_v0 : S4096x32.Idx → EReal)
      = concatenate S4096x32 1 [⟨S4096x16, (m ((c : Thread nD τ).loc main_arg2) : S4096x16.Idx → EReal)⟩,
          ⟨S4096x16, (m ((c : Thread nD τ).loc main_arg1) : S4096x16.Idx → EReal)⟩]
          concatenates_S4096x16_S4096x16_S4096x32_d1 := by
    dsimp only [Gen.V, Gen.hostOps0]; after_results
  show (V m c main_v0 : S4096x32.Idx → EReal) (ix2 d col) = _
  rw [e]
  by_cases hk : col.val < 16
  · rw [dif_pos hk]
    refine concatenate_pair_apply_left (t := S4096x32) (s₁ := S4096x16) (s₂ := S4096x16) (1 : Fin 2)
      (m ((c : Thread nD τ).loc main_arg2) : S4096x16.Idx → EReal) (m ((c : Thread nD τ).loc main_arg1) : S4096x16.Idx → EReal)
      concatenates_S4096x16_S4096x16_S4096x32_d1 (ix2 d col) rfl (ix2 d (⟨col.val, hk⟩ : Fin 16)) ?_
    intro q
    match q with
    | ⟨0, _⟩ => rfl
    | ⟨1, _⟩ => rfl
  · rw [dif_neg hk]
    refine concatenate_pair_apply_right (t := S4096x32) (s₁ := S4096x16) (s₂ := S4096x16) (1 : Fin 2)
      (m ((c : Thread nD τ).loc main_arg2) : S4096x16.Idx → EReal) (m ((c : Thread nD τ).loc main_arg1) : S4096x16.Idx → EReal)
      concatenates_S4096x16_S4096x16_S4096x32_d1 (ix2 d col) rfl rfl
      (ix2 d (⟨col.val - 16, by omega⟩ : Fin 16)) ?_ ?_
    · intro q hq
      match q, hq with
      | ⟨0, _⟩, _ => rfl
      | ⟨1, _⟩, hq => exact absurd rfl hq
    · show (col.val - 16) + 16 = col.val
      omega

def aux_feat (s : Fin 16) (k : Fin 256) : Fin 4096 := ⟨256 * s.val + k.val, by have := s.isLt; have := k.isLt; omega⟩

def aux_term (b : Fin 4096) (col : Fin 32) (d : Fin 4096) : EReal :=
  znS (fun b' => xOf m c b' d) b * aux_warr m c (ix2 d col)

def aux_step (b : Fin 4096) (col : Fin 32) (s : ℕ) : EReal :=
  if h : s < cfg0.N then ∑ k : Fin 256, znS (fun b' => aux_xblk m c ⟨s, h⟩ (ix2 b' k)) b * aux_wblk m c ⟨s, h⟩ (ix2 k col) else 0

theorem aux_step_eq (b : Fin 4096) (col : Fin 32) (s : Fin 16) :
    aux_step m c b col s.val = ∑ k : Fin 256, aux_term m c b col (aux_feat s k) := by
  have hs : s.val < cfg0.N := lt_of_lt_of_eq s.isLt (show cfg0.N = 16 from N_0).symm
  unfold aux_step
  rw [dif_pos hs]
  refine Finset.sum_congr rfl fun k _ => ?_
  have hx : (fun b' => aux_xblk m c ⟨s.val, hs⟩ (ix2 b' k)) = fun b' => xOf m c b' (aux_feat s k) :=
    funext fun b' => aux_xblk_apply m c ⟨s.val, hs⟩ b' k (aux_feat s k) rfl
  have hw : aux_wblk m c ⟨s.val, hs⟩ (ix2 k col) = aux_warr m c (ix2 (aux_feat s k) col) :=
    aux_wblk_apply m c ⟨s.val, hs⟩ k col (aux_feat s k) rfl
  unfold aux_term
  rw [hx, hw]

theorem aux_steps_sum (b : Fin 4096) (col : Fin 32) :
    ∑ s ∈ Finset.range 16, aux_step m c b col s = ∑ d : Fin 4096, aux_term m c b col d := by
  rw [Finset.sum_range (fun s => aux_step m c b col s)]
  rw [Finset.sum_congr rfl (fun s _ => aux_step_eq m c b col s)]
  rw [← Fintype.sum_prod_type' (fun s k => aux_term m c b col (aux_feat s k))]
  exact Fintype.sum_equiv finProdFinEquiv (fun p : Fin 16 × Fin 256 => aux_term m c b col (aux_feat p.1 p.2))
    (fun d : Fin (16 * 256) => aux_term m c b col d)
    (fun p => congrArg (aux_term m c b col) (Fin.ext (show 256 * p.1.val + p.2.val = p.2.val + 256 * p.1.val from by omega)))

theorem aux_acc_apply (b : Fin 4096) (col : Fin 32) : ∀ (n : ℕ) (hn : n < cfg0.N), n ≠ 15 →
    (outsAt0 m c n hn).2 (ix2 b col) = ∑ s ∈ Finset.range (n + 1), aux_step m c b col s
  | 0, hn, _ => by
    rw [outsAt0_A m c ⟨0, hn⟩ rfl (by dsimp only; omega)]
    dsimp only
    refine (sout_A_apply c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) (aux_xblk m c ⟨0, hn⟩) (aux_wblk m c ⟨0, hn⟩) _ _ b col).trans ?_
    rw [Finset.sum_range_succ, Finset.sum_range_zero, zero_add]
    unfold aux_step
    rw [dif_pos hn]
  | n + 1, hn, h15 => by
    have hN : n + 1 < 16 := lt_of_lt_of_eq hn (show cfg0.N = 16 from N_0)
    have h0 : ¬(⟨n + 1, hn⟩ : Fin cfg0.N).val % 16 = 0 := by dsimp only; omega
    have h1 : ¬(⟨n + 1, hn⟩ : Fin cfg0.N).val % 16 = 15 := by dsimp only; omega
    rw [outsAt0_B m c ⟨n + 1, hn⟩ h0 h1]
    dsimp only
    refine (sout_B_apply c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) scM0_0 (Memref.isWhole_whole _) (aux_xblk m c ⟨n + 1, hn⟩) (aux_wblk m c ⟨n + 1, hn⟩)
      (outsAt0 m c n (Nat.lt_of_succ_lt hn)).2 _ _ b col).trans ?_
    rw [aux_acc_apply b col n (Nat.lt_of_succ_lt hn) (by omega), Finset.sum_range_succ _ (n + 1)]
    congr 1
    unfold aux_step
    rw [dif_pos hn]

theorem aux_acc_last (h14 : 14 < cfg0.N) (h15 : 15 < cfg0.N) (b : Fin 4096) (col : Fin 32) :
    (outsAt0 m c 14 h14).2 (ix2 b col)
        + ∑ k : Fin 256, znS (fun b' => aux_xblk m c ⟨15, h15⟩ (ix2 b' k)) b * aux_wblk m c ⟨15, h15⟩ (ix2 k col)
      = ∑ d : Fin 4096, aux_term m c b col d := by
  have e1 := aux_acc_apply m c b col 14 h14 (by decide)
  have e2 : (∑ k : Fin 256, znS (fun b' => aux_xblk m c ⟨15, h15⟩ (ix2 b' k)) b * aux_wblk m c ⟨15, h15⟩ (ix2 k col)) = aux_step m c b col 15 := by
    unfold aux_step; rw [dif_pos h15]
  rw [e1, e2]
  exact ((Finset.sum_range_succ (fun s => aux_step m c b col s) 15).symm).trans (aux_steps_sum m c b col)

-- The arguments of the body's run at grid point t.
abbrev runAt (t : Fin cfg0.N) : RunArgs Ideal :=
  ⟨c, ms0_0 t, hs0_0 t, ms0_1 t, hs0_1 t, scM0_0, Memref.isWhole_whole _, iblk m c 0 t, iblk m c 1 t,
    (outsAt0 m c (t.val - 1) (Nat.lt_of_le_of_lt (Nat.sub_le _ _) t.isLt)).2⟩

theorem Pm_apply (t : Fin cfg0.N) (h1 : t.val % 16 = 15) (b : Fin 4096) (j : Fin 16) :
    Pm (runAt m c t) (ix2 b j)
      = projS (XS (xOf m c)) (colOf (wsOf m c) j.val) b := by
  dsimp only [Pm, runAt]
  obtain ⟨tv, ht⟩ := t
  have hN : tv < 16 := lt_of_lt_of_eq ht (show cfg0.N = 16 from N_0)
  obtain rfl : tv = 15 := by dsimp only at h1; omega
  have h14 : 14 < cfg0.N := by rw [show cfg0.N = 16 from N_0]; decide
  have hj : j.val < 32 := by have := j.isLt; omega
  refine (Pm_point c (ms0_0 ⟨15, ht⟩) (hs0_0 ⟨15, ht⟩) (ms0_1 ⟨15, ht⟩) (hs0_1 ⟨15, ht⟩) scM0_0 (Memref.isWhole_whole _)
    (aux_xblk m c ⟨15, ht⟩) (aux_wblk m c ⟨15, ht⟩) (outsAt0 m c 14 h14).2 b j).trans ?_
  refine (aux_acc_last m c h14 ht b ⟨j.val, hj⟩).trans ?_
  show (∑ d : Fin 4096, aux_term m c b ⟨j.val, hj⟩ d) = ∑ d : Fin 4096, XS (xOf m c) b d * colOf (wsOf m c) j.val d
  refine Finset.sum_congr rfl fun d _ => ?_
  show znS (fun b' => xOf m c b' d) b * aux_warr m c (ix2 d ⟨j.val, hj⟩)
    = znS (fun b' => xOf m c b' d) b * (if h : j.val < 16 then wsOf m c d ⟨j.val, h⟩ else 0)
  have hw := aux_warr_apply m c d ⟨j.val, hj⟩
  rw [dif_pos (show (⟨j.val, hj⟩ : Fin 32).val < 16 from j.isLt)] at hw
  rw [hw, dif_pos j.isLt]

theorem Qm_apply (t : Fin cfg0.N) (h1 : t.val % 16 = 15) (b : Fin 4096) (j : Fin 16) :
    Qm (runAt m c t) (ix2 b j)
      = projS (XS (xOf m c)) (colOf (wOf m c) j.val) b := by
  dsimp only [Qm, runAt]
  obtain ⟨tv, ht⟩ := t
  have hN : tv < 16 := lt_of_lt_of_eq ht (show cfg0.N = 16 from N_0)
  obtain rfl : tv = 15 := by dsimp only at h1; omega
  have h14 : 14 < cfg0.N := by rw [show cfg0.N = 16 from N_0]; decide
  have hj : 16 + j.val < 32 := by have := j.isLt; omega
  refine (Qm_point c (ms0_0 ⟨15, ht⟩) (hs0_0 ⟨15, ht⟩) (ms0_1 ⟨15, ht⟩) (hs0_1 ⟨15, ht⟩) scM0_0 (Memref.isWhole_whole _)
    (aux_xblk m c ⟨15, ht⟩) (aux_wblk m c ⟨15, ht⟩) (outsAt0 m c 14 h14).2 b j).trans ?_
  refine (aux_acc_last m c h14 ht b ⟨16 + j.val, hj⟩).trans ?_
  show (∑ d : Fin 4096, aux_term m c b ⟨16 + j.val, hj⟩ d) = ∑ d : Fin 4096, XS (xOf m c) b d * colOf (wOf m c) j.val d
  refine Finset.sum_congr rfl fun d _ => ?_
  show znS (fun b' => xOf m c b' d) b * aux_warr m c (ix2 d ⟨16 + j.val, hj⟩)
    = znS (fun b' => xOf m c b' d) b * (if h : j.val < 16 then wOf m c d ⟨j.val, h⟩ else 0)
  have hw := aux_warr_apply m c d ⟨16 + j.val, hj⟩
  rw [dif_neg (show ¬(⟨16 + j.val, hj⟩ : Fin 32).val < 16 from by dsimp only; omega)] at hw
  rw [hw, dif_pos j.isLt]
  exact congrArg (fun i : Fin 16 => znS (fun b' => xOf m c b' d) b * wOf m c d i)
    (Fin.ext (show 16 + j.val - 16 = j.val from by omega))

end Cert.KernelIdeal.KV

end
-- ==== Proof.KFin.lean ====
import proofs.«156821_j17033840296170_1_alg».proof.Proof.Gen.KernelIdeal.Value
import proofs.«156821_j17033840296170_1_alg».proof.Proof.KArgs
import proofs.«156821_j17033840296170_1_alg».proof.Proof.KSem
import proofs.«156821_j17033840296170_1_alg».proof.Proof.KAcc
import Idealize.ShloMosaic.Lib.Pipeline.Value

noncomputable section

namespace Cert.KernelIdeal.KValue

open Idealize.ShloMosaic Idealize.ShloMosaic.ValueIdx Idealize.ShloMosaic.TcCoe Idealize.SL.Sem Cert.KernelIdeal Cert.KernelIdeal.Gen Cert.KernelIdeal.KW Cert.KernelIdeal.KV Cert.PLS

variable (m : (ℓ : Loc nD τ sig) → Buf (Elt Ideal) ℓ) (ρ : Dev nD → PrngReg)

abbrev aux_storedAt (A : RunArgs Ideal) : S4096x16.Idx → Elt Ideal .f32 :=
  fun y => pieceV A (y 1).val (ix2 (y 0) (0 : Fin 1))

def aux_pieces (A : RunArgs Ideal) : List (View.Piece (Elt Ideal) S4096x16 .f32) :=
  [⟨Rect.unit (s := S4096x16) ![0, 15] S4096x1.size inb_S4096x16_S4096x1_0_15, pieceV A 15⟩,
   ⟨Rect.unit (s := S4096x16) ![0, 14] S4096x1.size inb_S4096x16_S4096x1_0_14, pieceV A 14⟩,
   ⟨Rect.unit (s := S4096x16) ![0, 13] S4096x1.size inb_S4096x16_S4096x1_0_13, pieceV A 13⟩,
   ⟨Rect.unit (s := S4096x16) ![0, 12] S4096x1.size inb_S4096x16_S4096x1_0_12, pieceV A 12⟩,
   ⟨Rect.unit (s := S4096x16) ![0, 11] S4096x1.size inb_S4096x16_S4096x1_0_11, pieceV A 11⟩,
   ⟨Rect.unit (s := S4096x16) ![0, 10] S4096x1.size inb_S4096x16_S4096x1_0_10, pieceV A 10⟩,
   ⟨Rect.unit (s := S4096x16) ![0, 9] S4096x1.size inb_S4096x16_S4096x1_0_9, pieceV A 9⟩,
   ⟨Rect.unit (s := S4096x16) ![0, 8] S4096x1.size inb_S4096x16_S4096x1_0_8, pieceV A 8⟩,
   ⟨Rect.unit (s := S4096x16) ![0, 7] S4096x1.size inb_S4096x16_S4096x1_0_7, pieceV A 7⟩,
   ⟨Rect.unit (s := S4096x16) ![0, 6] S4096x1.size inb_S4096x16_S4096x1_0_6, pieceV A 6⟩,
   ⟨Rect.unit (s := S4096x16) ![0, 5] S4096x1.size inb_S4096x16_S4096x1_0_5, pieceV A 5⟩,
   ⟨Rect.unit (s := S4096x16) ![0, 4] S4096x1.size inb_S4096x16_S4096x1_0_4, pieceV A 4⟩,
   ⟨Rect.unit (s := S4096x16) ![0, 3] S4096x1.size inb_S4096x16_S4096x1_0_3, pieceV A 3⟩,
   ⟨Rect.unit (s := S4096x16) ![0, 2] S4096x1.size inb_S4096x16_S4096x1_0_2, pieceV A 2⟩,
   ⟨Rect.unit (s := S4096x16) ![0, 1] S4096x1.size inb_S4096x16_S4096x1_0_1, pieceV A 1⟩,
   ⟨Rect.unit (s := S4096x16) ![0, 0] S4096x1.size inb_S4096x16_S4096x1_0_0, pieceV A 0⟩]

theorem aux_run_pieces (c : Dev nD) (i : grid0.Coords) (arg1 : Memref sig .tc .vmem S4096x256 .f32) (harg1 : arg1.IsWhole) (arg2 : Memref sig .tc .vmem S256x32 .f32) (harg2 : arg2.IsWhole) (arg3 : Memref sig .tc .vmem S4096x16 .f32) (harg3 : arg3.IsWhole) (arg4 : Memref sig .tc .vmem S4096x32 .f32) (harg4 : arg4.IsWhole) (hc0 : ¬cond0_0 i) (hc1 : cond0_1 i)
    (x0 : Vec Ideal S4096x256 .f32) (x1 : Vec Ideal S256x32 .f32) (xs0 : Vec Ideal S4096x32 .f32) :
    (kernelRun0_C (F := Ideal) c i arg1 harg1 arg2 harg2 arg3 harg3 arg4 harg4 hc0 hc1 x0 x1 xs0).1 = aux_pieces ⟨c, arg1, harg1, arg2, harg2, arg4, harg4, x0, x1, xs0⟩ := by
  unfold kernelRun0_C
  rfl

theorem aux_col_piece (V : ℕ → FVec Ideal S4096x1 .f32) (k : ℕ)
    (inb : ∀ a, (![0, k] : Fin 2 → ℕ) a + S4096x1.size a ≤ S4096x16.size a) (x : S4096x1.Idx) :
    V k x = (fun y : S4096x16.Idx => V (y 1).val (ix2 (y 0) (0 : Fin 1))) ((Rect.unit (s := S4096x16) ![0, k] S4096x1.size inb).emb x) := by
  have h1 : ((Rect.unit (s := S4096x16) ![0, k] S4096x1.size inb).emb x 1).val = k := by
    rw [Rect.emb_apply]; show k + 1 * (x 1).val = k
    have : (x 1).val < 1 := (x 1).isLt
    omega
  have h0 : (Rect.unit (s := S4096x16) ![0, k] S4096x1.size inb).emb x 0 = x 0 :=
    Fin.ext (by rw [Rect.emb_apply]; show 0 + 1 * (x 0).val = (x 0).val; omega)
  have key : ∀ (k' : ℕ) (b' : Fin 4096), k' = k → b' = x 0 → V k x = V k' (ix2 b' (0 : Fin 1)) := by
    rintro _ _ rfl rfl
    congr 1
    funext a
    match a with
    | ⟨0, _⟩ => rfl
    | ⟨1, _⟩ => exact Fin.ext (by have : (x 1).val < 1 := (x 1).isLt; show (x 1).val = 0; omega)
  exact key _ _ h1 h0

theorem aux_pieces_agree (A : RunArgs Ideal) :
    ∀ p ∈ aux_pieces A, ∀ x : p.1.shape.Idx, p.2 x = aux_storedAt A (p.1.emb x) := by
  intro p hp x
  simp only [aux_pieces, List.mem_cons, List.not_mem_nil, or_false] at hp
  rcases hp with rfl | rfl | rfl | rfl | rfl | rfl | rfl | rfl | rfl | rfl | rfl | rfl | rfl | rfl | rfl | rfl
  · exact aux_col_piece (pieceV A) 15 inb_S4096x16_S4096x1_0_15 x
  · exact aux_col_piece (pieceV A) 14 inb_S4096x16_S4096x1_0_14 x
  · exact aux_col_piece (pieceV A) 13 inb_S4096x16_S4096x1_0_13 x
  · exact aux_col_piece (pieceV A) 12 inb_S4096x16_S4096x1_0_12 x
  · exact aux_col_piece (pieceV A) 11 inb_S4096x16_S4096x1_0_11 x
  · exact aux_col_piece (pieceV A) 10 inb_S4096x16_S4096x1_0_10 x
  · exact aux_col_piece (pieceV A) 9 inb_S4096x16_S4096x1_0_9 x
  · exact aux_col_piece (pieceV A) 8 inb_S4096x16_S4096x1_0_8 x
  · exact aux_col_piece (pieceV A) 7 inb_S4096x16_S4096x1_0_7 x
  · exact aux_col_piece (pieceV A) 6 inb_S4096x16_S4096x1_0_6 x
  · exact aux_col_piece (pieceV A) 5 inb_S4096x16_S4096x1_0_5 x
  · exact aux_col_piece (pieceV A) 4 inb_S4096x16_S4096x1_0_4 x
  · exact aux_col_piece (pieceV A) 3 inb_S4096x16_S4096x1_0_3 x
  · exact aux_col_piece (pieceV A) 2 inb_S4096x16_S4096x1_0_2 x
  · exact aux_col_piece (pieceV A) 1 inb_S4096x16_S4096x1_0_1 x
  · exact aux_col_piece (pieceV A) 0 inb_S4096x16_S4096x1_0_0 x

theorem aux_out_C (c : Dev nD) (i : grid0.Coords) (arg1 : Memref sig .tc .vmem S4096x256 .f32) (harg1 : arg1.IsWhole) (arg2 : Memref sig .tc .vmem S256x32 .f32) (harg2 : arg2.IsWhole) (arg3 : Memref sig .tc .vmem S4096x16 .f32) (harg3 : arg3.IsWhole) (arg4 : Memref sig .tc .vmem S4096x32 .f32) (harg4 : arg4.IsWhole) (hc0 : ¬cond0_0 i) (hc1 : cond0_1 i)
    (x0 : Vec Ideal S4096x256 .f32) (x1 : Vec Ideal S256x32 .f32) (xs0 : Vec Ideal S4096x32 .f32) (y : S4096x16.Idx) :
    out0_C_2 (F := Ideal) c i arg1 harg1 arg2 harg2 arg3 harg3 arg4 harg4 hc0 hc1 x0 x1 xs0 y
      = pieceV ⟨c, arg1, harg1, arg2, harg2, arg4, harg4, x0, x1, xs0⟩ (y 1).val (ix2 (y 0) (0 : Fin 1)) := by
  unfold out0_C_2
  rw [View.read_writes_eq_canon _ _ _ (cover0_C_2 c i arg1 harg1 arg2 harg2 arg3 harg3 arg4 harg4 hc0 hc1 x0 x1 xs0)]
  have hcov := cover0_C_2 c i arg1 harg1 arg2 harg2 arg3 harg3 arg4 harg4 hc0 hc1 x0 x1 xs0 y
  rw [aux_run_pieces] at hcov ⊢
  exact View.canon_apply_of_pieces (aux_storedAt _) _ (aux_pieces_agree _) y hcov

def aux_lastOut (c : Dev nD) : Buf (Elt Ideal) ((c : Thread nD τ).loc main_v1) :=
  out0_C_2 c (grid0.coords t0_15) (ms0_0 t0_15) (hs0_0 t0_15) (ms0_1 t0_15) (hs0_1 t0_15) (ms0_2 t0_15) (hs0_2 t0_15) scM0_0 (Memref.isWhole_whole _)
    (fun h => (by decide : ¬(t0_15 : Fin cfg0.N).val % 16 = 0) ((hcond0_0 t0_15).mp h)) ((hcond0_1 t0_15).mpr rfl)
    (iblk m c 0 t0_15) (iblk m c 1 t0_15) (outsAt0 m c ((t0_15 : Fin cfg0.N).val - 1) (Nat.lt_of_le_of_lt (Nat.sub_le _ _) (t0_15 : Fin cfg0.N).isLt)).2

theorem aux_flushed_eq (c : Dev nD) (t : Fin cfg0.N) (hf : (cfg0.win 2).flush t = true) :
    (dats m 0 c).flushed 2 t = ((cfg0.win 2).blk t).view.read (Elt Ideal) (aux_lastOut m c) := by
  have hN : cfg0.N = 16 := N_0
  have h15 : t.val = 15 := by have := (flush0_2 t).mp hf; have := t.isLt; omega
  obtain rfl : t = t0_15 := Fin.ext h15
  rw [Cert.KernelIdeal.Value.flushed2_C m c t0_15 (by decide) rfl]
  have hz' : (fun a => win0_2.index t0_15 a * main_v1.ty.shape.size a) = fun _ => 0 := funext fun a => by fin_cases a <;> decide
  exact (Memref.read_access_unit_zero (Elt Ideal) main_v1 hz' (fun a => by rw [congrFun hz' a]; simp) (aux_lastOut m c)).symm

theorem aux_mem_last (c : Dev nD) (i : ((cfg0.win 2).arr.view.loc (c.tc : Thread nD τ)).2.ty.Idx) :
    i ∈ ((cfg0.win 2).blk t0_15).view.set := by
  show i ∈ ((View.whole main_v1).slice (win0_2.rect t0_15)).set
  rw [View.set_slice_whole, Rect.mem_set_unit]
  intro a
  have h0 : (i 0 : Nat) < 4096 := (i 0).isLt
  have h1 : (i 1 : Nat) < 16 := (i 1).isLt
  match a with
  | ⟨0, _⟩ => show win0_2.index t0_15 0 * win0_2.size 0 ≤ (i 0 : Nat) ∧ (i 0 : Nat) < win0_2.index t0_15 0 * win0_2.size 0 + win0_2.xsize (grid0.coords t0_15) 0
              rw [show win0_2.index t0_15 0 * win0_2.size 0 = 0 from by decide +kernel, show win0_2.xsize (grid0.coords t0_15) 0 = 4096 from by decide +kernel]; omega
  | ⟨1, _⟩ => show win0_2.index t0_15 1 * win0_2.size 1 ≤ (i 1 : Nat) ∧ (i 1 : Nat) < win0_2.index t0_15 1 * win0_2.size 1 + win0_2.xsize (grid0.coords t0_15) 1
              rw [show win0_2.index t0_15 1 * win0_2.size 1 = 0 from by decide +kernel, show win0_2.xsize (grid0.coords t0_15) 1 = 16 from by decide +kernel]; omega

theorem aux_colsP (c : Dev nD) :
    colsOfMat (Pm (runAt m c t0_15))
      = fun n => projS (XS (xOf m c)) (colOf (wsOf m c) n) := by
  funext n b
  unfold colsOfMat
  split
  · next h => exact Pm_apply m c t0_15 rfl b ⟨n, h⟩
  · next h =>
    unfold projS colOf
    simp only [dif_neg h, mul_zero, Finset.sum_const_zero]

theorem aux_colsQ (c : Dev nD) :
    colsOfMat (Qm (runAt m c t0_15))
      = fun n => projS (XS (xOf m c)) (colOf (wOf m c) n) := by
  funext n b
  unfold colsOfMat
  split
  · next h => exact Qm_apply m c t0_15 rfl b ⟨n, h⟩
  · next h =>
    unfold projS colOf
    simp only [dif_neg h, mul_zero, Finset.sum_const_zero]

theorem arrAt_apply (c : Dev nD) (b : Fin 4096) (i : Fin 16) :
    (dats m 0 c).arrAt 2 cfg0.N (ix2 b i) = GK (xOf m c) (wOf m c) (wsOf m c) b i := by
  rw [(dats m 0 c).arrAt_apply_of_mem 2 (aux_lastOut m c) (aux_flushed_eq m c) cfg0.N t0_15 (ix2 b i) (t0_15 : Fin cfg0.N).isLt
    ((flush0_2 t0_15).mpr rfl) (aux_mem_last c (ix2 b i))]
  unfold aux_lastOut
  rw [aux_out_C]
  show pieceV (runAt m c t0_15) i.val (ix2 b (0 : Fin 1)) = _
  rw [pieceV_apply _ i.val i.isLt b, aux_colsP m c, aux_colsQ m c]
  rfl

theorem run : θ_run defs (onTc (τ := τ) (main (F := Ideal))) ⟨m, fun _ => 0, ρ⟩ fun r => ∀ c : Dev nD,
      r.2.mem ((c : Thread nD τ).loc main_v1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Cert.KernelIdeal.Value.run_blocks m ρ

end Cert.KernelIdeal.KValue

end
-- ==== Proof.RCoreX.lean ====
import proofs.«156821_j17033840296170_1_alg».proof.Proof.Gen.ReferenceIdeal
import proofs.«156821_j17033840296170_1_alg».proof.Proof.Spec
import proofs.«156821_j17033840296170_1_alg».proof.Proof.LibDot
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RCore

open Idealize.ShloMosaic Idealize.ShloMosaic.ValueIdx Cert.ReferenceIdeal Cert.ReferenceIdeal.Gen

section Generic

variable {F : FTy → Type} [FloatOps F]

def znM {C : ℕ}
    (hred : (⟨2, ![4096, C]⟩ : Shape).ReducesTo [0] (⟨1, ![C]⟩ : Shape)) (hS : 0 < S_.numel)
    (hb0 : S_.BroadcastsInDim (⟨1, ![C]⟩ : Shape) (![] : Fin 0 → Fin 1))
    (hb1 : (⟨1, ![C]⟩ : Shape).BroadcastsInDim (⟨2, ![1, C]⟩ : Shape) (![1] : Fin 1 → Fin 2))
    (hb2 : (⟨2, ![1, C]⟩ : Shape).BroadcastsInDim (⟨2, ![4096, C]⟩ : Shape) (![0, 1] : Fin 2 → Fin 2))
    (hb3 : S_.BroadcastsInDim (⟨2, ![1, C]⟩ : Shape) (![] : Fin 0 → Fin 2))
    (x : FVec F ⟨2, ![4096, C]⟩ .f32) : FVec F ⟨2, ![4096, C]⟩ .f32 :=

  let cst : FVec F S_ .f32 := constant S_ .f32 0x00000000#32
  let v0 : FVec F ⟨1, ![C]⟩ .f32 := Host.reduceAdd x cst hred hS
  let cst_0 : FVec F S_ .f32 := constant S_ .f32 0x45800000#32
  let v1 : FVec F ⟨1, ![C]⟩ .f32 := broadcastInDim ⟨1, ![C]⟩ ![] hb0 cst_0
  let v2 : FVec F ⟨1, ![C]⟩ .f32 := Host.divf v0 v1
  let v3 : FVec F ⟨2, ![1, C]⟩ .f32 := broadcastInDim ⟨2, ![1, C]⟩ ![1] hb1 v2
  let v4 : FVec F ⟨2, ![4096, C]⟩ .f32 := broadcastInDim ⟨2, ![4096, C]⟩ ![0, 1] hb2 v3
  let v5 : FVec F ⟨2, ![4096, C]⟩ .f32 := subf x v4
  let c : IVec S_ 32 := constantI S_ 32 0#32

  let s_cst : FVec F S_ .f32 := constant S_ .f32 0x00000000#32
  let s_v0 : FVec F ⟨1, ![C]⟩ .f32 := Host.reduceAdd x s_cst hred hS
  let s_v1 : FVec F ⟨2, ![1, C]⟩ .f32 := broadcastInDim ⟨2, ![1, C]⟩ ![1] hb1 s_v0
  let s_cst_0 : FVec F S_ .f32 := constant S_ .f32 0x45800000#32
  let s_v2 : FVec F ⟨2, ![1, C]⟩ .f32 := broadcastInDim ⟨2, ![1, C]⟩ ![] hb3 s_cst_0
  let s_v3 : FVec F ⟨2, ![1, C]⟩ .f32 := Host.divf s_v1 s_v2
  let s_v4 : FVec F ⟨2, ![4096, C]⟩ .f32 := broadcastInDim ⟨2, ![4096, C]⟩ ![0, 1] hb2 s_v3
  let s_v5 : FVec F ⟨2, ![4096, C]⟩ .f32 := subf x s_v4
  let s_v6 : FVec F ⟨2, ![4096, C]⟩ .f32 := mulf s_v5 s_v5
  let s_v7 : FVec F S_ .f32 := sitofp .f32 c
  let s_cst_1 : FVec F S_ .f32 := constant S_ .f32 0x45800000#32
  let s_v8 : FVec F S_ .f32 := subf s_cst_1 s_v7
  let s_cst_2 : FVec F S_ .f32 := constant S_ .f32 0x00000000#32
  let s_v9 : FVec F ⟨1, ![C]⟩ .f32 := Host.reduceAdd s_v6 s_cst_2 hred hS
  let s_v10 : FVec F ⟨1, ![C]⟩ .f32 := broadcastInDim ⟨1, ![C]⟩ ![] hb0 s_v8
  let s_v11 : FVec F ⟨1, ![C]⟩ .f32 := Host.divf s_v9 s_v10
  let s_cst_3 : FVec F S_ .f32 := constant S_ .f32 0x00000000#32
  let s_v12 : IVec S_ 1 := cmpf .ogt s_v8 s_cst_3
  let s_cst_4 : FVec F S_ .f32 := constant S_ .f32 0x7FC00000#32

  let w_v0 : FVec F S_ .f32 := id s_cst_4
  let w_v1 : FVec F ⟨1, ![C]⟩ .f32 := broadcastInDim ⟨1, ![C]⟩ ![] hb0 w_v0
  let w_v2 : FVec F ⟨1, ![C]⟩ .f32 := select (broadcastInDim ⟨1, ![C]⟩ ![] hb0 s_v12) s_v11 w_v1
  let v6 : FVec F ⟨1, ![C]⟩ .f32 := Host.sqrt w_v2

  let cst_1 : FVec F S_ .f32 := constant S_ .f32 0x358637BD#32
  let v7 : FVec F ⟨1, ![C]⟩ .f32 := broadcastInDim ⟨1, ![C]⟩ ![] hb0 cst_1
  let v8 : FVec F ⟨1, ![C]⟩ .f32 := addf v6 v7
  let v9 : FVec F ⟨2, ![1, C]⟩ .f32 := broadcastInDim ⟨2, ![1, C]⟩ ![1] hb1 v8
  let v10 : FVec F ⟨2, ![4096, C]⟩ .f32 := broadcastInDim ⟨2, ![4096, C]⟩ ![0, 1] hb2 v9
  Host.divf v5 v10

end Generic

section Read

theorem reduces_of_reducesTo {s t : Shape} {axes : List (Fin s.rank)} (h : s.ReducesTo axes t) (ht : 0 < t.rank) :
    s.Reduces axes t := ⟨h.1, ht, h.2⟩

theorem lift_col {R C : Nat} (h : (⟨2, ![R, C]⟩ : Shape).Reduces [0] (⟨1, ![C]⟩ : Shape)) (j : Fin C)
    (k : Fin ((⟨2, ![R, C]⟩ : Shape).size 0)) : h.lift (ix1 j) k = ix2 (⟨k.val, k.isLt⟩ : Fin R) j := by
  funext c; apply Fin.ext
  match c with
  | ⟨0, _⟩ => rfl
  | ⟨1, _⟩ => rfl

theorem hostReduceAdd_col {R C : Nat} {φ : FTy} (x : FVec Ideal ⟨2, ![R, C]⟩ φ) (init : S_.Idx → Ideal φ)
    (h' : (⟨2, ![R, C]⟩ : Shape).ReducesTo [0] (⟨1, ![C]⟩ : Shape)) (hu : 0 < S_.numel) (j : Fin C) :
    Host.reduceAdd x init h' hu (ix1 j) = init (Shape.Idx.first hu) + ∑ b : Fin R, x (ix2 b j) := by
  have h := reduces_of_reducesTo h' Nat.one_pos
  rw [hostReduceAdd_apply, Ideal.hostReduceAdd_single h' h]
  refine congrArg (fun s => init (Shape.Idx.first hu) + s) ?_
  exact Finset.sum_congr rfl fun k _ => congrArg x (lift_col h j k)

theorem bcast_row_apply {α : Type} {C : Nat} (h : (⟨1, ![C]⟩ : Shape).BroadcastsInDim (⟨2, ![1, C]⟩ : Shape) ![1])
    (v : (⟨1, ![C]⟩ : Shape).Idx → α) (z : Fin 1) (j : Fin C) :
    broadcastInDim (⟨2, ![1, C]⟩ : Shape) ![1] h v (ix2 z j) = v (ix1 j) := by
  refine broadcastInDim_apply _ h v _ (ix1 j) fun a => ?_
  match a with
  | ⟨0, _⟩ =>
    show j.val = if C = 1 then 0 else j.val
    split
    · have := j.isLt; omega
    · rfl

theorem bcast_down_apply {α : Type} {R C : Nat} (h : (⟨2, ![1, C]⟩ : Shape).BroadcastsInDim (⟨2, ![R, C]⟩ : Shape) ![0, 1])
    (w : (⟨2, ![1, C]⟩ : Shape).Idx → α) (r : Fin R) (j : Fin C) :
    broadcastInDim (⟨2, ![R, C]⟩ : Shape) ![0, 1] h w (ix2 r j) = w (ix2 (0 : Fin 1) j) := by
  refine broadcastInDim_apply _ h w _ (ix2 (0 : Fin 1) j) fun a => ?_
  match a with
  | ⟨0, _⟩ => rfl
  | ⟨1, _⟩ =>
    show j.val = if C = 1 then 0 else j.val
    split
    · have := j.isLt; omega
    · rfl

end Read

section Apply

theorem c4096_real : Ideal.ofBits .f32 0x45800000#32 = ((4096 : ℝ) : EReal) := by
  simp [Ideal.ofBits, Ideal.ieee, -EReal.coe_mul]; norm_num

theorem sitofp_zero : (FloatOps.sitofp (F := Ideal) .f32 (0#32 : BitVec 32)) = (0 : EReal) := by
  show (((0#32 : BitVec 32).toInt : ℝ) : EReal) = 0
  simp

theorem nminus_eq : (FloatOps.ofBits (F := Ideal) .f32 0x45800000#32 : EReal) - FloatOps.sitofp (F := Ideal) .f32 (0#32 : BitVec 32)
    = Cert.PLS.c4096 := by
  rw [sitofp_zero, sub_zero]; rfl

theorem guard_true : FloatOps.cmpf (F := Ideal) .ogt (Cert.PLS.c4096 : Ideal .f32) (FloatOps.ofBits (F := Ideal) .f32 0x00000000#32) = 1#1 := by
  show Ideal.cmp .ogt Cert.PLS.c4096 (Ideal.ofBits .f32 0x00000000#32) = 1#1
  rw [Ideal.ofBits_zero_f32]
  unfold Ideal.cmp Cert.PLS.c4096
  rw [c4096_real]
  have : (0 : EReal) < ((4096 : ℝ) : EReal) := by exact_mod_cast (by norm_num : (0 : ℝ) < 4096)
  simp [this]

theorem guard_true' : FloatOps.cmpf (F := Ideal) .ogt
      ((FloatOps.ofBits (F := Ideal) .f32 0x45800000#32 : Ideal .f32) - FloatOps.sitofp (F := Ideal) .f32 (0#32 : BitVec 32))
      (FloatOps.ofBits (F := Ideal) .f32 0x00000000#32) = 1#1 := by
  rw [nminus_eq]; exact guard_true

theorem hostSqrt_apply {s : Shape} {φ : FTy} (a : FVec Ideal s φ) (i : s.Idx) : Host.sqrt a i = Ideal.sqrt (a i) := rfl

variable {C : ℕ}
    (hred : (⟨2, ![4096, C]⟩ : Shape).ReducesTo [0] (⟨1, ![C]⟩ : Shape)) (hS : 0 < S_.numel)
    (hb0 : S_.BroadcastsInDim (⟨1, ![C]⟩ : Shape) (![] : Fin 0 → Fin 1))
    (hb1 : (⟨1, ![C]⟩ : Shape).BroadcastsInDim (⟨2, ![1, C]⟩ : Shape) (![1] : Fin 1 → Fin 2))
    (hb2 : (⟨2, ![1, C]⟩ : Shape).BroadcastsInDim (⟨2, ![4096, C]⟩ : Shape) (![0, 1] : Fin 2 → Fin 2))
    (hb3 : S_.BroadcastsInDim (⟨2, ![1, C]⟩ : Shape) (![] : Fin 0 → Fin 2))

theorem colsum_apply (x : FVec Ideal ⟨2, ![4096, C]⟩ .f32) (j : Fin C) :
    Host.reduceAdd x (constant (F := Ideal) S_ .f32 0x00000000#32) hred hS (ix1 j) = ∑ b : Fin 4096, x (ix2 b j) := by
  rw [hostReduceAdd_col]
  show Ideal.ofBits .f32 0x00000000#32 + _ = _
  rw [Ideal.ofBits_zero_f32, zero_add]

theorem znM_apply (x : FVec Ideal ⟨2, ![4096, C]⟩ .f32) (b : Fin 4096) (j : Fin C) :
    znM hred hS hb0 hb1 hb2 hb3 x (ix2 b j) = Cert.PLS.znS (fun b' => x (ix2 b' j)) b := by

  have hmean : Host.divf (Host.reduceAdd x (constant (F := Ideal) S_ .f32 0x00000000#32) hred hS)
        (broadcastInDim ⟨1, ![C]⟩ ![] hb0 (constant (F := Ideal) S_ .f32 0x45800000#32)) (ix1 j)
      = Cert.PLS.meanS (fun b' => x (ix2 b' j)) := by
    rw [hostDivf_apply, colsum_apply, broadcastInDim_scalar_apply]; rfl

  have hmean' : Host.divf (broadcastInDim ⟨2, ![1, C]⟩ ![1] hb1 (Host.reduceAdd x (constant (F := Ideal) S_ .f32 0x00000000#32) hred hS))
        (broadcastInDim ⟨2, ![1, C]⟩ ![] hb3 (constant (F := Ideal) S_ .f32 0x45800000#32)) (ix2 (0 : Fin 1) j)
      = Cert.PLS.meanS (fun b' => x (ix2 b' j)) := by
    rw [hostDivf_apply, bcast_row_apply, colsum_apply, broadcastInDim_scalar_apply]; rfl
  unfold znM
  simp only []
  rw [hostDivf_apply, subf_apply, bcast_down_apply, bcast_row_apply, hmean, bcast_down_apply, bcast_row_apply,
    addf_apply, broadcastInDim_scalar_apply]

  have hcen : ∀ b' : Fin 4096, (subf x (broadcastInDim ⟨2, ![4096, C]⟩ ![0, 1] hb2 (Host.divf (broadcastInDim ⟨2, ![1, C]⟩ ![1] hb1 (Host.reduceAdd x (constant (F := Ideal) S_ .f32 0x00000000#32) hred hS)) (broadcastInDim ⟨2, ![1, C]⟩ ![] hb3 (constant (F := Ideal) S_ .f32 0x45800000#32))))) (ix2 b' j) = Cert.PLS.cenS (fun b' => x (ix2 b' j)) b' := by
    intro b'
    rw [subf_apply, bcast_down_apply, hmean']; rfl

  have hg : (broadcastInDim ⟨1, ![C]⟩ ![] hb0 (cmpf .ogt (subf (constant (F := Ideal) S_ .f32 0x45800000#32) (sitofp (F := Ideal) .f32 (constantI S_ 32 0#32))) (constant (F := Ideal) S_ .f32 0x00000000#32))) (ix1 j) = 1#1 := by
    rw [broadcastInDim_scalar_apply, cmpf_apply, subf_apply]
    exact guard_true'
  have hvar : (Host.divf (Host.reduceAdd (mulf (subf x (broadcastInDim ⟨2, ![4096, C]⟩ ![0, 1] hb2 (Host.divf (broadcastInDim ⟨2, ![1, C]⟩ ![1] hb1 (Host.reduceAdd x (constant (F := Ideal) S_ .f32 0x00000000#32) hred hS)) (broadcastInDim ⟨2, ![1, C]⟩ ![] hb3 (constant (F := Ideal) S_ .f32 0x45800000#32))))) (subf x (broadcastInDim ⟨2, ![4096, C]⟩ ![0, 1] hb2 (Host.divf (broadcastInDim ⟨2, ![1, C]⟩ ![1] hb1 (Host.reduceAdd x (constant (F := Ideal) S_ .f32 0x00000000#32) hred hS)) (broadcastInDim ⟨2, ![1, C]⟩ ![] hb3 (constant (F := Ideal) S_ .f32 0x45800000#32)))))) (constant (F := Ideal) S_ .f32 0x00000000#32) hred hS) (broadcastInDim ⟨1, ![C]⟩ ![] hb0 (subf (constant (F := Ideal) S_ .f32 0x45800000#32) (sitofp (F := Ideal) .f32 (constantI S_ 32 0#32))))) (ix1 j) = Cert.PLS.meanS (fun b' => Cert.PLS.cenS (fun b' => x (ix2 b' j)) b' * Cert.PLS.cenS (fun b' => x (ix2 b' j)) b') := by
    rw [hostDivf_apply, colsum_apply, broadcastInDim_scalar_apply, subf_apply]
    have hd : (constant (F := Ideal) S_ .f32 0x45800000#32) ix0 - (sitofp (F := Ideal) .f32 (constantI S_ 32 0#32)) ix0 = Cert.PLS.c4096 := nminus_eq
    rw [hd]
    unfold Cert.PLS.meanS
    refine congrArg (fun s => Ideal.div s Cert.PLS.c4096) ?_
    refine Finset.sum_congr rfl fun b' _ => ?_
    rw [mulf_apply, hcen]
  rw [hostSqrt_apply, select_apply, hg, select_one, hvar]
  rfl

end Apply

section Prelude

variable {F : FTy → Type} [FloatOps F]

def coreX (x : FVec F S4096x4096 .f32) : FVec F S4096x4096 .f32 :=
  znM reducesTo_S4096x4096_S4096_d0 h_S_ bcast_S_S4096 bcast_S4096_S1x4096_1 bcast_S1x4096_S4096x4096_0_1 bcast_S_S1x4096 x

theorem coreX_apply (x : FVec Ideal S4096x4096 .f32) (b d : Fin 4096) :
    coreX x (ix2 b d) = Cert.PLS.XS (fun b d => x (ix2 b d)) b d :=
  znM_apply reducesTo_S4096x4096_S4096_d0 h_S_ bcast_S_S4096 bcast_S4096_S1x4096_1 bcast_S1x4096_S4096x4096_0_1 bcast_S_S1x4096 x b d

def core0 (X : FVec F S4096x4096 .f32) (wcol : FVec F S4096x1 .f32) : FVec F S4096x1 .f32 :=
  Host.dotGeneral dot_S4096x4096_S4096x1_S4096x1_1_0_0_1_n_n none X wcol

theorem core0_apply (X : FVec Ideal S4096x4096 .f32) (wcol : FVec Ideal S4096x1 .f32) (b : Fin 4096) :
    core0 X wcol (ix2 b (0 : Fin 1)) = Cert.PLS.projS (fun b d => X (ix2 b d)) (fun d => wcol (ix2 d (0 : Fin 1))) b :=
  Cert.LibDot.dotGeneral_at dot_S4096x4096_S4096x1_S4096x1_1_0_0_1_n_n rfl rfl rfl rfl rfl rfl none .single X wcol b 0

theorem deflS_nil (X : Fin 4096 → Fin 4096 → EReal) (wc : Fin 4096 → EReal) : Cert.PLS.deflS X [] wc = Cert.PLS.projS X wc := by
  funext b
  show (∑ d, (X b d - (([] : List Cert.PLS.Col).map fun c => c b * Cert.PLS.betaS X c d).sum) * wc d) = ∑ d, X b d * wc d
  refine Finset.sum_congr rfl fun d _ => ?_
  rw [List.map_nil, List.sum_nil, sub_zero]

theorem slice_at {α : Type} {R K m : ℕ} (A : (⟨2, ![R, K]⟩ : Shape).Idx → α) (n : ℕ)
    (h : (⟨2, ![R, K]⟩ : Shape).Slices ![0, n] (⟨2, ![R, m]⟩ : Shape)) (d : Fin R) (j : Fin m) (hj : n + j.val < K) :
    extractStridedSlice (⟨2, ![R, m]⟩ : Shape) ![0, n] A h (ix2 d j) = A (ix2 d (⟨n + j.val, hj⟩ : Fin K)) := by
  unfold extractStridedSlice
  refine congrArg A (funext fun a => Fin.ext ?_)
  match a with
  | ⟨0, _⟩ => exact Nat.zero_add _
  | ⟨1, _⟩ => rfl

theorem wslice_at_0 {α : Type} (A : S4096x16.Idx → α) (d : Fin 4096) :
    extractStridedSlice S4096x1 ![0, 0] A slices_S4096x16_S4096x1_0_0 (ix2 d (0 : Fin 1)) = A (ix2 d (0 : Fin 16)) :=
  slice_at A 0 slices_S4096x16_S4096x1_0_0 d 0 (by decide)

end Prelude

end Cert.ReferenceIdeal.RCore

end
-- ==== Proof.RCoreG.lean ====
import proofs.«156821_j17033840296170_1_alg».proof.Proof.RCoreX
import Idealize.ShloMosaic.PureOps.Ideal.Laws
import Idealize.ShloMosaic.Lib.ValueIdx
import Idealize.ShloMosaic.Lib.IdealHost
import Idealize.ShloMosaic.Lib.ValueLayout
import Mathlib.Algebra.BigOperators.Fin

noncomputable section

open scoped BigOperators

namespace Cert.ReferenceIdeal.RCore

open Idealize.ShloMosaic Idealize.ShloMosaic.ValueIdx Cert.ReferenceIdeal Cert.ReferenceIdeal.Gen

section Tail

variable {F : FTy → Type} [FloatOps F]

def deflG {n : ℕ}
    (htr : (⟨2, ![4096, n]⟩ : Shape).Transposes [1, 0] (⟨2, ![n, 4096]⟩ : Shape))
    (hbT : S_.BroadcastsInDim (⟨2, ![n, 4096]⟩ : Shape) (![] : Fin 0 → Fin 2))
    (d1 : DotDims ⟨2, ![n, 4096]⟩ S4096x4096 ⟨2, ![n, 4096]⟩)
    (d2 : DotDims ⟨2, ![4096, n]⟩ ⟨2, ![n, 4096]⟩ S4096x4096)
    (d3 : DotDims S4096x4096 S4096x1 S4096x1)
    (conv : FVec F ⟨2, ![4096, n]⟩ .f32) (X : FVec F S4096x4096 .f32) (wcol : FVec F S4096x1 .f32) : FVec F S4096x1 .f32 :=
  let convT : FVec F ⟨2, ![n, 4096]⟩ .f32 := transpose ⟨2, ![n, 4096]⟩ [1, 0] conv htr
  let cx : FVec F ⟨2, ![n, 4096]⟩ .f32 := Host.dotGeneral d1 none convT X
  let k1 : FVec F S_ .f32 := constant S_ .f32 0x45800000#32
  let k1b : FVec F ⟨2, ![n, 4096]⟩ .f32 := broadcastInDim ⟨2, ![n, 4096]⟩ ![] hbT k1
  let beta : FVec F ⟨2, ![n, 4096]⟩ .f32 := Host.divf cx k1b
  let fit : FVec F S4096x4096 .f32 := Host.dotGeneral d2 none conv beta
  let lin : FVec F S4096x4096 .f32 := subf X fit
  Host.dotGeneral d3 none lin wcol

end Tail

structure Plain {R K C : ℕ} (d : DotDims ⟨2, ![R, K]⟩ ⟨2, ![K, C]⟩ ⟨2, ![R, C]⟩) : Prop where
  hl : d.lhsContracting = [1]
  hr : d.rhsContracting = [0]
  hln : d.lhsNonContracting = [0]
  hrn : d.rhsNonContracting = [1]
  hlb : d.lhsBatch = []
  hrb : d.rhsBatch = []

theorem Plain.at {R K C : ℕ} {d : DotDims ⟨2, ![R, K]⟩ ⟨2, ![K, C]⟩ ⟨2, ![R, C]⟩} (p : Plain d)
    (x : FVec Ideal ⟨2, ![R, K]⟩ .f32) (w : FVec Ideal ⟨2, ![K, C]⟩ .f32) (r : Fin R) (c : Fin C) :
    Host.dotGeneral d none x w (ix2 r c) = ∑ k : Fin K, x (ix2 r k) * w (ix2 k c) :=
  Cert.LibDot.dotGeneral_at d p.hl p.hr p.hln p.hrn p.hlb p.hrb none .single x w r c

theorem sum_cols {n : ℕ} (f : Fin n → Cert.PLS.Col) (g : Cert.PLS.Col → EReal) :
    (((List.finRange n).reverse.map f).map g).sum = ∑ k : Fin n, g (f k) := by
  rw [List.map_map, List.map_reverse, List.sum_reverse, Fin.sum_univ_def]
  rfl

theorem deflG_apply {n : ℕ}
    (htr : (⟨2, ![4096, n]⟩ : Shape).Transposes [1, 0] (⟨2, ![n, 4096]⟩ : Shape))
    (hbT : S_.BroadcastsInDim (⟨2, ![n, 4096]⟩ : Shape) (![] : Fin 0 → Fin 2))
    (d1 : DotDims ⟨2, ![n, 4096]⟩ S4096x4096 ⟨2, ![n, 4096]⟩)
    (d2 : DotDims ⟨2, ![4096, n]⟩ ⟨2, ![n, 4096]⟩ S4096x4096)
    (d3 : DotDims S4096x4096 S4096x1 S4096x1) (p1 : Plain d1) (p2 : Plain d2) (p3 : Plain d3)
    (conv : FVec Ideal ⟨2, ![4096, n]⟩ .f32) (X : FVec Ideal S4096x4096 .f32) (wcol : FVec Ideal S4096x1 .f32)
    (b : Fin 4096) :
    deflG htr hbT d1 d2 d3 conv X wcol (ix2 b (0 : Fin 1))
      = Cert.PLS.deflS (fun b d => X (ix2 b d)) ((List.finRange n).reverse.map fun k => fun b' => conv (ix2 b' k))
          (fun d => wcol (ix2 d (0 : Fin 1))) b := by

  have hbeta : ∀ (k : Fin n) (d : Fin 4096),
      Host.divf (Host.dotGeneral d1 none (transpose ⟨2, ![n, 4096]⟩ [1, 0] conv htr) X)
          (broadcastInDim ⟨2, ![n, 4096]⟩ ![] hbT (constant (F := Ideal) S_ .f32 0x45800000#32)) (ix2 k d)
        = Cert.PLS.betaS (fun b d => X (ix2 b d)) (fun b' => conv (ix2 b' k)) d := by
    intro k d
    rw [hostDivf_apply, p1.at, broadcastInDim_scalar_apply]
    show Ideal.div (∑ b' : Fin 4096, transpose ⟨2, ![n, 4096]⟩ [1, 0] conv htr (ix2 k b') * X (ix2 b' d)) Cert.PLS.c4096
      = Ideal.div (∑ b' : Fin 4096, conv (ix2 b' k) * X (ix2 b' d)) Cert.PLS.c4096
    congr 1
    exact Finset.sum_congr rfl fun b' _ => by rw [transpose_ix2_apply]
  show Host.dotGeneral d3 none (subf X (Host.dotGeneral d2 none conv
      (Host.divf (Host.dotGeneral d1 none (transpose ⟨2, ![n, 4096]⟩ [1, 0] conv htr) X)
        (broadcastInDim ⟨2, ![n, 4096]⟩ ![] hbT (constant (F := Ideal) S_ .f32 0x45800000#32))))) wcol (ix2 b (0 : Fin 1))
    = ∑ d : Fin 4096, Cert.PLS.linS (fun b d => X (ix2 b d))
        ((List.finRange n).reverse.map fun k => fun b' => conv (ix2 b' k)) b d * wcol (ix2 d (0 : Fin 1))
  rw [p3.at]
  refine Finset.sum_congr rfl fun d _ => ?_
  congr 1
  show X (ix2 b d) - Host.dotGeneral d2 none conv _ (ix2 b d)
    = X (ix2 b d) - (((List.finRange n).reverse.map fun k => fun b' => conv (ix2 b' k)).map
        fun c => c b * Cert.PLS.betaS (fun b d => X (ix2 b d)) c d).sum
  rw [p2.at, sum_cols]
  congr 1
  exact Finset.sum_congr rfl fun k _ => by rw [hbeta]

theorem coreG_apply {n : ℕ}
    (hred : (⟨2, ![4096, n]⟩ : Shape).ReducesTo [0] (⟨1, ![n]⟩ : Shape)) (hS : 0 < S_.numel)
    (hb0 : S_.BroadcastsInDim (⟨1, ![n]⟩ : Shape) (![] : Fin 0 → Fin 1))
    (hb1 : (⟨1, ![n]⟩ : Shape).BroadcastsInDim (⟨2, ![1, n]⟩ : Shape) (![1] : Fin 1 → Fin 2))
    (hb2 : (⟨2, ![1, n]⟩ : Shape).BroadcastsInDim (⟨2, ![4096, n]⟩ : Shape) (![0, 1] : Fin 2 → Fin 2))
    (hb3 : S_.BroadcastsInDim (⟨2, ![1, n]⟩ : Shape) (![] : Fin 0 → Fin 2))
    (htr : (⟨2, ![4096, n]⟩ : Shape).Transposes [1, 0] (⟨2, ![n, 4096]⟩ : Shape))
    (hbT : S_.BroadcastsInDim (⟨2, ![n, 4096]⟩ : Shape) (![] : Fin 0 → Fin 2))
    (d1 : DotDims ⟨2, ![n, 4096]⟩ S4096x4096 ⟨2, ![n, 4096]⟩)
    (d2 : DotDims ⟨2, ![4096, n]⟩ ⟨2, ![n, 4096]⟩ S4096x4096)
    (d3 : DotDims S4096x4096 S4096x1 S4096x1) (p1 : Plain d1) (p2 : Plain d2) (p3 : Plain d3)
    (C : FVec Ideal ⟨2, ![4096, n]⟩ .f32) (X : FVec Ideal S4096x4096 .f32) (wcol : FVec Ideal S4096x1 .f32)
    (b : Fin 4096) :
    deflG htr hbT d1 d2 d3 (znM hred hS hb0 hb1 hb2 hb3 C) X wcol (ix2 b (0 : Fin 1))
      = Cert.PLS.deflS (fun b d => X (ix2 b d))
          ((List.finRange n).reverse.map fun k => Cert.PLS.znS (fun b' => C (ix2 b' k)))
          (fun d => wcol (ix2 d (0 : Fin 1))) b := by
  have hcol : (fun k : Fin n => fun b' : Fin 4096 => znM hred hS hb0 hb1 hb2 hb3 C (ix2 b' k))
      = fun k : Fin n => Cert.PLS.znS (fun b' => C (ix2 b' k)) :=
    funext fun k => funext fun b' => znM_apply hred hS hb0 hb1 hb2 hb3 C b' k
  rw [deflG_apply htr hbT d1 d2 d3 p1 p2 p3, hcol]

-- The shape facts and product dimensions of one iteration with n earlier columns.
structure CoreW (n : ℕ) where
  hred : (⟨2, ![4096, n]⟩ : Shape).ReducesTo [0] (⟨1, ![n]⟩ : Shape)
  hb0 : S_.BroadcastsInDim (⟨1, ![n]⟩ : Shape) (![] : Fin 0 → Fin 1)
  hb1 : (⟨1, ![n]⟩ : Shape).BroadcastsInDim (⟨2, ![1, n]⟩ : Shape) (![1] : Fin 1 → Fin 2)
  hb2 : (⟨2, ![1, n]⟩ : Shape).BroadcastsInDim (⟨2, ![4096, n]⟩ : Shape) (![0, 1] : Fin 2 → Fin 2)
  hb3 : S_.BroadcastsInDim (⟨2, ![1, n]⟩ : Shape) (![] : Fin 0 → Fin 2)
  htr : (⟨2, ![4096, n]⟩ : Shape).Transposes [1, 0] (⟨2, ![n, 4096]⟩ : Shape)
  hbT : S_.BroadcastsInDim (⟨2, ![n, 4096]⟩ : Shape) (![] : Fin 0 → Fin 2)
  d1 : DotDims ⟨2, ![n, 4096]⟩ S4096x4096 ⟨2, ![n, 4096]⟩
  d2 : DotDims ⟨2, ![4096, n]⟩ ⟨2, ![n, 4096]⟩ S4096x4096
  p1 : Plain d1
  p2 : Plain d2

section Core

variable {F : FTy → Type} [FloatOps F]

-- One iteration: the n earlier columns z-normalised, the input deflated against them and projected on a weight column.
def core {n : ℕ} (w : CoreW n) (C : FVec F ⟨2, ![4096, n]⟩ .f32) (X : FVec F S4096x4096 .f32) (wcol : FVec F S4096x1 .f32) :
    FVec F S4096x1 .f32 :=
  deflG w.htr w.hbT w.d1 w.d2 dot_S4096x4096_S4096x1_S4096x1_1_0_0_1_n_n (znM w.hred h_S_ w.hb0 w.hb1 w.hb2 w.hb3 C) X wcol

end Core

theorem core_apply {n : ℕ} (w : CoreW n) (C : FVec Ideal ⟨2, ![4096, n]⟩ .f32) (X : FVec Ideal S4096x4096 .f32)
    (wcol : FVec Ideal S4096x1 .f32) (b : Fin 4096) :
    core w C X wcol (ix2 b (0 : Fin 1))
      = Cert.PLS.deflS (fun b d => X (ix2 b d))
          ((List.finRange n).reverse.map fun k => Cert.PLS.znS (fun b' => C (ix2 b' k)))
          (fun d => wcol (ix2 d (0 : Fin 1))) b :=
  coreG_apply w.hred h_S_ w.hb0 w.hb1 w.hb2 w.hb3 w.htr w.hbT w.d1 w.d2 _ w.p1 w.p2 ⟨rfl, rfl, rfl, rfl, rfl, rfl⟩ C X wcol b

def w1 : CoreW 1 := ⟨reducesTo_S4096x1_S1_d0, bcast_S_S1, bcast_S1_S1x1_1, bcast_S1x1_S4096x1_0_1, bcast_S_S1x1,
  transposes_S4096x1_S1x4096_1_0, bcast_S_S1x4096, dot_S1x4096_S4096x4096_S1x4096_1_0_0_1_n_n,
  dot_S4096x1_S1x4096_S4096x4096_1_0_0_1_n_n, ⟨rfl, rfl, rfl, rfl, rfl, rfl⟩, ⟨rfl, rfl, rfl, rfl, rfl, rfl⟩⟩
def w2 : CoreW 2 := ⟨reducesTo_S4096x2_S2_d0, bcast_S_S2, bcast_S2_S1x2_1, bcast_S1x2_S4096x2_0_1, bcast_S_S1x2,
  transposes_S4096x2_S2x4096_1_0, bcast_S_S2x4096, dot_S2x4096_S4096x4096_S2x4096_1_0_0_1_n_n,
  dot_S4096x2_S2x4096_S4096x4096_1_0_0_1_n_n, ⟨rfl, rfl, rfl, rfl, rfl, rfl⟩, ⟨rfl, rfl, rfl, rfl, rfl, rfl⟩⟩
def w3 : CoreW 3 := ⟨reducesTo_S4096x3_S3_d0, bcast_S_S3, bcast_S3_S1x3_1, bcast_S1x3_S4096x3_0_1, bcast_S_S1x3,
  transposes_S4096x3_S3x4096_1_0, bcast_S_S3x4096, dot_S3x4096_S4096x4096_S3x4096_1_0_0_1_n_n,
  dot_S4096x3_S3x4096_S4096x4096_1_0_0_1_n_n, ⟨rfl, rfl, rfl, rfl, rfl, rfl⟩, ⟨rfl, rfl, rfl, rfl, rfl, rfl⟩⟩
def w4 : CoreW 4 := ⟨reducesTo_S4096x4_S4_d0, bcast_S_S4, bcast_S4_S1x4_1, bcast_S1x4_S4096x4_0_1, bcast_S_S1x4,
  transposes_S4096x4_S4x4096_1_0, bcast_S_S4x4096, dot_S4x4096_S4096x4096_S4x4096_1_0_0_1_n_n,
  dot_S4096x4_S4x4096_S4096x4096_1_0_0_1_n_n, ⟨rfl, rfl, rfl, rfl, rfl, rfl⟩, ⟨rfl, rfl, rfl, rfl, rfl, rfl⟩⟩
def w5 : CoreW 5 := ⟨reducesTo_S4096x5_S5_d0, bcast_S_S5, bcast_S5_S1x5_1, bcast_S1x5_S4096x5_0_1, bcast_S_S1x5,
  transposes_S4096x5_S5x4096_1_0, bcast_S_S5x4096, dot_S5x4096_S4096x4096_S5x4096_1_0_0_1_n_n,
  dot_S4096x5_S5x4096_S4096x4096_1_0_0_1_n_n, ⟨rfl, rfl, rfl, rfl, rfl, rfl⟩, ⟨rfl, rfl, rfl, rfl, rfl, rfl⟩⟩
def w6 : CoreW 6 := ⟨reducesTo_S4096x6_S6_d0, bcast_S_S6, bcast_S6_S1x6_1, bcast_S1x6_S4096x6_0_1, bcast_S_S1x6,
  transposes_S4096x6_S6x4096_1_0, bcast_S_S6x4096, dot_S6x4096_S4096x4096_S6x4096_1_0_0_1_n_n,
  dot_S4096x6_S6x4096_S4096x4096_1_0_0_1_n_n, ⟨rfl, rfl, rfl, rfl, rfl, rfl⟩, ⟨rfl, rfl, rfl, rfl, rfl, rfl⟩⟩
def w7 : CoreW 7 := ⟨reducesTo_S4096x7_S7_d0, bcast_S_S7, bcast_S7_S1x7_1, bcast_S1x7_S4096x7_0_1, bcast_S_S1x7,
  transposes_S4096x7_S7x4096_1_0, bcast_S_S7x4096, dot_S7x4096_S4096x4096_S7x4096_1_0_0_1_n_n,
  dot_S4096x7_S7x4096_S4096x4096_1_0_0_1_n_n, ⟨rfl, rfl, rfl, rfl, rfl, rfl⟩, ⟨rfl, rfl, rfl, rfl, rfl, rfl⟩⟩
def w8 : CoreW 8 := ⟨reducesTo_S4096x8_S8_d0, bcast_S_S8, bcast_S8_S1x8_1, bcast_S1x8_S4096x8_0_1, bcast_S_S1x8,
  transposes_S4096x8_S8x4096_1_0, bcast_S_S8x4096, dot_S8x4096_S4096x4096_S8x4096_1_0_0_1_n_n,
  dot_S4096x8_S8x4096_S4096x4096_1_0_0_1_n_n, ⟨rfl, rfl, rfl, rfl, rfl, rfl⟩, ⟨rfl, rfl, rfl, rfl, rfl, rfl⟩⟩
def w9 : CoreW 9 := ⟨reducesTo_S4096x9_S9_d0, bcast_S_S9, bcast_S9_S1x9_1, bcast_S1x9_S4096x9_0_1, bcast_S_S1x9,
  transposes_S4096x9_S9x4096_1_0, bcast_S_S9x4096, dot_S9x4096_S4096x4096_S9x4096_1_0_0_1_n_n,
  dot_S4096x9_S9x4096_S4096x4096_1_0_0_1_n_n, ⟨rfl, rfl, rfl, rfl, rfl, rfl⟩, ⟨rfl, rfl, rfl, rfl, rfl, rfl⟩⟩
def w10 : CoreW 10 := ⟨reducesTo_S4096x10_S10_d0, bcast_S_S10, bcast_S10_S1x10_1, bcast_S1x10_S4096x10_0_1, bcast_S_S1x10,
  transposes_S4096x10_S10x4096_1_0, bcast_S_S10x4096, dot_S10x4096_S4096x4096_S10x4096_1_0_0_1_n_n,
  dot_S4096x10_S10x4096_S4096x4096_1_0_0_1_n_n, ⟨rfl, rfl, rfl, rfl, rfl, rfl⟩, ⟨rfl, rfl, rfl, rfl, rfl, rfl⟩⟩
def w11 : CoreW 11 := ⟨reducesTo_S4096x11_S11_d0, bcast_S_S11, bcast_S11_S1x11_1, bcast_S1x11_S4096x11_0_1, bcast_S_S1x11,
  transposes_S4096x11_S11x4096_1_0, bcast_S_S11x4096, dot_S11x4096_S4096x4096_S11x4096_1_0_0_1_n_n,
  dot_S4096x11_S11x4096_S4096x4096_1_0_0_1_n_n, ⟨rfl, rfl, rfl, rfl, rfl, rfl⟩, ⟨rfl, rfl, rfl, rfl, rfl, rfl⟩⟩
def w12 : CoreW 12 := ⟨reducesTo_S4096x12_S12_d0, bcast_S_S12, bcast_S12_S1x12_1, bcast_S1x12_S4096x12_0_1, bcast_S_S1x12,
  transposes_S4096x12_S12x4096_1_0, bcast_S_S12x4096, dot_S12x4096_S4096x4096_S12x4096_1_0_0_1_n_n,
  dot_S4096x12_S12x4096_S4096x4096_1_0_0_1_n_n, ⟨rfl, rfl, rfl, rfl, rfl, rfl⟩, ⟨rfl, rfl, rfl, rfl, rfl, rfl⟩⟩
def w13 : CoreW 13 := ⟨reducesTo_S4096x13_S13_d0, bcast_S_S13, bcast_S13_S1x13_1, bcast_S1x13_S4096x13_0_1, bcast_S_S1x13,
  transposes_S4096x13_S13x4096_1_0, bcast_S_S13x4096, dot_S13x4096_S4096x4096_S13x4096_1_0_0_1_n_n,
  dot_S4096x13_S13x4096_S4096x4096_1_0_0_1_n_n, ⟨rfl, rfl, rfl, rfl, rfl, rfl⟩, ⟨rfl, rfl, rfl, rfl, rfl, rfl⟩⟩
def w14 : CoreW 14 := ⟨reducesTo_S4096x14_S14_d0, bcast_S_S14, bcast_S14_S1x14_1, bcast_S1x14_S4096x14_0_1, bcast_S_S1x14,
  transposes_S4096x14_S14x4096_1_0, bcast_S_S14x4096, dot_S14x4096_S4096x4096_S14x4096_1_0_0_1_n_n,
  dot_S4096x14_S14x4096_S4096x4096_1_0_0_1_n_n, ⟨rfl, rfl, rfl, rfl, rfl, rfl⟩, ⟨rfl, rfl, rfl, rfl, rfl, rfl⟩⟩
def w15 : CoreW 15 := ⟨reducesTo_S4096x15_S15_d0, bcast_S_S15, bcast_S15_S1x15_1, bcast_S1x15_S4096x15_0_1, bcast_S_S1x15,
  transposes_S4096x15_S15x4096_1_0, bcast_S_S15x4096, dot_S15x4096_S4096x4096_S15x4096_1_0_0_1_n_n,
  dot_S4096x15_S15x4096_S4096x4096_1_0_0_1_n_n, ⟨rfl, rfl, rfl, rfl, rfl, rfl⟩, ⟨rfl, rfl, rfl, rfl, rfl, rfl⟩⟩

end Cert.ReferenceIdeal.RCore

end
-- ==== Proof.RChunks.lean ====
import proofs.«156821_j17033840296170_1_alg».proof.Proof.Gen.ReferenceIdeal
import proofs.«156821_j17033840296170_1_alg».proof.Proof.RCoreG
import Idealize.ShloMosaic.Lib.StableHlo.Run
import Idealize.ShloMosaic.Lib.Pipeline.Frame

noncomputable section

namespace Cert.ReferenceIdeal.RRun

open Cert.ReferenceIdeal Cert.ReferenceIdeal.Gen Cert.ReferenceIdeal.RCore Idealize.ShloMosaic Idealize.ShloMosaic.TcCoe Idealize.SL.Sem Idealize.ShloMosaic.StableHlo

variable {F : FTy → Type} [FloatOps F]

section Iter

variable {n : ℕ} (w : CoreW n) (k : ℕ) (hs : S4096x16.Slices ![0, k] S4096x1)
  (z0 k0 vz vk vdof vk1 vden vz2 vz3 vnan wnan ke k1 : StableHlo.TRef sig ⟨S_, .f32⟩)
  (dof : StableHlo.TRef sig ⟨S_, .i32⟩)
  (vpos : StableHlo.TRef sig ⟨S_, .i1⟩)
  (sum k0b mean vsum vssq vdenb vquo wnanb var std keb se : StableHlo.TRef sig ⟨⟨1, ![n]⟩, .f32⟩)
  (meanr vsumr vkr vmeanr ser : StableHlo.TRef sig ⟨⟨2, ![1, n]⟩, .f32⟩)
  (C meanb cen vmeanb vcen vsq seb conv : StableHlo.TRef sig ⟨⟨2, ![4096, n]⟩, .f32⟩)
  (convT cx k1b beta : StableHlo.TRef sig ⟨⟨2, ![n, 4096]⟩, .f32⟩)
  (X fit lin : StableHlo.TRef sig ⟨S4096x4096, .f32⟩)
  (A : StableHlo.TRef sig ⟨S4096x16, .f32⟩)
  (wcol out : StableHlo.TRef sig ⟨S4096x1, .f32⟩)

-- One iteration after its first operation: the columns C z-normalised, X deflated against them, the result projected onto column k of A.
abbrev iterOps : List (HloOp τ sig (Elt F)) :=
  [ StableHlo.TRef.nullary z0 (constant S_ .f32 0x00000000#32),
    StableHlo.TRef.binary C z0 sum (fun x v => Host.reduceAdd x v w.hred h_S_),
    StableHlo.TRef.nullary k0 (constant S_ .f32 0x45800000#32),
    StableHlo.TRef.unary k0 k0b (broadcastInDim ⟨1, ![n]⟩ ![] w.hb0),
    StableHlo.TRef.binary sum k0b mean Host.divf,
    StableHlo.TRef.unary mean meanr (broadcastInDim ⟨2, ![1, n]⟩ ![1] w.hb1),
    StableHlo.TRef.unary meanr meanb (broadcastInDim ⟨2, ![4096, n]⟩ ![0, 1] w.hb2),
    StableHlo.TRef.binary C meanb cen subf,
    StableHlo.TRef.nullary dof (constantI S_ 32 0#32),
    StableHlo.TRef.nullary vz (constant S_ .f32 0x00000000#32),
    StableHlo.TRef.binary C vz vsum (fun x v => Host.reduceAdd x v w.hred h_S_),
    StableHlo.TRef.unary vsum vsumr (broadcastInDim ⟨2, ![1, n]⟩ ![1] w.hb1),
    StableHlo.TRef.nullary vk (constant S_ .f32 0x45800000#32),
    StableHlo.TRef.unary vk vkr (broadcastInDim ⟨2, ![1, n]⟩ ![] w.hb3),
    StableHlo.TRef.binary vsumr vkr vmeanr Host.divf,
    StableHlo.TRef.unary vmeanr vmeanb (broadcastInDim ⟨2, ![4096, n]⟩ ![0, 1] w.hb2),
    StableHlo.TRef.binary C vmeanb vcen subf,
    StableHlo.TRef.binary vcen vcen vsq mulf,
    StableHlo.TRef.unary dof vdof (sitofp .f32),
    StableHlo.TRef.nullary vk1 (constant S_ .f32 0x45800000#32),
    StableHlo.TRef.binary vk1 vdof vden subf,
    StableHlo.TRef.nullary vz2 (constant S_ .f32 0x00000000#32),
    StableHlo.TRef.binary vsq vz2 vssq (fun x v => Host.reduceAdd x v w.hred h_S_),
    StableHlo.TRef.unary vden vdenb (broadcastInDim ⟨1, ![n]⟩ ![] w.hb0),
    StableHlo.TRef.binary vssq vdenb vquo Host.divf,
    StableHlo.TRef.nullary vz3 (constant S_ .f32 0x00000000#32),
    StableHlo.TRef.binary vden vz3 vpos (cmpf .ogt),
    StableHlo.TRef.nullary vnan (constant S_ .f32 0x7FC00000#32),
    StableHlo.TRef.unary vnan wnan id,
    StableHlo.TRef.unary wnan wnanb (broadcastInDim ⟨1, ![n]⟩ ![] w.hb0),
    StableHlo.TRef.ternary vpos vquo wnanb var (fun p a b => select (broadcastInDim ⟨1, ![n]⟩ ![] w.hb0 p) a b),
    StableHlo.TRef.unary var std Host.sqrt,
    StableHlo.TRef.nullary ke (constant S_ .f32 0x358637BD#32),
    StableHlo.TRef.unary ke keb (broadcastInDim ⟨1, ![n]⟩ ![] w.hb0),
    StableHlo.TRef.binary std keb se addf,
    StableHlo.TRef.unary se ser (broadcastInDim ⟨2, ![1, n]⟩ ![1] w.hb1),
    StableHlo.TRef.unary ser seb (broadcastInDim ⟨2, ![4096, n]⟩ ![0, 1] w.hb2),
    StableHlo.TRef.binary cen seb conv Host.divf,
    StableHlo.TRef.unary conv convT (transpose ⟨2, ![n, 4096]⟩ [1, 0] · w.htr),
    StableHlo.TRef.binary convT X cx (fun l r => Host.dotGeneral w.d1 none l r),
    StableHlo.TRef.nullary k1 (constant S_ .f32 0x45800000#32),
    StableHlo.TRef.unary k1 k1b (broadcastInDim ⟨2, ![n, 4096]⟩ ![] w.hbT),
    StableHlo.TRef.binary cx k1b beta Host.divf,
    StableHlo.TRef.binary conv beta fit (fun l r => Host.dotGeneral w.d2 none l r),
    StableHlo.TRef.binary X fit lin subf,
    StableHlo.TRef.unary A wcol (extractStridedSlice S4096x1 ![0, k] · hs),
    StableHlo.TRef.binary lin wcol out (fun l r => Host.dotGeneral dot_S4096x4096_S4096x1_S4096x1_1_0_0_1_n_n none l r) ]

theorem iterOps_sub : (iterOps (F := F) w k hs z0 k0 vz vk vdof vk1 vden vz2 vz3 vnan wnan ke k1 dof vpos sum k0b mean vsum vssq vdenb vquo wnanb var std keb se meanr vsumr vkr vmeanr ser C meanb cen vmeanb vcen vsq seb conv convT cx k1b beta X fit lin A wcol out).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub .., unary_bufs_sub .., binary_bufs_sub ..⟩

theorem iterOps_fresh : (iterOps (F := F) w k hs z0 k0 vz vk vdof vk1 vden vz2 vz3 vnan wnan ke k1 dof vpos sum k0b mean vsum vssq vdenb vquo wnanb var std keb se meanr vsumr vkr vmeanr ser C meanb cen vmeanb vcen vsq seb conv convT cx k1b beta X fit lin A wcol out).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Iter

abbrev chunkPre : List (HloOp τ sig (Elt F)) :=
  [ StableHlo.nullary main_cst (constant S_ .f32 0x00000000#32),
    StableHlo.binary main_arg0 main_cst main_v0 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    StableHlo.nullary main_cst_0 (constant S_ .f32 0x45800000#32),
    StableHlo.unary main_cst_0 main_v1 (broadcastInDim S4096 ![] bcast_S_S4096 : (⟨S_, .f32⟩ : BufTy).Contents (Elt F) → (⟨S4096, .f32⟩ : BufTy).Contents (Elt F)),
    StableHlo.binary main_v0 main_v1 main_v2 (Host.divf : (⟨S4096, .f32⟩ : BufTy).Contents (Elt F) → (⟨S4096, .f32⟩ : BufTy).Contents (Elt F) → (⟨S4096, .f32⟩ : BufTy).Contents (Elt F)),
    StableHlo.unary main_v2 main_v3 (broadcastInDim S1x4096 ![1] bcast_S4096_S1x4096_1 : (⟨S4096, .f32⟩ : BufTy).Contents (Elt F) → (⟨S1x4096, .f32⟩ : BufTy).Contents (Elt F)),
    StableHlo.unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    StableHlo.binary main_arg0 main_v4 main_v5 (subf : (⟨S4096x4096, .f32⟩ : BufTy).Contents (Elt F) → (⟨S4096x4096, .f32⟩ : BufTy).Contents (Elt F) → (⟨S4096x4096, .f32⟩ : BufTy).Contents (Elt F)),
    StableHlo.nullary main_c (constantI S_ 32 0#32),
    StableHlo.TRef.nullary main_call0.call0.cst (constant S_ .f32 0x00000000#32),
    StableHlo.TRef.binary (.of main_arg0 : StableHlo.TRef sig ⟨S4096x4096, .f32⟩) main_call0.call0.cst main_call0.call0.v0 (fun x v => Host.reduceAdd x v reducesTo_S4096x4096_S4096_d0 h_S_),
    StableHlo.TRef.unary main_call0.call0.v0 main_call0.call0.v1 (broadcastInDim S1x4096 ![1] bcast_S4096_S1x4096_1),
    StableHlo.TRef.nullary main_call0.call0.cst_0 (constant S_ .f32 0x45800000#32),
    StableHlo.TRef.unary main_call0.call0.cst_0 main_call0.call0.v2 (broadcastInDim S1x4096 ![] bcast_S_S1x4096),
    StableHlo.TRef.binary main_call0.call0.v1 main_call0.call0.v2 main_call0.call0.v3 Host.divf,
    StableHlo.TRef.unary main_call0.call0.v3 main_call0.call0.v4 (broadcastInDim S4096x4096 ![0, 1] bcast_S1x4096_S4096x4096_0_1),
    StableHlo.TRef.binary (.of main_arg0 : StableHlo.TRef sig ⟨S4096x4096, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x45800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S4096x4096_S4096_d0 h_S_),
    StableHlo.TRef.unary main_call0.call0.v8 main_call0.call0.v10 (broadcastInDim S4096 ![] bcast_S_S4096),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S4096 ![] bcast_S_S4096),
    StableHlo.TRef.ternary main_call0.call0.v12 main_call0.call0.v11 main_call0.call0.call0.v1 main_call0.call0.call0.v2 (fun p a b => select (broadcastInDim S4096 ![] bcast_S_S4096 p) a b),
    StableHlo.TRef.unary main_call0.call0.call0.v2 main_call0.v1 Host.sqrt,
    StableHlo.nullary main_cst_1 (constant S_ .f32 0x358637BD#32),
    StableHlo.unary main_cst_1 main_v7 (broadcastInDim S4096 ![] bcast_S_S4096 : (⟨S_, .f32⟩ : BufTy).Contents (Elt F) → (⟨S4096, .f32⟩ : BufTy).Contents (Elt F)),
    StableHlo.binary main_v6 main_v7 main_v8 (addf : (⟨S4096, .f32⟩ : BufTy).Contents (Elt F) → (⟨S4096, .f32⟩ : BufTy).Contents (Elt F) → (⟨S4096, .f32⟩ : BufTy).Contents (Elt F)),
    StableHlo.unary main_v8 main_v9 (broadcastInDim S1x4096 ![1] bcast_S4096_S1x4096_1 : (⟨S4096, .f32⟩ : BufTy).Contents (Elt F) → (⟨S1x4096, .f32⟩ : BufTy).Contents (Elt F)),
    StableHlo.unary main_v9 main_v10 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v5 main_v10 main_v11 (Host.divf : (⟨S4096x4096, .f32⟩ : BufTy).Contents (Elt F) → (⟨S4096x4096, .f32⟩ : BufTy).Contents (Elt F) → (⟨S4096x4096, .f32⟩ : BufTy).Contents (Elt F)),
    StableHlo.unary main_arg2 main_v12 ((extractStridedSlice S4096x1 ![0, 0] · slices_S4096x16_S4096x1_0_0) : (⟨S4096x16, .f32⟩ : BufTy).Contents (Elt F) → (⟨S4096x1, .f32⟩ : BufTy).Contents (Elt F)),
    StableHlo.binary main_v11 main_v12 main_v13 ((fun l r => Host.dotGeneral dot_S4096x4096_S4096x1_S4096x1_1_0_0_1_n_n none l r) : (⟨S4096x4096, .f32⟩ : BufTy).Contents (Elt F) → (⟨S4096x1, .f32⟩ : BufTy).Contents (Elt F) → (⟨S4096x1, .f32⟩ : BufTy).Contents (Elt F)) ]

abbrev chunkC1 : List (HloOp τ sig (Elt F)) :=
  iterOps w1 1 slices_S4096x16_S4096x1_0_1 (.of main_cst_2) (.of main_cst_3) main_call1.call0.cst main_call1.call0.cst_0 main_call1.call0.v7 main_call1.call0.cst_1 main_call1.call0.v8 main_call1.call0.cst_2 main_call1.call0.cst_3 main_call1.call0.cst_4 main_call1.call0.call0.v0 (.of main_cst_5) (.of main_cst_6) (.of main_c_4) main_call1.call0.v12 (.of main_v14) (.of main_v15) (.of main_v16) main_call1.call0.v0 main_call1.call0.v9 main_call1.call0.v10 main_call1.call0.v11 main_call1.call0.call0.v1 main_call1.call0.call0.v2 main_call1.v1 (.of main_v21) (.of main_v22) (.of main_v17) main_call1.call0.v1 main_call1.call0.v2 main_call1.call0.v3 (.of main_v23) (.of main_v13) (.of main_v18) (.of main_v19) main_call1.call0.v4 main_call1.call0.v5 main_call1.call0.v6 (.of main_v24) (.of main_v25) (.of main_v26) (.of main_v27) (.of main_v28) (.of main_v29) (.of main_v11) (.of main_v30) (.of main_v31) (.of main_arg2) (.of main_v32) (.of main_v33)

abbrev chunkC2 : List (HloOp τ sig (Elt F)) :=
  StableHlo.binary main_v13 main_v33 main_v34 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)) ::
  iterOps w2 2 slices_S4096x16_S4096x1_0_2 (.of main_cst_7) (.of main_cst_8) main_call2.call0.cst main_call2.call0.cst_0 main_call2.call0.v7 main_call2.call0.cst_1 main_call2.call0.v8 main_call2.call0.cst_2 main_call2.call0.cst_3 main_call2.call0.cst_4 main_call2.call0.call0.v0 (.of main_cst_10) (.of main_cst_11) (.of main_c_9) main_call2.call0.v12 (.of main_v35) (.of main_v36) (.of main_v37) main_call2.call0.v0 main_call2.call0.v9 main_call2.call0.v10 main_call2.call0.v11 main_call2.call0.call0.v1 main_call2.call0.call0.v2 main_call2.v1 (.of main_v42) (.of main_v43) (.of main_v38) main_call2.call0.v1 main_call2.call0.v2 main_call2.call0.v3 (.of main_v44) (.of main_v34) (.of main_v39) (.of main_v40) main_call2.call0.v4 main_call2.call0.v5 main_call2.call0.v6 (.of main_v45) (.of main_v46) (.of main_v47) (.of main_v48) (.of main_v49) (.of main_v50) (.of main_v11) (.of main_v51) (.of main_v52) (.of main_arg2) (.of main_v53) (.of main_v54)

abbrev chunkC3 : List (HloOp τ sig (Elt F)) :=
  StableHlo.nary ![main_v13, main_v33, main_v54] main_v55 (fun u => concatenate S4096x3 1 [⟨S4096x1, u 0⟩, ⟨S4096x1, u 1⟩, ⟨S4096x1, u 2⟩] concatenates_S4096x1_S4096x1_S4096x1_S4096x3_d1) ::
  iterOps w3 3 slices_S4096x16_S4096x1_0_3 (.of main_cst_12) (.of main_cst_13) main_call3.call0.cst main_call3.call0.cst_0 main_call3.call0.v7 main_call3.call0.cst_1 main_call3.call0.v8 main_call3.call0.cst_2 main_call3.call0.cst_3 main_call3.call0.cst_4 main_call3.call0.call0.v0 (.of main_cst_15) (.of main_cst_16) (.of main_c_14) main_call3.call0.v12 (.of main_v56) (.of main_v57) (.of main_v58) main_call3.call0.v0 main_call3.call0.v9 main_call3.call0.v10 main_call3.call0.v11 main_call3.call0.call0.v1 main_call3.call0.call0.v2 main_call3.v1 (.of main_v63) (.of main_v64) (.of main_v59) main_call3.call0.v1 main_call3.call0.v2 main_call3.call0.v3 (.of main_v65) (.of main_v55) (.of main_v60) (.of main_v61) main_call3.call0.v4 main_call3.call0.v5 main_call3.call0.v6 (.of main_v66) (.of main_v67) (.of main_v68) (.of main_v69) (.of main_v70) (.of main_v71) (.of main_v11) (.of main_v72) (.of main_v73) (.of main_arg2) (.of main_v74) (.of main_v75)

abbrev chunkC4 : List (HloOp τ sig (Elt F)) :=
  StableHlo.nary ![main_v13, main_v33, main_v54, main_v75] main_v76 (fun u => concatenate S4096x4 1 [⟨S4096x1, u 0⟩, ⟨S4096x1, u 1⟩, ⟨S4096x1, u 2⟩, ⟨S4096x1, u 3⟩] concatenates_S4096x1_S4096x1_S4096x1_S4096x1_S4096x4_d1) ::
  iterOps w4 4 slices_S4096x16_S4096x1_0_4 (.of main_cst_17) (.of main_cst_18) main_call4.call0.cst main_call4.call0.cst_0 main_call4.call0.v7 main_call4.call0.cst_1 main_call4.call0.v8 main_call4.call0.cst_2 main_call4.call0.cst_3 main_call4.call0.cst_4 main_call4.call0.call0.v0 (.of main_cst_20) (.of main_cst_21) (.of main_c_19) main_call4.call0.v12 (.of main_v77) (.of main_v78) (.of main_v79) main_call4.call0.v0 main_call4.call0.v9 main_call4.call0.v10 main_call4.call0.v11 main_call4.call0.call0.v1 main_call4.call0.call0.v2 main_call4.v1 (.of main_v84) (.of main_v85) (.of main_v80) main_call4.call0.v1 main_call4.call0.v2 main_call4.call0.v3 (.of main_v86) (.of main_v76) (.of main_v81) (.of main_v82) main_call4.call0.v4 main_call4.call0.v5 main_call4.call0.v6 (.of main_v87) (.of main_v88) (.of main_v89) (.of main_v90) (.of main_v91) (.of main_v92) (.of main_v11) (.of main_v93) (.of main_v94) (.of main_arg2) (.of main_v95) (.of main_v96)

abbrev chunkC5 : List (HloOp τ sig (Elt F)) :=
  StableHlo.nary ![main_v13, main_v33, main_v54, main_v75, main_v96] main_v97 (fun u => concatenate S4096x5 1 [⟨S4096x1, u 0⟩, ⟨S4096x1, u 1⟩, ⟨S4096x1, u 2⟩, ⟨S4096x1, u 3⟩, ⟨S4096x1, u 4⟩] concatenates_S4096x1_S4096x1_S4096x1_S4096x1_S4096x1_S4096x5_d1) ::
  iterOps w5 5 slices_S4096x16_S4096x1_0_5 (.of main_cst_22) (.of main_cst_23) main_call5.call0.cst main_call5.call0.cst_0 main_call5.call0.v7 main_call5.call0.cst_1 main_call5.call0.v8 main_call5.call0.cst_2 main_call5.call0.cst_3 main_call5.call0.cst_4 main_call5.call0.call0.v0 (.of main_cst_25) (.of main_cst_26) (.of main_c_24) main_call5.call0.v12 (.of main_v98) (.of main_v99) (.of main_v100) main_call5.call0.v0 main_call5.call0.v9 main_call5.call0.v10 main_call5.call0.v11 main_call5.call0.call0.v1 main_call5.call0.call0.v2 main_call5.v1 (.of main_v105) (.of main_v106) (.of main_v101) main_call5.call0.v1 main_call5.call0.v2 main_call5.call0.v3 (.of main_v107) (.of main_v97) (.of main_v102) (.of main_v103) main_call5.call0.v4 main_call5.call0.v5 main_call5.call0.v6 (.of main_v108) (.of main_v109) (.of main_v110) (.of main_v111) (.of main_v112) (.of main_v113) (.of main_v11) (.of main_v114) (.of main_v115) (.of main_arg2) (.of main_v116) (.of main_v117)

abbrev chunkC6 : List (HloOp τ sig (Elt F)) :=
  StableHlo.nary ![main_v13, main_v33, main_v54, main_v75, main_v96, main_v117] main_v118 (fun u => concatenate S4096x6 1 [⟨S4096x1, u 0⟩, ⟨S4096x1, u 1⟩, ⟨S4096x1, u 2⟩, ⟨S4096x1, u 3⟩, ⟨S4096x1, u 4⟩, ⟨S4096x1, u 5⟩] concatenates_S4096x1_S4096x1_S4096x1_S4096x1_S4096x1_S4096x1_S4096x6_d1) ::
  iterOps w6 6 slices_S4096x16_S4096x1_0_6 (.of main_cst_27) (.of main_cst_28) main_call6.call0.cst main_call6.call0.cst_0 main_call6.call0.v7 main_call6.call0.cst_1 main_call6.call0.v8 main_call6.call0.cst_2 main_call6.call0.cst_3 main_call6.call0.cst_4 main_call6.call0.call0.v0 (.of main_cst_30) (.of main_cst_31) (.of main_c_29) main_call6.call0.v12 (.of main_v119) (.of main_v120) (.of main_v121) main_call6.call0.v0 main_call6.call0.v9 main_call6.call0.v10 main_call6.call0.v11 main_call6.call0.call0.v1 main_call6.call0.call0.v2 main_call6.v1 (.of main_v126) (.of main_v127) (.of main_v122) main_call6.call0.v1 main_call6.call0.v2 main_call6.call0.v3 (.of main_v128) (.of main_v118) (.of main_v123) (.of main_v124) main_call6.call0.v4 main_call6.call0.v5 main_call6.call0.v6 (.of main_v129) (.of main_v130) (.of main_v131) (.of main_v132) (.of main_v133) (.of main_v134) (.of main_v11) (.of main_v135) (.of main_v136) (.of main_arg2) (.of main_v137) (.of main_v138)

abbrev chunkC7 : List (HloOp τ sig (Elt F)) :=
  StableHlo.nary ![main_v13, main_v33, main_v54, main_v75, main_v96, main_v117, main_v138] main_v139 (fun u => concatenate S4096x7 1 [⟨S4096x1, u 0⟩, ⟨S4096x1, u 1⟩, ⟨S4096x1, u 2⟩, ⟨S4096x1, u 3⟩, ⟨S4096x1, u 4⟩, ⟨S4096x1, u 5⟩, ⟨S4096x1, u 6⟩] concatenates_S4096x1_S4096x1_S4096x1_S4096x1_S4096x1_S4096x1_S4096x1_S4096x7_d1) ::
  iterOps w7 7 slices_S4096x16_S4096x1_0_7 (.of main_cst_32) (.of main_cst_33) main_call7.call0.cst main_call7.call0.cst_0 main_call7.call0.v7 main_call7.call0.cst_1 main_call7.call0.v8 main_call7.call0.cst_2 main_call7.call0.cst_3 main_call7.call0.cst_4 main_call7.call0.call0.v0 (.of main_cst_35) (.of main_cst_36) (.of main_c_34) main_call7.call0.v12 (.of main_v140) (.of main_v141) (.of main_v142) main_call7.call0.v0 main_call7.call0.v9 main_call7.call0.v10 main_call7.call0.v11 main_call7.call0.call0.v1 main_call7.call0.call0.v2 main_call7.v1 (.of main_v147) (.of main_v148) (.of main_v143) main_call7.call0.v1 main_call7.call0.v2 main_call7.call0.v3 (.of main_v149) (.of main_v139) (.of main_v144) (.of main_v145) main_call7.call0.v4 main_call7.call0.v5 main_call7.call0.v6 (.of main_v150) (.of main_v151) (.of main_v152) (.of main_v153) (.of main_v154) (.of main_v155) (.of main_v11) (.of main_v156) (.of main_v157) (.of main_arg2) (.of main_v158) (.of main_v159)

abbrev chunkC8 : List (HloOp τ sig (Elt F)) :=
  StableHlo.nary ![main_v13, main_v33, main_v54, main_v75, main_v96, main_v117, main_v138, main_v159] main_v160 (fun u => concatenate S4096x8 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩] concatenates_S4096x1_S4096x1_S4096x1_S4096x1_S4096x1_S4096x1_S4096x1_S4096x1_S4096x8_d1) ::
  iterOps w8 8 slices_S4096x16_S4096x1_0_8 (.of main_cst_37) (.of main_cst_38) main_call8.call0.cst main_call8.call0.cst_0 main_call8.call0.v7 main_call8.call0.cst_1 main_call8.call0.v8 main_call8.call0.cst_2 main_call8.call0.cst_3 main_call8.call0.cst_4 main_call8.call0.call0.v0 (.of main_cst_40) (.of main_cst_41) (.of main_c_39) main_call8.call0.v12 (.of main_v161) (.of main_v162) (.of main_v163) main_call8.call0.v0 main_call8.call0.v9 main_call8.call0.v10 main_call8.call0.v11 main_call8.call0.call0.v1 main_call8.call0.call0.v2 main_call8.v1 (.of main_v168) (.of main_v169) (.of main_v164) main_call8.call0.v1 main_call8.call0.v2 main_call8.call0.v3 (.of main_v170) (.of main_v160) (.of main_v165) (.of main_v166) main_call8.call0.v4 main_call8.call0.v5 main_call8.call0.v6 (.of main_v171) (.of main_v172) (.of main_v173) (.of main_v174) (.of main_v175) (.of main_v176) (.of main_v11) (.of main_v177) (.of main_v178) (.of main_arg2) (.of main_v179) (.of main_v180)

abbrev chunkC9 : List (HloOp τ sig (Elt F)) :=
  StableHlo.nary ![main_v13, main_v33, main_v54, main_v75, main_v96, main_v117, main_v138, main_v159, main_v180] main_v181 (fun u => concatenate S4096x9 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩] concatenates_S4096x1_S4096x1_S4096x1_S4096x1_S4096x1_S4096x1_S4096x1_S4096x1_S4096x1_S4096x9_d1) ::
  iterOps w9 9 slices_S4096x16_S4096x1_0_9 (.of main_cst_42) (.of main_cst_43) main_call9.call0.cst main_call9.call0.cst_0 main_call9.call0.v7 main_call9.call0.cst_1 main_call9.call0.v8 main_call9.call0.cst_2 main_call9.call0.cst_3 main_call9.call0.cst_4 main_call9.call0.call0.v0 (.of main_cst_45) (.of main_cst_46) (.of main_c_44) main_call9.call0.v12 (.of main_v182) (.of main_v183) (.of main_v184) main_call9.call0.v0 main_call9.call0.v9 main_call9.call0.v10 main_call9.call0.v11 main_call9.call0.call0.v1 main_call9.call0.call0.v2 main_call9.v1 (.of main_v189) (.of main_v190) (.of main_v185) main_call9.call0.v1 main_call9.call0.v2 main_call9.call0.v3 (.of main_v191) (.of main_v181) (.of main_v186) (.of main_v187) main_call9.call0.v4 main_call9.call0.v5 main_call9.call0.v6 (.of main_v192) (.of main_v193) (.of main_v194) (.of main_v195) (.of main_v196) (.of main_v197) (.of main_v11) (.of main_v198) (.of main_v199) (.of main_arg2) (.of main_v200) (.of main_v201)

abbrev chunkC10 : List (HloOp τ sig (Elt F)) :=
  StableHlo.nary ![main_v13, main_v33, main_v54, main_v75, main_v96, main_v117, main_v138, main_v159, main_v180, main_v201] main_v202 (fun u => concatenate S4096x10 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩] concatenates_S4096x1_S4096x1_S4096x1_S4096x1_S4096x1_S4096x1_S4096x1_S4096x1_S4096x1_S4096x1_S4096x10_d1) ::
  iterOps w10 10 slices_S4096x16_S4096x1_0_10 (.of main_cst_47) (.of main_cst_48) main_call10.call0.cst main_call10.call0.cst_0 main_call10.call0.v7 main_call10.call0.cst_1 main_call10.call0.v8 main_call10.call0.cst_2 main_call10.call0.cst_3 main_call10.call0.cst_4 main_call10.call0.call0.v0 (.of main_cst_50) (.of main_cst_51) (.of main_c_49) main_call10.call0.v12 (.of main_v203) (.of main_v204) (.of main_v205) main_call10.call0.v0 main_call10.call0.v9 main_call10.call0.v10 main_call10.call0.v11 main_call10.call0.call0.v1 main_call10.call0.call0.v2 main_call10.v1 (.of main_v210) (.of main_v211) (.of main_v206) main_call10.call0.v1 main_call10.call0.v2 main_call10.call0.v3 (.of main_v212) (.of main_v202) (.of main_v207) (.of main_v208) main_call10.call0.v4 main_call10.call0.v5 main_call10.call0.v6 (.of main_v213) (.of main_v214) (.of main_v215) (.of main_v216) (.of main_v217) (.of main_v218) (.of main_v11) (.of main_v219) (.of main_v220) (.of main_arg2) (.of main_v221) (.of main_v222)

abbrev chunkC11 : List (HloOp τ sig (Elt F)) :=
  StableHlo.nary ![main_v13, main_v33, main_v54, main_v75, main_v96, main_v117, main_v138, main_v159, main_v180, main_v201, main_v222] main_v223 (fun u => concatenate S4096x11 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩] concatenates_S4096x1_S4096x1_S4096x1_S4096x1_S4096x1_S4096x1_S4096x1_S4096x1_S4096x1_S4096x1_S4096x1_S4096x11_d1) ::
  iterOps w11 11 slices_S4096x16_S4096x1_0_11 (.of main_cst_52) (.of main_cst_53) main_call11.call0.cst main_call11.call0.cst_0 main_call11.call0.v7 main_call11.call0.cst_1 main_call11.call0.v8 main_call11.call0.cst_2 main_call11.call0.cst_3 main_call11.call0.cst_4 main_call11.call0.call0.v0 (.of main_cst_55) (.of main_cst_56) (.of main_c_54) main_call11.call0.v12 (.of main_v224) (.of main_v225) (.of main_v226) main_call11.call0.v0 main_call11.call0.v9 main_call11.call0.v10 main_call11.call0.v11 main_call11.call0.call0.v1 main_call11.call0.call0.v2 main_call11.v1 (.of main_v231) (.of main_v232) (.of main_v227) main_call11.call0.v1 main_call11.call0.v2 main_call11.call0.v3 (.of main_v233) (.of main_v223) (.of main_v228) (.of main_v229) main_call11.call0.v4 main_call11.call0.v5 main_call11.call0.v6 (.of main_v234) (.of main_v235) (.of main_v236) (.of main_v237) (.of main_v238) (.of main_v239) (.of main_v11) (.of main_v240) (.of main_v241) (.of main_arg2) (.of main_v242) (.of main_v243)

abbrev chunkC12 : List (HloOp τ sig (Elt F)) :=
  StableHlo.nary ![main_v13, main_v33, main_v54, main_v75, main_v96, main_v117, main_v138, main_v159, main_v180, main_v201, main_v222, main_v243] main_v244 (fun u => concatenate S4096x12 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩] concatenates_S4096x1_S4096x1_S4096x1_S4096x1_S4096x1_S4096x1_S4096x1_S4096x1_S4096x1_S4096x1_S4096x1_S4096x1_S4096x12_d1) ::
  iterOps w12 12 slices_S4096x16_S4096x1_0_12 (.of main_cst_57) (.of main_cst_58) main_call12.call0.cst main_call12.call0.cst_0 main_call12.call0.v7 main_call12.call0.cst_1 main_call12.call0.v8 main_call12.call0.cst_2 main_call12.call0.cst_3 main_call12.call0.cst_4 main_call12.call0.call0.v0 (.of main_cst_60) (.of main_cst_61) (.of main_c_59) main_call12.call0.v12 (.of main_v245) (.of main_v246) (.of main_v247) main_call12.call0.v0 main_call12.call0.v9 main_call12.call0.v10 main_call12.call0.v11 main_call12.call0.call0.v1 main_call12.call0.call0.v2 main_call12.v1 (.of main_v252) (.of main_v253) (.of main_v248) main_call12.call0.v1 main_call12.call0.v2 main_call12.call0.v3 (.of main_v254) (.of main_v244) (.of main_v249) (.of main_v250) main_call12.call0.v4 main_call12.call0.v5 main_call12.call0.v6 (.of main_v255) (.of main_v256) (.of main_v257) (.of main_v258) (.of main_v259) (.of main_v260) (.of main_v11) (.of main_v261) (.of main_v262) (.of main_arg2) (.of main_v263) (.of main_v264)

abbrev chunkC13 : List (HloOp τ sig (Elt F)) :=
  StableHlo.nary ![main_v13, main_v33, main_v54, main_v75, main_v96, main_v117, main_v138, main_v159, main_v180, main_v201, main_v222, main_v243, main_v264] main_v265 (fun u => concatenate S4096x13 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩] concatenates_S4096x1_S4096x1_S4096x1_S4096x1_S4096x1_S4096x1_S4096x1_S4096x1_S4096x1_S4096x1_S4096x1_S4096x1_S4096x1_S4096x13_d1) ::
  iterOps w13 13 slices_S4096x16_S4096x1_0_13 (.of main_cst_62) (.of main_cst_63) main_call13.call0.cst main_call13.call0.cst_0 main_call13.call0.v7 main_call13.call0.cst_1 main_call13.call0.v8 main_call13.call0.cst_2 main_call13.call0.cst_3 main_call13.call0.cst_4 main_call13.call0.call0.v0 (.of main_cst_65) (.of main_cst_66) (.of main_c_64) main_call13.call0.v12 (.of main_v266) (.of main_v267) (.of main_v268) main_call13.call0.v0 main_call13.call0.v9 main_call13.call0.v10 main_call13.call0.v11 main_call13.call0.call0.v1 main_call13.call0.call0.v2 main_call13.v1 (.of main_v273) (.of main_v274) (.of main_v269) main_call13.call0.v1 main_call13.call0.v2 main_call13.call0.v3 (.of main_v275) (.of main_v265) (.of main_v270) (.of main_v271) main_call13.call0.v4 main_call13.call0.v5 main_call13.call0.v6 (.of main_v276) (.of main_v277) (.of main_v278) (.of main_v279) (.of main_v280) (.of main_v281) (.of main_v11) (.of main_v282) (.of main_v283) (.of main_arg2) (.of main_v284) (.of main_v285)

abbrev chunkC14 : List (HloOp τ sig (Elt F)) :=
  StableHlo.nary ![main_v13, main_v33, main_v54, main_v75, main_v96, main_v117, main_v138, main_v159, main_v180, main_v201, main_v222, main_v243, main_v264, main_v285] main_v286 (fun u => concatenate S4096x14 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩, ⟨S4096x1, u 13⟩] concatenates_S4096x1_S4096x1_S4096x1_S4096x1_S4096x1_S4096x1_S4096x1_S4096x1_S4096x1_S4096x1_S4096x1_S4096x1_S4096x1_S4096x1_S4096x14_d1) ::
  iterOps w14 14 slices_S4096x16_S4096x1_0_14 (.of main_cst_67) (.of main_cst_68) main_call14.call0.cst main_call14.call0.cst_0 main_call14.call0.v7 main_call14.call0.cst_1 main_call14.call0.v8 main_call14.call0.cst_2 main_call14.call0.cst_3 main_call14.call0.cst_4 main_call14.call0.call0.v0 (.of main_cst_70) (.of main_cst_71) (.of main_c_69) main_call14.call0.v12 (.of main_v287) (.of main_v288) (.of main_v289) main_call14.call0.v0 main_call14.call0.v9 main_call14.call0.v10 main_call14.call0.v11 main_call14.call0.call0.v1 main_call14.call0.call0.v2 main_call14.v1 (.of main_v294) (.of main_v295) (.of main_v290) main_call14.call0.v1 main_call14.call0.v2 main_call14.call0.v3 (.of main_v296) (.of main_v286) (.of main_v291) (.of main_v292) main_call14.call0.v4 main_call14.call0.v5 main_call14.call0.v6 (.of main_v297) (.of main_v298) (.of main_v299) (.of main_v300) (.of main_v301) (.of main_v302) (.of main_v11) (.of main_v303) (.of main_v304) (.of main_arg2) (.of main_v305) (.of main_v306)

abbrev chunkC15 : List (HloOp τ sig (Elt F)) :=
  StableHlo.nary ![main_v13, main_v33, main_v54, main_v75, main_v96, main_v117, main_v138, main_v159, main_v180, main_v201, main_v222, main_v243, main_v264, main_v285, main_v306] main_v307 (fun u => concatenate S4096x15 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩, ⟨S4096x1, u 13⟩, ⟨S4096x1, u 14⟩] concatenates_S4096x1_S4096x1_S4096x1_S4096x1_S4096x1_S4096x1_S4096x1_S4096x1_S4096x1_S4096x1_S4096x1_S4096x1_S4096x1_S4096x1_S4096x1_S4096x15_d1) ::
  iterOps w15 15 slices_S4096x16_S4096x1_0_15 (.of main_cst_72) (.of main_cst_73) main_call15.call0.cst main_call15.call0.cst_0 main_call15.call0.v7 main_call15.call0.cst_1 main_call15.call0.v8 main_call15.call0.cst_2 main_call15.call0.cst_3 main_call15.call0.cst_4 main_call15.call0.call0.v0 (.of main_cst_75) (.of main_cst_76) (.of main_c_74) main_call15.call0.v12 (.of main_v308) (.of main_v309) (.of main_v310) main_call15.call0.v0 main_call15.call0.v9 main_call15.call0.v10 main_call15.call0.v11 main_call15.call0.call0.v1 main_call15.call0.call0.v2 main_call15.v1 (.of main_v315) (.of main_v316) (.of main_v311) main_call15.call0.v1 main_call15.call0.v2 main_call15.call0.v3 (.of main_v317) (.of main_v307) (.of main_v312) (.of main_v313) main_call15.call0.v4 main_call15.call0.v5 main_call15.call0.v6 (.of main_v318) (.of main_v319) (.of main_v320) (.of main_v321) (.of main_v322) (.of main_v323) (.of main_v11) (.of main_v324) (.of main_v325) (.of main_arg2) (.of main_v326) (.of main_v327)

abbrev chunkMid : List (HloOp τ sig (Elt F)) :=
  [ StableHlo.nary ![main_v13, main_v33, main_v54, main_v75, main_v96, main_v117, main_v138, main_v159, main_v180, main_v201, main_v222, main_v243, main_v264, main_v285, main_v306, main_v327] main_v328 (fun u => concatenate S4096x16 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩, ⟨S4096x1, u 13⟩, ⟨S4096x1, u 14⟩, ⟨S4096x1, u 15⟩] concatenates_S4096x1_S4096x1_S4096x1_S4096x1_S4096x1_S4096x1_S4096x1_S4096x1_S4096x1_S4096x1_S4096x1_S4096x1_S4096x1_S4096x1_S4096x1_S4096x1_S4096x16_d1),
    StableHlo.unary main_arg1 main_v329 ((extractStridedSlice S4096x1 ![0, 0] · slices_S4096x16_S4096x1_0_0) : (⟨S4096x16, .f32⟩ : BufTy).Contents (Elt F) → (⟨S4096x1, .f32⟩ : BufTy).Contents (Elt F)),
    StableHlo.binary main_v11 main_v329 main_v330 ((fun l r => Host.dotGeneral dot_S4096x4096_S4096x1_S4096x1_1_0_0_1_n_n none l r) : (⟨S4096x4096, .f32⟩ : BufTy).Contents (Elt F) → (⟨S4096x1, .f32⟩ : BufTy).Contents (Elt F) → (⟨S4096x1, .f32⟩ : BufTy).Contents (Elt F)) ]

abbrev chunkO1 : List (HloOp τ sig (Elt F)) :=
  StableHlo.unary main_v328 main_v331 ((extractStridedSlice S4096x1 ![0, 0] · slices_S4096x16_S4096x1_0_0) : (⟨S4096x16, .f32⟩ : BufTy).Contents (Elt F) → (⟨S4096x1, .f32⟩ : BufTy).Contents (Elt F)) ::
  iterOps w1 1 slices_S4096x16_S4096x1_0_1 (.of main_cst_77) (.of main_cst_78) main_call16.call0.cst main_call16.call0.cst_0 main_call16.call0.v7 main_call16.call0.cst_1 main_call16.call0.v8 main_call16.call0.cst_2 main_call16.call0.cst_3 main_call16.call0.cst_4 main_call16.call0.call0.v0 (.of main_cst_80) (.of main_cst_81) (.of main_c_79) main_call16.call0.v12 (.of main_v332) (.of main_v333) (.of main_v334) main_call16.call0.v0 main_call16.call0.v9 main_call16.call0.v10 main_call16.call0.v11 main_call16.call0.call0.v1 main_call16.call0.call0.v2 main_call16.v1 (.of main_v339) (.of main_v340) (.of main_v335) main_call16.call0.v1 main_call16.call0.v2 main_call16.call0.v3 (.of main_v341) (.of main_v331) (.of main_v336) (.of main_v337) main_call16.call0.v4 main_call16.call0.v5 main_call16.call0.v6 (.of main_v342) (.of main_v343) (.of main_v344) (.of main_v345) (.of main_v346) (.of main_v347) (.of main_v11) (.of main_v348) (.of main_v349) (.of main_arg1) (.of main_v350) (.of main_v351)

abbrev chunkO2 : List (HloOp τ sig (Elt F)) :=
  StableHlo.unary main_v328 main_v352 ((extractStridedSlice S4096x2 ![0, 0] · slices_S4096x16_S4096x2_0_0) : (⟨S4096x16, .f32⟩ : BufTy).Contents (Elt F) → (⟨S4096x2, .f32⟩ : BufTy).Contents (Elt F)) ::
  iterOps w2 2 slices_S4096x16_S4096x1_0_2 (.of main_cst_82) (.of main_cst_83) main_call17.call0.cst main_call17.call0.cst_0 main_call17.call0.v7 main_call17.call0.cst_1 main_call17.call0.v8 main_call17.call0.cst_2 main_call17.call0.cst_3 main_call17.call0.cst_4 main_call17.call0.call0.v0 (.of main_cst_85) (.of main_cst_86) (.of main_c_84) main_call17.call0.v12 (.of main_v353) (.of main_v354) (.of main_v355) main_call17.call0.v0 main_call17.call0.v9 main_call17.call0.v10 main_call17.call0.v11 main_call17.call0.call0.v1 main_call17.call0.call0.v2 main_call17.v1 (.of main_v360) (.of main_v361) (.of main_v356) main_call17.call0.v1 main_call17.call0.v2 main_call17.call0.v3 (.of main_v362) (.of main_v352) (.of main_v357) (.of main_v358) main_call17.call0.v4 main_call17.call0.v5 main_call17.call0.v6 (.of main_v363) (.of main_v364) (.of main_v365) (.of main_v366) (.of main_v367) (.of main_v368) (.of main_v11) (.of main_v369) (.of main_v370) (.of main_arg1) (.of main_v371) (.of main_v372)

abbrev chunkO3 : List (HloOp τ sig (Elt F)) :=
  StableHlo.unary main_v328 main_v373 ((extractStridedSlice S4096x3 ![0, 0] · slices_S4096x16_S4096x3_0_0) : (⟨S4096x16, .f32⟩ : BufTy).Contents (Elt F) → (⟨S4096x3, .f32⟩ : BufTy).Contents (Elt F)) ::
  iterOps w3 3 slices_S4096x16_S4096x1_0_3 (.of main_cst_87) (.of main_cst_88) main_call18.call0.cst main_call18.call0.cst_0 main_call18.call0.v7 main_call18.call0.cst_1 main_call18.call0.v8 main_call18.call0.cst_2 main_call18.call0.cst_3 main_call18.call0.cst_4 main_call18.call0.call0.v0 (.of main_cst_90) (.of main_cst_91) (.of main_c_89) main_call18.call0.v12 (.of main_v374) (.of main_v375) (.of main_v376) main_call18.call0.v0 main_call18.call0.v9 main_call18.call0.v10 main_call18.call0.v11 main_call18.call0.call0.v1 main_call18.call0.call0.v2 main_call18.v1 (.of main_v381) (.of main_v382) (.of main_v377) main_call18.call0.v1 main_call18.call0.v2 main_call18.call0.v3 (.of main_v383) (.of main_v373) (.of main_v378) (.of main_v379) main_call18.call0.v4 main_call18.call0.v5 main_call18.call0.v6 (.of main_v384) (.of main_v385) (.of main_v386) (.of main_v387) (.of main_v388) (.of main_v389) (.of main_v11) (.of main_v390) (.of main_v391) (.of main_arg1) (.of main_v392) (.of main_v393)

abbrev chunkO4 : List (HloOp τ sig (Elt F)) :=
  StableHlo.unary main_v328 main_v394 ((extractStridedSlice S4096x4 ![0, 0] · slices_S4096x16_S4096x4_0_0) : (⟨S4096x16, .f32⟩ : BufTy).Contents (Elt F) → (⟨S4096x4, .f32⟩ : BufTy).Contents (Elt F)) ::
  iterOps w4 4 slices_S4096x16_S4096x1_0_4 (.of main_cst_92) (.of main_cst_93) main_call19.call0.cst main_call19.call0.cst_0 main_call19.call0.v7 main_call19.call0.cst_1 main_call19.call0.v8 main_call19.call0.cst_2 main_call19.call0.cst_3 main_call19.call0.cst_4 main_call19.call0.call0.v0 (.of main_cst_95) (.of main_cst_96) (.of main_c_94) main_call19.call0.v12 (.of main_v395) (.of main_v396) (.of main_v397) main_call19.call0.v0 main_call19.call0.v9 main_call19.call0.v10 main_call19.call0.v11 main_call19.call0.call0.v1 main_call19.call0.call0.v2 main_call19.v1 (.of main_v402) (.of main_v403) (.of main_v398) main_call19.call0.v1 main_call19.call0.v2 main_call19.call0.v3 (.of main_v404) (.of main_v394) (.of main_v399) (.of main_v400) main_call19.call0.v4 main_call19.call0.v5 main_call19.call0.v6 (.of main_v405) (.of main_v406) (.of main_v407) (.of main_v408) (.of main_v409) (.of main_v410) (.of main_v11) (.of main_v411) (.of main_v412) (.of main_arg1) (.of main_v413) (.of main_v414)

abbrev chunkO5 : List (HloOp τ sig (Elt F)) :=
  StableHlo.unary main_v328 main_v415 ((extractStridedSlice S4096x5 ![0, 0] · slices_S4096x16_S4096x5_0_0) : (⟨S4096x16, .f32⟩ : BufTy).Contents (Elt F) → (⟨S4096x5, .f32⟩ : BufTy).Contents (Elt F)) ::
  iterOps w5 5 slices_S4096x16_S4096x1_0_5 (.of main_cst_97) (.of main_cst_98) main_call20.call0.cst main_call20.call0.cst_0 main_call20.call0.v7 main_call20.call0.cst_1 main_call20.call0.v8 main_call20.call0.cst_2 main_call20.call0.cst_3 main_call20.call0.cst_4 main_call20.call0.call0.v0 (.of main_cst_100) (.of main_cst_101) (.of main_c_99) main_call20.call0.v12 (.of main_v416) (.of main_v417) (.of main_v418) main_call20.call0.v0 main_call20.call0.v9 main_call20.call0.v10 main_call20.call0.v11 main_call20.call0.call0.v1 main_call20.call0.call0.v2 main_call20.v1 (.of main_v423) (.of main_v424) (.of main_v419) main_call20.call0.v1 main_call20.call0.v2 main_call20.call0.v3 (.of main_v425) (.of main_v415) (.of main_v420) (.of main_v421) main_call20.call0.v4 main_call20.call0.v5 main_call20.call0.v6 (.of main_v426) (.of main_v427) (.of main_v428) (.of main_v429) (.of main_v430) (.of main_v431) (.of main_v11) (.of main_v432) (.of main_v433) (.of main_arg1) (.of main_v434) (.of main_v435)

abbrev chunkO6 : List (HloOp τ sig (Elt F)) :=
  StableHlo.unary main_v328 main_v436 ((extractStridedSlice S4096x6 ![0, 0] · slices_S4096x16_S4096x6_0_0) : (⟨S4096x16, .f32⟩ : BufTy).Contents (Elt F) → (⟨S4096x6, .f32⟩ : BufTy).Contents (Elt F)) ::
  iterOps w6 6 slices_S4096x16_S4096x1_0_6 (.of main_cst_102) (.of main_cst_103) main_call21.call0.cst main_call21.call0.cst_0 main_call21.call0.v7 main_call21.call0.cst_1 main_call21.call0.v8 main_call21.call0.cst_2 main_call21.call0.cst_3 main_call21.call0.cst_4 main_call21.call0.call0.v0 (.of main_cst_105) (.of main_cst_106) (.of main_c_104) main_call21.call0.v12 (.of main_v437) (.of main_v438) (.of main_v439) main_call21.call0.v0 main_call21.call0.v9 main_call21.call0.v10 main_call21.call0.v11 main_call21.call0.call0.v1 main_call21.call0.call0.v2 main_call21.v1 (.of main_v444) (.of main_v445) (.of main_v440) main_call21.call0.v1 main_call21.call0.v2 main_call21.call0.v3 (.of main_v446) (.of main_v436) (.of main_v441) (.of main_v442) main_call21.call0.v4 main_call21.call0.v5 main_call21.call0.v6 (.of main_v447) (.of main_v448) (.of main_v449) (.of main_v450) (.of main_v451) (.of main_v452) (.of main_v11) (.of main_v453) (.of main_v454) (.of main_arg1) (.of main_v455) (.of main_v456)

abbrev chunkO7 : List (HloOp τ sig (Elt F)) :=
  StableHlo.unary main_v328 main_v457 ((extractStridedSlice S4096x7 ![0, 0] · slices_S4096x16_S4096x7_0_0) : (⟨S4096x16, .f32⟩ : BufTy).Contents (Elt F) → (⟨S4096x7, .f32⟩ : BufTy).Contents (Elt F)) ::
  iterOps w7 7 slices_S4096x16_S4096x1_0_7 (.of main_cst_107) (.of main_cst_108) main_call22.call0.cst main_call22.call0.cst_0 main_call22.call0.v7 main_call22.call0.cst_1 main_call22.call0.v8 main_call22.call0.cst_2 main_call22.call0.cst_3 main_call22.call0.cst_4 main_call22.call0.call0.v0 (.of main_cst_110) (.of main_cst_111) (.of main_c_109) main_call22.call0.v12 (.of main_v458) (.of main_v459) (.of main_v460) main_call22.call0.v0 main_call22.call0.v9 main_call22.call0.v10 main_call22.call0.v11 main_call22.call0.call0.v1 main_call22.call0.call0.v2 main_call22.v1 (.of main_v465) (.of main_v466) (.of main_v461) main_call22.call0.v1 main_call22.call0.v2 main_call22.call0.v3 (.of main_v467) (.of main_v457) (.of main_v462) (.of main_v463) main_call22.call0.v4 main_call22.call0.v5 main_call22.call0.v6 (.of main_v468) (.of main_v469) (.of main_v470) (.of main_v471) (.of main_v472) (.of main_v473) (.of main_v11) (.of main_v474) (.of main_v475) (.of main_arg1) (.of main_v476) (.of main_v477)

abbrev chunkO8 : List (HloOp τ sig (Elt F)) :=
  StableHlo.unary main_v328 main_v478 ((extractStridedSlice S4096x8 ![0, 0] · slices_S4096x16_S4096x8_0_0) : (⟨S4096x16, .f32⟩ : BufTy).Contents (Elt F) → (⟨S4096x8, .f32⟩ : BufTy).Contents (Elt F)) ::
  iterOps w8 8 slices_S4096x16_S4096x1_0_8 (.of main_cst_112) (.of main_cst_113) main_call23.call0.cst main_call23.call0.cst_0 main_call23.call0.v7 main_call23.call0.cst_1 main_call23.call0.v8 main_call23.call0.cst_2 main_call23.call0.cst_3 main_call23.call0.cst_4 main_call23.call0.call0.v0 (.of main_cst_115) (.of main_cst_116) (.of main_c_114) main_call23.call0.v12 (.of main_v479) (.of main_v480) (.of main_v481) main_call23.call0.v0 main_call23.call0.v9 main_call23.call0.v10 main_call23.call0.v11 main_call23.call0.call0.v1 main_call23.call0.call0.v2 main_call23.v1 (.of main_v486) (.of main_v487) (.of main_v482) main_call23.call0.v1 main_call23.call0.v2 main_call23.call0.v3 (.of main_v488) (.of main_v478) (.of main_v483) (.of main_v484) main_call23.call0.v4 main_call23.call0.v5 main_call23.call0.v6 (.of main_v489) (.of main_v490) (.of main_v491) (.of main_v492) (.of main_v493) (.of main_v494) (.of main_v11) (.of main_v495) (.of main_v496) (.of main_arg1) (.of main_v497) (.of main_v498)

abbrev chunkO9 : List (HloOp τ sig (Elt F)) :=
  StableHlo.unary main_v328 main_v499 ((extractStridedSlice S4096x9 ![0, 0] · slices_S4096x16_S4096x9_0_0) : (⟨S4096x16, .f32⟩ : BufTy).Contents (Elt F) → (⟨S4096x9, .f32⟩ : BufTy).Contents (Elt F)) ::
  iterOps w9 9 slices_S4096x16_S4096x1_0_9 (.of main_cst_117) (.of main_cst_118) main_call24.call0.cst main_call24.call0.cst_0 main_call24.call0.v7 main_call24.call0.cst_1 main_call24.call0.v8 main_call24.call0.cst_2 main_call24.call0.cst_3 main_call24.call0.cst_4 main_call24.call0.call0.v0 (.of main_cst_120) (.of main_cst_121) (.of main_c_119) main_call24.call0.v12 (.of main_v500) (.of main_v501) (.of main_v502) main_call24.call0.v0 main_call24.call0.v9 main_call24.call0.v10 main_call24.call0.v11 main_call24.call0.call0.v1 main_call24.call0.call0.v2 main_call24.v1 (.of main_v507) (.of main_v508) (.of main_v503) main_call24.call0.v1 main_call24.call0.v2 main_call24.call0.v3 (.of main_v509) (.of main_v499) (.of main_v504) (.of main_v505) main_call24.call0.v4 main_call24.call0.v5 main_call24.call0.v6 (.of main_v510) (.of main_v511) (.of main_v512) (.of main_v513) (.of main_v514) (.of main_v515) (.of main_v11) (.of main_v516) (.of main_v517) (.of main_arg1) (.of main_v518) (.of main_v519)

abbrev chunkO10 : List (HloOp τ sig (Elt F)) :=
  StableHlo.unary main_v328 main_v520 ((extractStridedSlice S4096x10 ![0, 0] · slices_S4096x16_S4096x10_0_0) : (⟨S4096x16, .f32⟩ : BufTy).Contents (Elt F) → (⟨S4096x10, .f32⟩ : BufTy).Contents (Elt F)) ::
  iterOps w10 10 slices_S4096x16_S4096x1_0_10 (.of main_cst_122) (.of main_cst_123) main_call25.call0.cst main_call25.call0.cst_0 main_call25.call0.v7 main_call25.call0.cst_1 main_call25.call0.v8 main_call25.call0.cst_2 main_call25.call0.cst_3 main_call25.call0.cst_4 main_call25.call0.call0.v0 (.of main_cst_125) (.of main_cst_126) (.of main_c_124) main_call25.call0.v12 (.of main_v521) (.of main_v522) (.of main_v523) main_call25.call0.v0 main_call25.call0.v9 main_call25.call0.v10 main_call25.call0.v11 main_call25.call0.call0.v1 main_call25.call0.call0.v2 main_call25.v1 (.of main_v528) (.of main_v529) (.of main_v524) main_call25.call0.v1 main_call25.call0.v2 main_call25.call0.v3 (.of main_v530) (.of main_v520) (.of main_v525) (.of main_v526) main_call25.call0.v4 main_call25.call0.v5 main_call25.call0.v6 (.of main_v531) (.of main_v532) (.of main_v533) (.of main_v534) (.of main_v535) (.of main_v536) (.of main_v11) (.of main_v537) (.of main_v538) (.of main_arg1) (.of main_v539) (.of main_v540)

abbrev chunkO11 : List (HloOp τ sig (Elt F)) :=
  StableHlo.unary main_v328 main_v541 ((extractStridedSlice S4096x11 ![0, 0] · slices_S4096x16_S4096x11_0_0) : (⟨S4096x16, .f32⟩ : BufTy).Contents (Elt F) → (⟨S4096x11, .f32⟩ : BufTy).Contents (Elt F)) ::
  iterOps w11 11 slices_S4096x16_S4096x1_0_11 (.of main_cst_127) (.of main_cst_128) main_call26.call0.cst main_call26.call0.cst_0 main_call26.call0.v7 main_call26.call0.cst_1 main_call26.call0.v8 main_call26.call0.cst_2 main_call26.call0.cst_3 main_call26.call0.cst_4 main_call26.call0.call0.v0 (.of main_cst_130) (.of main_cst_131) (.of main_c_129) main_call26.call0.v12 (.of main_v542) (.of main_v543) (.of main_v544) main_call26.call0.v0 main_call26.call0.v9 main_call26.call0.v10 main_call26.call0.v11 main_call26.call0.call0.v1 main_call26.call0.call0.v2 main_call26.v1 (.of main_v549) (.of main_v550) (.of main_v545) main_call26.call0.v1 main_call26.call0.v2 main_call26.call0.v3 (.of main_v551) (.of main_v541) (.of main_v546) (.of main_v547) main_call26.call0.v4 main_call26.call0.v5 main_call26.call0.v6 (.of main_v552) (.of main_v553) (.of main_v554) (.of main_v555) (.of main_v556) (.of main_v557) (.of main_v11) (.of main_v558) (.of main_v559) (.of main_arg1) (.of main_v560) (.of main_v561)

abbrev chunkO12 : List (HloOp τ sig (Elt F)) :=
  StableHlo.unary main_v328 main_v562 ((extractStridedSlice S4096x12 ![0, 0] · slices_S4096x16_S4096x12_0_0) : (⟨S4096x16, .f32⟩ : BufTy).Contents (Elt F) → (⟨S4096x12, .f32⟩ : BufTy).Contents (Elt F)) ::
  iterOps w12 12 slices_S4096x16_S4096x1_0_12 (.of main_cst_132) (.of main_cst_133) main_call27.call0.cst main_call27.call0.cst_0 main_call27.call0.v7 main_call27.call0.cst_1 main_call27.call0.v8 main_call27.call0.cst_2 main_call27.call0.cst_3 main_call27.call0.cst_4 main_call27.call0.call0.v0 (.of main_cst_135) (.of main_cst_136) (.of main_c_134) main_call27.call0.v12 (.of main_v563) (.of main_v564) (.of main_v565) main_call27.call0.v0 main_call27.call0.v9 main_call27.call0.v10 main_call27.call0.v11 main_call27.call0.call0.v1 main_call27.call0.call0.v2 main_call27.v1 (.of main_v570) (.of main_v571) (.of main_v566) main_call27.call0.v1 main_call27.call0.v2 main_call27.call0.v3 (.of main_v572) (.of main_v562) (.of main_v567) (.of main_v568) main_call27.call0.v4 main_call27.call0.v5 main_call27.call0.v6 (.of main_v573) (.of main_v574) (.of main_v575) (.of main_v576) (.of main_v577) (.of main_v578) (.of main_v11) (.of main_v579) (.of main_v580) (.of main_arg1) (.of main_v581) (.of main_v582)

abbrev chunkO13 : List (HloOp τ sig (Elt F)) :=
  StableHlo.unary main_v328 main_v583 ((extractStridedSlice S4096x13 ![0, 0] · slices_S4096x16_S4096x13_0_0) : (⟨S4096x16, .f32⟩ : BufTy).Contents (Elt F) → (⟨S4096x13, .f32⟩ : BufTy).Contents (Elt F)) ::
  iterOps w13 13 slices_S4096x16_S4096x1_0_13 (.of main_cst_137) (.of main_cst_138) main_call28.call0.cst main_call28.call0.cst_0 main_call28.call0.v7 main_call28.call0.cst_1 main_call28.call0.v8 main_call28.call0.cst_2 main_call28.call0.cst_3 main_call28.call0.cst_4 main_call28.call0.call0.v0 (.of main_cst_140) (.of main_cst_141) (.of main_c_139) main_call28.call0.v12 (.of main_v584) (.of main_v585) (.of main_v586) main_call28.call0.v0 main_call28.call0.v9 main_call28.call0.v10 main_call28.call0.v11 main_call28.call0.call0.v1 main_call28.call0.call0.v2 main_call28.v1 (.of main_v591) (.of main_v592) (.of main_v587) main_call28.call0.v1 main_call28.call0.v2 main_call28.call0.v3 (.of main_v593) (.of main_v583) (.of main_v588) (.of main_v589) main_call28.call0.v4 main_call28.call0.v5 main_call28.call0.v6 (.of main_v594) (.of main_v595) (.of main_v596) (.of main_v597) (.of main_v598) (.of main_v599) (.of main_v11) (.of main_v600) (.of main_v601) (.of main_arg1) (.of main_v602) (.of main_v603)

abbrev chunkO14 : List (HloOp τ sig (Elt F)) :=
  StableHlo.unary main_v328 main_v604 ((extractStridedSlice S4096x14 ![0, 0] · slices_S4096x16_S4096x14_0_0) : (⟨S4096x16, .f32⟩ : BufTy).Contents (Elt F) → (⟨S4096x14, .f32⟩ : BufTy).Contents (Elt F)) ::
  iterOps w14 14 slices_S4096x16_S4096x1_0_14 (.of main_cst_142) (.of main_cst_143) main_call29.call0.cst main_call29.call0.cst_0 main_call29.call0.v7 main_call29.call0.cst_1 main_call29.call0.v8 main_call29.call0.cst_2 main_call29.call0.cst_3 main_call29.call0.cst_4 main_call29.call0.call0.v0 (.of main_cst_145) (.of main_cst_146) (.of main_c_144) main_call29.call0.v12 (.of main_v605) (.of main_v606) (.of main_v607) main_call29.call0.v0 main_call29.call0.v9 main_call29.call0.v10 main_call29.call0.v11 main_call29.call0.call0.v1 main_call29.call0.call0.v2 main_call29.v1 (.of main_v612) (.of main_v613) (.of main_v608) main_call29.call0.v1 main_call29.call0.v2 main_call29.call0.v3 (.of main_v614) (.of main_v604) (.of main_v609) (.of main_v610) main_call29.call0.v4 main_call29.call0.v5 main_call29.call0.v6 (.of main_v615) (.of main_v616) (.of main_v617) (.of main_v618) (.of main_v619) (.of main_v620) (.of main_v11) (.of main_v621) (.of main_v622) (.of main_arg1) (.of main_v623) (.of main_v624)

abbrev chunkO15 : List (HloOp τ sig (Elt F)) :=
  StableHlo.unary main_v328 main_v625 ((extractStridedSlice S4096x15 ![0, 0] · slices_S4096x16_S4096x15_0_0) : (⟨S4096x16, .f32⟩ : BufTy).Contents (Elt F) → (⟨S4096x15, .f32⟩ : BufTy).Contents (Elt F)) ::
  iterOps w15 15 slices_S4096x16_S4096x1_0_15 (.of main_cst_147) (.of main_cst_148) main_call30.call0.cst main_call30.call0.cst_0 main_call30.call0.v7 main_call30.call0.cst_1 main_call30.call0.v8 main_call30.call0.cst_2 main_call30.call0.cst_3 main_call30.call0.cst_4 main_call30.call0.call0.v0 (.of main_cst_150) (.of main_cst_151) (.of main_c_149) main_call30.call0.v12 (.of main_v626) (.of main_v627) (.of main_v628) main_call30.call0.v0 main_call30.call0.v9 main_call30.call0.v10 main_call30.call0.v11 main_call30.call0.call0.v1 main_call30.call0.call0.v2 main_call30.v1 (.of main_v633) (.of main_v634) (.of main_v629) main_call30.call0.v1 main_call30.call0.v2 main_call30.call0.v3 (.of main_v635) (.of main_v625) (.of main_v630) (.of main_v631) main_call30.call0.v4 main_call30.call0.v5 main_call30.call0.v6 (.of main_v636) (.of main_v637) (.of main_v638) (.of main_v639) (.of main_v640) (.of main_v641) (.of main_v11) (.of main_v642) (.of main_v643) (.of main_arg1) (.of main_v644) (.of main_v645)

abbrev chunkEnd : List (HloOp τ sig (Elt F)) :=
  [ StableHlo.nary ![main_v330, main_v351, main_v372, main_v393, main_v414, main_v435, main_v456, main_v477, main_v498, main_v519, main_v540, main_v561, main_v582, main_v603, main_v624, main_v645] main_v646 (fun u => concatenate S4096x16 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩, ⟨S4096x1, u 13⟩, ⟨S4096x1, u 14⟩, ⟨S4096x1, u 15⟩] concatenates_S4096x1_S4096x1_S4096x1_S4096x1_S4096x1_S4096x1_S4096x1_S4096x1_S4096x1_S4096x1_S4096x1_S4096x1_S4096x1_S4096x1_S4096x1_S4096x1_S4096x16_d1) ]

theorem chunkPre_sub : (chunkPre : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., unary_bufs_sub .., binary_bufs_sub ..⟩

theorem chunkPre_fresh : (chunkPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem chunkMid_sub : (chunkMid : List (HloOp τ sig (Elt F))).Forall fun op => op.bufs ⊆ tcRefs τ sig :=
  ⟨nary_bufs_sub .., unary_bufs_sub .., binary_bufs_sub ..⟩

theorem chunkMid_fresh : (chunkMid : List (HloOp τ sig (Elt F))).Forall fun op => op.fresh = ∅ :=
  ⟨rfl, rfl, rfl⟩

theorem chunkEnd_sub : (chunkEnd : List (HloOp τ sig (Elt F))).Forall fun op => op.bufs ⊆ tcRefs τ sig :=
  nary_bufs_sub ..

theorem chunkEnd_fresh : (chunkEnd : List (HloOp τ sig (Elt F))).Forall fun op => op.fresh = ∅ :=
  rfl

end Cert.ReferenceIdeal.RRun

end
-- ==== Proof.ROps.lean ====
import proofs.«156821_j17033840296170_1_alg».proof.Proof.RChunks

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

theorem take_drop_append {α : Type} (k : ℕ) (l r : List α) : l.take k ++ (l.drop k ++ r) = l ++ r := by
  rw [← List.append_assoc, List.take_append_drop]

abbrev ops_part0 : List (HloOp τ sig (Elt F)) :=
  chunkPre ++ (chunkC1 ++ chunkC2.take 39)

abbrev ops_part1 : List (HloOp τ sig (Elt F)) :=
  chunkC2.drop 39 ++ (chunkC3 ++ chunkC4.take 47)

abbrev ops_part2 : List (HloOp τ sig (Elt F)) :=
  chunkC4.drop 47 ++ (chunkC5 ++ (chunkC6 ++ chunkC7.take 7))

abbrev ops_part3 : List (HloOp τ sig (Elt F)) :=
  chunkC7.drop 7 ++ (chunkC8 ++ chunkC9.take 37)

abbrev ops_part4 : List (HloOp τ sig (Elt F)) :=
  chunkC9.drop 37 ++ (chunkC10 ++ chunkC11.take 45)

abbrev ops_part5 : List (HloOp τ sig (Elt F)) :=
  chunkC11.drop 45 ++ (chunkC12 ++ (chunkC13 ++ chunkC14.take 5))

abbrev ops_part6 : List (HloOp τ sig (Elt F)) :=
  chunkC14.drop 5 ++ (chunkC15 ++ (chunkMid ++ chunkO1.take 10))

abbrev ops_part7 : List (HloOp τ sig (Elt F)) :=
  chunkO1.drop 10 ++ (chunkO2 ++ chunkO3.take 40)

abbrev ops_part8 : List (HloOp τ sig (Elt F)) :=
  chunkO3.drop 40 ++ (chunkO4 ++ (chunkO5))

abbrev ops_part9 : List (HloOp τ sig (Elt F)) :=
  chunkO6 ++ (chunkO7 ++ chunkO8.take 8)

abbrev ops_part10 : List (HloOp τ sig (Elt F)) :=
  chunkO8.drop 8 ++ (chunkO9 ++ chunkO10.take 38)

abbrev ops_part11 : List (HloOp τ sig (Elt F)) :=
  chunkO10.drop 38 ++ (chunkO11 ++ chunkO12.take 46)

abbrev ops_part12 : List (HloOp τ sig (Elt F)) :=
  chunkO12.drop 46 ++ (chunkO13 ++ (chunkO14 ++ chunkO15.take 6))

abbrev ops_part13 : List (HloOp τ sig (Elt F)) :=
  chunkO15.drop 6 ++ (chunkEnd)

abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13)))))))))))))

set_option maxRecDepth 65536 in
set_option maxHeartbeats 4000000 in
theorem main_part0_eq (c : Dev nD) : main_part0 (F := F) c = seq ops_part0 := rfl

set_option maxRecDepth 65536 in
set_option maxHeartbeats 4000000 in
theorem main_part1_eq (c : Dev nD) : main_part1 (F := F) c = seq ops_part1 := rfl

set_option maxRecDepth 65536 in
set_option maxHeartbeats 4000000 in
theorem main_part2_eq (c : Dev nD) : main_part2 (F := F) c = seq ops_part2 := rfl

set_option maxRecDepth 65536 in
set_option maxHeartbeats 4000000 in
theorem main_part3_eq (c : Dev nD) : main_part3 (F := F) c = seq ops_part3 := rfl

set_option maxRecDepth 65536 in
set_option maxHeartbeats 4000000 in
theorem main_part4_eq (c : Dev nD) : main_part4 (F := F) c = seq ops_part4 := rfl

set_option maxRecDepth 65536 in
set_option maxHeartbeats 4000000 in
theorem main_part5_eq (c : Dev nD) : main_part5 (F := F) c = seq ops_part5 := rfl

set_option maxRecDepth 65536 in
set_option maxHeartbeats 4000000 in
theorem main_part6_eq (c : Dev nD) : main_part6 (F := F) c = seq ops_part6 := rfl

set_option maxRecDepth 65536 in
set_option maxHeartbeats 4000000 in
theorem main_part7_eq (c : Dev nD) : main_part7 (F := F) c = seq ops_part7 := rfl

set_option maxRecDepth 65536 in
set_option maxHeartbeats 4000000 in
theorem main_part8_eq (c : Dev nD) : main_part8 (F := F) c = seq ops_part8 := rfl

set_option maxRecDepth 65536 in
set_option maxHeartbeats 4000000 in
theorem main_part9_eq (c : Dev nD) : main_part9 (F := F) c = seq ops_part9 := rfl

set_option maxRecDepth 65536 in
set_option maxHeartbeats 4000000 in
theorem main_part10_eq (c : Dev nD) : main_part10 (F := F) c = seq ops_part10 := rfl

set_option maxRecDepth 65536 in
set_option maxHeartbeats 4000000 in
theorem main_part11_eq (c : Dev nD) : main_part11 (F := F) c = seq ops_part11 := rfl

set_option maxRecDepth 65536 in
set_option maxHeartbeats 4000000 in
theorem main_part12_eq (c : Dev nD) : main_part12 (F := F) c = seq ops_part12 := rfl

set_option maxRecDepth 65536 in
set_option maxHeartbeats 4000000 in
theorem main_part13_eq (c : Dev nD) : main_part13 (F := F) c = seq ops_part13 := rfl

set_option maxRecDepth 65536 in
theorem main_eq (c : Dev nD) : main (F := F) c = seq ops := by
  rw [seq_append ops_part0, seq_append ops_part1, seq_append ops_part2, seq_append ops_part3, seq_append ops_part4, seq_append ops_part5, seq_append ops_part6, seq_append ops_part7, seq_append ops_part8, seq_append ops_part9, seq_append ops_part10, seq_append ops_part11, seq_append ops_part12,
    ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c]
  rfl

theorem ops_eq_chunks : (ops : List (HloOp τ sig (Elt F))) = chunkPre ++ (chunkC1 ++ (chunkC2 ++ (chunkC3 ++ (chunkC4 ++ (chunkC5 ++ (chunkC6 ++ (chunkC7 ++ (chunkC8 ++ (chunkC9 ++ (chunkC10 ++ (chunkC11 ++ (chunkC12 ++ (chunkC13 ++ (chunkC14 ++ (chunkC15 ++ (chunkMid ++ (chunkO1 ++ (chunkO2 ++ (chunkO3 ++ (chunkO4 ++ (chunkO5 ++ (chunkO6 ++ (chunkO7 ++ (chunkO8 ++ (chunkO9 ++ (chunkO10 ++ (chunkO11 ++ (chunkO12 ++ (chunkO13 ++ (chunkO14 ++ (chunkO15 ++ (chunkEnd)))))))))))))))))))))))))))))))) := by
  simp only [ops, ops_part0, ops_part1, ops_part2, ops_part3, ops_part4, ops_part5, ops_part6, ops_part7, ops_part8, ops_part9, ops_part10, ops_part11, ops_part12, ops_part13, List.append_assoc, take_drop_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [ops_eq_chunks]
  simp only [List.forall_append]
  exact
    ⟨chunkPre_sub, iterOps_sub .., (List.forall_cons _ _ _).mpr ⟨binary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, (List.forall_cons _ _ _).mpr ⟨nary_bufs_sub .., iterOps_sub ..⟩,
      (List.forall_cons _ _ _).mpr ⟨nary_bufs_sub .., iterOps_sub ..⟩, chunkMid_sub, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩,
      (List.forall_cons _ _ _).mpr ⟨unary_bufs_sub .., iterOps_sub ..⟩, (List.forall_cons _ _ _).mpr ⟨unary_bufs_sub .., iterOps_sub ..⟩, chunkEnd_sub⟩

theorem ops_fresh : ∀ op ∈ (ops : List (HloOp τ sig (Elt F))), op.fresh = ∅ :=
  List.forall_iff_forall_mem.mp (by
    rw [ops_eq_chunks]
    simp only [List.forall_append]
    exact
      ⟨chunkPre_fresh, iterOps_fresh .., (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩, chunkMid_fresh,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, (List.forall_cons _ _ _).mpr ⟨rfl, iterOps_fresh ..⟩,
        (List.forall_cons _ _ _).mpr ⟨rfl, iterOps_fresh ..⟩, chunkEnd_fresh⟩)

end Cert.ReferenceIdeal.RRun

end
-- ==== Proof.RRun.lean ====
import proofs.«156821_j17033840296170_1_alg».proof.Proof.ROps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ
    (fun _ => ops_fresh)

end Cert.ReferenceIdeal.RRun

end
-- ==== Proof.RArgs.lean ====
import proofs.«156821_j17033840296170_1_alg».proof.Proof.Gen.ReferenceIdeal
import proofs.«156821_j17033840296170_1_alg».proof.Proof.Spec
import Idealize.ShloMosaic.Lib.ValueIdx

noncomputable section

namespace Cert.ReferenceIdeal.RValue

open Idealize.ShloMosaic Idealize.ShloMosaic.ValueIdx Idealize.ShloMosaic.TcCoe Idealize.SL.Sem Cert.ReferenceIdeal Cert.ReferenceIdeal.Gen

variable (m : (ℓ : Loc nD τ sig) → Buf (Elt Ideal) ℓ) (c : Dev nD)

def xOf : Fin 4096 → Fin 4096 → EReal := fun b d => m ((c : Thread nD τ).loc main_arg0) (ix2 b d)

def wOf : Fin 4096 → Fin 16 → EReal := fun d i => m ((c : Thread nD τ).loc main_arg1) (ix2 d i)

def wsOf : Fin 4096 → Fin 16 → EReal := fun d i => m ((c : Thread nD τ).loc main_arg2) (ix2 d i)

end Cert.ReferenceIdeal.RValue

end
-- ==== Proof.RInv.lean ====
import proofs.«156821_j17033840296170_1_alg».proof.Proof.RArgs
import Idealize.ShloMosaic.Lib.StableHlo.Run

noncomputable section

namespace Cert.ReferenceIdeal.RValue

open Idealize.ShloMosaic Idealize.ShloMosaic.ValueIdx Idealize.ShloMosaic.TcCoe Idealize.SL.Sem Cert.ReferenceIdeal Cert.ReferenceIdeal.Gen

variable (m : (ℓ : Loc nD τ sig) → Buf (Elt Ideal) ℓ) (c : Dev nD)

def Xn : Fin 4096 → Fin 4096 → EReal := Cert.PLS.XS (xOf m c)

def cvS (n : ℕ) : List Cert.PLS.Col := Cert.PLS.cvR (Xn m c) (Cert.PLS.colOf (wsOf m c)) n

def rawR (n : ℕ) : Cert.PLS.Col := Cert.PLS.deflS (Xn m c) (cvS m c n) (Cert.PLS.colOf (wsOf m c) n)

def outS (n : ℕ) : Cert.PLS.Col := Cert.PLS.deflS (Xn m c) (cvS m c n) (Cert.PLS.colOf (wOf m c) n)

theorem cvS_zero : cvS m c 0 = [] := rfl

theorem GR_eq (b : Fin 4096) (i : Fin 16) : Cert.PLS.GR (xOf m c) (wOf m c) (wsOf m c) b i = outS m c i.val b := rfl

theorem colOf_at (a : Fin 4096 → Fin 16 → EReal) (k : Fin 16) (d : Fin 4096) : Cert.PLS.colOf a k.val d = a d k := by
  unfold Cert.PLS.colOf; rw [dif_pos k.isLt]

theorem rawR_eq (n : ℕ) (hn : n < 16) (X : Fin 4096 → Fin 4096 → EReal) (L : List Cert.PLS.Col) (wc : Fin 4096 → EReal)
    (hX : X = Xn m c) (hL : L = cvS m c n) (hw : ∀ d, wc d = wsOf m c d ⟨n, hn⟩) :
    Cert.PLS.deflS X L wc = rawR m c n := by
  subst hX hL
  have e : wc = Cert.PLS.colOf (wsOf m c) n := funext fun d => (hw d).trans (colOf_at (wsOf m c) ⟨n, hn⟩ d).symm
  rw [e]; rfl

theorem outS_eq (n : ℕ) (hn : n < 16) (X : Fin 4096 → Fin 4096 → EReal) (L : List Cert.PLS.Col) (wc : Fin 4096 → EReal)
    (hX : X = Xn m c) (hL : L = cvS m c n) (hw : ∀ d, wc d = wOf m c d ⟨n, hn⟩) :
    Cert.PLS.deflS X L wc = outS m c n := by
  subst hX hL
  have e : wc = Cert.PLS.colOf (wOf m c) n := funext fun d => (hw d).trans (colOf_at (wOf m c) ⟨n, hn⟩ d).symm
  rw [e]; rfl

theorem idx_col (idx : S4096x1.Idx) : idx = ix2 (idx 0) (0 : Fin 1) := by
  funext a
  match a with
  | ⟨0, _⟩ => rfl
  | ⟨1, _⟩ => exact Fin.ext (by have h : (idx 1).val < 1 := idx2_lt1 idx; show (idx 1).val = 0; omega)

def colAt (W : Valuation τ sig (Elt Ideal)) : ℕ → FVec Ideal S4096x1 .f32
  | 0 => W (Proc.devRef .tc main_v13)
  | 1 => W (Proc.devRef .tc main_v33)
  | 2 => W (Proc.devRef .tc main_v54)
  | 3 => W (Proc.devRef .tc main_v75)
  | 4 => W (Proc.devRef .tc main_v96)
  | 5 => W (Proc.devRef .tc main_v117)
  | 6 => W (Proc.devRef .tc main_v138)
  | 7 => W (Proc.devRef .tc main_v159)
  | 8 => W (Proc.devRef .tc main_v180)
  | 9 => W (Proc.devRef .tc main_v201)
  | 10 => W (Proc.devRef .tc main_v222)
  | 11 => W (Proc.devRef .tc main_v243)
  | 12 => W (Proc.devRef .tc main_v264)
  | 13 => W (Proc.devRef .tc main_v285)
  | 14 => W (Proc.devRef .tc main_v306)
  | 15 => W (Proc.devRef .tc main_v327)
  | _ => fun _ => 0

def outAt (W : Valuation τ sig (Elt Ideal)) : ℕ → FVec Ideal S4096x1 .f32
  | 0 => W (Proc.devRef .tc main_v330)
  | 1 => W (Proc.devRef .tc main_v351)
  | 2 => W (Proc.devRef .tc main_v372)
  | 3 => W (Proc.devRef .tc main_v393)
  | 4 => W (Proc.devRef .tc main_v414)
  | 5 => W (Proc.devRef .tc main_v435)
  | 6 => W (Proc.devRef .tc main_v456)
  | 7 => W (Proc.devRef .tc main_v477)
  | 8 => W (Proc.devRef .tc main_v498)
  | 9 => W (Proc.devRef .tc main_v519)
  | 10 => W (Proc.devRef .tc main_v540)
  | 11 => W (Proc.devRef .tc main_v561)
  | 12 => W (Proc.devRef .tc main_v582)
  | 13 => W (Proc.devRef .tc main_v603)
  | 14 => W (Proc.devRef .tc main_v624)
  | 15 => W (Proc.devRef .tc main_v645)
  | _ => fun _ => 0

structure InvA (W : Valuation τ sig (Elt Ideal)) : Prop where
  h0 : W (Proc.devRef .tc main_arg0) = m ((c : Thread nD τ).loc main_arg0)
  hw : W (Proc.devRef .tc main_arg1) = m ((c : Thread nD τ).loc main_arg1)
  hws : W (Proc.devRef .tc main_arg2) = m ((c : Thread nD τ).loc main_arg2)
  hX : W (Proc.devRef .tc main_v11) = fun idx => Xn m c (idx 0) (idx 1)

structure InvC (n : ℕ) (W : Valuation τ sig (Elt Ideal)) : Prop extends InvA m c W where
  hcol : ∀ j, j ≤ n → colAt W j = fun idx => rawR m c j (idx 0)

structure InvO (n : ℕ) (W : Valuation τ sig (Elt Ideal)) : Prop extends InvA m c W where
  hcm : ∀ (b : Fin 4096) (k : Fin 16), W (Proc.devRef .tc main_v328) (ix2 b k) = rawR m c k.val b
  hout : ∀ j, j ≤ n → outAt W j = fun idx => outS m c j (idx 0)

end Cert.ReferenceIdeal.RValue

end
-- ==== Proof.LibKeepAll.lean ====
import Idealize.ShloMosaic.Lib.StableHlo.Run

namespace Cert.LibKeepAll

open Idealize.ShloMosaic

macro "kept_all" ops:ident+ : tactic => `(tactic|
  exact StableHlo.after_of_forall_not_mem _ _ (List.forall_iff_forall_mem.mp (by
    simp only [$[$ops:ident],*, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.RPre.lean ====
import proofs.«156821_j17033840296170_1_alg».proof.Proof.RInv
import proofs.«156821_j17033840296170_1_alg».proof.Proof.RChunks
import proofs.«156821_j17033840296170_1_alg».proof.Proof.RCoreX
import proofs.«156821_j17033840296170_1_alg».proof.Proof.LibKeepAll
import Idealize.ShloMosaic.Lib.StableHlo.Run

noncomputable section

open scoped BigOperators

namespace Cert.ReferenceIdeal.RValue

open Idealize.ShloMosaic Idealize.ShloMosaic.ValueIdx Idealize.ShloMosaic.TcCoe Idealize.SL.Sem Cert.ReferenceIdeal Cert.ReferenceIdeal.Gen
open Cert.ReferenceIdeal.RRun Cert.LibKeepAll

variable (m : (ℓ : Loc nD τ sig) → Buf (Elt Ideal) ℓ) (c : Dev nD)

theorem pre_arg0 : StableHlo.after (chunkPre (F := Ideal)) (StableHlo.launchContents m c) (Proc.devRef .tc main_arg0) = m ((c : Thread nD τ).loc main_arg0) := by
  refine Eq.trans (by kept_all chunkPre) ?_
  rfl
theorem pre_arg1 : StableHlo.after (chunkPre (F := Ideal)) (StableHlo.launchContents m c) (Proc.devRef .tc main_arg1) = m ((c : Thread nD τ).loc main_arg1) := by
  refine Eq.trans (by kept_all chunkPre) ?_
  rfl
theorem pre_arg2 : StableHlo.after (chunkPre (F := Ideal)) (StableHlo.launchContents m c) (Proc.devRef .tc main_arg2) = m ((c : Thread nD τ).loc main_arg2) := by
  refine Eq.trans (by kept_all chunkPre) ?_
  rfl

theorem pre_v11 : StableHlo.after (chunkPre (F := Ideal)) (StableHlo.launchContents m c) (Proc.devRef .tc main_v11)
    = RCore.coreX (F := Ideal) (m ((c : Thread nD τ).loc main_arg0)) := by
  after_results_simp
  rfl

theorem pre_v13 : StableHlo.after (chunkPre (F := Ideal)) (StableHlo.launchContents m c) (Proc.devRef .tc main_v13)
    = RCore.core0 (F := Ideal) (RCore.coreX (F := Ideal) (m ((c : Thread nD τ).loc main_arg0)))
        (extractStridedSlice S4096x1 ![0, 0] (m ((c : Thread nD τ).loc main_arg2)) slices_S4096x16_S4096x1_0_0) := by
  after_results_simp
  rfl

theorem coreX_at (b d : Fin 4096) :
    RCore.coreX (F := Ideal) (m ((c : Thread nD τ).loc main_arg0)) (ix2 b d) = Xn m c b d :=
  RCore.coreX_apply (m ((c : Thread nD τ).loc main_arg0)) b d

theorem pre_step : InvC m c 0 (StableHlo.after (chunkPre (F := Ideal)) (StableHlo.launchContents m c)) where
  h0 := pre_arg0 m c
  hw := pre_arg1 m c
  hws := pre_arg2 m c
  hX := by
    rw [pre_v11]
    funext idx
    obtain ⟨b, d, rfl⟩ : ∃ (b : Fin 4096) (d : Fin 4096), idx = ix2 b d := ⟨idx 0, idx 1, eq_ix2 idx⟩
    exact coreX_at m c b d
  hcol := by
    intro j hj
    obtain rfl : j = 0 := Nat.le_zero.mp hj
    show StableHlo.after (chunkPre (F := Ideal)) (StableHlo.launchContents m c) (Proc.devRef .tc main_v13) = _
    rw [pre_v13]
    funext idx
    obtain ⟨b, rfl⟩ : ∃ b : Fin 4096, idx = ix2 b (0 : Fin 1) := ⟨idx 0, idx_col idx⟩
    show _ = rawR m c 0 b
    rw [RCore.core0_apply]
    show _ = Cert.PLS.deflS (Xn m c) [] (Cert.PLS.colOf (wsOf m c) 0) b
    rw [RCore.deflS_nil]
    congr 1
    · funext b d
      exact coreX_at m c b d
    · funext d
      rw [RCore.wslice_at_0]
      exact (colOf_at (wsOf m c) 0 d).symm

end Cert.ReferenceIdeal.RValue

end
-- ==== Proof.RCat.lean ====
import proofs.«156821_j17033840296170_1_alg».proof.Proof.Gen.ReferenceIdeal
import Idealize.ShloMosaic.Lib.ValueIdx
import Idealize.ShloMosaic.Lib.Pipeline.Value

namespace Cert.ReferenceIdeal.RCore

open Idealize.ShloMosaic Idealize.ShloMosaic.ValueIdx Cert.ReferenceIdeal Cert.ReferenceIdeal.Gen

variable {α : Type}

theorem catN_apply {N : ℕ} (u : Fin N → (S4096x1.Idx → α))
    (h : Shape.Concatenates ((List.ofFn fun k : Fin N => (⟨S4096x1, u k⟩ : (s : Shape) × (s.Idx → α))).map (·.1)) ⟨2, ![4096, N]⟩ 1)
    (b : Fin 4096) (j : Fin N) :
    concatenate ⟨2, ![4096, N]⟩ 1 (List.ofFn fun k : Fin N => (⟨S4096x1, u k⟩ : (s : Shape) × (s.Idx → α))) h (ix2 b j)
      = u j (ix2 b (0 : Fin 1)) :=
  concatenate_ofFn_unit_apply (t := ⟨2, ![4096, N]⟩) (s₁ := S4096x1) (1 : Fin 2) u h rfl rfl (ix2 b j) j rfl (ix2 b (0 : Fin 1)) (fun ax hax => by
    match ax, hax with
    | ⟨0, _⟩, _ => rfl
    | ⟨1, _⟩, hax => exact absurd rfl hax)

theorem sliceN_apply {n : ℕ} (hn : n ≤ 16) (M : S4096x16.Idx → α) (h : S4096x16.Slices ![0, 0] ⟨2, ![4096, n]⟩)
    (b : Fin 4096) (j : Fin n) :
    extractStridedSlice ⟨2, ![4096, n]⟩ ![0, 0] M h (ix2 b j) = M (ix2 b (Fin.castLE hn j)) :=
  extractStridedSlice_apply ![0, 0] M h (ix2 b j) (ix2 b (Fin.castLE hn j)) fun ax => by
    match ax with
    | ⟨0, _⟩ => exact (Nat.zero_add _).symm
    | ⟨1, _⟩ => exact (Nat.zero_add _).symm

theorem wcol_apply (M : S4096x16.Idx → α) (k : ℕ) (hk : k < 16) (h : S4096x16.Slices ![0, k] S4096x1) (d : Fin 4096) :
    extractStridedSlice S4096x1 ![0, k] M h (ix2 d (0 : Fin 1)) = M (ix2 d (⟨k, hk⟩ : Fin 16)) :=
  extractStridedSlice_apply ![0, k] M h (ix2 d (0 : Fin 1)) (ix2 d (⟨k, hk⟩ : Fin 16)) fun ax => by
    match ax with
    | ⟨0, _⟩ => exact (Nat.zero_add _).symm
    | ⟨1, _⟩ => rfl

end Cert.ReferenceIdeal.RCore
-- ==== Proof.RStep.lean ====
import proofs.«156821_j17033840296170_1_alg».proof.Proof.RInv
import proofs.«156821_j17033840296170_1_alg».proof.Proof.RCoreG
import proofs.«156821_j17033840296170_1_alg».proof.Proof.RCat
import Idealize.ShloMosaic.Lib.StableHlo.Run

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RCore

variable {m : (ℓ : Loc nD τ sig) → Buf (Elt Ideal) ℓ} {c : Dev nD} {W : Valuation τ sig (Elt Ideal)}
  {ops : List (HloOp τ sig (Elt Ideal))}

-- The buffers an iteration of the first scan does not write: the arguments, the normalised inputs, columns 0 … n.
structure KeptC (n : ℕ) (ops : List (HloOp τ sig (Elt Ideal))) (W : Valuation τ sig (Elt Ideal)) : Prop where
  k0 : after ops W (Proc.devRef .tc main_arg0) = W (Proc.devRef .tc main_arg0)
  k1 : after ops W (Proc.devRef .tc main_arg1) = W (Proc.devRef .tc main_arg1)
  k2 : after ops W (Proc.devRef .tc main_arg2) = W (Proc.devRef .tc main_arg2)
  kX : after ops W (Proc.devRef .tc main_v11) = W (Proc.devRef .tc main_v11)
  kcol : ∀ j, j ≤ n → colAt (after ops W) j = colAt W j

-- The same for the second scan, with the factor matrix and output columns 0 … n.
structure KeptO (n : ℕ) (ops : List (HloOp τ sig (Elt Ideal))) (W : Valuation τ sig (Elt Ideal)) : Prop where
  k0 : after ops W (Proc.devRef .tc main_arg0) = W (Proc.devRef .tc main_arg0)
  k1 : after ops W (Proc.devRef .tc main_arg1) = W (Proc.devRef .tc main_arg1)
  k2 : after ops W (Proc.devRef .tc main_arg2) = W (Proc.devRef .tc main_arg2)
  kX : after ops W (Proc.devRef .tc main_v11) = W (Proc.devRef .tc main_v11)
  kcm : after ops W (Proc.devRef .tc main_v328) = W (Proc.devRef .tc main_v328)
  kout : ∀ j, j ≤ n → outAt (after ops W) j = outAt W j

theorem rev_finRange_succ {α : Type} (f : ℕ → α) (n : ℕ) :
    (List.finRange (n + 1)).reverse.map (fun k => f k.val) = f n :: (List.finRange n).reverse.map (fun k => f k.val) := by
  rw [List.finRange_succ_last, List.reverse_append, List.map_append, List.reverse_singleton, List.map_singleton,
    List.singleton_append, ← List.map_reverse, List.map_map]
  rfl

-- The normalised factors after n steps are the z-normalised raw columns n-1 … 0.
theorem cvS_eq (n : ℕ) : cvS m c n = (List.finRange n).reverse.map fun k => Cert.PLS.znS (rawR m c k.val) := by
  induction n with
  | zero => rfl
  | succ n ih => exact (congrArg (_ :: ·) ih).trans (rev_finRange_succ (fun j => Cert.PLS.znS (rawR m c j)) n).symm

-- One iteration of the first scan carries the property from n to n+1 iterations: the new column is the iteration's function of columns 0 … n, which are the raw columns.
theorem InvC.step {n : ℕ} (h : InvC m c n W) (w : CoreW (n + 1)) (hk : KeptC n ops W)
    {C : FVec Ideal ⟨2, ![4096, n + 1]⟩ .f32} {hs : S4096x16.Slices ![0, n + 1] S4096x1}
    (hnew : colAt (after ops W) (n + 1) = core w C (W (Proc.devRef .tc main_v11))
        (extractStridedSlice S4096x1 ![0, n + 1] (W (Proc.devRef .tc main_arg2)) hs))
    (hC : ∀ (b' : Fin 4096) (k : Fin (n + 1)), C (ix2 b' k) = colAt W k.val (ix2 b' (0 : Fin 1))) (hn : n + 1 < 16) :
    InvC m c (n + 1) (after ops W) where
  h0 := hk.k0.trans h.h0
  hw := hk.k1.trans h.hw
  hws := hk.k2.trans h.hws
  hX := hk.kX.trans h.hX
  hcol := fun j hj => by
    rcases Nat.lt_or_ge n j with hlt | hle
    · obtain rfl : j = n + 1 := by omega
      rw [hnew]
      funext idx
      obtain ⟨b, rfl⟩ : ∃ b : Fin 4096, idx = ix2 b (0 : Fin 1) := ⟨idx 0, idx_col idx⟩
      rw [core_apply]
      refine congrFun (rawR_eq m c (n + 1) hn _ _ _ ?_ ?_ ?_) b
      · rw [h.hX]; rfl
      · have e : (fun k : Fin (n + 1) => Cert.PLS.znS fun b' => C (ix2 b' k)) = fun k => Cert.PLS.znS (rawR m c k.val) :=
          funext fun k => congrArg Cert.PLS.znS (funext fun b' =>
            (hC b' k).trans (congrFun (h.hcol k.val (by have := k.isLt; omega)) _))
        rw [e, cvS_eq]
      · intro d; rw [wcol_apply _ (n + 1) hn, h.hws]; rfl
    · exact (hk.kcol j hle).trans (h.hcol j hle)

-- The same for the second scan, whose earlier columns are the first n+1 columns of the factor matrix.
theorem InvO.step {n : ℕ} (h : InvO m c n W) (w : CoreW (n + 1)) (hk : KeptO n ops W)
    {hsl : S4096x16.Slices ![0, 0] ⟨2, ![4096, n + 1]⟩} {hs : S4096x16.Slices ![0, n + 1] S4096x1}
    (hnew : outAt (after ops W) (n + 1)
      = core w (extractStridedSlice ⟨2, ![4096, n + 1]⟩ ![0, 0] (W (Proc.devRef .tc main_v328)) hsl)
        (W (Proc.devRef .tc main_v11)) (extractStridedSlice S4096x1 ![0, n + 1] (W (Proc.devRef .tc main_arg1)) hs))
    (hn : n + 1 < 16) : InvO m c (n + 1) (after ops W) where
  h0 := hk.k0.trans h.h0
  hw := hk.k1.trans h.hw
  hws := hk.k2.trans h.hws
  hX := hk.kX.trans h.hX
  hcm := fun b k => by rw [hk.kcm]; exact h.hcm b k
  hout := fun j hj => by
    rcases Nat.lt_or_ge n j with hlt | hle
    · obtain rfl : j = n + 1 := by omega
      rw [hnew]
      funext idx
      obtain ⟨b, rfl⟩ : ∃ b : Fin 4096, idx = ix2 b (0 : Fin 1) := ⟨idx 0, idx_col idx⟩
      rw [core_apply]
      refine congrFun (outS_eq m c (n + 1) hn _ _ _ ?_ ?_ ?_) b
      · rw [h.hX]; rfl
      · have e : (fun k : Fin (n + 1) => Cert.PLS.znS fun b' =>
              extractStridedSlice ⟨2, ![4096, n + 1]⟩ ![0, 0] (W (Proc.devRef .tc main_v328)) hsl (ix2 b' k))
            = fun k => Cert.PLS.znS (rawR m c k.val) :=
          funext fun k => congrArg Cert.PLS.znS (funext fun b' =>
            (sliceN_apply (by omega) _ hsl b' k).trans (h.hcm b' _))
        rw [e, cvS_eq]
      · intro d; rw [wcol_apply _ (n + 1) hn, h.hw]; rfl
    · exact (hk.kout j hle).trans (h.hout j hle)

end Cert.ReferenceIdeal.RValue

end
-- ==== Proof.RItC1.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC1 : KeptC 0 (chunkC1 (F := Ideal)) W :=
  ⟨by kept_all chunkC1 iterOps, by kept_all chunkC1 iterOps, by kept_all chunkC1 iterOps, by kept_all chunkC1 iterOps,
    fun j hj => by interval_cases j <;> kept_all chunkC1 iterOps⟩

set_option maxRecDepth 8192 in
set_option maxHeartbeats 1600000 in
theorem newC1_eq : after (chunkC1 (F := Ideal)) W (Proc.devRef .tc main_v33)
    = core (F := Ideal) w1
        (W (Proc.devRef .tc main_v13))
        (W (Proc.devRef .tc main_v11))
        (extractStridedSlice S4096x1 ![0, 1] (W (Proc.devRef .tc main_arg2)) slices_S4096x16_S4096x1_0_1) := by
  after_results_simp
  rfl

theorem stepC1 (h : InvC m c 0 W) : InvC m c 1 (after (chunkC1 (F := Ideal)) W) :=
  h.step w1 (keptC1 W) (newC1_eq W) (fun b' k => by fin_cases k; rfl) (by decide)

end Cert.ReferenceIdeal.RValue

end
-- ==== Proof.RItC2.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC2 : KeptC 1 (chunkC2 (F := Ideal)) W :=
  ⟨by kept_all chunkC2 iterOps, by kept_all chunkC2 iterOps, by kept_all chunkC2 iterOps, by kept_all chunkC2 iterOps,
    fun j hj => by interval_cases j <;> kept_all chunkC2 iterOps⟩

set_option maxRecDepth 8192 in
set_option maxHeartbeats 1600000 in
theorem newC2_eq : after (chunkC2 (F := Ideal)) W (Proc.devRef .tc main_v54)
    = core (F := Ideal) w2
        (concatenate S4096x2 1 [⟨S4096x1, W (Proc.devRef .tc main_v13)⟩, ⟨S4096x1, W (Proc.devRef .tc main_v33)⟩] concatenates_S4096x1_S4096x1_S4096x2_d1)
        (W (Proc.devRef .tc main_v11))
        (extractStridedSlice S4096x1 ![0, 2] (W (Proc.devRef .tc main_arg2)) slices_S4096x16_S4096x1_0_2) := by
  after_results_simp
  rfl

theorem stepC2 (h : InvC m c 1 W) : InvC m c 2 (after (chunkC2 (F := Ideal)) W) :=
  h.step w2 (keptC2 W) (newC2_eq W) (fun b' k => catN_apply (fun k : Fin 2 => colAt W k.val) _ b' k) (by decide)

end Cert.ReferenceIdeal.RValue

end
-- ==== Proof.RItC3.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC3 : KeptC 2 (chunkC3 (F := Ideal)) W :=
  ⟨by kept_all chunkC3 iterOps, by kept_all chunkC3 iterOps, by kept_all chunkC3 iterOps, by kept_all chunkC3 iterOps,
    fun j hj => by interval_cases j <;> kept_all chunkC3 iterOps⟩

set_option maxRecDepth 8192 in
set_option maxHeartbeats 1600000 in
theorem newC3_eq : after (chunkC3 (F := Ideal)) W (Proc.devRef .tc main_v75)
    = core (F := Ideal) w3
        (concatenate S4096x3 1 [⟨S4096x1, W (Proc.devRef .tc main_v13)⟩, ⟨S4096x1, W (Proc.devRef .tc main_v33)⟩, ⟨S4096x1, W (Proc.devRef .tc main_v54)⟩] concatenates_S4096x1_S4096x1_S4096x1_S4096x3_d1)
        (W (Proc.devRef .tc main_v11))
        (extractStridedSlice S4096x1 ![0, 3] (W (Proc.devRef .tc main_arg2)) slices_S4096x16_S4096x1_0_3) := by
  after_results_simp
  rfl

theorem stepC3 (h : InvC m c 2 W) : InvC m c 3 (after (chunkC3 (F := Ideal)) W) :=
  h.step w3 (keptC3 W) (newC3_eq W) (fun b' k => catN_apply (fun k : Fin 3 => colAt W k.val) _ b' k) (by decide)

end Cert.ReferenceIdeal.RValue

end
-- ==== Proof.RItC4.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC4_0 (j : ℕ) (h0 : 0 ≤ j) (h1 : j ≤ 3) : colAt (after (chunkC4 (F := Ideal)) W) j = colAt W j := by
  interval_cases j <;> kept_all chunkC4 iterOps

theorem keptC4 : KeptC 3 (chunkC4 (F := Ideal)) W :=
  ⟨by kept_all chunkC4 iterOps, by kept_all chunkC4 iterOps, by kept_all chunkC4 iterOps, by kept_all chunkC4 iterOps,
    fun j hj => keptC4_0 W j (by omega) hj⟩

set_option maxRecDepth 8192 in
set_option maxHeartbeats 1600000 in
theorem newC4_eq : after (chunkC4 (F := Ideal)) W (Proc.devRef .tc main_v96)
    = core (F := Ideal) w4
        (concatenate S4096x4 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩] concatenates_S4096x1_S4096x1_S4096x1_S4096x1_S4096x4_d1)
        (W (Proc.devRef .tc main_v11))
        (extractStridedSlice S4096x1 ![0, 4] (W (Proc.devRef .tc main_arg2)) slices_S4096x16_S4096x1_0_4) := by
  after_results_simp
  rfl

theorem stepC4 (h : InvC m c 3 W) : InvC m c 4 (after (chunkC4 (F := Ideal)) W) :=
  h.step w4 (keptC4 W) (newC4_eq W) (fun b' k => catN_apply (fun k : Fin 4 => colAt W k.val) _ b' k) (by decide)

end Cert.ReferenceIdeal.RValue

end
-- ==== Proof.RItC5.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC5_0 (j : ℕ) (h0 : 0 ≤ j) (h1 : j ≤ 4) : colAt (after (chunkC5 (F := Ideal)) W) j = colAt W j := by
  interval_cases j <;> kept_all chunkC5 iterOps

theorem keptC5 : KeptC 4 (chunkC5 (F := Ideal)) W :=
  ⟨by kept_all chunkC5 iterOps, by kept_all chunkC5 iterOps, by kept_all chunkC5 iterOps, by kept_all chunkC5 iterOps,
    fun j hj => keptC5_0 W j (by omega) hj⟩

set_option maxRecDepth 8192 in
set_option maxHeartbeats 1600000 in
theorem newC5_eq : after (chunkC5 (F := Ideal)) W (Proc.devRef .tc main_v117)
    = core (F := Ideal) w5
        (concatenate S4096x5 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩] concatenates_S4096x1_S4096x1_S4096x1_S4096x1_S4096x1_S4096x5_d1)
        (W (Proc.devRef .tc main_v11))
        (extractStridedSlice S4096x1 ![0, 5] (W (Proc.devRef .tc main_arg2)) slices_S4096x16_S4096x1_0_5) := by
  after_results_simp
  rfl

theorem stepC5 (h : InvC m c 4 W) : InvC m c 5 (after (chunkC5 (F := Ideal)) W) :=
  h.step w5 (keptC5 W) (newC5_eq W) (fun b' k => catN_apply (fun k : Fin 5 => colAt W k.val) _ b' k) (by decide)

end Cert.ReferenceIdeal.RValue

end
-- ==== Proof.RItC6.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC6_0 (j : ℕ) (h0 : 0 ≤ j) (h1 : j ≤ 5) : colAt (after (chunkC6 (F := Ideal)) W) j = colAt W j := by
  interval_cases j <;> kept_all chunkC6 iterOps

theorem keptC6 : KeptC 5 (chunkC6 (F := Ideal)) W :=
  ⟨by kept_all chunkC6 iterOps, by kept_all chunkC6 iterOps, by kept_all chunkC6 iterOps, by kept_all chunkC6 iterOps,
    fun j hj => keptC6_0 W j (by omega) hj⟩

set_option maxRecDepth 8192 in
set_option maxHeartbeats 1600000 in
theorem newC6_eq : after (chunkC6 (F := Ideal)) W (Proc.devRef .tc main_v138)
    = core (F := Ideal) w6
        (concatenate S4096x6 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩] concatenates_S4096x1_S4096x1_S4096x1_S4096x1_S4096x1_S4096x1_S4096x6_d1)
        (W (Proc.devRef .tc main_v11))
        (extractStridedSlice S4096x1 ![0, 6] (W (Proc.devRef .tc main_arg2)) slices_S4096x16_S4096x1_0_6) := by
  after_results_simp
  rfl

theorem stepC6 (h : InvC m c 5 W) : InvC m c 6 (after (chunkC6 (F := Ideal)) W) :=
  h.step w6 (keptC6 W) (newC6_eq W) (fun b' k => catN_apply (fun k : Fin 6 => colAt W k.val) _ b' k) (by decide)

end Cert.ReferenceIdeal.RValue

end
-- ==== Proof.RItC7.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC7_0 (j : ℕ) (h0 : 0 ≤ j) (h1 : j ≤ 5) : colAt (after (chunkC7 (F := Ideal)) W) j = colAt W j := by
  interval_cases j <;> kept_all chunkC7 iterOps

theorem keptC7_6 (j : ℕ) (h0 : 6 ≤ j) (h1 : j ≤ 6) : colAt (after (chunkC7 (F := Ideal)) W) j = colAt W j := by
  interval_cases j <;> kept_all chunkC7 iterOps

theorem keptC7 : KeptC 6 (chunkC7 (F := Ideal)) W :=
  ⟨by kept_all chunkC7 iterOps, by kept_all chunkC7 iterOps, by kept_all chunkC7 iterOps, by kept_all chunkC7 iterOps,
    fun j hj => if h0 : j ≤ 5 then keptC7_0 W j (by omega) h0 else keptC7_6 W j (by omega) hj⟩

set_option maxRecDepth 8192 in
set_option maxHeartbeats 1600000 in
theorem newC7_eq : after (chunkC7 (F := Ideal)) W (Proc.devRef .tc main_v159)
    = core (F := Ideal) w7
        (concatenate S4096x7 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩] concatenates_S4096x1_S4096x1_S4096x1_S4096x1_S4096x1_S4096x1_S4096x1_S4096x7_d1)
        (W (Proc.devRef .tc main_v11))
        (extractStridedSlice S4096x1 ![0, 7] (W (Proc.devRef .tc main_arg2)) slices_S4096x16_S4096x1_0_7) := by
  after_results_simp
  rfl

theorem stepC7 (h : InvC m c 6 W) : InvC m c 7 (after (chunkC7 (F := Ideal)) W) :=
  h.step w7 (keptC7 W) (newC7_eq W) (fun b' k => catN_apply (fun k : Fin 7 => colAt W k.val) _ b' k) (by decide)

end Cert.ReferenceIdeal.RValue

end
-- ==== Proof.RItC8.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC8_0 (j : ℕ) (h0 : 0 ≤ j) (h1 : j ≤ 5) : colAt (after (chunkC8 (F := Ideal)) W) j = colAt W j := by
  interval_cases j <;> kept_all chunkC8 iterOps

theorem keptC8_6 (j : ℕ) (h0 : 6 ≤ j) (h1 : j ≤ 7) : colAt (after (chunkC8 (F := Ideal)) W) j = colAt W j := by
  interval_cases j <;> kept_all chunkC8 iterOps

theorem keptC8 : KeptC 7 (chunkC8 (F := Ideal)) W :=
  ⟨by kept_all chunkC8 iterOps, by kept_all chunkC8 iterOps, by kept_all chunkC8 iterOps, by kept_all chunkC8 iterOps,
    fun j hj => if h0 : j ≤ 5 then keptC8_0 W j (by omega) h0 else keptC8_6 W j (by omega) hj⟩

set_option maxRecDepth 8192 in
set_option maxHeartbeats 1600000 in
theorem newC8_eq : after (chunkC8 (F := Ideal)) W (Proc.devRef .tc main_v180)
    = core (F := Ideal) w8
        (concatenate S4096x8 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩] concatenates_S4096x1_S4096x1_S4096x1_S4096x1_S4096x1_S4096x1_S4096x1_S4096x1_S4096x8_d1)
        (W (Proc.devRef .tc main_v11))
        (extractStridedSlice S4096x1 ![0, 8] (W (Proc.devRef .tc main_arg2)) slices_S4096x16_S4096x1_0_8) := by
  after_results_simp
  rfl

theorem stepC8 (h : InvC m c 7 W) : InvC m c 8 (after (chunkC8 (F := Ideal)) W) :=
  h.step w8 (keptC8 W) (newC8_eq W) (fun b' k => catN_apply (fun k : Fin 8 => colAt W k.val) _ b' k) (by decide)

end Cert.ReferenceIdeal.RValue

end
-- ==== Proof.RItC9.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC9_0 (j : ℕ) (h0 : 0 ≤ j) (h1 : j ≤ 5) : colAt (after (chunkC9 (F := Ideal)) W) j = colAt W j := by
  interval_cases j <;> kept_all chunkC9 iterOps

theorem keptC9_6 (j : ℕ) (h0 : 6 ≤ j) (h1 : j ≤ 8) : colAt (after (chunkC9 (F := Ideal)) W) j = colAt W j := by
  interval_cases j <;> kept_all chunkC9 iterOps

theorem keptC9 : KeptC 8 (chunkC9 (F := Ideal)) W :=
  ⟨by kept_all chunkC9 iterOps, by kept_all chunkC9 iterOps, by kept_all chunkC9 iterOps, by kept_all chunkC9 iterOps,
    fun j hj => if h0 : j ≤ 5 then keptC9_0 W j (by omega) h0 else keptC9_6 W j (by omega) hj⟩

set_option maxRecDepth 8192 in
set_option maxHeartbeats 1600000 in
theorem newC9_eq : after (chunkC9 (F := Ideal)) W (Proc.devRef .tc main_v201)
    = core (F := Ideal) w9
        (concatenate S4096x9 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩] concatenates_S4096x1_S4096x1_S4096x1_S4096x1_S4096x1_S4096x1_S4096x1_S4096x1_S4096x1_S4096x9_d1)
        (W (Proc.devRef .tc main_v11))
        (extractStridedSlice S4096x1 ![0, 9] (W (Proc.devRef .tc main_arg2)) slices_S4096x16_S4096x1_0_9) := by
  after_results_simp
  rfl

theorem stepC9 (h : InvC m c 8 W) : InvC m c 9 (after (chunkC9 (F := Ideal)) W) :=
  h.step w9 (keptC9 W) (newC9_eq W) (fun b' k => catN_apply (fun k : Fin 9 => colAt W k.val) _ b' k) (by decide)

end Cert.ReferenceIdeal.RValue

end
-- ==== Proof.RItC10.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC10_0 (j : ℕ) (h0 : 0 ≤ j) (h1 : j ≤ 5) : colAt (after (chunkC10 (F := Ideal)) W) j = colAt W j := by
  interval_cases j <;> kept_all chunkC10 iterOps

theorem keptC10_6 (j : ℕ) (h0 : 6 ≤ j) (h1 : j ≤ 9) : colAt (after (chunkC10 (F := Ideal)) W) j = colAt W j := by
  interval_cases j <;> kept_all chunkC10 iterOps

theorem keptC10 : KeptC 9 (chunkC10 (F := Ideal)) W :=
  ⟨by kept_all chunkC10 iterOps, by kept_all chunkC10 iterOps, by kept_all chunkC10 iterOps, by kept_all chunkC10 iterOps,
    fun j hj => if h0 : j ≤ 5 then keptC10_0 W j (by omega) h0 else keptC10_6 W j (by omega) hj⟩

set_option maxRecDepth 8192 in
set_option maxHeartbeats 1600000 in
theorem newC10_eq : after (chunkC10 (F := Ideal)) W (Proc.devRef .tc main_v222)
    = core (F := Ideal) w10
        (concatenate S4096x10 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩] concatenates_S4096x1_S4096x1_S4096x1_S4096x1_S4096x1_S4096x1_S4096x1_S4096x1_S4096x1_S4096x1_S4096x10_d1)
        (W (Proc.devRef .tc main_v11))
        (extractStridedSlice S4096x1 ![0, 10] (W (Proc.devRef .tc main_arg2)) slices_S4096x16_S4096x1_0_10) := by
  after_results_simp
  rfl

theorem stepC10 (h : InvC m c 9 W) : InvC m c 10 (after (chunkC10 (F := Ideal)) W) :=
  h.step w10 (keptC10 W) (newC10_eq W) (fun b' k => catN_apply (fun k : Fin 10 => colAt W k.val) _ b' k) (by decide)

end Cert.ReferenceIdeal.RValue

end
-- ==== Proof.RItC11.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC11_0 (j : ℕ) (h0 : 0 ≤ j) (h1 : j ≤ 5) : colAt (after (chunkC11 (F := Ideal)) W) j = colAt W j := by
  interval_cases j <;> kept_all chunkC11 iterOps

theorem keptC11_6 (j : ℕ) (h0 : 6 ≤ j) (h1 : j ≤ 10) : colAt (after (chunkC11 (F := Ideal)) W) j = colAt W j := by
  interval_cases j <;> kept_all chunkC11 iterOps

theorem keptC11 : KeptC 10 (chunkC11 (F := Ideal)) W :=
  ⟨by kept_all chunkC11 iterOps, by kept_all chunkC11 iterOps, by kept_all chunkC11 iterOps, by kept_all chunkC11 iterOps,
    fun j hj => if h0 : j ≤ 5 then keptC11_0 W j (by omega) h0 else keptC11_6 W j (by omega) hj⟩

set_option maxRecDepth 8192 in
set_option maxHeartbeats 1600000 in
theorem newC11_eq : after (chunkC11 (F := Ideal)) W (Proc.devRef .tc main_v243)
    = core (F := Ideal) w11
        (concatenate S4096x11 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩, ⟨S4096x1, W (Proc.devRef .tc main_v222)⟩] concatenates_S4096x1_S4096x1_S4096x1_S4096x1_S4096x1_S4096x1_S4096x1_S4096x1_S4096x1_S4096x1_S4096x1_S4096x11_d1)
        (W (Proc.devRef .tc main_v11))
        (extractStridedSlice S4096x1 ![0, 11] (W (Proc.devRef .tc main_arg2)) slices_S4096x16_S4096x1_0_11) := by
  after_results_simp
  rfl

theorem stepC11 (h : InvC m c 10 W) : InvC m c 11 (after (chunkC11 (F := Ideal)) W) :=
  h.step w11 (keptC11 W) (newC11_eq W) (fun b' k => catN_apply (fun k : Fin 11 => colAt W k.val) _ b' k) (by decide)

end Cert.ReferenceIdeal.RValue

end
-- ==== Proof.RItC12.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC12_0 (j : ℕ) (h0 : 0 ≤ j) (h1 : j ≤ 5) : colAt (after (chunkC12 (F := Ideal)) W) j = colAt W j := by
  interval_cases j <;> kept_all chunkC12 iterOps

theorem keptC12_6 (j : ℕ) (h0 : 6 ≤ j) (h1 : j ≤ 11) : colAt (after (chunkC12 (F := Ideal)) W) j = colAt W j := by
  interval_cases j <;> kept_all chunkC12 iterOps

theorem keptC12 : KeptC 11 (chunkC12 (F := Ideal)) W :=
  ⟨by kept_all chunkC12 iterOps, by kept_all chunkC12 iterOps, by kept_all chunkC12 iterOps, by kept_all chunkC12 iterOps,
    fun j hj => if h0 : j ≤ 5 then keptC12_0 W j (by omega) h0 else keptC12_6 W j (by omega) hj⟩

set_option maxRecDepth 8192 in
set_option maxHeartbeats 1600000 in
theorem newC12_eq : after (chunkC12 (F := Ideal)) W (Proc.devRef .tc main_v264)
    = core (F := Ideal) w12
        (concatenate S4096x12 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩, ⟨S4096x1, W (Proc.devRef .tc main_v222)⟩, ⟨S4096x1, W (Proc.devRef .tc main_v243)⟩] concatenates_S4096x1_S4096x1_S4096x1_S4096x1_S4096x1_S4096x1_S4096x1_S4096x1_S4096x1_S4096x1_S4096x1_S4096x1_S4096x12_d1)
        (W (Proc.devRef .tc main_v11))
        (extractStridedSlice S4096x1 ![0, 12] (W (Proc.devRef .tc main_arg2)) slices_S4096x16_S4096x1_0_12) := by
  after_results_simp
  rfl

theorem stepC12 (h : InvC m c 11 W) : InvC m c 12 (after (chunkC12 (F := Ideal)) W) :=
  h.step w12 (keptC12 W) (newC12_eq W) (fun b' k => catN_apply (fun k : Fin 12 => colAt W k.val) _ b' k) (by decide)

end Cert.ReferenceIdeal.RValue

end
-- ==== Proof.RItC13.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC13_0 (j : ℕ) (h0 : 0 ≤ j) (h1 : j ≤ 5) : colAt (after (chunkC13 (F := Ideal)) W) j = colAt W j := by
  interval_cases j <;> kept_all chunkC13 iterOps

theorem keptC13_6 (j : ℕ) (h0 : 6 ≤ j) (h1 : j ≤ 11) : colAt (after (chunkC13 (F := Ideal)) W) j = colAt W j := by
  interval_cases j <;> kept_all chunkC13 iterOps

theorem keptC13_12 (j : ℕ) (h0 : 12 ≤ j) (h1 : j ≤ 12) : colAt (after (chunkC13 (F := Ideal)) W) j = colAt W j := by
  interval_cases j <;> kept_all chunkC13 iterOps

theorem keptC13 : KeptC 12 (chunkC13 (F := Ideal)) W :=
  ⟨by kept_all chunkC13 iterOps, by kept_all chunkC13 iterOps, by kept_all chunkC13 iterOps, by kept_all chunkC13 iterOps,
    fun j hj => if h0 : j ≤ 5 then keptC13_0 W j (by omega) h0 else if h1 : j ≤ 11 then keptC13_6 W j (by omega) h1 else keptC13_12 W j (by omega) hj⟩

set_option maxRecDepth 8192 in
set_option maxHeartbeats 1600000 in
theorem newC13_eq : after (chunkC13 (F := Ideal)) W (Proc.devRef .tc main_v285)
    = core (F := Ideal) w13
        (concatenate S4096x13 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩, ⟨S4096x1, W (Proc.devRef .tc main_v222)⟩, ⟨S4096x1, W (Proc.devRef .tc main_v243)⟩, ⟨S4096x1, W (Proc.devRef .tc main_v264)⟩] concatenates_S4096x1_S4096x1_S4096x1_S4096x1_S4096x1_S4096x1_S4096x1_S4096x1_S4096x1_S4096x1_S4096x1_S4096x1_S4096x1_S4096x13_d1)
        (W (Proc.devRef .tc main_v11))
        (extractStridedSlice S4096x1 ![0, 13] (W (Proc.devRef .tc main_arg2)) slices_S4096x16_S4096x1_0_13) := by
  after_results_simp
  rfl

theorem stepC13 (h : InvC m c 12 W) : InvC m c 13 (after (chunkC13 (F := Ideal)) W) :=
  h.step w13 (keptC13 W) (newC13_eq W) (fun b' k => catN_apply (fun k : Fin 13 => colAt W k.val) _ b' k) (by decide)

end Cert.ReferenceIdeal.RValue

end
-- ==== Proof.RItC14.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC14_0 (j : ℕ) (h0 : 0 ≤ j) (h1 : j ≤ 5) : colAt (after (chunkC14 (F := Ideal)) W) j = colAt W j := by
  interval_cases j <;> kept_all chunkC14 iterOps

theorem keptC14_6 (j : ℕ) (h0 : 6 ≤ j) (h1 : j ≤ 11) : colAt (after (chunkC14 (F := Ideal)) W) j = colAt W j := by
  interval_cases j <;> kept_all chunkC14 iterOps

theorem keptC14_12 (j : ℕ) (h0 : 12 ≤ j) (h1 : j ≤ 13) : colAt (after (chunkC14 (F := Ideal)) W) j = colAt W j := by
  interval_cases j <;> kept_all chunkC14 iterOps

theorem keptC14 : KeptC 13 (chunkC14 (F := Ideal)) W :=
  ⟨by kept_all chunkC14 iterOps, by kept_all chunkC14 iterOps, by kept_all chunkC14 iterOps, by kept_all chunkC14 iterOps,
    fun j hj => if h0 : j ≤ 5 then keptC14_0 W j (by omega) h0 else if h1 : j ≤ 11 then keptC14_6 W j (by omega) h1 else keptC14_12 W j (by omega) hj⟩

set_option maxRecDepth 8192 in
set_option maxHeartbeats 1600000 in
theorem newC14_eq : after (chunkC14 (F := Ideal)) W (Proc.devRef .tc main_v306)
    = core (F := Ideal) w14
        (concatenate S4096x14 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩, ⟨S4096x1, W (Proc.devRef .tc main_v222)⟩, ⟨S4096x1, W (Proc.devRef .tc main_v243)⟩, ⟨S4096x1, W (Proc.devRef .tc main_v264)⟩, ⟨S4096x1, W (Proc.devRef .tc main_v285)⟩] concatenates_S4096x1_S4096x1_S4096x1_S4096x1_S4096x1_S4096x1_S4096x1_S4096x1_S4096x1_S4096x1_S4096x1_S4096x1_S4096x1_S4096x1_S4096x14_d1)
        (W (Proc.devRef .tc main_v11))
        (extractStridedSlice S4096x1 ![0, 14] (W (Proc.devRef .tc main_arg2)) slices_S4096x16_S4096x1_0_14) := by
  after_results_simp
  rfl

theorem stepC14 (h : InvC m c 13 W) : InvC m c 14 (after (chunkC14 (F := Ideal)) W) :=
  h.step w14 (keptC14 W) (newC14_eq W) (fun b' k => catN_apply (fun k : Fin 14 => colAt W k.val) _ b' k) (by decide)

end Cert.ReferenceIdeal.RValue

end
-- ==== Proof.RItC15.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptC15_0 (j : ℕ) (h0 : 0 ≤ j) (h1 : j ≤ 5) : colAt (after (chunkC15 (F := Ideal)) W) j = colAt W j := by
  interval_cases j <;> kept_all chunkC15 iterOps

theorem keptC15_6 (j : ℕ) (h0 : 6 ≤ j) (h1 : j ≤ 11) : colAt (after (chunkC15 (F := Ideal)) W) j = colAt W j := by
  interval_cases j <;> kept_all chunkC15 iterOps

theorem keptC15_12 (j : ℕ) (h0 : 12 ≤ j) (h1 : j ≤ 14) : colAt (after (chunkC15 (F := Ideal)) W) j = colAt W j := by
  interval_cases j <;> kept_all chunkC15 iterOps

theorem keptC15 : KeptC 14 (chunkC15 (F := Ideal)) W :=
  ⟨by kept_all chunkC15 iterOps, by kept_all chunkC15 iterOps, by kept_all chunkC15 iterOps, by kept_all chunkC15 iterOps,
    fun j hj => if h0 : j ≤ 5 then keptC15_0 W j (by omega) h0 else if h1 : j ≤ 11 then keptC15_6 W j (by omega) h1 else keptC15_12 W j (by omega) hj⟩

set_option maxRecDepth 8192 in
set_option maxHeartbeats 1600000 in
theorem newC15_eq : after (chunkC15 (F := Ideal)) W (Proc.devRef .tc main_v327)
    = core (F := Ideal) w15
        (concatenate S4096x15 1 [⟨S4096x1, W (Proc.devRef .tc main_v13)⟩, ⟨S4096x1, W (Proc.devRef .tc main_v33)⟩, ⟨S4096x1, W (Proc.devRef .tc main_v54)⟩, ⟨S4096x1, W (Proc.devRef .tc main_v75)⟩, ⟨S4096x1, W (Proc.devRef .tc main_v96)⟩, ⟨S4096x1, W (Proc.devRef .tc main_v117)⟩, ⟨S4096x1, W (Proc.devRef .tc main_v138)⟩, ⟨S4096x1, W (Proc.devRef .tc main_v159)⟩, ⟨S4096x1, W (Proc.devRef .tc main_v180)⟩, ⟨S4096x1, W (Proc.devRef .tc main_v201)⟩, ⟨S4096x1, W (Proc.devRef .tc main_v222)⟩, ⟨S4096x1, W (Proc.devRef .tc main_v243)⟩, ⟨S4096x1, W (Proc.devRef .tc main_v264)⟩, ⟨S4096x1, W (Proc.devRef .tc main_v285)⟩, ⟨S4096x1, W (Proc.devRef .tc main_v306)⟩] concatenates_S4096x1_S4096x1_S4096x1_S4096x1_S4096x1_S4096x1_S4096x1_S4096x1_S4096x1_S4096x1_S4096x1_S4096x1_S4096x1_S4096x1_S4096x1_S4096x15_d1)
        (W (Proc.devRef .tc main_v11))
        (extractStridedSlice S4096x1 ![0, 15] (W (Proc.devRef .tc main_arg2)) slices_S4096x16_S4096x1_0_15) := by
  after_results_simp
  rfl

theorem stepC15 (h : InvC m c 14 W) : InvC m c 15 (after (chunkC15 (F := Ideal)) W) :=
  h.step w15 (keptC15 W) (newC15_eq W) (fun b' k => catN_apply (fun k : Fin 15 => colAt W k.val) _ b' k) (by decide)

end Cert.ReferenceIdeal.RValue

end
-- ==== Proof.RMid.lean ====
import proofs.«156821_j17033840296170_1_alg».proof.Proof.RInv
import proofs.«156821_j17033840296170_1_alg».proof.Proof.RChunks
import proofs.«156821_j17033840296170_1_alg».proof.Proof.RCat
import proofs.«156821_j17033840296170_1_alg».proof.Proof.LibDot

noncomputable section

open scoped BigOperators

namespace Cert.ReferenceIdeal.RValue

open Idealize.ShloMosaic Idealize.ShloMosaic.ValueIdx Idealize.ShloMosaic.TcCoe Idealize.SL.Sem Cert.ReferenceIdeal Cert.ReferenceIdeal.Gen Cert.ReferenceIdeal.RRun Cert.ReferenceIdeal.RCore

variable (m : (ℓ : Loc nD τ sig) → Buf (Elt Ideal) ℓ) (c : Dev nD)

theorem aux_mid_cat (W : Valuation τ sig (Elt Ideal)) (b : Fin 4096) (k : Fin 16) :
    StableHlo.after (chunkMid (F := Ideal)) W (Proc.devRef .tc main_v328) (ix2 b k) = colAt W k.val (ix2 b (0 : Fin 1)) := by
  after_results
  exact catN_apply (fun k : Fin 16 => colAt W k.val) _ b k

theorem aux_deflS_nil (X : Fin 4096 → Fin 4096 → EReal) (wc : Fin 4096 → EReal) (b : Fin 4096) :
    Cert.PLS.deflS X [] wc b = ∑ d, X b d * wc d := by
  unfold Cert.PLS.deflS Cert.PLS.linS
  simp only [List.map_nil, List.sum_nil, sub_zero]

theorem aux_mid_out0 (W : Valuation τ sig (Elt Ideal)) (h : InvA m c W) (b : Fin 4096) :
    StableHlo.after (chunkMid (F := Ideal)) W (Proc.devRef .tc main_v330) (ix2 b (0 : Fin 1)) = outS m c 0 b := by
  after_results
  rw [h.hX, h.hw]
  refine (Cert.LibDot.dotGeneral_at dot_S4096x4096_S4096x1_S4096x1_1_0_0_1_n_n rfl rfl rfl rfl rfl rfl none .single _ _ b (0 : Fin 1)).trans ?_
  unfold outS
  rw [cvS_zero, aux_deflS_nil]
  refine Finset.sum_congr rfl fun d _ => ?_
  rw [wcol_apply _ 0 (by norm_num) _ d]
  exact congrArg (fun t => Xn m c b d * t) (colOf_at (wOf m c) (0 : Fin 16) d).symm

theorem mid_step (W : Valuation τ sig (Elt Ideal)) (h : InvC m c 15 W) :
    InvO m c 0 (StableHlo.after (chunkMid (F := Ideal)) W) where
  h0 := (by after_results : StableHlo.after (chunkMid (F := Ideal)) W (Proc.devRef .tc main_arg0) = W (Proc.devRef .tc main_arg0)).trans h.h0
  hw := (by after_results : StableHlo.after (chunkMid (F := Ideal)) W (Proc.devRef .tc main_arg1) = W (Proc.devRef .tc main_arg1)).trans h.hw
  hws := (by after_results : StableHlo.after (chunkMid (F := Ideal)) W (Proc.devRef .tc main_arg2) = W (Proc.devRef .tc main_arg2)).trans h.hws
  hX := (by after_results : StableHlo.after (chunkMid (F := Ideal)) W (Proc.devRef .tc main_v11) = W (Proc.devRef .tc main_v11)).trans h.hX
  hcm := fun b k => by rw [aux_mid_cat, h.hcol k.val (by have := k.isLt; omega)]
  hout := fun j hj => by
    obtain rfl : j = 0 := by omega
    funext idx
    show StableHlo.after (chunkMid (F := Ideal)) W (Proc.devRef .tc main_v330) idx = _
    rw [idx_col idx]
    exact aux_mid_out0 m c W h.toInvA (idx 0)

end Cert.ReferenceIdeal.RValue

end
-- ==== Proof.RItO1.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO1 : KeptO 0 (chunkO1 (F := Ideal)) W :=
  ⟨by kept_all chunkO1 iterOps, by kept_all chunkO1 iterOps, by kept_all chunkO1 iterOps, by kept_all chunkO1 iterOps, by kept_all chunkO1 iterOps,
    fun j hj => by interval_cases j <;> kept_all chunkO1 iterOps⟩

set_option maxRecDepth 8192 in
set_option maxHeartbeats 1600000 in
theorem newO1_eq : after (chunkO1 (F := Ideal)) W (Proc.devRef .tc main_v351)
    = core (F := Ideal) w1
        (extractStridedSlice S4096x1 ![0, 0] (W (Proc.devRef .tc main_v328)) slices_S4096x16_S4096x1_0_0)
        (W (Proc.devRef .tc main_v11))
        (extractStridedSlice S4096x1 ![0, 1] (W (Proc.devRef .tc main_arg1)) slices_S4096x16_S4096x1_0_1) := by
  after_results_simp
  rfl

theorem stepO1 (h : InvO m c 0 W) : InvO m c 1 (after (chunkO1 (F := Ideal)) W) :=
  h.step w1 (keptO1 W) (newO1_eq W) (by decide)

end Cert.ReferenceIdeal.RValue

end
-- ==== Proof.RItO2.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO2 : KeptO 1 (chunkO2 (F := Ideal)) W :=
  ⟨by kept_all chunkO2 iterOps, by kept_all chunkO2 iterOps, by kept_all chunkO2 iterOps, by kept_all chunkO2 iterOps, by kept_all chunkO2 iterOps,
    fun j hj => by interval_cases j <;> kept_all chunkO2 iterOps⟩

set_option maxRecDepth 8192 in
set_option maxHeartbeats 1600000 in
theorem newO2_eq : after (chunkO2 (F := Ideal)) W (Proc.devRef .tc main_v372)
    = core (F := Ideal) w2
        (extractStridedSlice S4096x2 ![0, 0] (W (Proc.devRef .tc main_v328)) slices_S4096x16_S4096x2_0_0)
        (W (Proc.devRef .tc main_v11))
        (extractStridedSlice S4096x1 ![0, 2] (W (Proc.devRef .tc main_arg1)) slices_S4096x16_S4096x1_0_2) := by
  after_results_simp
  rfl

theorem stepO2 (h : InvO m c 1 W) : InvO m c 2 (after (chunkO2 (F := Ideal)) W) :=
  h.step w2 (keptO2 W) (newO2_eq W) (by decide)

end Cert.ReferenceIdeal.RValue

end
-- ==== Proof.RItO3.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO3_0 (j : ℕ) (h0 : 0 ≤ j) (h1 : j ≤ 2) : outAt (after (chunkO3 (F := Ideal)) W) j = outAt W j := by
  interval_cases j <;> kept_all chunkO3 iterOps

theorem keptO3 : KeptO 2 (chunkO3 (F := Ideal)) W :=
  ⟨by kept_all chunkO3 iterOps, by kept_all chunkO3 iterOps, by kept_all chunkO3 iterOps, by kept_all chunkO3 iterOps, by kept_all chunkO3 iterOps,
    fun j hj => keptO3_0 W j (by omega) hj⟩

set_option maxRecDepth 8192 in
set_option maxHeartbeats 1600000 in
theorem newO3_eq : after (chunkO3 (F := Ideal)) W (Proc.devRef .tc main_v393)
    = core (F := Ideal) w3
        (extractStridedSlice S4096x3 ![0, 0] (W (Proc.devRef .tc main_v328)) slices_S4096x16_S4096x3_0_0)
        (W (Proc.devRef .tc main_v11))
        (extractStridedSlice S4096x1 ![0, 3] (W (Proc.devRef .tc main_arg1)) slices_S4096x16_S4096x1_0_3) := by
  after_results_simp
  rfl

theorem stepO3 (h : InvO m c 2 W) : InvO m c 3 (after (chunkO3 (F := Ideal)) W) :=
  h.step w3 (keptO3 W) (newO3_eq W) (by decide)

end Cert.ReferenceIdeal.RValue

end
-- ==== Proof.RItO4.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO4_0 (j : ℕ) (h0 : 0 ≤ j) (h1 : j ≤ 3) : outAt (after (chunkO4 (F := Ideal)) W) j = outAt W j := by
  interval_cases j <;> kept_all chunkO4 iterOps

theorem keptO4 : KeptO 3 (chunkO4 (F := Ideal)) W :=
  ⟨by kept_all chunkO4 iterOps, by kept_all chunkO4 iterOps, by kept_all chunkO4 iterOps, by kept_all chunkO4 iterOps, by kept_all chunkO4 iterOps,
    fun j hj => keptO4_0 W j (by omega) hj⟩

set_option maxRecDepth 8192 in
set_option maxHeartbeats 1600000 in
theorem newO4_eq : after (chunkO4 (F := Ideal)) W (Proc.devRef .tc main_v414)
    = core (F := Ideal) w4
        (extractStridedSlice S4096x4 ![0, 0] (W (Proc.devRef .tc main_v328)) slices_S4096x16_S4096x4_0_0)
        (W (Proc.devRef .tc main_v11))
        (extractStridedSlice S4096x1 ![0, 4] (W (Proc.devRef .tc main_arg1)) slices_S4096x16_S4096x1_0_4) := by
  after_results_simp
  rfl

theorem stepO4 (h : InvO m c 3 W) : InvO m c 4 (after (chunkO4 (F := Ideal)) W) :=
  h.step w4 (keptO4 W) (newO4_eq W) (by decide)

end Cert.ReferenceIdeal.RValue

end
-- ==== Proof.RItO5.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO5_0 (j : ℕ) (h0 : 0 ≤ j) (h1 : j ≤ 4) : outAt (after (chunkO5 (F := Ideal)) W) j = outAt W j := by
  interval_cases j <;> kept_all chunkO5 iterOps

theorem keptO5 : KeptO 4 (chunkO5 (F := Ideal)) W :=
  ⟨by kept_all chunkO5 iterOps, by kept_all chunkO5 iterOps, by kept_all chunkO5 iterOps, by kept_all chunkO5 iterOps, by kept_all chunkO5 iterOps,
    fun j hj => keptO5_0 W j (by omega) hj⟩

set_option maxRecDepth 8192 in
set_option maxHeartbeats 1600000 in
theorem newO5_eq : after (chunkO5 (F := Ideal)) W (Proc.devRef .tc main_v435)
    = core (F := Ideal) w5
        (extractStridedSlice S4096x5 ![0, 0] (W (Proc.devRef .tc main_v328)) slices_S4096x16_S4096x5_0_0)
        (W (Proc.devRef .tc main_v11))
        (extractStridedSlice S4096x1 ![0, 5] (W (Proc.devRef .tc main_arg1)) slices_S4096x16_S4096x1_0_5) := by
  after_results_simp
  rfl

theorem stepO5 (h : InvO m c 4 W) : InvO m c 5 (after (chunkO5 (F := Ideal)) W) :=
  h.step w5 (keptO5 W) (newO5_eq W) (by decide)

end Cert.ReferenceIdeal.RValue

end
-- ==== Proof.RItO6.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO6_0 (j : ℕ) (h0 : 0 ≤ j) (h1 : j ≤ 5) : outAt (after (chunkO6 (F := Ideal)) W) j = outAt W j := by
  interval_cases j <;> kept_all chunkO6 iterOps

theorem keptO6 : KeptO 5 (chunkO6 (F := Ideal)) W :=
  ⟨by kept_all chunkO6 iterOps, by kept_all chunkO6 iterOps, by kept_all chunkO6 iterOps, by kept_all chunkO6 iterOps, by kept_all chunkO6 iterOps,
    fun j hj => keptO6_0 W j (by omega) hj⟩

set_option maxRecDepth 8192 in
set_option maxHeartbeats 1600000 in
theorem newO6_eq : after (chunkO6 (F := Ideal)) W (Proc.devRef .tc main_v456)
    = core (F := Ideal) w6
        (extractStridedSlice S4096x6 ![0, 0] (W (Proc.devRef .tc main_v328)) slices_S4096x16_S4096x6_0_0)
        (W (Proc.devRef .tc main_v11))
        (extractStridedSlice S4096x1 ![0, 6] (W (Proc.devRef .tc main_arg1)) slices_S4096x16_S4096x1_0_6) := by
  after_results_simp
  rfl

theorem stepO6 (h : InvO m c 5 W) : InvO m c 6 (after (chunkO6 (F := Ideal)) W) :=
  h.step w6 (keptO6 W) (newO6_eq W) (by decide)

end Cert.ReferenceIdeal.RValue

end
-- ==== Proof.RItO7.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO7_0 (j : ℕ) (h0 : 0 ≤ j) (h1 : j ≤ 5) : outAt (after (chunkO7 (F := Ideal)) W) j = outAt W j := by
  interval_cases j <;> kept_all chunkO7 iterOps

theorem keptO7_6 (j : ℕ) (h0 : 6 ≤ j) (h1 : j ≤ 6) : outAt (after (chunkO7 (F := Ideal)) W) j = outAt W j := by
  interval_cases j <;> kept_all chunkO7 iterOps

theorem keptO7 : KeptO 6 (chunkO7 (F := Ideal)) W :=
  ⟨by kept_all chunkO7 iterOps, by kept_all chunkO7 iterOps, by kept_all chunkO7 iterOps, by kept_all chunkO7 iterOps, by kept_all chunkO7 iterOps,
    fun j hj => if h0 : j ≤ 5 then keptO7_0 W j (by omega) h0 else keptO7_6 W j (by omega) hj⟩

set_option maxRecDepth 8192 in
set_option maxHeartbeats 1600000 in
theorem newO7_eq : after (chunkO7 (F := Ideal)) W (Proc.devRef .tc main_v477)
    = core (F := Ideal) w7
        (extractStridedSlice S4096x7 ![0, 0] (W (Proc.devRef .tc main_v328)) slices_S4096x16_S4096x7_0_0)
        (W (Proc.devRef .tc main_v11))
        (extractStridedSlice S4096x1 ![0, 7] (W (Proc.devRef .tc main_arg1)) slices_S4096x16_S4096x1_0_7) := by
  after_results_simp
  rfl

theorem stepO7 (h : InvO m c 6 W) : InvO m c 7 (after (chunkO7 (F := Ideal)) W) :=
  h.step w7 (keptO7 W) (newO7_eq W) (by decide)

end Cert.ReferenceIdeal.RValue

end
-- ==== Proof.RItO8.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO8_0 (j : ℕ) (h0 : 0 ≤ j) (h1 : j ≤ 5) : outAt (after (chunkO8 (F := Ideal)) W) j = outAt W j := by
  interval_cases j <;> kept_all chunkO8 iterOps

theorem keptO8_6 (j : ℕ) (h0 : 6 ≤ j) (h1 : j ≤ 7) : outAt (after (chunkO8 (F := Ideal)) W) j = outAt W j := by
  interval_cases j <;> kept_all chunkO8 iterOps

theorem keptO8 : KeptO 7 (chunkO8 (F := Ideal)) W :=
  ⟨by kept_all chunkO8 iterOps, by kept_all chunkO8 iterOps, by kept_all chunkO8 iterOps, by kept_all chunkO8 iterOps, by kept_all chunkO8 iterOps,
    fun j hj => if h0 : j ≤ 5 then keptO8_0 W j (by omega) h0 else keptO8_6 W j (by omega) hj⟩

set_option maxRecDepth 8192 in
set_option maxHeartbeats 1600000 in
theorem newO8_eq : after (chunkO8 (F := Ideal)) W (Proc.devRef .tc main_v498)
    = core (F := Ideal) w8
        (extractStridedSlice S4096x8 ![0, 0] (W (Proc.devRef .tc main_v328)) slices_S4096x16_S4096x8_0_0)
        (W (Proc.devRef .tc main_v11))
        (extractStridedSlice S4096x1 ![0, 8] (W (Proc.devRef .tc main_arg1)) slices_S4096x16_S4096x1_0_8) := by
  after_results_simp
  rfl

theorem stepO8 (h : InvO m c 7 W) : InvO m c 8 (after (chunkO8 (F := Ideal)) W) :=
  h.step w8 (keptO8 W) (newO8_eq W) (by decide)

end Cert.ReferenceIdeal.RValue

end
-- ==== Proof.RItO9.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO9_0 (j : ℕ) (h0 : 0 ≤ j) (h1 : j ≤ 5) : outAt (after (chunkO9 (F := Ideal)) W) j = outAt W j := by
  interval_cases j <;> kept_all chunkO9 iterOps

theorem keptO9_6 (j : ℕ) (h0 : 6 ≤ j) (h1 : j ≤ 8) : outAt (after (chunkO9 (F := Ideal)) W) j = outAt W j := by
  interval_cases j <;> kept_all chunkO9 iterOps

theorem keptO9 : KeptO 8 (chunkO9 (F := Ideal)) W :=
  ⟨by kept_all chunkO9 iterOps, by kept_all chunkO9 iterOps, by kept_all chunkO9 iterOps, by kept_all chunkO9 iterOps, by kept_all chunkO9 iterOps,
    fun j hj => if h0 : j ≤ 5 then keptO9_0 W j (by omega) h0 else keptO9_6 W j (by omega) hj⟩

set_option maxRecDepth 8192 in
set_option maxHeartbeats 1600000 in
theorem newO9_eq : after (chunkO9 (F := Ideal)) W (Proc.devRef .tc main_v519)
    = core (F := Ideal) w9
        (extractStridedSlice S4096x9 ![0, 0] (W (Proc.devRef .tc main_v328)) slices_S4096x16_S4096x9_0_0)
        (W (Proc.devRef .tc main_v11))
        (extractStridedSlice S4096x1 ![0, 9] (W (Proc.devRef .tc main_arg1)) slices_S4096x16_S4096x1_0_9) := by
  after_results_simp
  rfl

theorem stepO9 (h : InvO m c 8 W) : InvO m c 9 (after (chunkO9 (F := Ideal)) W) :=
  h.step w9 (keptO9 W) (newO9_eq W) (by decide)

end Cert.ReferenceIdeal.RValue

end
-- ==== Proof.RItO10.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO10_0 (j : ℕ) (h0 : 0 ≤ j) (h1 : j ≤ 5) : outAt (after (chunkO10 (F := Ideal)) W) j = outAt W j := by
  interval_cases j <;> kept_all chunkO10 iterOps

theorem keptO10_6 (j : ℕ) (h0 : 6 ≤ j) (h1 : j ≤ 9) : outAt (after (chunkO10 (F := Ideal)) W) j = outAt W j := by
  interval_cases j <;> kept_all chunkO10 iterOps

theorem keptO10 : KeptO 9 (chunkO10 (F := Ideal)) W :=
  ⟨by kept_all chunkO10 iterOps, by kept_all chunkO10 iterOps, by kept_all chunkO10 iterOps, by kept_all chunkO10 iterOps, by kept_all chunkO10 iterOps,
    fun j hj => if h0 : j ≤ 5 then keptO10_0 W j (by omega) h0 else keptO10_6 W j (by omega) hj⟩

set_option maxRecDepth 8192 in
set_option maxHeartbeats 1600000 in
theorem newO10_eq : after (chunkO10 (F := Ideal)) W (Proc.devRef .tc main_v540)
    = core (F := Ideal) w10
        (extractStridedSlice S4096x10 ![0, 0] (W (Proc.devRef .tc main_v328)) slices_S4096x16_S4096x10_0_0)
        (W (Proc.devRef .tc main_v11))
        (extractStridedSlice S4096x1 ![0, 10] (W (Proc.devRef .tc main_arg1)) slices_S4096x16_S4096x1_0_10) := by
  after_results_simp
  rfl

theorem stepO10 (h : InvO m c 9 W) : InvO m c 10 (after (chunkO10 (F := Ideal)) W) :=
  h.step w10 (keptO10 W) (newO10_eq W) (by decide)

end Cert.ReferenceIdeal.RValue

end
-- ==== Proof.RItO11.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO11_0 (j : ℕ) (h0 : 0 ≤ j) (h1 : j ≤ 5) : outAt (after (chunkO11 (F := Ideal)) W) j = outAt W j := by
  interval_cases j <;> kept_all chunkO11 iterOps

theorem keptO11_6 (j : ℕ) (h0 : 6 ≤ j) (h1 : j ≤ 10) : outAt (after (chunkO11 (F := Ideal)) W) j = outAt W j := by
  interval_cases j <;> kept_all chunkO11 iterOps

theorem keptO11 : KeptO 10 (chunkO11 (F := Ideal)) W :=
  ⟨by kept_all chunkO11 iterOps, by kept_all chunkO11 iterOps, by kept_all chunkO11 iterOps, by kept_all chunkO11 iterOps, by kept_all chunkO11 iterOps,
    fun j hj => if h0 : j ≤ 5 then keptO11_0 W j (by omega) h0 else keptO11_6 W j (by omega) hj⟩

set_option maxRecDepth 8192 in
set_option maxHeartbeats 1600000 in
theorem newO11_eq : after (chunkO11 (F := Ideal)) W (Proc.devRef .tc main_v561)
    = core (F := Ideal) w11
        (extractStridedSlice S4096x11 ![0, 0] (W (Proc.devRef .tc main_v328)) slices_S4096x16_S4096x11_0_0)
        (W (Proc.devRef .tc main_v11))
        (extractStridedSlice S4096x1 ![0, 11] (W (Proc.devRef .tc main_arg1)) slices_S4096x16_S4096x1_0_11) := by
  after_results_simp
  rfl

theorem stepO11 (h : InvO m c 10 W) : InvO m c 11 (after (chunkO11 (F := Ideal)) W) :=
  h.step w11 (keptO11 W) (newO11_eq W) (by decide)

end Cert.ReferenceIdeal.RValue

end
-- ==== Proof.RItO12.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO12_0 (j : ℕ) (h0 : 0 ≤ j) (h1 : j ≤ 5) : outAt (after (chunkO12 (F := Ideal)) W) j = outAt W j := by
  interval_cases j <;> kept_all chunkO12 iterOps

theorem keptO12_6 (j : ℕ) (h0 : 6 ≤ j) (h1 : j ≤ 11) : outAt (after (chunkO12 (F := Ideal)) W) j = outAt W j := by
  interval_cases j <;> kept_all chunkO12 iterOps

theorem keptO12 : KeptO 11 (chunkO12 (F := Ideal)) W :=
  ⟨by kept_all chunkO12 iterOps, by kept_all chunkO12 iterOps, by kept_all chunkO12 iterOps, by kept_all chunkO12 iterOps, by kept_all chunkO12 iterOps,
    fun j hj => if h0 : j ≤ 5 then keptO12_0 W j (by omega) h0 else keptO12_6 W j (by omega) hj⟩

set_option maxRecDepth 8192 in
set_option maxHeartbeats 1600000 in
theorem newO12_eq : after (chunkO12 (F := Ideal)) W (Proc.devRef .tc main_v582)
    = core (F := Ideal) w12
        (extractStridedSlice S4096x12 ![0, 0] (W (Proc.devRef .tc main_v328)) slices_S4096x16_S4096x12_0_0)
        (W (Proc.devRef .tc main_v11))
        (extractStridedSlice S4096x1 ![0, 12] (W (Proc.devRef .tc main_arg1)) slices_S4096x16_S4096x1_0_12) := by
  after_results_simp
  rfl

theorem stepO12 (h : InvO m c 11 W) : InvO m c 12 (after (chunkO12 (F := Ideal)) W) :=
  h.step w12 (keptO12 W) (newO12_eq W) (by decide)

end Cert.ReferenceIdeal.RValue

end
-- ==== Proof.RItO13.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO13_0 (j : ℕ) (h0 : 0 ≤ j) (h1 : j ≤ 5) : outAt (after (chunkO13 (F := Ideal)) W) j = outAt W j := by
  interval_cases j <;> kept_all chunkO13 iterOps

theorem keptO13_6 (j : ℕ) (h0 : 6 ≤ j) (h1 : j ≤ 11) : outAt (after (chunkO13 (F := Ideal)) W) j = outAt W j := by
  interval_cases j <;> kept_all chunkO13 iterOps

theorem keptO13_12 (j : ℕ) (h0 : 12 ≤ j) (h1 : j ≤ 12) : outAt (after (chunkO13 (F := Ideal)) W) j = outAt W j := by
  interval_cases j <;> kept_all chunkO13 iterOps

theorem keptO13 : KeptO 12 (chunkO13 (F := Ideal)) W :=
  ⟨by kept_all chunkO13 iterOps, by kept_all chunkO13 iterOps, by kept_all chunkO13 iterOps, by kept_all chunkO13 iterOps, by kept_all chunkO13 iterOps,
    fun j hj => if h0 : j ≤ 5 then keptO13_0 W j (by omega) h0 else if h1 : j ≤ 11 then keptO13_6 W j (by omega) h1 else keptO13_12 W j (by omega) hj⟩

set_option maxRecDepth 8192 in
set_option maxHeartbeats 1600000 in
theorem newO13_eq : after (chunkO13 (F := Ideal)) W (Proc.devRef .tc main_v603)
    = core (F := Ideal) w13
        (extractStridedSlice S4096x13 ![0, 0] (W (Proc.devRef .tc main_v328)) slices_S4096x16_S4096x13_0_0)
        (W (Proc.devRef .tc main_v11))
        (extractStridedSlice S4096x1 ![0, 13] (W (Proc.devRef .tc main_arg1)) slices_S4096x16_S4096x1_0_13) := by
  after_results_simp
  rfl

theorem stepO13 (h : InvO m c 12 W) : InvO m c 13 (after (chunkO13 (F := Ideal)) W) :=
  h.step w13 (keptO13 W) (newO13_eq W) (by decide)

end Cert.ReferenceIdeal.RValue

end
-- ==== Proof.RItO14.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO14_0 (j : ℕ) (h0 : 0 ≤ j) (h1 : j ≤ 5) : outAt (after (chunkO14 (F := Ideal)) W) j = outAt W j := by
  interval_cases j <;> kept_all chunkO14 iterOps

theorem keptO14_6 (j : ℕ) (h0 : 6 ≤ j) (h1 : j ≤ 11) : outAt (after (chunkO14 (F := Ideal)) W) j = outAt W j := by
  interval_cases j <;> kept_all chunkO14 iterOps

theorem keptO14_12 (j : ℕ) (h0 : 12 ≤ j) (h1 : j ≤ 13) : outAt (after (chunkO14 (F := Ideal)) W) j = outAt W j := by
  interval_cases j <;> kept_all chunkO14 iterOps

theorem keptO14 : KeptO 13 (chunkO14 (F := Ideal)) W :=
  ⟨by kept_all chunkO14 iterOps, by kept_all chunkO14 iterOps, by kept_all chunkO14 iterOps, by kept_all chunkO14 iterOps, by kept_all chunkO14 iterOps,
    fun j hj => if h0 : j ≤ 5 then keptO14_0 W j (by omega) h0 else if h1 : j ≤ 11 then keptO14_6 W j (by omega) h1 else keptO14_12 W j (by omega) hj⟩

set_option maxRecDepth 8192 in
set_option maxHeartbeats 1600000 in
theorem newO14_eq : after (chunkO14 (F := Ideal)) W (Proc.devRef .tc main_v624)
    = core (F := Ideal) w14
        (extractStridedSlice S4096x14 ![0, 0] (W (Proc.devRef .tc main_v328)) slices_S4096x16_S4096x14_0_0)
        (W (Proc.devRef .tc main_v11))
        (extractStridedSlice S4096x1 ![0, 14] (W (Proc.devRef .tc main_arg1)) slices_S4096x16_S4096x1_0_14) := by
  after_results_simp
  rfl

theorem stepO14 (h : InvO m c 13 W) : InvO m c 14 (after (chunkO14 (F := Ideal)) W) :=
  h.step w14 (keptO14 W) (newO14_eq W) (by decide)

end Cert.ReferenceIdeal.RValue

end
-- ==== Proof.RItO15.lean ====
import proofs.«156821_j17033840296170_1_alg».proof.Proof.RStep
import proofs.«156821_j17033840296170_1_alg».proof.Proof.RChunks
import proofs.«156821_j17033840296170_1_alg».proof.Proof.LibKeepAll

noncomputable section

namespace Cert.ReferenceIdeal.RValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RRun Cert.ReferenceIdeal.RCore Cert.LibKeepAll

variable (m : (ℓ : Loc nD τ sig) → Buf (Elt Ideal) ℓ) (c : Dev nD) (W : Valuation τ sig (Elt Ideal))

theorem keptO15_0 (j : ℕ) (h0 : 0 ≤ j) (h1 : j ≤ 5) : outAt (after (chunkO15 (F := Ideal)) W) j = outAt W j := by
  interval_cases j <;> kept_all chunkO15 iterOps

theorem keptO15_6 (j : ℕ) (h0 : 6 ≤ j) (h1 : j ≤ 11) : outAt (after (chunkO15 (F := Ideal)) W) j = outAt W j := by
  interval_cases j <;> kept_all chunkO15 iterOps

theorem keptO15_12 (j : ℕ) (h0 : 12 ≤ j) (h1 : j ≤ 14) : outAt (after (chunkO15 (F := Ideal)) W) j = outAt W j := by
  interval_cases j <;> kept_all chunkO15 iterOps

theorem keptO15 : KeptO 14 (chunkO15 (F := Ideal)) W :=
  ⟨by kept_all chunkO15 iterOps, by kept_all chunkO15 iterOps, by kept_all chunkO15 iterOps, by kept_all chunkO15 iterOps, by kept_all chunkO15 iterOps,
    fun j hj => if h0 : j ≤ 5 then keptO15_0 W j (by omega) h0 else if h1 : j ≤ 11 then keptO15_6 W j (by omega) h1 else keptO15_12 W j (by omega) hj⟩

set_option maxRecDepth 8192 in
set_option maxHeartbeats 1600000 in
theorem newO15_eq : after (chunkO15 (F := Ideal)) W (Proc.devRef .tc main_v645)
    = core (F := Ideal) w15
        (extractStridedSlice S4096x15 ![0, 0] (W (Proc.devRef .tc main_v328)) slices_S4096x16_S4096x15_0_0)
        (W (Proc.devRef .tc main_v11))
        (extractStridedSlice S4096x1 ![0, 15] (W (Proc.devRef .tc main_arg1)) slices_S4096x16_S4096x1_0_15) := by
  after_results_simp
  rfl

theorem stepO15 (h : InvO m c 14 W) : InvO m c 15 (after (chunkO15 (F := Ideal)) W) :=
  h.step w15 (keptO15 W) (newO15_eq W) (by decide)

end Cert.ReferenceIdeal.RValue

end
-- ==== Proof.REnd.lean ====
import proofs.«156821_j17033840296170_1_alg».proof.Proof.RInv
import proofs.«156821_j17033840296170_1_alg».proof.Proof.RChunks
import proofs.«156821_j17033840296170_1_alg».proof.Proof.RCat

noncomputable section

open scoped BigOperators

namespace Cert.ReferenceIdeal.RValue

open Idealize.ShloMosaic Idealize.ShloMosaic.ValueIdx Idealize.ShloMosaic.TcCoe Idealize.SL.Sem Cert.ReferenceIdeal Cert.ReferenceIdeal.Gen Cert.ReferenceIdeal.RRun Cert.ReferenceIdeal.RCore

variable (m : (ℓ : Loc nD τ sig) → Buf (Elt Ideal) ℓ) (c : Dev nD)

theorem aux_end_cat (W : Valuation τ sig (Elt Ideal)) (b : Fin 4096) (i : Fin 16) :
    StableHlo.after (chunkEnd (F := Ideal)) W (Proc.devRef .tc main_v646) (ix2 b i) = outAt W i.val (ix2 b (0 : Fin 1)) := by
  after_results
  exact catN_apply (fun k : Fin 16 => outAt W k.val) _ b i

theorem end_step (W : Valuation τ sig (Elt Ideal)) (h : InvO m c 15 W) :
    InvA m c (StableHlo.after (chunkEnd (F := Ideal)) W)
      ∧ ∀ (b : Fin 4096) (i : Fin 16), StableHlo.after (chunkEnd (F := Ideal)) W (Proc.devRef .tc main_v646) (ix2 b i) = outS m c i.val b :=
  ⟨{ h0 := (by after_results : StableHlo.after (chunkEnd (F := Ideal)) W (Proc.devRef .tc main_arg0) = W (Proc.devRef .tc main_arg0)).trans h.h0
     hw := (by after_results : StableHlo.after (chunkEnd (F := Ideal)) W (Proc.devRef .tc main_arg1) = W (Proc.devRef .tc main_arg1)).trans h.hw
     hws := (by after_results : StableHlo.after (chunkEnd (F := Ideal)) W (Proc.devRef .tc main_arg2) = W (Proc.devRef .tc main_arg2)).trans h.hws
     hX := (by after_results : StableHlo.after (chunkEnd (F := Ideal)) W (Proc.devRef .tc main_v11) = W (Proc.devRef .tc main_v11)).trans h.hX },
   fun b i => by rw [aux_end_cat, h.hout i.val (by have := i.isLt; omega)]⟩

end Cert.ReferenceIdeal.RValue

end
-- ==== Proof.RValue.lean ====
import proofs.«156821_j17033840296170_1_alg».proof.Proof.RRun
import proofs.«156821_j17033840296170_1_alg».proof.Proof.RInv
import proofs.«156821_j17033840296170_1_alg».proof.Proof.RPre
import proofs.«156821_j17033840296170_1_alg».proof.Proof.RItC1
import proofs.«156821_j17033840296170_1_alg».proof.Proof.RItC2
import proofs.«156821_j17033840296170_1_alg».proof.Proof.RItC3
import proofs.«156821_j17033840296170_1_alg».proof.Proof.RItC4
import proofs.«156821_j17033840296170_1_alg».proof.Proof.RItC5
import proofs.«156821_j17033840296170_1_alg».proof.Proof.RItC6
import proofs.«156821_j17033840296170_1_alg».proof.Proof.RItC7
import proofs.«156821_j17033840296170_1_alg».proof.Proof.RItC8
import proofs.«156821_j17033840296170_1_alg».proof.Proof.RItC9
import proofs.«156821_j17033840296170_1_alg».proof.Proof.RItC10
import proofs.«156821_j17033840296170_1_alg».proof.Proof.RItC11
import proofs.«156821_j17033840296170_1_alg».proof.Proof.RItC12
import proofs.«156821_j17033840296170_1_alg».proof.Proof.RItC13
import proofs.«156821_j17033840296170_1_alg».proof.Proof.RItC14
import proofs.«156821_j17033840296170_1_alg».proof.Proof.RItC15
import proofs.«156821_j17033840296170_1_alg».proof.Proof.RMid
import proofs.«156821_j17033840296170_1_alg».proof.Proof.RItO1
import proofs.«156821_j17033840296170_1_alg».proof.Proof.RItO2
import proofs.«156821_j17033840296170_1_alg».proof.Proof.RItO3
import proofs.«156821_j17033840296170_1_alg».proof.Proof.RItO4
import proofs.«156821_j17033840296170_1_alg».proof.Proof.RItO5
import proofs.«156821_j17033840296170_1_alg».proof.Proof.RItO6
import proofs.«156821_j17033840296170_1_alg».proof.Proof.RItO7
import proofs.«156821_j17033840296170_1_alg».proof.Proof.RItO8
import proofs.«156821_j17033840296170_1_alg».proof.Proof.RItO9
import proofs.«156821_j17033840296170_1_alg».proof.Proof.RItO10
import proofs.«156821_j17033840296170_1_alg».proof.Proof.RItO11
import proofs.«156821_j17033840296170_1_alg».proof.Proof.RItO12
import proofs.«156821_j17033840296170_1_alg».proof.Proof.RItO13
import proofs.«156821_j17033840296170_1_alg».proof.Proof.RItO14
import proofs.«156821_j17033840296170_1_alg».proof.Proof.RItO15
import proofs.«156821_j17033840296170_1_alg».proof.Proof.REnd
import Idealize.ShloMosaic.Lib.StableHlo.Run

noncomputable section

namespace Cert.ReferenceIdeal.RValue

open Idealize.ShloMosaic Idealize.ShloMosaic.ValueIdx Idealize.ShloMosaic.TcCoe Idealize.SL.Sem Cert.ReferenceIdeal Cert.ReferenceIdeal.Gen
open Cert.ReferenceIdeal.RRun

variable (m : (ℓ : Loc nD τ sig) → Buf (Elt Ideal) ℓ) (c : Dev nD)

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

theorem ops_after (V : Valuation τ sig (Elt Ideal)) :
    StableHlo.after (RRun.ops (F := Ideal)) V
      = StableHlo.after chunkEnd (StableHlo.after chunkO15 (StableHlo.after chunkO14 (StableHlo.after chunkO13 (StableHlo.after chunkO12 (StableHlo.after chunkO11 (StableHlo.after chunkO10 (StableHlo.after chunkO9 (StableHlo.after chunkO8 (StableHlo.after chunkO7 (StableHlo.after chunkO6 (StableHlo.after chunkO5 (StableHlo.after chunkO4 (StableHlo.after chunkO3 (StableHlo.after chunkO2 (StableHlo.after chunkO1 (StableHlo.after chunkMid (StableHlo.after chunkC15 (StableHlo.after chunkC14 (StableHlo.after chunkC13 (StableHlo.after chunkC12 (StableHlo.after chunkC11 (StableHlo.after chunkC10 (StableHlo.after chunkC9 (StableHlo.after chunkC8 (StableHlo.after chunkC7 (StableHlo.after chunkC6 (StableHlo.after chunkC5 (StableHlo.after chunkC4 (StableHlo.after chunkC3 (StableHlo.after chunkC2 (StableHlo.after chunkC1 (StableHlo.after chunkPre (V))))))))))))))))))))))))))))))))) := by
  rw [ops_eq_chunks]
  simp only [after_append]

theorem final_state :
    InvA m c (StableHlo.after (RRun.ops (F := Ideal)) (StableHlo.launchContents m c))
      ∧ ∀ (b : Fin 4096) (i : Fin 16),
          StableHlo.after (RRun.ops (F := Ideal)) (StableHlo.launchContents m c) (Proc.devRef .tc main_v646) (ix2 b i) = outS m c i.val b := by
  rw [ops_after]
  have hC0 := pre_step m c
  have hC1 := stepC1 m c _ hC0
  have hC2 := stepC2 m c _ hC1
  have hC3 := stepC3 m c _ hC2
  have hC4 := stepC4 m c _ hC3
  have hC5 := stepC5 m c _ hC4
  have hC6 := stepC6 m c _ hC5
  have hC7 := stepC7 m c _ hC6
  have hC8 := stepC8 m c _ hC7
  have hC9 := stepC9 m c _ hC8
  have hC10 := stepC10 m c _ hC9
  have hC11 := stepC11 m c _ hC10
  have hC12 := stepC12 m c _ hC11
  have hC13 := stepC13 m c _ hC12
  have hC14 := stepC14 m c _ hC13
  have hC15 := stepC15 m c _ hC14
  have hO0 := mid_step m c _ hC15
  have hO1 := stepO1 m c _ hO0
  have hO2 := stepO2 m c _ hO1
  have hO3 := stepO3 m c _ hO2
  have hO4 := stepO4 m c _ hO3
  have hO5 := stepO5 m c _ hO4
  have hO6 := stepO6 m c _ hO5
  have hO7 := stepO7 m c _ hO6
  have hO8 := stepO8 m c _ hO7
  have hO9 := stepO9 m c _ hO8
  have hO10 := stepO10 m c _ hO9
  have hO11 := stepO11 m c _ hO10
  have hO12 := stepO12 m c _ hO11
  have hO13 := stepO13 m c _ hO12
  have hO14 := stepO14 m c _ hO13
  have hO15 := stepO15 m c _ hO14
  exact end_step m c _ hO15

def outArr : FVec Ideal S4096x16 .f32 :=
  StableHlo.after (RRun.ops (F := Ideal)) (StableHlo.launchContents m c) (Proc.devRef .tc main_v646)

theorem outArr_apply (b : Fin 4096) (i : Fin 16) :
    outArr m c (ix2 b i) = Cert.PLS.GR (xOf m c) (wOf m c) (wsOf m c) b i :=
  ((final_state m c).2 b i).trans (GR_eq m c b i).symm

theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD, r.2.mem ((c : Thread nD τ).loc main_v646) = outArr m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun r h c =>
    ⟨h c main_v646,
     (h c main_arg0).trans (final_state m c).1.h0,
     (h c main_arg1).trans (final_state m c).1.hw,
     (h c main_arg2).trans (final_state m c).1.hws⟩) (RRun.run (F := Ideal) m ρ)

end Cert.ReferenceIdeal.RValue

end
-- ==== Proof.SpecR.lean ====
import Mathlib.Analysis.SpecialFunctions.Pow.Real
import Mathlib.Algebra.BigOperators.Fin

noncomputable section

open scoped BigOperators

namespace Cert.PLS.R

abbrev Col : Type := Fin 4096 → ℝ

variable (ε : ℝ)

def meanR (v : Col) : ℝ := (∑ b, v b) / 4096
def cenR (v : Col) : Col := fun b => v b - meanR v
def seR (c : Col) : ℝ := Real.sqrt (meanR fun b => c b * c b) + ε
def znR (v : Col) : Col := fun b => cenR v b / seR ε (cenR v)
def gamR (c u : Col) : ℝ := (∑ b, c b * u b) / 4096
def termR (c u : Col) : Col := fun b => c b * gamR c u
def accR : List Col → Col → Col
  | [], _ => fun _ => 0
  | c :: L, u => fun b => accR L u b + termR c u b
def cvKR (P : ℕ → Col) : ℕ → List Col
  | 0 => []
  | n + 1 => znR ε (fun b => P n b - accR (cvKR P n) (P n) b) :: cvKR P n
def outKR (P Q : ℕ → Col) (n : ℕ) : Col := fun b => Q n b - accR (cvKR ε P n) (Q n) b
def projR (X : Fin 4096 → Fin 4096 → ℝ) (wc : Fin 4096 → ℝ) : Col := fun b => ∑ d, X b d * wc d
def betaR (X : Fin 4096 → Fin 4096 → ℝ) (c : Col) (d : Fin 4096) : ℝ := (∑ b, c b * X b d) / 4096
def linR (X : Fin 4096 → Fin 4096 → ℝ) (L : List Col) (b d : Fin 4096) : ℝ :=
  X b d - (L.map fun c => c b * betaR X c d).sum
def deflR (X : Fin 4096 → Fin 4096 → ℝ) (L : List Col) (wc : Fin 4096 → ℝ) : Col :=
  fun b => ∑ d, linR X L b d * wc d
def cvRR (X : Fin 4096 → Fin 4096 → ℝ) (ws : ℕ → Fin 4096 → ℝ) : ℕ → List Col
  | 0 => []
  | n + 1 => znR ε (deflR X (cvRR X ws n) (ws n)) :: cvRR X ws n
def outRR (X : Fin 4096 → Fin 4096 → ℝ) (ws w : ℕ → Fin 4096 → ℝ) (n : ℕ) : Col :=
  deflR X (cvRR ε X ws n) (w n)
def XR (x : Fin 4096 → Fin 4096 → ℝ) : Fin 4096 → Fin 4096 → ℝ := fun b d => znR ε (fun b' => x b' d) b
def colOfR (a : Fin 4096 → Fin 16 → ℝ) (i : ℕ) : Fin 4096 → ℝ := fun d => if h : i < 16 then a d ⟨i, h⟩ else 0

end Cert.PLS.R

end
-- ==== Proof.AlgReal.lean ====
import proofs.«156821_j17033840296170_1_alg».proof.Proof.SpecR

noncomputable section

open scoped BigOperators

namespace Cert.PLS.R

variable (ε : ℝ)

theorem sum_betaR_mul (X : Fin 4096 → Fin 4096 → ℝ) (c : Col) (wc : Fin 4096 → ℝ) :
    ∑ d, betaR X c d * wc d = gamR c (projR X wc) := by
  unfold betaR gamR projR
  have hl : ∀ d, (∑ b, c b * X b d) / 4096 * wc d = ∑ b, c b * X b d * wc d / 4096 := by
    intro d
    rw [div_eq_mul_inv, Finset.sum_mul, Finset.sum_mul]
    apply Finset.sum_congr rfl
    intro b _
    ring
  have hr : (∑ b, c b * ∑ d, X b d * wc d) / 4096 = ∑ b, ∑ d, c b * X b d * wc d / 4096 := by
    rw [div_eq_mul_inv, Finset.sum_mul]
    apply Finset.sum_congr rfl
    intro b _
    rw [Finset.mul_sum, Finset.sum_mul]
    apply Finset.sum_congr rfl
    intro d _
    ring
  rw [hr, Finset.sum_comm]
  apply Finset.sum_congr rfl
  intro d _
  exact hl d

theorem linR_cons (X : Fin 4096 → Fin 4096 → ℝ) (c : Col) (L : List Col) (b d : Fin 4096) :
    linR X (c :: L) b d = linR X L b d - c b * betaR X c d := by
  unfold linR
  rw [List.map_cons, List.sum_cons]
  ring

theorem deflR_cons (X : Fin 4096 → Fin 4096 → ℝ) (c : Col) (L : List Col) (wc : Fin 4096 → ℝ) (b : Fin 4096) :
    deflR X (c :: L) wc b = deflR X L wc b - termR c (projR X wc) b := by
  unfold deflR termR
  rw [← sum_betaR_mul, Finset.mul_sum, ← Finset.sum_sub_distrib]
  apply Finset.sum_congr rfl
  intro d _
  rw [linR_cons]
  ring

theorem deflR_eq (X : Fin 4096 → Fin 4096 → ℝ) (L : List Col) (wc : Fin 4096 → ℝ) :
    deflR X L wc = fun b => projR X wc b - accR L (projR X wc) b := by
  funext b
  induction L with
  | nil =>
    simp [deflR, linR, projR, accR]
  | cons c L ih =>
    rw [deflR_cons, ih]
    show projR X wc b - accR L (projR X wc) b - termR c (projR X wc) b
      = projR X wc b - (accR L (projR X wc) b + termR c (projR X wc) b)
    ring

theorem cvKR_eq_cvRR (X : Fin 4096 → Fin 4096 → ℝ) (ws : ℕ → Fin 4096 → ℝ) (n : ℕ) :
    cvKR ε (fun i => projR X (ws i)) n = cvRR ε X ws n := by
  induction n with
  | zero => rfl
  | succ n ih =>
    show znR ε (fun b => projR X (ws n) b - accR (cvKR ε (fun i => projR X (ws i)) n) (projR X (ws n)) b)
        :: cvKR ε (fun i => projR X (ws i)) n
      = znR ε (deflR X (cvRR ε X ws n) (ws n)) :: cvRR ε X ws n
    rw [ih, deflR_eq]

theorem outKR_eq_outRR (X : Fin 4096 → Fin 4096 → ℝ) (ws w : ℕ → Fin 4096 → ℝ) (n : ℕ) :
    outKR ε (fun i => projR X (ws i)) (fun i => projR X (w i)) n = outRR ε X ws w n := by
  unfold outKR outRR
  rw [cvKR_eq_cvRR, deflR_eq]

end Cert.PLS.R

end
-- ==== Proof.LibReal.lean ====
import Idealize.ShloMosaic.PureOps.Ideal
import Idealize.ShloMosaic.PureOps.Ideal.Laws

noncomputable section

open scoped BigOperators

namespace Cert.LibReal

open Idealize.ShloMosaic

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe_coe (a b : ℝ) (hb : b ≠ 0) : Ideal.div (a : EReal) (b : EReal) = ((a / b : ℝ) : EReal) := by
  rw [Ideal.div_coe hb, ← EReal.coe_mul]; congr 1; field_simp

theorem sqrt_coe_nonneg (a : ℝ) (ha : 0 ≤ a) : Ideal.sqrt (a : EReal) = ((Real.sqrt a : ℝ) : EReal) := by
  rw [Ideal.sqrt_coe, if_neg (not_lt.mpr ha)]

end Cert.LibReal

end
-- ==== Proof.AlgLift.lean ====
import proofs.«156821_j17033840296170_1_alg».proof.Proof.Spec
import proofs.«156821_j17033840296170_1_alg».proof.Proof.AlgReal
import proofs.«156821_j17033840296170_1_alg».proof.Proof.LibReal

noncomputable section

open scoped BigOperators

namespace Cert.PLS

open Idealize.ShloMosaic
open Cert.LibReal

def epsR : ℝ := 8796093 * (2 : ℝ) ^ (-43 : ℤ)

theorem c4096_eq : c4096 = ((4096 : ℝ) : EReal) := by
  unfold c4096; simp [Ideal.ofBits, Ideal.ieee, -EReal.coe_mul]; norm_num

theorem ceps_eq : ceps = ((epsR : ℝ) : EReal) := by
  unfold ceps epsR; simp [Ideal.ofBits, Ideal.ieee, -EReal.coe_mul]

theorem epsR_pos : 0 < epsR := by unfold epsR; positivity

def liftC (v : Fin 4096 → ℝ) : Fin 4096 → EReal := fun b => ((v b : ℝ) : EReal)

def liftM (X : Fin 4096 → Fin 4096 → ℝ) : Fin 4096 → Fin 4096 → EReal := fun b d => ((X b d : ℝ) : EReal)

theorem sum_mul_coe (f g : Fin 4096 → ℝ) :
    (∑ b, ((f b : ℝ) : EReal) * ((g b : ℝ) : EReal)) = ((∑ b, f b * g b : ℝ) : EReal) := by
  rw [← coe_sum]; exact Finset.sum_congr rfl (fun b _ => (EReal.coe_mul _ _).symm)

theorem div4096_coe (a : ℝ) : Ideal.div (a : EReal) c4096 = ((a / 4096 : ℝ) : EReal) := by
  rw [c4096_eq, div_coe_coe _ _ (by norm_num)]

theorem liftC_sub (u v : Fin 4096 → ℝ) : (fun b => liftC u b - liftC v b) = liftC (fun b => u b - v b) := by
  funext b; exact (EReal.coe_sub _ _).symm

theorem meanS_coe (v : R.Col) : meanS (liftC v) = ((R.meanR v : ℝ) : EReal) := by
  show Ideal.div (∑ b, ((v b : ℝ) : EReal)) c4096 = (((∑ b, v b) / 4096 : ℝ) : EReal)
  rw [coe_sum, div4096_coe]

theorem cenS_coe (v : R.Col) : cenS (liftC v) = liftC (R.cenR v) := by
  funext b
  show ((v b : ℝ) : EReal) - meanS (liftC v) = ((v b - R.meanR v : ℝ) : EReal)
  rw [meanS_coe, EReal.coe_sub]

theorem meanR_sq_nonneg (c : R.Col) : 0 ≤ R.meanR (fun b => c b * c b) := by
  unfold R.meanR
  exact div_nonneg (Finset.sum_nonneg (fun b _ => mul_self_nonneg _)) (by norm_num)

theorem seS_coe (c : R.Col) : seS (liftC c) = ((R.seR epsR c : ℝ) : EReal) := by
  have h : (fun b => liftC c b * liftC c b) = liftC (fun b => c b * c b) := by
    funext b; exact (EReal.coe_mul _ _).symm
  show Ideal.sqrt (meanS (fun b => liftC c b * liftC c b)) + ceps
      = ((Real.sqrt (R.meanR fun b => c b * c b) + epsR : ℝ) : EReal)
  rw [h, meanS_coe, sqrt_coe_nonneg _ (meanR_sq_nonneg c), ceps_eq, EReal.coe_add]

theorem seR_pos (c : R.Col) : 0 < R.seR epsR c :=
  add_pos_of_nonneg_of_pos (Real.sqrt_nonneg _) epsR_pos

theorem znS_coe (v : R.Col) : znS (liftC v) = liftC (R.znR epsR v) := by
  funext b
  show Ideal.div (cenS (liftC v) b) (seS (cenS (liftC v))) = ((R.cenR v b / R.seR epsR (R.cenR v) : ℝ) : EReal)
  rw [cenS_coe, seS_coe]
  exact div_coe_coe _ _ (ne_of_gt (seR_pos _))

theorem gamS_coe (c u : R.Col) : gamS (liftC c) (liftC u) = ((R.gamR c u : ℝ) : EReal) := by
  show Ideal.div (∑ b, ((c b : ℝ) : EReal) * ((u b : ℝ) : EReal)) c4096 = (((∑ b, c b * u b) / 4096 : ℝ) : EReal)
  rw [sum_mul_coe, div4096_coe]

theorem termS_coe (c u : R.Col) : termS (liftC c) (liftC u) = liftC (R.termR c u) := by
  funext b
  show ((c b : ℝ) : EReal) * gamS (liftC c) (liftC u) = ((c b * R.gamR c u : ℝ) : EReal)
  rw [gamS_coe, EReal.coe_mul]

theorem accS_coe (L : List R.Col) (u : R.Col) : accS (L.map liftC) (liftC u) = liftC (R.accR L u) := by
  induction L with
  | nil => funext b; show (0 : EReal) = ((0 : ℝ) : EReal); rw [EReal.coe_zero]
  | cons c L ih =>
    funext b
    show accS (L.map liftC) (liftC u) b + termS (liftC c) (liftC u) b
        = ((R.accR L u b + R.termR c u b : ℝ) : EReal)
    rw [ih, termS_coe, EReal.coe_add]; rfl

theorem cvK_coe (P : ℕ → R.Col) (n : ℕ) :
    cvK (fun n => liftC (P n)) n = (R.cvKR epsR P n).map liftC := by
  induction n with
  | zero => rfl
  | succ n ih =>
    show znS (fun b => liftC (P n) b - accS (cvK (fun n => liftC (P n)) n) (liftC (P n)) b)
          :: cvK (fun n => liftC (P n)) n
        = liftC (R.znR epsR (fun b => P n b - R.accR (R.cvKR epsR P n) (P n) b))
          :: (R.cvKR epsR P n).map liftC
    rw [ih, accS_coe, liftC_sub, znS_coe]

theorem outK_coe (P Q : ℕ → R.Col) (n : ℕ) :
    outK (fun n => liftC (P n)) (fun n => liftC (Q n)) n = liftC (R.outKR epsR P Q n) := by
  show (fun b => liftC (Q n) b - accS (cvK (fun n => liftC (P n)) n) (liftC (Q n)) b)
      = liftC (fun b => Q n b - R.accR (R.cvKR epsR P n) (Q n) b)
  rw [cvK_coe, accS_coe, liftC_sub]

theorem projS_coe (X : Fin 4096 → Fin 4096 → ℝ) (wc : Fin 4096 → ℝ) :
    projS (liftM X) (liftC wc) = liftC (R.projR X wc) := by
  funext b
  show (∑ d, ((X b d : ℝ) : EReal) * ((wc d : ℝ) : EReal)) = ((∑ d, X b d * wc d : ℝ) : EReal)
  exact sum_mul_coe _ _

theorem betaS_coe (X : Fin 4096 → Fin 4096 → ℝ) (c : R.Col) (d : Fin 4096) :
    betaS (liftM X) (liftC c) d = ((R.betaR X c d : ℝ) : EReal) := by
  show Ideal.div (∑ b, ((c b : ℝ) : EReal) * ((X b d : ℝ) : EReal)) c4096
      = (((∑ b, c b * X b d) / 4096 : ℝ) : EReal)
  rw [sum_mul_coe c (fun b => X b d), div4096_coe]

theorem linS_coe (X : Fin 4096 → Fin 4096 → ℝ) (L : List R.Col) (b d : Fin 4096) :
    linS (liftM X) (L.map liftC) b d = ((R.linR X L b d : ℝ) : EReal) := by
  have hs : ((L.map liftC).map fun c => c b * betaS (liftM X) c d).sum
      = (((L.map fun c => c b * R.betaR X c d).sum : ℝ) : EReal) := by
    induction L with
    | nil => simp
    | cons c L ih =>
      rw [List.map_cons, List.map_cons, List.sum_cons, List.map_cons, List.sum_cons, ih, betaS_coe,
        EReal.coe_add, EReal.coe_mul]; rfl
  show ((X b d : ℝ) : EReal) - ((L.map liftC).map fun c => c b * betaS (liftM X) c d).sum
      = ((X b d - (L.map fun c => c b * R.betaR X c d).sum : ℝ) : EReal)
  rw [hs, EReal.coe_sub]

theorem deflS_coe (X : Fin 4096 → Fin 4096 → ℝ) (L : List R.Col) (wc : Fin 4096 → ℝ) :
    deflS (liftM X) (L.map liftC) (liftC wc) = liftC (R.deflR X L wc) := by
  funext b
  show (∑ d, linS (liftM X) (L.map liftC) b d * ((wc d : ℝ) : EReal))
      = ((∑ d, R.linR X L b d * wc d : ℝ) : EReal)
  rw [← coe_sum]
  exact Finset.sum_congr rfl (fun d _ => by rw [linS_coe, EReal.coe_mul])

theorem cvR_coe (X : Fin 4096 → Fin 4096 → ℝ) (ws : ℕ → Fin 4096 → ℝ) (n : ℕ) :
    cvR (liftM X) (fun n => liftC (ws n)) n = (R.cvRR epsR X ws n).map liftC := by
  induction n with
  | zero => rfl
  | succ n ih =>
    show znS (deflS (liftM X) (cvR (liftM X) (fun n => liftC (ws n)) n) (liftC (ws n)))
          :: cvR (liftM X) (fun n => liftC (ws n)) n
        = liftC (R.znR epsR (R.deflR X (R.cvRR epsR X ws n) (ws n))) :: (R.cvRR epsR X ws n).map liftC
    rw [ih, deflS_coe, znS_coe]

theorem outR_coe (X : Fin 4096 → Fin 4096 → ℝ) (ws w : ℕ → Fin 4096 → ℝ) (n : ℕ) :
    outR (liftM X) (fun n => liftC (ws n)) (fun n => liftC (w n)) n = liftC (R.outRR epsR X ws w n) := by
  show deflS (liftM X) (cvR (liftM X) (fun n => liftC (ws n)) n) (liftC (w n))
      = liftC (R.deflR X (R.cvRR epsR X ws n) (w n))
  rw [cvR_coe, deflS_coe]

theorem XS_coe (x : Fin 4096 → Fin 4096 → ℝ) : XS (liftM x) = liftM (R.XR epsR x) := by
  funext b d
  show znS (liftC fun b' => x b' d) b = ((R.znR epsR (fun b' => x b' d) b : ℝ) : EReal)
  rw [znS_coe]; rfl

theorem colOf_coe (a : Fin 4096 → Fin 16 → ℝ) :
    colOf (fun d j => ((a d j : ℝ) : EReal)) = fun n => liftC (R.colOfR a n) := by
  funext n d
  by_cases h : n < 16
  · simp [colOf, R.colOfR, liftC, h]
  · simp [colOf, R.colOfR, liftC, h]

theorem GK_eq_GR (xr : Fin 4096 → Fin 4096 → ℝ) (wr wsr : Fin 4096 → Fin 16 → ℝ) (b : Fin 4096) (i : Fin 16) :
    GK (fun b d => ((xr b d : ℝ) : EReal)) (fun d j => ((wr d j : ℝ) : EReal)) (fun d j => ((wsr d j : ℝ) : EReal)) b i
      = GR (fun b d => ((xr b d : ℝ) : EReal)) (fun d j => ((wr d j : ℝ) : EReal)) (fun d j => ((wsr d j : ℝ) : EReal)) b i := by
  have hx : (fun b d => ((xr b d : ℝ) : EReal)) = liftM xr := rfl
  have hP : (fun n => projS (liftM (R.XR epsR xr)) (liftC (R.colOfR wsr n)))
      = fun n => liftC (R.projR (R.XR epsR xr) (R.colOfR wsr n)) := funext fun n => projS_coe _ _
  have hQ : (fun n => projS (liftM (R.XR epsR xr)) (liftC (R.colOfR wr n)))
      = fun n => liftC (R.projR (R.XR epsR xr) (R.colOfR wr n)) := funext fun n => projS_coe _ _
  unfold GK GR
  rw [hx, XS_coe, colOf_coe wr, colOf_coe wsr]
  beta_reduce
  rw [hP, hQ, outK_coe, outR_coe, R.outKR_eq_outRR]

end Cert.PLS

end
-- ==== Proof.Finite.lean ====
import proofs.«156821_j17033840296170_1_alg».proof.Defs
import proofs.«156821_j17033840296170_1_alg».proof.Proof.Gen.Pre_finite_inputs
import Idealize.ShloMosaic.Lib.ValueIdx
import Idealize.ShloMosaic.Lib.ReduceAll

noncomputable section

namespace Cert.Proof.Finite

open Idealize.ShloMosaic Idealize.ShloMosaic.ValueIdx Idealize.SL.Sem

instance aux_subsingleton : Subsingleton Cert.Pre_finite_inputs.S_.Idx := ⟨fun _ _ => funext fun d => d.elim0⟩

theorem aux_real_of_abs_lt (x : Ideal .f32)
    (hx : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  unfold Ideal.cmp at hx
  induction x using EReal.rec with
  | bot => simp at hx
  | top => simp at hx
  | coe r => exact ⟨r, rfl⟩

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ b d : Fin 4096, ∃ r : ℝ, m ((c.tc : Thread Cert.KernelIdeal.nD Cert.KernelIdeal.τ).loc Cert.KernelIdeal.main_arg0) (ix2 b d) = (r : EReal))
    ∧ (∀ (d : Fin 4096) (i : Fin 16), ∃ r : ℝ, m ((c.tc : Thread Cert.KernelIdeal.nD Cert.KernelIdeal.τ).loc Cert.KernelIdeal.main_arg1) (ix2 d i) = (r : EReal))
    ∧ (∀ (d : Fin 4096) (i : Fin 16), ∃ r : ℝ, m ((c.tc : Thread Cert.KernelIdeal.nD Cert.KernelIdeal.τ).loc Cert.KernelIdeal.main_arg2) (ix2 d i) = (r : EReal)) := by
  have h0 := congrFun (h c) ix0
  dsimp only [Cert.Pre_finite_inputs.fn] at h0
  obtain ⟨h01, h2⟩ := IntOp.andi_eq_one.1 h0
  obtain ⟨h0', h1⟩ := IntOp.andi_eq_one.1 h01
  refine ⟨fun b d => ?_, fun d i => ?_, fun d i => ?_⟩
  · exact aux_real_of_abs_lt _ (Host.reduce_andi_all _ _ _ _ _ h0' (ix2 b d))
  · exact aux_real_of_abs_lt _ (Host.reduce_andi_all _ _ _ _ _ h1 (ix2 d i))
  · exact aux_real_of_abs_lt _ (Host.reduce_andi_all _ _ _ _ _ h2 (ix2 d i))

end Cert.Proof.Finite

end
-- ==== Proof.lean ====
import proofs.«156821_j17033840296170_1_alg».proof.Defs
import proofs.«156821_j17033840296170_1_alg».proof.Proof.Gen.Kernel
import proofs.«156821_j17033840296170_1_alg».proof.Proof.Gen.Kernel.Frame
import proofs.«156821_j17033840296170_1_alg».proof.Proof.Gen.KernelIdeal
import proofs.«156821_j17033840296170_1_alg».proof.Proof.Gen.ReferenceIdeal
import proofs.«156821_j17033840296170_1_alg».proof.Proof.Gen.Pre_finite_inputs
import proofs.«156821_j17033840296170_1_alg».proof.Proof.KFin
import proofs.«156821_j17033840296170_1_alg».proof.Proof.RValue
import proofs.«156821_j17033840296170_1_alg».proof.Proof.AlgLift
import proofs.«156821_j17033840296170_1_alg».proof.Proof.Finite
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RValue.run m ρ)

theorem algebraic : Cert.algebraic_KernelIdeal_ReferenceIdeal := by
  intro m ρ m' ρ' hpre hagree
  refine ⟨fun c => (Cert.KernelIdeal.Gen.dats m 0 c).arrAt 2 Cert.KernelIdeal.cfg0.N, Cert.KernelIdeal.KValue.run m ρ, ?_⟩
  refine (θ_run Cert.ReferenceIdeal.defs _ _).mono (fun r h c => ⟨(h c).1.trans ?_, (h c).2⟩)
    (Cert.ReferenceIdeal.RValue.run m' ρ')
  funext idx
  obtain ⟨b, i, rfl⟩ : ∃ (b : Fin 4096) (i : Fin 16), idx = ix2 b i := ⟨idx 0, idx 1, eq_ix2 idx⟩
  obtain ⟨hx, hw, hws⟩ := Cert.Proof.Finite.real_of_pre m hpre c
  choose xr hxr using hx
  choose wr hwr using hw
  choose wsr hwsr using hws
  have e0 : Cert.ReferenceIdeal.RValue.xOf m' c = fun b d => ((xr b d : ℝ) : EReal) := by
    funext b d; unfold Cert.ReferenceIdeal.RValue.xOf; rw [(hagree c).1]; exact hxr b d
  have e1 : Cert.ReferenceIdeal.RValue.wOf m' c = fun d i => ((wr d i : ℝ) : EReal) := by
    funext d i; unfold Cert.ReferenceIdeal.RValue.wOf; rw [(hagree c).2.1]; exact hwr d i
  have e2 : Cert.ReferenceIdeal.RValue.wsOf m' c = fun d i => ((wsr d i : ℝ) : EReal) := by
    funext d i; unfold Cert.ReferenceIdeal.RValue.wsOf; rw [(hagree c).2.2]; exact hwsr d i
  have k0 : Cert.KernelIdeal.KV.xOf m c = fun b d => ((xr b d : ℝ) : EReal) := by
    funext b d; exact hxr b d
  have k1 : Cert.KernelIdeal.KV.wOf m c = fun d i => ((wr d i : ℝ) : EReal) := by
    funext d i; exact hwr d i
  have k2 : Cert.KernelIdeal.KV.wsOf m c = fun d i => ((wsr d i : ℝ) : EReal) := by
    funext d i; exact hwsr d i
  show Cert.ReferenceIdeal.RValue.outArr m' c (ix2 b i)
    = (Cert.KernelIdeal.Gen.dats m 0 c).arrAt 2 Cert.KernelIdeal.cfg0.N (ix2 b i)
  rw [Cert.ReferenceIdeal.RValue.outArr_apply, Cert.KernelIdeal.KValue.arrAt_apply, e0, e1, e2, k0, k1, k2]
  exact (Cert.PLS.GK_eq_GR xr wr wsr b i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
